-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  IdealRules.truncf_extf.Statement Cert.KernelIdeal.S2000x2 .f32 .bf16
  ∧ IdealRules.truncf_extf.Statement Cert.KernelIdeal.S2000x2 .f32 .bf16
  ∧ IdealRules.truncf_extf.Statement Cert.KernelIdeal.S2000x32 .f32 .bf16
  ∧ IdealRules.truncf_extf.Statement Cert.KernelIdeal.S2000x32 .f32 .bf16
  ∧ IdealRules.truncf_extf.Statement Cert.KernelIdeal.S2000x64 .f32 .bf16
  ∧ IdealRules.truncf_extf.Statement Cert.KernelIdeal.S2000x64 .f32 .bf16
  ∧ IdealRules.truncf_extf.Statement Cert.KernelIdeal.S2000x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S100000 : Shape := ⟨1, ![100000]⟩
abbrev S2x32 : Shape := ⟨2, ![2, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S64x1 .f32) (main_arg21 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg20
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg16 : FVec F S128 .f32) (main_arg17 : FVec F S128 .f32) (main_arg18 : FVec F S128x64 .f32) (main_arg19 : FVec F S64 .f32) (main_arg20 : FVec F S64x1 .f32) (main_arg21 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg18
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64x128 .f32) (main_arg14 : FVec F S128 .f32) (main_arg15 : FVec F S64x128 .f32) (main_arg16 : FVec F S128 .f32) (main_arg17 : FVec F S128 .f32) (main_arg18 : FVec F S128x64 .f32) (main_arg19 : FVec F S64 .f32) (main_arg20 : FVec F S64x1 .f32) (main_arg21 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S64x128 .f32 := Host.absf main_arg15
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S32x64 .f32) (main_arg11 : FVec F S64 .f32) (main_arg12 : FVec F S64 .f32) (main_arg13 : FVec F S64x128 .f32) (main_arg14 : FVec F S128 .f32) (main_arg15 : FVec F S64x128 .f32) (main_arg16 : FVec F S128 .f32) (main_arg17 : FVec F S128 .f32) (main_arg18 : FVec F S128x64 .f32) (main_arg19 : FVec F S64 .f32) (main_arg20 : FVec F S64x1 .f32) (main_arg21 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S32 .f32) (main_arg7 : FVec F S32 .f32) (main_arg8 : FVec F S32x64 .f32) (main_arg9 : FVec F S64 .f32) (main_arg10 : FVec F S32x64 .f32) (main_arg11 : FVec F S64 .f32) (main_arg12 : FVec F S64 .f32) (main_arg13 : FVec F S64x128 .f32) (main_arg14 : FVec F S128 .f32) (main_arg15 : FVec F S64x128 .f32) (main_arg16 : FVec F S128 .f32) (main_arg17 : FVec F S128 .f32) (main_arg18 : FVec F S128x64 .f32) (main_arg19 : FVec F S64 .f32) (main_arg20 : FVec F S64x1 .f32) (main_arg21 : FVec F S1 .f32) (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x2 .f32) (main_arg1 : IVec S2x1600000 32) (main_arg2 : IVec S100000 32) (main_arg3 : FVec F S2x32 .f32) (main_arg4 : FVec F S32 .f32) (main_arg5 : FVec F S2x32 .f32) (main_arg6 : FVec F S32 .f32) (main_arg7 : FVec F S32 .f32) (main_arg8 : FVec F S32x64 .f32) (main_arg9 : FVec F S64 .f32) (main_arg10 : FVec F S32x64 .f32) (main_arg11 : FVec F S64 .f32) (main_arg12 : FVec F S64 .f32) (main_arg13 : FVec F S64x128 .f32) (main_arg14 : FVec F S128 .f32) (main_arg15 : FVec F S64x128 .f32) (main_arg16 : FVec F S128 .f32) (main_arg17 : FVec F S128 .f32) (main_arg18 : FVec F S128x64 .f32) (main_arg19 : FVec F S64 .f32) (main_arg20 : FVec F S64x1 .f32) (main_arg21 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x32 .f32 := Host.absf main_arg3
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S2x32 .f32 := Host.absf main_arg5
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x2 : Shape := ⟨2, ![100000, 2]⟩
abbrev S2x1600000 : Shape := ⟨2, ![2, 1600000]⟩
abbrev S100000 : Shape := ⟨1, ![100000]⟩
abbrev S2x32 : Shape := ⟨2, ![2, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x2 : Shape := ⟨2, ![1600000, 2]⟩
abbrev S1x2 : Shape := ⟨2, ![1, 2]⟩
abbrev S2x2 : Shape := ⟨2, ![2, 2]⟩
abbrev S2000x2 : Shape := ⟨2, ![2000, 2]⟩
abbrev S2000x1 : Shape := ⟨2, ![2000, 1]⟩
abbrev S2 : Shape := ⟨1, ![2]⟩
abbrev S1x4 : Shape := ⟨2, ![1, 4]⟩
abbrev S4x32 : Shape := ⟨2, ![4, 32]⟩
abbrev S1x32 : Shape := ⟨2, ![1, 32]⟩
abbrev S2x4 : Shape := ⟨2, ![2, 4]⟩
abbrev S4x4 : Shape := ⟨2, ![4, 4]⟩
abbrev S100000x32 : Shape := ⟨2, ![100000, 32]⟩
abbrev S2000x32 : Shape := ⟨2, ![2000, 32]⟩
abbrev S1600000x32 : Shape := ⟨2, ![1600000, 32]⟩
abbrev S32x32 : Shape := ⟨2, ![32, 32]⟩
abbrev S1x64 : Shape := ⟨2, ![1, 64]⟩
abbrev S64x64 : Shape := ⟨2, ![64, 64]⟩
abbrev S100000x64 : Shape := ⟨2, ![100000, 64]⟩
abbrev S2000x64 : Shape := ⟨2, ![2000, 64]⟩
abbrev S1600000x64 : Shape := ⟨2, ![1600000, 64]⟩
abbrev S1x128 : Shape := ⟨2, ![1, 128]⟩
abbrev S128x128 : Shape := ⟨2, ![128, 128]⟩
abbrev S100000x128 : Shape := ⟨2, ![100000, 128]⟩
abbrev S2000x128 : Shape := ⟨2, ![2000, 128]⟩
abbrev S1x1 : Shape := ⟨2, ![1, 1]⟩

abbrev nBuf : Space → Nat
  | .hbm => 225
  | .vmem => 90
  | .smem => 0
  | _ => 0

abbrev hbmTy0_0 (i : Nat) : BufTy := match i % 128 with
  | 0 => ⟨S100000x2, .f32⟩
  | 1 => ⟨S2x1600000, .i32⟩
  | 2 => ⟨S100000, .i32⟩
  | 3 => ⟨S2x32, .f32⟩
  | 4 => ⟨S32, .f32⟩
  | 5 => ⟨S2x32, .f32⟩
  | 6 => ⟨S32, .f32⟩
  | 7 => ⟨S32, .f32⟩
  | 8 => ⟨S32x64, .f32⟩
  | 9 => ⟨S64, .f32⟩
  | 10 => ⟨S32x64, .f32⟩
  | 11 => ⟨S64, .f32⟩
  | 12 => ⟨S64, .f32⟩
  | 13 => ⟨S64x128, .f32⟩
  | 14 => ⟨S128, .f32⟩
  | 15 => ⟨S64x128, .f32⟩
  | 16 => ⟨S128, .f32⟩
  | 17 => ⟨S128, .f32⟩
  | 18 => ⟨S128x64, .f32⟩
  | 19 => ⟨S64, .f32⟩
  | 20 => ⟨S64x1, .f32⟩
  | 21 => ⟨S1, .f32⟩
  | 22 => ⟨S1x1600000, .i32⟩
  | 23 => ⟨S1600000, .i32⟩
  | 24 => ⟨S1x1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x2, .f32⟩
  | 48 => ⟨S_, .f32⟩
  | 49 => ⟨S100000x2, .f32⟩
  | 50 => ⟨S1600000x1, .i32⟩
  | 51 => ⟨S100000x2, .f32⟩
  | 52 => ⟨S1x2, .f32⟩
  | 53 => ⟨S1x2, .f32⟩
  | 54 => ⟨S2x2, .f32⟩
  | 55 => ⟨S2x2, .f32⟩
  | 56 => ⟨S2x2, .f32⟩
  | 57 => ⟨S_, .f32⟩
  | 58 => ⟨S1x2, .f32⟩
  | 59 => ⟨S1x2, .f32⟩
  | 60 => ⟨S_, .f32⟩
  | 61 => ⟨S1x2, .f32⟩
  | 62 => ⟨S1x2, .f32⟩
  | 63 => ⟨S1x4, .f32⟩
  | 64 => ⟨S4x32, .f32⟩
  | 65 => ⟨S4x32, .bf16⟩
  | 66 => ⟨S4x32, .f32⟩
  | 67 => ⟨S1x32, .f32⟩
  | 68 => ⟨S1x32, .f32⟩
  | 69 => ⟨S1x32, .f32⟩
  | 70 => ⟨S2x4, .f32⟩
  | 71 => ⟨S2x2, .f32⟩
  | 72 => ⟨S2x4, .f32⟩
  | 73 => ⟨S4x4, .f32⟩
  | 74 => ⟨S4x32, .f32⟩
  | 75 => ⟨S4x32, .f32⟩
  | 76 => ⟨S_, .f32⟩
  | 77 => ⟨S32, .f32⟩
  | 78 => ⟨S1x32, .f32⟩
  | 79 => ⟨S_, .f32⟩
  | 80 => ⟨S1x32, .f32⟩
  | 81 => ⟨S1x32, .f32⟩
  | 82 => ⟨S1x32, .f32⟩
  | 83 => ⟨S1x32, .f32⟩
  | 84 => ⟨S1x32, .f32⟩
  | 85 => ⟨S_, .f32⟩
  | 86 => ⟨S1x32, .f32⟩
  | 87 => ⟨S1x32, .f32⟩
  | 88 => ⟨S_, .f32⟩
  | 89 => ⟨S1x32, .f32⟩
  | 90 => ⟨S1x32, .f32⟩
  | 91 => ⟨S1x32, .f32⟩
  | 92 => ⟨S1x32, .f32⟩
  | 93 => ⟨S1x32, .f32⟩
  | 94 => ⟨S1x32, .f32⟩
  | 95 => ⟨S100000x32, .bf16⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x32, .bf16⟩
  | 105 => ⟨S1600000x32, .f32⟩
  | 106 => ⟨S_, .f32⟩
  | 107 => ⟨S100000x32, .f32⟩
  | 108 => ⟨S1600000x1, .i32⟩
  | 109 => ⟨S100000x32, .f32⟩
  | 110 => ⟨S1x32, .f32⟩
  | 111 => ⟨S1x32, .f32⟩
  | 112 => ⟨S32x32, .f32⟩
  | 113 => ⟨S32x32, .f32⟩
  | 114 => ⟨S32x32, .f32⟩
  | 115 => ⟨S_, .f32⟩
  | 116 => ⟨S1x32, .f32⟩
  | 117 => ⟨S1x32, .f32⟩
  | 118 => ⟨S_, .f32⟩
  | 119 => ⟨S1x32, .f32⟩
  | 120 => ⟨S1x32, .f32⟩
  | 121 => ⟨S1x64, .f32⟩
  | 122 => ⟨S64x64, .f32⟩
  | 123 => ⟨S64x64, .bf16⟩
  | 124 => ⟨S64x64, .f32⟩
  | 125 => ⟨S1x64, .f32⟩
  | 126 => ⟨S1x64, .f32⟩
  | 127 => ⟨S1x64, .f32⟩
  | _ => ⟨S100000x2, .f32⟩

abbrev hbmTy0_1 (i : Nat) : BufTy := match i % 128 with
  | 0 => ⟨S32x64, .f32⟩
  | 1 => ⟨S32x32, .f32⟩
  | 2 => ⟨S32x64, .f32⟩
  | 3 => ⟨S64x64, .f32⟩
  | 4 => ⟨S64x64, .f32⟩
  | 5 => ⟨S64x64, .f32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S1x64, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S1x64, .f32⟩
  | 23 => ⟨S1x64, .f32⟩
  | 24 => ⟨S1x64, .f32⟩
  | 25 => ⟨S100000x64, .bf16⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .bf16⟩
  | 35 => ⟨S1600000x64, .f32⟩
  | 36 => ⟨S_, .f32⟩
  | 37 => ⟨S100000x64, .f32⟩
  | 38 => ⟨S1600000x1, .i32⟩
  | 39 => ⟨S100000x64, .f32⟩
  | 40 => ⟨S1x64, .f32⟩
  | 41 => ⟨S1x64, .f32⟩
  | 42 => ⟨S64x64, .f32⟩
  | 43 => ⟨S64x64, .f32⟩
  | 44 => ⟨S64x64, .f32⟩
  | 45 => ⟨S_, .f32⟩
  | 46 => ⟨S1x64, .f32⟩
  | 47 => ⟨S1x64, .f32⟩
  | 48 => ⟨S_, .f32⟩
  | 49 => ⟨S1x64, .f32⟩
  | 50 => ⟨S1x64, .f32⟩
  | 51 => ⟨S1x128, .f32⟩
  | 52 => ⟨S128x128, .f32⟩
  | 53 => ⟨S128x128, .bf16⟩
  | 54 => ⟨S128x128, .f32⟩
  | 55 => ⟨S1x128, .f32⟩
  | 56 => ⟨S1x128, .f32⟩
  | 57 => ⟨S1x128, .f32⟩
  | 58 => ⟨S64x128, .f32⟩
  | 59 => ⟨S64x64, .f32⟩
  | 60 => ⟨S64x128, .f32⟩
  | 61 => ⟨S128x128, .f32⟩
  | 62 => ⟨S128x128, .f32⟩
  | 63 => ⟨S128x128, .f32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S_, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S100000x128, .bf16⟩
  | 84 => ⟨S100000x1, .i32⟩
  | 85 => ⟨S64x128, .f32⟩
  | 86 => ⟨S1x64, .f32⟩
  | 87 => ⟨S64, .f32⟩
  | 88 => ⟨S_, .f32⟩
  | 89 => ⟨S64, .f32⟩
  | 90 => ⟨S64, .f32⟩
  | 91 => ⟨S64x1, .f32⟩
  | 92 => ⟨S64x128, .f32⟩
  | 93 => ⟨S64x128, .f32⟩
  | 94 => ⟨S1x64, .f32⟩
  | 95 => ⟨S1x1, .f32⟩
  | 96 => ⟨S64x1, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S2000x2, .f32⟩
  | .local _ .vmem, ⟨1, _⟩ => ⟨S2000x2, .f32⟩
  | .local _ .vmem, ⟨2, _⟩ => ⟨S2000x2, .f32⟩
  | .local _ .vmem, ⟨3, _⟩ => ⟨S2000x2, .f32⟩
  | .local _ .vmem, ⟨4, _⟩ => ⟨S2000x1, .f32⟩
  | .local _ .vmem, ⟨5, _⟩ => ⟨S2000x1, .f32⟩
  | .local _ .vmem, ⟨6, _⟩ => ⟨S1x2, .f32⟩
  | .local _ .vmem, ⟨7, _⟩ => ⟨S1x2, .f32⟩
  | .local _ .vmem, ⟨8, _⟩ => ⟨S2x2, .f32⟩
  | .local _ .vmem, ⟨9, _⟩ => ⟨S2x2, .f32⟩
  | .local _ .vmem, ⟨10, _⟩ => ⟨S2x2, .f32⟩
  | .local _ .vmem, ⟨11, _⟩ => ⟨S2000x2, .f32⟩
  | .local _ .vmem, ⟨12, _⟩ => ⟨S2000x2, .f32⟩
  | .local _ .vmem, ⟨13, _⟩ => ⟨S2000x2, .f32⟩
  | .local _ .vmem, ⟨14, _⟩ => ⟨S2000x2, .f32⟩
  | .local _ .vmem, ⟨15, _⟩ => ⟨S2000x1, .f32⟩
  | .local _ .vmem, ⟨16, _⟩ => ⟨S2000x1, .f32⟩
  | .local _ .vmem, ⟨17, _⟩ => ⟨S2x32, .f32⟩
  | .local _ .vmem, ⟨18, _⟩ => ⟨S2x32, .f32⟩
  | .local _ .vmem, ⟨19, _⟩ => ⟨S1x32, .f32⟩
  | .local _ .vmem, ⟨20, _⟩ => ⟨S1x32, .f32⟩
  | .local _ .vmem, ⟨21, _⟩ => ⟨S1x32, .f32⟩
  | .local _ .vmem, ⟨22, _⟩ => ⟨S1x32, .f32⟩
  | .local _ .vmem, ⟨23, _⟩ => ⟨S1x32, .f32⟩
  | .local _ .vmem, ⟨24, _⟩ => ⟨S2000x32, .bf16⟩
  | .local _ .vmem, ⟨25, _⟩ => ⟨S2000x32, .bf16⟩
  | .local _ .vmem, ⟨26, _⟩ => ⟨S2000x32, .f32⟩
  | .local _ .vmem, ⟨27, _⟩ => ⟨S2000x32, .f32⟩
  | .local _ .vmem, ⟨28, _⟩ => ⟨S2000x32, .bf16⟩
  | .local _ .vmem, ⟨29, _⟩ => ⟨S2000x32, .bf16⟩
  | .local _ .vmem, ⟨30, _⟩ => ⟨S2000x1, .f32⟩
  | .local _ .vmem, ⟨31, _⟩ => ⟨S2000x1, .f32⟩
  | .local _ .vmem, ⟨32, _⟩ => ⟨S1x32, .f32⟩
  | .local _ .vmem, ⟨33, _⟩ => ⟨S1x32, .f32⟩
  | .local _ .vmem, ⟨34, _⟩ => ⟨S32x32, .f32⟩
  | .local _ .vmem, ⟨35, _⟩ => ⟨S32x32, .f32⟩
  | .local _ .vmem, ⟨36, _⟩ => ⟨S32x32, .f32⟩
  | .local _ .vmem, ⟨37, _⟩ => ⟨S2000x32, .f32⟩
  | .local _ .vmem, ⟨38, _⟩ => ⟨S2000x32, .f32⟩
  | .local _ .vmem, ⟨39, _⟩ => ⟨S2000x32, .bf16⟩
  | .local _ .vmem, ⟨40, _⟩ => ⟨S2000x32, .bf16⟩
  | .local _ .vmem, ⟨41, _⟩ => ⟨S2000x1, .f32⟩
  | .local _ .vmem, ⟨42, _⟩ => ⟨S2000x1, .f32⟩
  | .local _ .vmem, ⟨43, _⟩ => ⟨S32x64, .f32⟩
  | .local _ .vmem, ⟨44, _⟩ => ⟨S32x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S2000x64, .bf16⟩
  | .local _ .vmem, ⟨51, _⟩ => ⟨S2000x64, .bf16⟩
  | .local _ .vmem, ⟨52, _⟩ => ⟨S2000x64, .f32⟩
  | .local _ .vmem, ⟨53, _⟩ => ⟨S2000x64, .f32⟩
  | .local _ .vmem, ⟨54, _⟩ => ⟨S2000x64, .bf16⟩
  | .local _ .vmem, ⟨55, _⟩ => ⟨S2000x64, .bf16⟩
  | .local _ .vmem, ⟨56, _⟩ => ⟨S2000x1, .f32⟩
  | .local _ .vmem, ⟨57, _⟩ => ⟨S2000x1, .f32⟩
  | .local _ .vmem, ⟨58, _⟩ => ⟨S1x64, .f32⟩
  | .local _ .vmem, ⟨59, _⟩ => ⟨S1x64, .f32⟩
  | .local _ .vmem, ⟨60, _⟩ => ⟨S64x64, .f32⟩
  | .local _ .vmem, ⟨61, _⟩ => ⟨S64x64, .f32⟩
  | .local _ .vmem, ⟨62, _⟩ => ⟨S64x64, .f32⟩
  | .local _ .vmem, ⟨63, _⟩ => ⟨S2000x64, .f32⟩
  | .local _ .vmem, ⟨64, _⟩ => ⟨S2000x64, .f32⟩
  | .local _ .vmem, ⟨65, _⟩ => ⟨S2000x64, .bf16⟩
  | .local _ .vmem, ⟨66, _⟩ => ⟨S2000x64, .bf16⟩
  | .local _ .vmem, ⟨67, _⟩ => ⟨S2000x1, .f32⟩
  | .local _ .vmem, ⟨68, _⟩ => ⟨S2000x1, .f32⟩
  | .local _ .vmem, ⟨69, _⟩ => ⟨S64x128, .f32⟩
  | .local _ .vmem, ⟨70, _⟩ => ⟨S64x128, .f32⟩
  | .local _ .vmem, ⟨71, _⟩ => ⟨S1x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S2000x128, .bf16⟩
  | .local _ .vmem, ⟨77, _⟩ => ⟨S2000x128, .bf16⟩
  | .local _ .vmem, ⟨78, _⟩ => ⟨S2000x128, .bf16⟩
  | .local _ .vmem, ⟨79, _⟩ => ⟨S2000x128, .bf16⟩
  | .local _ .vmem, ⟨80, _⟩ => ⟨S2000x1, .i32⟩
  | .local _ .vmem, ⟨81, _⟩ => ⟨S2000x1, .i32⟩
  | .local _ .vmem, ⟨82, _⟩ => ⟨S64x128, .f32⟩
  | .local _ .vmem, ⟨83, _⟩ => ⟨S1x64, .f32⟩
  | .local _ .vmem, ⟨84, _⟩ => ⟨S64x128, .f32⟩
  | .local _ .vmem, ⟨85, _⟩ => ⟨S128x64, .f32⟩
  | .local _ .vmem, ⟨86, _⟩ => ⟨S1x64, .f32⟩
  | .local _ .vmem, ⟨87, _⟩ => ⟨S64x1, .f32⟩
  | .local _ .vmem, ⟨88, _⟩ => ⟨S1x1, .f32⟩
  | .local _ .vmem, ⟨89, _⟩ => ⟨S64x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23_0 : Ref sig .tc := ⟨.hbm, 52, rfl⟩
abbrev main_v23_1 : Ref sig .tc := ⟨.hbm, 53, rfl⟩
abbrev main_v23_2 : Ref sig .tc := ⟨.hbm, 54, rfl⟩
abbrev main_v23_3 : Ref sig .tc := ⟨.hbm, 55, rfl⟩
abbrev main_v23_4 : Ref sig .tc := ⟨.hbm, 56, rfl⟩
abbrev main_cst_5 : Ref sig .tc := ⟨.hbm, 57, rfl⟩
abbrev main_v24 : Ref sig .tc := ⟨.hbm, 58, rfl⟩
abbrev main_v25 : Ref sig .tc := ⟨.hbm, 59, rfl⟩
abbrev main_cst_6 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_v42 : Ref sig .tc := ⟨.hbm, 78, rfl⟩
abbrev main_cst_8 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_9 : Ref sig .tc := ⟨.hbm, 85, rfl⟩
abbrev main_v48 : Ref sig .tc := ⟨.hbm, 86, rfl⟩
abbrev main_v49 : Ref sig .tc := ⟨.hbm, 87, rfl⟩
abbrev main_cst_10 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_11 : Ref sig .tc := ⟨.hbm, 96, rfl⟩
abbrev main_v57 : Ref sig .tc := ⟨.hbm, 97, rfl⟩
abbrev main_v58 : Ref sig .tc := ⟨.hbm, 98, rfl⟩
abbrev main_c_12 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_13 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68_0 : Ref sig .tc := ⟨.hbm, 110, rfl⟩
abbrev main_v68_1 : Ref sig .tc := ⟨.hbm, 111, rfl⟩
abbrev main_v68_2 : Ref sig .tc := ⟨.hbm, 112, rfl⟩
abbrev main_v68_3 : Ref sig .tc := ⟨.hbm, 113, rfl⟩
abbrev main_v68_4 : Ref sig .tc := ⟨.hbm, 114, rfl⟩
abbrev main_cst_14 : Ref sig .tc := ⟨.hbm, 115, rfl⟩
abbrev main_v69 : Ref sig .tc := ⟨.hbm, 116, rfl⟩
abbrev main_v70 : Ref sig .tc := ⟨.hbm, 117, rfl⟩
abbrev main_cst_15 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_16 : Ref sig .tc := ⟨.hbm, 134, rfl⟩
abbrev main_v86 : Ref sig .tc := ⟨.hbm, 135, rfl⟩
abbrev main_v87 : Ref sig .tc := ⟨.hbm, 136, rfl⟩
abbrev main_cst_17 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_18 : Ref sig .tc := ⟨.hbm, 143, rfl⟩
abbrev main_v93 : Ref sig .tc := ⟨.hbm, 144, rfl⟩
abbrev main_v94 : Ref sig .tc := ⟨.hbm, 145, rfl⟩
abbrev main_cst_19 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_20 : Ref sig .tc := ⟨.hbm, 154, rfl⟩
abbrev main_v102 : Ref sig .tc := ⟨.hbm, 155, rfl⟩
abbrev main_v103 : Ref sig .tc := ⟨.hbm, 156, rfl⟩
abbrev main_c_21 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_22 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113_0 : Ref sig .tc := ⟨.hbm, 168, rfl⟩
abbrev main_v113_1 : Ref sig .tc := ⟨.hbm, 169, rfl⟩
abbrev main_v113_2 : Ref sig .tc := ⟨.hbm, 170, rfl⟩
abbrev main_v113_3 : Ref sig .tc := ⟨.hbm, 171, rfl⟩
abbrev main_v113_4 : Ref sig .tc := ⟨.hbm, 172, rfl⟩
abbrev main_cst_23 : Ref sig .tc := ⟨.hbm, 173, rfl⟩
abbrev main_v114 : Ref sig .tc := ⟨.hbm, 174, rfl⟩
abbrev main_v115 : Ref sig .tc := ⟨.hbm, 175, rfl⟩
abbrev main_cst_24 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_cst_25 : Ref sig .tc := ⟨.hbm, 192, rfl⟩
abbrev main_v131 : Ref sig .tc := ⟨.hbm, 193, rfl⟩
abbrev main_v132 : Ref sig .tc := ⟨.hbm, 194, rfl⟩
abbrev main_cst_26 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_27 : Ref sig .tc := ⟨.hbm, 201, rfl⟩
abbrev main_v138 : Ref sig .tc := ⟨.hbm, 202, rfl⟩
abbrev main_v139 : Ref sig .tc := ⟨.hbm, 203, rfl⟩
abbrev main_cst_28 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148_0 : Ref sig .tc := ⟨.hbm, 213, rfl⟩
abbrev main_v148_1 : Ref sig .tc := ⟨.hbm, 214, rfl⟩
abbrev main_v149 : Ref sig .tc := ⟨.hbm, 215, rfl⟩
abbrev main_cst_29 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc3_stg8_0 : Ref sig .tc := ⟨.vmem, 48, rfl⟩
abbrev cc3_stg9_0 : Ref sig .tc := ⟨.vmem, 49, rfl⟩
abbrev cc3_stg10_0 : Ref sig .tc := ⟨.vmem, 50, rfl⟩
abbrev cc3_stg10_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg2_1 : Ref sig .tc := ⟨.vmem, 57, rfl⟩
abbrev cc4_stg3_0 : Ref sig .tc := ⟨.vmem, 58, rfl⟩
abbrev cc4_stg4_0 : Ref sig .tc := ⟨.vmem, 59, rfl⟩
abbrev cc4_stg5_0 : Ref sig .tc := ⟨.vmem, 60, rfl⟩
abbrev cc4_stg6_0 : Ref sig .tc := ⟨.vmem, 61, rfl⟩
abbrev cc4_stg7_0 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg1_1 : Ref sig .tc := ⟨.vmem, 66, rfl⟩
abbrev cc5_stg2_0 : Ref sig .tc := ⟨.vmem, 67, rfl⟩
abbrev cc5_stg2_1 : Ref sig .tc := ⟨.vmem, 68, rfl⟩
abbrev cc5_stg3_0 : Ref sig .tc := ⟨.vmem, 69, rfl⟩
abbrev cc5_stg4_0 : Ref sig .tc := ⟨.vmem, 70, rfl⟩
abbrev cc5_stg5_0 : Ref sig .tc := ⟨.vmem, 71, rfl⟩
abbrev cc5_stg6_0 : Ref sig .tc := ⟨.vmem, 72, rfl⟩
abbrev cc5_stg7_0 : Ref sig .tc := ⟨.vmem, 73, rfl⟩
abbrev cc5_stg8_0 : Ref sig .tc := ⟨.vmem, 74, rfl⟩
abbrev cc5_stg9_0 : Ref sig .tc := ⟨.vmem, 75, rfl⟩
abbrev cc5_stg10_0 : Ref sig .tc := ⟨.vmem, 76, rfl⟩
abbrev cc5_stg10_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg3_0 : Ref sig .tc := ⟨.vmem, 83, rfl⟩
abbrev cc7_stg0_0 : Ref sig .tc := ⟨.vmem, 84, rfl⟩
abbrev cc7_stg1_0 : Ref sig .tc := ⟨.vmem, 85, rfl⟩
abbrev cc7_stg2_0 : Ref sig .tc := ⟨.vmem, 86, rfl⟩
abbrev cc7_stg3_0 : Ref sig .tc := ⟨.vmem, 87, rfl⟩
abbrev cc7_stg4_0 : Ref sig .tc := ⟨.vmem, 88, rfl⟩
abbrev cc7_stg5_0 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem8_0 : DmaSem sig := 48
abbrev cc3_sem9_0 : DmaSem sig := 49
abbrev cc3_sem10_0 : DmaSem sig := 50
abbrev cc3_sem10_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem2_1 : DmaSem sig := 57
abbrev cc4_sem3_0 : DmaSem sig := 58
abbrev cc4_sem4_0 : DmaSem sig := 59
abbrev cc4_sem5_0 : DmaSem sig := 60
abbrev cc4_sem6_0 : DmaSem sig := 61
abbrev cc4_sem7_0 : DmaSem sig := 62
abbrev cc5_sem0_0 : DmaSem sig := 63
abbrev cc5_sem0_1 : DmaSem sig := 64
abbrev cc5_sem1_0 : DmaSem sig := 65
abbrev cc5_sem1_1 : DmaSem sig := 66
abbrev cc5_sem2_0 : DmaSem sig := 67
abbrev cc5_sem2_1 : DmaSem sig := 68
abbrev cc5_sem3_0 : DmaSem sig := 69
abbrev cc5_sem4_0 : DmaSem sig := 70
abbrev cc5_sem5_0 : DmaSem sig := 71
abbrev cc5_sem6_0 : DmaSem sig := 72
abbrev cc5_sem7_0 : DmaSem sig := 73
abbrev cc5_sem8_0 : DmaSem sig := 74
abbrev cc5_sem9_0 : DmaSem sig := 75
abbrev cc5_sem10_0 : DmaSem sig := 76
abbrev cc5_sem10_1 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem3_0 : DmaSem sig := 83
abbrev cc7_sem0_0 : DmaSem sig := 84
abbrev cc7_sem1_0 : DmaSem sig := 85
abbrev cc7_sem2_0 : DmaSem sig := 86
abbrev cc7_sem3_0 : DmaSem sig := 87
abbrev cc7_sem4_0 : DmaSem sig := 88
abbrev cc7_sem5_0 : DmaSem sig := 89

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x32 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S32x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x64 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S2000x128 .bf16 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x2 : S_.BroadcastsInDim S100000x2 (![] : Fin 0 → Fin S100000x2.rank)
  inb_S1x2_S1x2_0_0 : ∀ a, (![0, 0] : Fin 2 → Nat) a + S1x2.size a ≤ S1x2.size a
  h_S1x2 : 0 < S1x2.numel
  inb_S2x2_S2x2_0_0 : ∀ a, (![0, 0] : Fin 2 → Nat) a + S2x2.size a ≤ S2x2.size a
  h_S2x2 : 0 < S2x2.numel
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x2 : S2000x1.Broadcasts S2000x2
  bitsLt_bf16_f32 : FTy.bits .bf16 < FTy.bits .f32
  shapeCasts_S1x2_S1x2 : S1x2.ShapeCasts S1x2
  reduces_S2000x2_S2 : S2000x2.Reduces [0] S2
  shapeCasts_S2_S1x2 : S2.ShapeCasts S1x2
  shapeCasts_S2x2_S2x2 : S2x2.ShapeCasts S2x2
  bcast_S_S1x2 : S_.BroadcastsInDim S1x2 (![] : Fin 0 → Fin S1x2.rank)
  concatenates_S1x2_S1x2_S1x4_d1 : Shape.Concatenates [S1x2, S1x2] S1x4 1
  concatenates_S2x32_S2x32_S4x32_d0 : Shape.Concatenates [S2x32, S2x32] S4x32 0
  shapeCasts_S32_S1x32 : S32.ShapeCasts S1x32
  concatenates_S2x2_S2x2_S2x4_d1 : Shape.Concatenates [S2x2, S2x2] S2x4 1
  transposes_S2x2_S2x2_1_0 : S2x2.Transposes [1, 0] S2x2
  concatenates_S2x4_S2x4_S4x4_d0 : Shape.Concatenates [S2x4, S2x4] S4x4 0
  reducesTo_S4x32_S32_d0 : S4x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  inb_S2x32_S2x32_0_0 : ∀ a, (![0, 0] : Fin 2 → Nat) a + S2x32.size a ≤ S2x32.size a
  h_S2x32 : 0 < S2x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  packedbf16_S2000x32_S2000x32_0_0 : (Rect.unit (s := S2000x32) ![0, 0] S2000x32.size inb_S2000x32_S2000x32_0_0).PackedRows (EltTy.packing .bf16)
  bcast_S_S100000x32 : S_.BroadcastsInDim S100000x32 (![] : Fin 0 → Fin S100000x32.rank)
  inb_S32x32_S32x32_0_0 : ∀ a, (![0, 0] : Fin 2 → Nat) a + S32x32.size a ≤ S32x32.size a
  h_S32x32 : 0 < S32x32.numel
  shapeCasts_S2000x32_S2000x32 : S2000x32.ShapeCasts S2000x32
  broadcasts_S2000x1_S2000x32 : S2000x1.Broadcasts S2000x32
  reduces_S2000x32_S32 : S2000x32.Reduces [0] S32
  shapeCasts_S32x32_S32x32 : S32x32.ShapeCasts S32x32
  concatenates_S1x32_S1x32_S1x64_d1 : Shape.Concatenates [S1x32, S1x32] S1x64 1
  concatenates_S32x64_S32x64_S64x64_d0 : Shape.Concatenates [S32x64, S32x64] S64x64 0
  shapeCasts_S64_S1x64 : S64.ShapeCasts S1x64
  concatenates_S32x32_S32x32_S32x64_d1 : Shape.Concatenates [S32x32, S32x32] S32x64 1
  transposes_S32x32_S32x32_1_0 : S32x32.Transposes [1, 0] S32x32
  reducesTo_S64x64_S64_d0 : S64x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S100000x64 : S_.BroadcastsInDim S100000x64 (![] : Fin 0 → Fin S100000x64.rank)
  inb_S64x64_S64x64_0_0 : ∀ a, (![0, 0] : Fin 2 → Nat) a + S64x64.size a ≤ S64x64.size a
  h_S64x64 : 0 < S64x64.numel
  shapeCasts_S2000x64_S2000x64 : S2000x64.ShapeCasts S2000x64
  broadcasts_S2000x1_S2000x64 : S2000x1.Broadcasts S2000x64
  reduces_S2000x64_S64 : S2000x64.Reduces [0] S64
  shapeCasts_S64x64_S64x64 : S64x64.ShapeCasts S64x64
  concatenates_S1x64_S1x64_S1x128_d1 : Shape.Concatenates [S1x64, S1x64] S1x128 1
  concatenates_S64x128_S64x128_S128x128_d0 : Shape.Concatenates [S64x128, S64x128] S128x128 0
  shapeCasts_S128_S1x128 : S128.ShapeCasts S1x128
  concatenates_S64x64_S64x64_S64x128_d1 : Shape.Concatenates [S64x64, S64x64] S64x128 1
  transposes_S64x64_S64x64_1_0 : S64x64.Transposes [1, 0] S64x64
  reducesTo_S128x128_S128_d0 : S128x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  iota_S2000x64_d1_w32 : S2000x64.Iotas .tc 32 [1]
  natLt_1_32 : 1 < 32
  shapeCasts_S2000x128_S2000x128 : S2000x128.ShapeCasts S2000x128
  shapeCasts_S64x128_S64x128 : S64x128.ShapeCasts S64x128
  shapeCasts_S1x64_S64 : S1x64.ShapeCasts S64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S1_S1x1 : S1.ShapeCasts S1x1
  inb_S128x64_S128x64_0_0 : ∀ a, (![0, 0] : Fin 2 → Nat) a + S128x64.size a ≤ S128x64.size a
  h_S128x64 : 0 < S128x64.numel
  broadcasts_S1x64_S64x64 : S1x64.Broadcasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S1600000x1_S1600000_n_0_0_1_wf : ScatterDims.WF S100000 S1600000x1 S1600000 [] [0] [0] 1
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S2000x2_S2000x2_S2x2_0_0_1_1_n_n_wf : DotDims.WF S2000x2 S2000x2 S2x2 [0] [0] [1] [1] [] []
  dot_S1x4_S4x32_S1x32_1_0_0_1_n_n_wf : DotDims.WF S1x4 S4x32 S1x32 [1] [0] [0] [1] [] []
  dot_S4x4_S4x32_S4x32_1_0_0_1_n_n_wf : DotDims.WF S4x4 S4x32 S4x32 [1] [0] [0] [1] [] []
  dot_S2000x2_S2x32_S2000x32_1_0_0_1_n_n_wf : DotDims.WF S2000x2 S2x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S2000x32_S2000x32_S32x32_0_0_1_1_n_n_wf : DotDims.WF S2000x32 S2000x32 S32x32 [0] [0] [1] [1] [] []
  dot_S1x64_S64x64_S1x64_1_0_0_1_n_n_wf : DotDims.WF S1x64 S64x64 S1x64 [1] [0] [0] [1] [] []
  dot_S64x64_S64x64_S64x64_1_0_0_1_n_n_wf : DotDims.WF S64x64 S64x64 S64x64 [1] [0] [0] [1] [] []
  dot_S2000x32_S32x64_S2000x64_1_0_0_1_n_n_wf : DotDims.WF S2000x32 S32x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S2000x64_S64x64_0_0_1_1_n_n_wf : DotDims.WF S2000x64 S2000x64 S64x64 [0] [0] [1] [1] [] []
  dot_S1x128_S128x128_S1x128_1_0_0_1_n_n_wf : DotDims.WF S1x128 S128x128 S1x128 [1] [0] [0] [1] [] []
  dot_S128x128_S128x128_S128x128_1_0_0_1_n_n_wf : DotDims.WF S128x128 S128x128 S128x128 [1] [0] [0] [1] [] []
  dot_S2000x64_S64x128_S2000x128_1_0_0_1_n_n_wf : DotDims.WF S2000x64 S64x128 S2000x128 [1] [0] [0] [1] [] []
  dot_S2000x64_S2000x128_S64x128_0_0_1_1_n_n_wf : DotDims.WF S2000x64 S2000x128 S64x128 [0] [0] [1] [1] [] []
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S100000x2.size a
  hwx0_0 : ∀ i : grid0.Coords, EltTy.bits .f32 = 32 ∨ (Rect.block (s := S100000x2) S2000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x2.size a ≤ S100000x2.size a
  hwx0_1 : ∀ i : grid0.Coords, EltTy.bits .f32 = 32 ∨ (Rect.block (s := S100000x2) S2000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x2.size a ≤ S2x2.size a
  hwx0_5 : ∀ i : grid0.Coords, EltTy.bits .f32 = 32 ∨ (Rect.block (s := S2x2) S2x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x2.size a ≤ S2x2.size a
  hwx0_6 : ∀ i : grid0.Coords, EltTy.bits .f32 = 32 ∨ (Rect.block (s := S2x2) S2x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x2.size a ≤ S2x2.size a
  hwx0_7 : ∀ i : grid0.Coords, EltTy.bits .f32 = 32 ∨ (Rect.block (s := S2x2) S2x2.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x2.size a ≤ S100000x2.size a
  hwx1_0 : ∀ i : grid1.Coords, EltTy.bits .f32 = 32 ∨ (Rect.block (s := S100000x2) S2000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x2.size a ≤ S100000x2.size a
  hwx1_1 : ∀ i : grid1.Coords, EltTy.bits .f32 = 32 ∨ (Rect.block (s := S100000x2) S2000x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x32.size a ≤ S2x32.size a
  hwx1_3 : ∀ i : grid1.Coords, EltTy.bits .f32 = 32 ∨ (Rect.block (s := S2x32) S2x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x32.size a ≤ S2x32.size a
  hwx1_4 : ∀ i : grid1.Coords, EltTy.bits .f32 = 32 ∨ (Rect.block (s := S2x32) S2x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x32.size a ≤ S100000x32.size a
  hwx1_10 : ∀ i : grid1.Coords, EltTy.bits .bf16 = 32 ∨ (Rect.block (s := S100000x32) S2000x32.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .bf16 = 32 ∨ (Rect.block (s := S100000x32) S2000x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x32.size a ≤ S32x32.size a
  hwx2_7 : ∀ i : grid2.Coords, EltTy.bits .f32 = 32 ∨ (Rect.block (s := S32x32) S32x32.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .bf16 = 32 ∨ (Rect.block (s := S100000x32) S2000x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x64.size a ≤ S32x64.size a
  hwx3_3 : ∀ i : grid3.Coords, EltTy.bits .f32 = 32 ∨ (Rect.block (s := S32x64) S32x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x64.size a ≤ S32x64.size a
  hwx3_4 : ∀ i : grid3.Coords, EltTy.bits .f32 = 32 ∨ (Rect.block (s := S32x64) S32x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x64.size a ≤ S100000x64.size a
  hwx3_10 : ∀ i : grid3.Coords, EltTy.bits .bf16 = 32 ∨ (Rect.block (s := S100000x64) S2000x64.size (cc3_transform_10 i) (hinb3_10 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .bf16 = 32 ∨ (Rect.block (s := S100000x64) S2000x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .bf16 = 32 ∨ (Rect.block (s := S100000x64) S2000x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x128.size a ≤ S64x128.size a
  hwx5_3 : ∀ i : grid5.Coords, EltTy.bits .f32 = 32 ∨ (Rect.block (s := S64x128) S64x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x128.size a ≤ S64x128.size a
  hwx5_4 : ∀ i : grid5.Coords, EltTy.bits .f32 = 32 ∨ (Rect.block (s := S64x128) S64x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S2000x128.size a ≤ S100000x128.size a
  hwx5_10 : ∀ i : grid5.Coords, EltTy.bits .bf16 = 32 ∨ (Rect.block (s := S100000x128) S2000x128.size (cc5_transform_10 i) (hinb5_10 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .bf16 = 32 ∨ (Rect.block (s := S100000x128) S2000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x128.size a ≤ S64x128.size a
  hwx7_0 : ∀ i : grid7.Coords, EltTy.bits .f32 = 32 ∨ (Rect.block (s := S64x128) S64x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x1.size a ≤ S64x1.size a
  hwx7_3 : ∀ i : grid7.Coords, EltTy.bits .f32 = 32 ∨ (Rect.block (s := S64x1) S64x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x1.size a ≤ S64x1.size a
  hwx7_5 : ∀ i : grid7.Coords, EltTy.bits .f32 = 32 ∨ (Rect.block (s := S64x1) S64x1.size (cc7_transform_5 i) (hinb7_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S2000x2_S2000x2_S2x2_0_0_1_1_n_n : DotDims S2000x2 S2000x2 S2x2 where
  lhsContracting := [0]
  rhsContracting := [0]
  lhsNonContracting := [1]
  rhsNonContracting := [1]
  lhsBatch := []
  rhsBatch := []
  wf := dot_S2000x2_S2000x2_S2x2_0_0_1_1_n_n_wf
def dot_S1x4_S4x32_S1x32_1_0_0_1_n_n : DotDims S1x4 S4x32 S1x32 where
  lhsContracting := [1]
  rhsContracting := [0]
  lhsNonContracting := [0]
  rhsNonContracting := [1]
  lhsBatch := []
  rhsBatch := []
  wf := dot_S1x4_S4x32_S1x32_1_0_0_1_n_n_wf
def dot_S4x4_S4x32_S4x32_1_0_0_1_n_n : DotDims S4x4 S4x32 S4x32 where
  lhsContracting := [1]
  rhsContracting := [0]
  lhsNonContracting := [0]
  rhsNonContracting := [1]
  lhsBatch := []
  rhsBatch := []
  wf := dot_S4x4_S4x32_S4x32_1_0_0_1_n_n_wf
def dot_S2000x2_S2x32_S2000x32_1_0_0_1_n_n : DotDims S2000x2 S2x32 S2000x32 where
  lhsContracting := [1]
  rhsContracting := [0]
  lhsNonContracting := [0]
  rhsNonContracting := [1]
  lhsBatch := []
  rhsBatch := []
  wf := dot_S2000x2_S2x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x32_S2000x32_S32x32_0_0_1_1_n_n : DotDims S2000x32 S2000x32 S32x32 where
  lhsContracting := [0]
  rhsContracting := [0]
  lhsNonContracting := [1]
  rhsNonContracting := [1]
  lhsBatch := []
  rhsBatch := []
  wf := dot_S2000x32_S2000x32_S32x32_0_0_1_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S2000x64_S64x64_0_0_1_1_n_n : DotDims S2000x64 S2000x64 S64x64 where
  lhsContracting := [0]
  rhsContracting := [0]
  lhsNonContracting := [1]
  rhsNonContracting := [1]
  lhsBatch := []
  rhsBatch := []
  wf := dot_S2000x64_S2000x64_S64x64_0_0_1_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v22) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23_0) S1x2.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23_1) S1x2.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_2) S2x2.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23_3) S2x2.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_4) S2x2.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S2000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S2x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v54) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v55) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v56) S2000x32.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v67) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68_0) S1x32.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68_1) S1x32.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68_2) S32x32.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68_3) S32x32.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v68_4) S32x32.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v67) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S32x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S32x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v98) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v97) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v99) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v100) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v101) S2000x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v112) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v113_0) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v113_1) S1x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v113_2) S64x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v113_3) S64x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v113_4) S64x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v112) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S64x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg15) S64x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v143) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v124) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v142) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v144) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v145) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v146) S2000x128.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v146) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v147) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v148_0) S64x128.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v148_1) S1x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v154) S64x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg18) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v155) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg20) S64x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v156) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v157) S64x1.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S100000 : Shape := ⟨1, ![100000]⟩
abbrev S2x32 : Shape := ⟨2, ![2, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x2 : Shape := ⟨2, ![1600000, 2]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S100000x128 : Shape := ⟨2, ![100000, 128]⟩
abbrev S1x128 : Shape := ⟨2, ![1, 128]⟩
abbrev S64x64 : Shape := ⟨2, ![64, 64]⟩
abbrev S1x1 : Shape := ⟨2, ![1, 1]⟩

abbrev nBuf : Space → Nat
  | .hbm => 287
  | .vmem => 0
  | .smem => 0
  | _ => 0

abbrev hbmTy0_0 (i : Nat) : BufTy := match i % 128 with
  | 0 => ⟨S100000x2, .f32⟩
  | 1 => ⟨S2x1600000, .i32⟩
  | 2 => ⟨S100000, .i32⟩
  | 3 => ⟨S2x32, .f32⟩
  | 4 => ⟨S32, .f32⟩
  | 5 => ⟨S2x32, .f32⟩
  | 6 => ⟨S32, .f32⟩
  | 7 => ⟨S32, .f32⟩
  | 8 => ⟨S32x64, .f32⟩
  | 9 => ⟨S64, .f32⟩
  | 10 => ⟨S32x64, .f32⟩
  | 11 => ⟨S64, .f32⟩
  | 12 => ⟨S64, .f32⟩
  | 13 => ⟨S64x128, .f32⟩
  | 14 => ⟨S128, .f32⟩
  | 15 => ⟨S64x128, .f32⟩
  | 16 => ⟨S128, .f32⟩
  | 17 => ⟨S128, .f32⟩
  | 18 => ⟨S128x64, .f32⟩
  | 19 => ⟨S64, .f32⟩
  | 20 => ⟨S64x1, .f32⟩
  | 21 => ⟨S1, .f32⟩
  | 22 => ⟨S1x1600000, .i32⟩
  | 23 => ⟨S1600000, .i32⟩
  | 24 => ⟨S1x1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x2, .f32⟩
  | 41 => ⟨S_, .f32⟩
  | 42 => ⟨S100000x2, .f32⟩
  | 43 => ⟨S1600000x1, .i32⟩
  | 44 => ⟨S100000x2, .f32⟩
  | 45 => ⟨S_, .f32⟩
  | 46 => ⟨S100000, .f32⟩
  | 47 => ⟨S100000, .f32⟩
  | 48 => ⟨S100000x1, .f32⟩
  | 49 => ⟨S100000x2, .f32⟩
  | 50 => ⟨S100000x2, .f32⟩
  | 51 => ⟨S100000x32, .f32⟩
  | 52 => ⟨S1x32, .f32⟩
  | 53 => ⟨S100000x32, .f32⟩
  | 54 => ⟨S100000x32, .f32⟩
  | 55 => ⟨S100000x32, .f32⟩
  | 56 => ⟨S100000x32, .f32⟩
  | 57 => ⟨S_, .f32⟩
  | 58 => ⟨S32, .f32⟩
  | 59 => ⟨S_, .f32⟩
  | 60 => ⟨S32, .f32⟩
  | 61 => ⟨S32, .f32⟩
  | 62 => ⟨S_, .i32⟩
  | 63 => ⟨S_, .f32⟩
  | 64 => ⟨S32, .f32⟩
  | 65 => ⟨S1x32, .f32⟩
  | 66 => ⟨S_, .f32⟩
  | 67 => ⟨S1x32, .f32⟩
  | 68 => ⟨S1x32, .f32⟩
  | 69 => ⟨S100000x32, .f32⟩
  | 70 => ⟨S100000x32, .f32⟩
  | 71 => ⟨S100000x32, .f32⟩
  | 72 => ⟨S_, .f32⟩
  | 73 => ⟨S_, .f32⟩
  | 74 => ⟨S_, .f32⟩
  | 75 => ⟨S_, .f32⟩
  | 76 => ⟨S32, .f32⟩
  | 77 => ⟨S32, .f32⟩
  | 78 => ⟨S32, .f32⟩
  | 79 => ⟨S_, .f32⟩
  | 80 => ⟨S_, .i1⟩
  | 81 => ⟨S_, .f32⟩
  | 82 => ⟨S_, .f32⟩
  | 83 => ⟨S32, .f32⟩
  | 84 => ⟨S32, .f32⟩
  | 85 => ⟨S1x32, .f32⟩
  | 86 => ⟨S100000x32, .f32⟩
  | 87 => ⟨S100000x32, .f32⟩
  | 88 => ⟨S_, .f32⟩
  | 89 => ⟨S32, .f32⟩
  | 90 => ⟨S32, .f32⟩
  | 91 => ⟨S32, .f32⟩
  | 92 => ⟨S1x32, .f32⟩
  | 93 => ⟨S100000x32, .f32⟩
  | 94 => ⟨S100000x32, .f32⟩
  | 95 => ⟨S1x32, .f32⟩
  | 96 => ⟨S100000x32, .f32⟩
  | 97 => ⟨S100000x32, .f32⟩
  | 98 => ⟨S1x32, .f32⟩
  | 99 => ⟨S100000x32, .f32⟩
  | 100 => ⟨S100000x32, .f32⟩
  | 101 => ⟨S_, .f32⟩
  | 102 => ⟨S100000x32, .f32⟩
  | 103 => ⟨S100000x32, .f32⟩
  | 104 => ⟨S_, .f32⟩
  | 105 => ⟨S1600000, .f32⟩
  | 106 => ⟨S_, .f32⟩
  | 107 => ⟨S100000, .f32⟩
  | 108 => ⟨S1600000x1, .i32⟩
  | 109 => ⟨S100000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x32, .f32⟩
  | 119 => ⟨S_, .f32⟩
  | 120 => ⟨S100000x32, .f32⟩
  | 121 => ⟨S1600000x1, .i32⟩
  | 122 => ⟨S100000x32, .f32⟩
  | 123 => ⟨S_, .f32⟩
  | 124 => ⟨S100000, .f32⟩
  | 125 => ⟨S100000, .f32⟩
  | 126 => ⟨S100000x1, .f32⟩
  | 127 => ⟨S100000x32, .f32⟩
  | _ => ⟨S100000x2, .f32⟩

abbrev hbmTy0_1 (i : Nat) : BufTy := match i % 128 with
  | 0 => ⟨S100000x32, .f32⟩
  | 1 => ⟨S100000x64, .f32⟩
  | 2 => ⟨S1x64, .f32⟩
  | 3 => ⟨S100000x64, .f32⟩
  | 4 => ⟨S100000x64, .f32⟩
  | 5 => ⟨S100000x64, .f32⟩
  | 6 => ⟨S100000x64, .f32⟩
  | 7 => ⟨S_, .f32⟩
  | 8 => ⟨S64, .f32⟩
  | 9 => ⟨S_, .f32⟩
  | 10 => ⟨S64, .f32⟩
  | 11 => ⟨S64, .f32⟩
  | 12 => ⟨S_, .i32⟩
  | 13 => ⟨S_, .f32⟩
  | 14 => ⟨S64, .f32⟩
  | 15 => ⟨S1x64, .f32⟩
  | 16 => ⟨S_, .f32⟩
  | 17 => ⟨S1x64, .f32⟩
  | 18 => ⟨S1x64, .f32⟩
  | 19 => ⟨S100000x64, .f32⟩
  | 20 => ⟨S100000x64, .f32⟩
  | 21 => ⟨S100000x64, .f32⟩
  | 22 => ⟨S_, .f32⟩
  | 23 => ⟨S_, .f32⟩
  | 24 => ⟨S_, .f32⟩
  | 25 => ⟨S_, .f32⟩
  | 26 => ⟨S64, .f32⟩
  | 27 => ⟨S64, .f32⟩
  | 28 => ⟨S64, .f32⟩
  | 29 => ⟨S_, .f32⟩
  | 30 => ⟨S_, .i1⟩
  | 31 => ⟨S_, .f32⟩
  | 32 => ⟨S_, .f32⟩
  | 33 => ⟨S64, .f32⟩
  | 34 => ⟨S64, .f32⟩
  | 35 => ⟨S1x64, .f32⟩
  | 36 => ⟨S100000x64, .f32⟩
  | 37 => ⟨S100000x64, .f32⟩
  | 38 => ⟨S_, .f32⟩
  | 39 => ⟨S64, .f32⟩
  | 40 => ⟨S64, .f32⟩
  | 41 => ⟨S64, .f32⟩
  | 42 => ⟨S1x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .f32⟩
  | 55 => ⟨S1600000, .f32⟩
  | 56 => ⟨S_, .f32⟩
  | 57 => ⟨S100000, .f32⟩
  | 58 => ⟨S1600000x1, .i32⟩
  | 59 => ⟨S100000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S_, .f32⟩
  | 74 => ⟨S100000, .f32⟩
  | 75 => ⟨S100000, .f32⟩
  | 76 => ⟨S100000x1, .f32⟩
  | 77 => ⟨S100000x64, .f32⟩
  | 78 => ⟨S100000x64, .f32⟩
  | 79 => ⟨S100000x128, .f32⟩
  | 80 => ⟨S1x128, .f32⟩
  | 81 => ⟨S100000x128, .f32⟩
  | 82 => ⟨S100000x128, .f32⟩
  | 83 => ⟨S100000x128, .f32⟩
  | 84 => ⟨S100000x128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S100000x128, .f32⟩
  | 98 => ⟨S100000x128, .f32⟩
  | 99 => ⟨S100000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S100000x128, .f32⟩
  | 115 => ⟨S100000x128, .f32⟩
  | 116 => ⟨S_, .f32⟩
  | 117 => ⟨S128, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x2, .f32⟩

abbrev hbmTy0_2 (i : Nat) : BufTy := match i % 128 with
  | 0 => ⟨S100000x128, .f32⟩
  | 1 => ⟨S_, .f32⟩
  | 2 => ⟨S100000x128, .f32⟩
  | 3 => ⟨S100000x128, .f32⟩
  | 4 => ⟨S_, .f32⟩
  | 5 => ⟨S100000, .f32⟩
  | 6 => ⟨S_, .f32⟩
  | 7 => ⟨S64, .f32⟩
  | 8 => ⟨S100000x1, .i32⟩
  | 9 => ⟨S64, .f32⟩
  | 10 => ⟨S_, .f32⟩
  | 11 => ⟨S64x128, .f32⟩
  | 12 => ⟨S100000x1, .i32⟩
  | 13 => ⟨S64x128, .f32⟩
  | 14 => ⟨S_, .f32⟩
  | 15 => ⟨S64, .f32⟩
  | 16 => ⟨S64, .f32⟩
  | 17 => ⟨S64x1, .f32⟩
  | 18 => ⟨S64x128, .f32⟩
  | 19 => ⟨S64x128, .f32⟩
  | 20 => ⟨S64x64, .f32⟩
  | 21 => ⟨S1x64, .f32⟩
  | 22 => ⟨S64x64, .f32⟩
  | 23 => ⟨S64x64, .f32⟩
  | 24 => ⟨S_, .f32⟩
  | 25 => ⟨S64x64, .f32⟩
  | 26 => ⟨S64x64, .f32⟩
  | 27 => ⟨S64x1, .f32⟩
  | 28 => ⟨S1x1, .f32⟩
  | 29 => ⟨S64x1, .f32⟩
  | 30 => ⟨S64x1, .f32⟩
  | _ => ⟨S100000x2, .f32⟩

abbrev hbmTy (i : Nat) : BufTy := match i / 128 with
  | 0 => hbmTy0_0 i
  | 1 => hbmTy0_1 i
  | 2 => hbmTy0_2 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_4 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_c_6 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_cst_1 : Ref sig .tc := ⟨.hbm, 73, rfl⟩
abbrev main_call0_v8 : Ref sig .tc := ⟨.hbm, 74, rfl⟩
abbrev main_call0_cst_2 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_cst_3 : Ref sig .tc := ⟨.hbm, 79, rfl⟩
abbrev main_call0_v12 : Ref sig .tc := ⟨.hbm, 80, rfl⟩
abbrev main_call0_cst_4 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_7 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_call1_cst : Ref sig .tc := ⟨.hbm, 101, rfl⟩
abbrev main_call1_v0 : Ref sig .tc := ⟨.hbm, 102, rfl⟩
abbrev main_v48 : Ref sig .tc := ⟨.hbm, 103, rfl⟩
abbrev main_cst_8 : Ref sig .tc := ⟨.hbm, 104, rfl⟩
abbrev main_v49 : Ref sig .tc := ⟨.hbm, 105, rfl⟩
abbrev main_cst_9 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_c_10 : Ref sig .tc := ⟨.hbm, 110, rfl⟩
abbrev main_v53 : Ref sig .tc := ⟨.hbm, 111, rfl⟩
abbrev main_v54 : Ref sig .tc := ⟨.hbm, 112, rfl⟩
abbrev main_c_11 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_cst_12 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_cst_13 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_14 : Ref sig .tc := ⟨.hbm, 135, rfl⟩
abbrev main_v74 : Ref sig .tc := ⟨.hbm, 136, rfl⟩
abbrev main_cst_15 : Ref sig .tc := ⟨.hbm, 137, rfl⟩
abbrev main_v75 : Ref sig .tc := ⟨.hbm, 138, rfl⟩
abbrev main_v76 : Ref sig .tc := ⟨.hbm, 139, rfl⟩
abbrev main_c_16 : Ref sig .tc := ⟨.hbm, 140, rfl⟩
abbrev main_call2_cst : Ref sig .tc := ⟨.hbm, 141, rfl⟩
abbrev main_call2_v0 : Ref sig .tc := ⟨.hbm, 142, rfl⟩
abbrev main_call2_v1 : Ref sig .tc := ⟨.hbm, 143, rfl⟩
abbrev main_call2_cst_0 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_v7 : Ref sig .tc := ⟨.hbm, 150, rfl⟩
abbrev main_call2_cst_1 : Ref sig .tc := ⟨.hbm, 151, rfl⟩
abbrev main_call2_v8 : Ref sig .tc := ⟨.hbm, 152, rfl⟩
abbrev main_call2_cst_2 : Ref sig .tc := ⟨.hbm, 153, rfl⟩
abbrev main_call2_v9 : Ref sig .tc := ⟨.hbm, 154, rfl⟩
abbrev main_call2_v10 : Ref sig .tc := ⟨.hbm, 155, rfl⟩
abbrev main_call2_v11 : Ref sig .tc := ⟨.hbm, 156, rfl⟩
abbrev main_call2_cst_3 : Ref sig .tc := ⟨.hbm, 157, rfl⟩
abbrev main_call2_v12 : Ref sig .tc := ⟨.hbm, 158, rfl⟩
abbrev main_call2_cst_4 : Ref sig .tc := ⟨.hbm, 159, rfl⟩
abbrev main_call2_call0_v0 : Ref sig .tc := ⟨.hbm, 160, rfl⟩
abbrev main_call2_call0_v1 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_cst_17 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_call3_cst : Ref sig .tc := ⟨.hbm, 179, rfl⟩
abbrev main_call3_v0 : Ref sig .tc := ⟨.hbm, 180, rfl⟩
abbrev main_v93 : Ref sig .tc := ⟨.hbm, 181, rfl⟩
abbrev main_cst_18 : Ref sig .tc := ⟨.hbm, 182, rfl⟩
abbrev main_v94 : Ref sig .tc := ⟨.hbm, 183, rfl⟩
abbrev main_cst_19 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_c_20 : Ref sig .tc := ⟨.hbm, 188, rfl⟩
abbrev main_v98 : Ref sig .tc := ⟨.hbm, 189, rfl⟩
abbrev main_v99 : Ref sig .tc := ⟨.hbm, 190, rfl⟩
abbrev main_c_21 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_cst_22 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_cst_23 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_cst_24 : Ref sig .tc := ⟨.hbm, 213, rfl⟩
abbrev main_v119 : Ref sig .tc := ⟨.hbm, 214, rfl⟩
abbrev main_cst_25 : Ref sig .tc := ⟨.hbm, 215, rfl⟩
abbrev main_v120 : Ref sig .tc := ⟨.hbm, 216, rfl⟩
abbrev main_v121 : Ref sig .tc := ⟨.hbm, 217, rfl⟩
abbrev main_c_26 : Ref sig .tc := ⟨.hbm, 218, rfl⟩
abbrev main_call4_cst : Ref sig .tc := ⟨.hbm, 219, rfl⟩
abbrev main_call4_v0 : Ref sig .tc := ⟨.hbm, 220, rfl⟩
abbrev main_call4_v1 : Ref sig .tc := ⟨.hbm, 221, rfl⟩
abbrev main_call4_cst_0 : Ref sig .tc := ⟨.hbm, 222, rfl⟩
abbrev main_call4_v2 : Ref sig .tc := ⟨.hbm, 223, rfl⟩
abbrev main_call4_v3 : Ref sig .tc := ⟨.hbm, 224, rfl⟩
abbrev main_call4_v4 : Ref sig .tc := ⟨.hbm, 225, rfl⟩
abbrev main_call4_v5 : Ref sig .tc := ⟨.hbm, 226, rfl⟩
abbrev main_call4_v6 : Ref sig .tc := ⟨.hbm, 227, rfl⟩
abbrev main_call4_v7 : Ref sig .tc := ⟨.hbm, 228, rfl⟩
abbrev main_call4_cst_1 : Ref sig .tc := ⟨.hbm, 229, rfl⟩
abbrev main_call4_v8 : Ref sig .tc := ⟨.hbm, 230, rfl⟩
abbrev main_call4_cst_2 : Ref sig .tc := ⟨.hbm, 231, rfl⟩
abbrev main_call4_v9 : Ref sig .tc := ⟨.hbm, 232, rfl⟩
abbrev main_call4_v10 : Ref sig .tc := ⟨.hbm, 233, rfl⟩
abbrev main_call4_v11 : Ref sig .tc := ⟨.hbm, 234, rfl⟩
abbrev main_call4_cst_3 : Ref sig .tc := ⟨.hbm, 235, rfl⟩
abbrev main_call4_v12 : Ref sig .tc := ⟨.hbm, 236, rfl⟩
abbrev main_call4_cst_4 : Ref sig .tc := ⟨.hbm, 237, rfl⟩
abbrev main_call4_call0_v0 : Ref sig .tc := ⟨.hbm, 238, rfl⟩
abbrev main_call4_call0_v1 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_cst_27 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_v136 : Ref sig .tc := ⟨.hbm, 255, rfl⟩
abbrev main_v137 : Ref sig .tc := ⟨.hbm, 256, rfl⟩
abbrev main_call5_cst : Ref sig .tc := ⟨.hbm, 257, rfl⟩
abbrev main_call5_v0 : Ref sig .tc := ⟨.hbm, 258, rfl⟩
abbrev main_v138 : Ref sig .tc := ⟨.hbm, 259, rfl⟩
abbrev main_cst_28 : Ref sig .tc := ⟨.hbm, 260, rfl⟩
abbrev main_v139 : Ref sig .tc := ⟨.hbm, 261, rfl⟩
abbrev main_cst_29 : Ref sig .tc := ⟨.hbm, 262, rfl⟩
abbrev main_v140 : Ref sig .tc := ⟨.hbm, 263, rfl⟩
abbrev main_v141 : Ref sig .tc := ⟨.hbm, 264, rfl⟩
abbrev main_v142 : Ref sig .tc := ⟨.hbm, 265, rfl⟩
abbrev main_cst_30 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_cst_31 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_call6_cst : Ref sig .tc := ⟨.hbm, 280, rfl⟩
abbrev main_call6_v0 : Ref sig .tc := ⟨.hbm, 281, rfl⟩
abbrev main_v155 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x2 : S_.BroadcastsInDim S100000x2 (![] : Fin 0 → Fin S100000x2.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  bcast_S_S100000x128 : S_.BroadcastsInDim S100000x128 (![] : Fin 0 → Fin S100000x128.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1600000x1_S1600000_n_0_0_1_wf : ScatterDims.WF S100000 S1600000x1 S1600000 [] [0] [0] 1
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  dot_S100000x2_S2x32_S100000x32_1_0_0_1_n_n_wf : DotDims.WF S100000x2 S2x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf
def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.RefOps0.lean ====
/-
  The reference program's operations 0 … 3 (of 265), in order, each module-local function's operations
  written inline at its call over the call's buffer record.  The list writes, in order:
  main_v0 main_v1 main_v2 main_v3
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 0 … 3: 4 of them. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

set_option maxRecDepth 8192 in
set_option maxHeartbeats 4000000 in
/-- Every operation of the list touches TensorCore references only. -/
theorem ops0_sub : (ops0 : List (HloOp τ sig (Elt F))).Forall fun op => op.bufs ⊆ tcRefs τ sig :=
  ⟨StableHlo.unary_bufs_sub .., StableHlo.reshape_bufs_sub .., StableHlo.unary_bufs_sub .., StableHlo.reshape_bufs_sub ..⟩

set_option maxRecDepth 8192 in
set_option maxHeartbeats 4000000 in
/-- Every operation of the list determines its results. -/
theorem ops0_fresh : (ops0 : List (HloOp τ sig (Elt F))).Forall fun op => op.fresh = ∅ :=
  ⟨rfl, rfl, rfl, rfl⟩

/-- The buffers the list writes, in order: one per operation. -/
abbrev writes0 : List (Ref sig .tc) :=
  [main_v0, main_v1, main_v2, main_v3]

set_option maxRecDepth 8192 in
set_option maxHeartbeats 4000000 in
/-- Each operation of the list writes its one result buffer, a member of the list of written buffers. -/
theorem ops0_writes : (ops0 : List (HloOp τ sig (Elt F))).Forall fun op => op.writes ⊆ (writes0.map (Proc.devRef (τ := τ) .tc)).toFinset :=
  ⟨Finset.singleton_subset_iff.2 (List.mem_toFinset.2 (List.mem_map.2 ⟨main_v0, by decide, rfl⟩)),
    Finset.singleton_subset_iff.2 (List.mem_toFinset.2 (List.mem_map.2 ⟨main_v1, by decide, rfl⟩)),
    Finset.singleton_subset_iff.2 (List.mem_toFinset.2 (List.mem_map.2 ⟨main_v2, by decide, rfl⟩)),
    Finset.singleton_subset_iff.2 (List.mem_toFinset.2 (List.mem_map.2 ⟨main_v3, by decide, rfl⟩))⟩

/-- A buffer the list does not write keeps its contents. -/
theorem ops0_keep (V : Valuation τ sig (Elt F)) {r : Ref sig .tc} (hr : r ∉ writes0) :
    after ops0 V (Proc.devRef .tc r) = V (Proc.devRef .tc r) :=
  after_of_writes_sub ops0 V ops0_writes hr

end Cert.ReferenceIdeal.RefRun

end
-- ==== Proof.RefOps1.lean ====
/-
  The reference program's operations 4 … 34 (of 265), in order, each module-local function's operations
  written inline at its call over the call's buffer record.  The list writes, in order:
  main_cst main_v4 main_cst_0 main_v5 main_v6 main_v7 main_c main_v8 main_v9 main_c_1 main_v10 main_v11 main_v12 main_v13 main_v14 main_cst_2 main_v15 main_v16 main_v17 main_cst_3 main_v18 main_v19 main_v20 main_v21 main_v22 main_v23 main_v24 main_v25 main_v26 main_v27 main_v28
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 4 … 34: 31 of them. -/
abbrev ops1 : List (HloOp τ sig (Elt F)) :=
  [ StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c (constantI S_ 32 0#32),
    StableHlo.unary main_c main_v8 (broadcastInDim S1600000 ![] bcast_S_S1600000 : (⟨S_, .i32⟩ : BufTy).Contents (Elt F) → (⟨S1600000, .i32⟩ : BufTy).Contents (Elt F)),
    StableHlo.binary main_v1 main_v8 main_v9 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v10 (broadcastInDim S1600000 ![] bcast_S_S1600000 : (⟨S_, .i32⟩ : BufTy).Contents (Elt F) → (⟨S1600000, .i32⟩ : BufTy).Contents (Elt F)),
    StableHlo.binary main_v1 main_v10 main_v11 (addi : (⟨S1600000, .i32⟩ : BufTy).Contents (Elt F) → (⟨S1600000, .i32⟩ : BufTy).Contents (Elt F) → (⟨S1600000, .i32⟩ : BufTy).Contents (Elt F)),
    StableHlo.ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v12 main_v13 (broadcastInDim S1600000x1 ![0] bcast_S1600000_S1600000x1_0 : (⟨S1600000, .i32⟩ : BufTy).Contents (Elt F) → (⟨S1600000x1, .i32⟩ : BufTy).Contents (Elt F)),
    StableHlo.binary main_arg0 main_v13 main_v14 ((fun x i => Host.gather gather_S100000x2_S1600000x1_S1600000x2_1_0_n_n_0_1_12 x i) : (⟨S100000x2, .f32⟩ : BufTy).Contents (Elt F) → (⟨S1600000x1, .i32⟩ : BufTy).Contents (Elt F) → (⟨S1600000x2, .f32⟩ : BufTy).Contents (Elt F)),
    StableHlo.nullary main_cst_2 (constant S_ .f32 0x00000000#32),
    StableHlo.unary main_cst_2 main_v15 (broadcastInDim S100000x2 ![] bcast_S_S100000x2 : (⟨S_, .f32⟩ : BufTy).Contents (Elt F) → (⟨S100000x2, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000x2_S1600000x1_S1600000x2_1_0_0_1 x i u) : (⟨S100000x2, .f32⟩ : BufTy).Contents (Elt F) → (⟨S1600000x1, .i32⟩ : BufTy).Contents (Elt F) → (⟨S1600000x2, .f32⟩ : BufTy).Contents (Elt F) → (⟨S100000x2, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v7 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x2 ![0, 1] bcast_S100000x1_S100000x2_0_1 : (⟨S100000x1, .f32⟩ : BufTy).Contents (Elt F) → (⟨S100000x2, .f32⟩ : BufTy).Contents (Elt F)),
    StableHlo.binary main_v17 main_v21 main_v22 (Host.divf : (⟨S100000x2, .f32⟩ : BufTy).Contents (Elt F) → (⟨S100000x2, .f32⟩ : BufTy).Contents (Elt F) → (⟨S100000x2, .f32⟩ : BufTy).Contents (Elt F)),
    StableHlo.binary main_v22 main_arg3 main_v23 ((fun l r => Host.dotGeneral dot_S100000x2_S2x32_S100000x32_1_0_0_1_n_n none l r) : (⟨S100000x2, .f32⟩ : BufTy).Contents (Elt F) → (⟨S2x32, .f32⟩ : BufTy).Contents (Elt F) → (⟨S100000x32, .f32⟩ : BufTy).Contents (Elt F)),
    StableHlo.unary main_arg4 main_v24 (broadcastInDim S1x32 ![1] bcast_S32_S1x32_1 : (⟨S32, .f32⟩ : BufTy).Contents (Elt F) → (⟨S1x32, .f32⟩ : BufTy).Contents (Elt F)),
    StableHlo.unary main_v24 main_v25 (broadcastInDim S100000x32 ![0, 1] bcast_S1x32_S100000x32_0_1 : (⟨S1x32, .f32⟩ : BufTy).Contents (Elt F) → (⟨S100000x32, .f32⟩ : BufTy).Contents (Elt F)),
    StableHlo.binary main_v23 main_v25 main_v26 (addf : (⟨S100000x32, .f32⟩ : BufTy).Contents (Elt F) → (⟨S100000x32, .f32⟩ : BufTy).Contents (Elt F) → (⟨S100000x32, .f32⟩ : BufTy).Contents (Elt F)),
    StableHlo.binary main_arg0 main_arg5 main_v27 ((fun l r => Host.dotGeneral dot_S100000x2_S2x32_S100000x32_1_0_0_1_n_n none l r) : (⟨S100000x2, .f32⟩ : BufTy).Contents (Elt F) → (⟨S2x32, .f32⟩ : BufTy).Contents (Elt F) → (⟨S100000x32, .f32⟩ : BufTy).Contents (Elt F)),
    StableHlo.binary main_v26 main_v27 main_v28 (addf : (⟨S100000x32, .f32⟩ : BufTy).Contents (Elt F) → (⟨S100000x32, .f32⟩ : BufTy).Contents (Elt F) → (⟨S100000x32, .f32⟩ : BufTy).Contents (Elt F)) ]

set_option maxRecDepth 8192 in
set_option maxHeartbeats 4000000 in
/-- Every operation of the list touches TensorCore references only. -/
theorem ops1_sub : (ops1 : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩

set_option maxRecDepth 8192 in
set_option maxHeartbeats 4000000 in
/-- Every operation of the list determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes, in order: one per operation. -/
abbrev writes1 : List (Ref sig .tc) :=
  [main_cst, main_v4, main_cst_0, main_v5, main_v6, main_v7, main_c, main_v8, main_v9, main_c_1, main_v10, main_v11, main_v12, main_v13, main_v14, main_cst_2, main_v15, main_v16, main_v17, main_cst_3, main_v18, main_v19, main_v20, main_v21, main_v22, main_v23, main_v24, main_v25, main_v26, main_v27, main_v28]

set_option maxRecDepth 8192 in
set_option maxHeartbeats 4000000 in
/-- Each operation of the list writes its one result buffer, a member of the list of written buffers. -/
theorem ops1_writes : (ops1 : List (HloOp τ sig (Elt F))).Forall fun op => op.writes ⊆ (writes1.map (Proc.devRef (τ := τ) .tc)).toFinset :=
  ⟨Finset.singleton_subset_iff.2 (List.mem_toFinset.2 (List.mem_map.2 ⟨main_cst, by decide, rfl⟩)),
    Finset.singleton_subset_iff.2 (List.mem_toFinset.2 (List.mem_map.2 ⟨main_v4, by decide, rfl⟩)),
    Finset.singleton_subset_iff.2 (List.mem_toFinset.2 (List.mem_map.2 ⟨main_cst_0, by decide, rfl⟩)),
    Finset.singleton_subset_iff.2 (List.mem_toFinset.2 (List.mem_map.2 ⟨main_v5, by decide, rfl⟩)),
    Finset.singleton_subset_iff.2 (List.mem_toFinset.2 (List.mem_map.2 ⟨main_v6, by decide, rfl⟩)),
    Finset.singleton_subset_iff.2 (List.mem_toFinset.2 (List.mem_map.2 ⟨main_v7, by decide, rfl⟩)),
    Finset.singleton_subset_iff.2 (List.mem_toFinset.2 (List.mem_map.2 ⟨main_c, by decide, rfl⟩)),
    Finset.singleton_subset_iff.2 (List.mem_toFinset.2 (List.mem_map.2 ⟨main_v8, by decide, rfl⟩)),
    Finset.singleton_subset_iff.2 (List.mem_toFinset.2 (List.mem_map.2 ⟨main_v9, by decide, rfl⟩)),
    Finset.singleton_subset_iff.2 (List.mem_toFinset.2 (List.mem_map.2 ⟨main_c_1, by decide, rfl⟩)),
    Finset.singleton_subset_iff.2 (List.mem_toFinset.2 (List.mem_map.2 ⟨main_v10, by decide, rfl⟩)),
    Finset.singleton_subset_iff.2 (List.mem_toFinset.2 (List.mem_map.2 ⟨main_v11, by decide, rfl⟩)),
    Finset.singleton_subset_iff.2 (List.mem_toFinset.2 (List.mem_map.2 ⟨main_v12, by decide, rfl⟩)),
    Finset.singleton_subset_iff.2 (List.mem_toFinset.2 (List.mem_map.2 ⟨main_v13, by decide, rfl⟩)),
    Finset.singleton_subset_iff.2 (List.mem_toFinset.2 (List.mem_map.2 ⟨main_v14, by decide, rfl⟩)),
    Finset.singleton_subset_iff.2 (List.mem_toFinset.2 (List.mem_map.2 ⟨main_cst_2, by decide, rfl⟩)),
    Finset.singleton_subset_iff.2 (List.mem_toFinset.2 (List.mem_map.2 ⟨main_v15, by decide, rfl⟩)),
    Finset.singleton_subset_iff.2 (List.mem_toFinset.2 (List.mem_map.2 ⟨main_v16, by decide, rfl⟩)),
    Finset.singleton_subset_iff.2 (List.mem_toFinset.2 (List.mem_map.2 ⟨main_v17, by decide, rfl⟩)),
    Finset.singleton_subset_iff.2 (List.mem_toFinset.2 (List.mem_map.2 ⟨main_cst_3, by decide, rfl⟩)),
    Finset.singleton_subset_iff.2 (List.mem_toFinset.2 (List.mem_map.2 ⟨main_v18, by decide, rfl⟩)),
    Finset.singleton_subset_iff.2 (List.mem_toFinset.2 (List.mem_map.2 ⟨main_v19, by decide, rfl⟩)),
    Finset.singleton_subset_iff.2 (List.mem_toFinset.2 (List.mem_map.2 ⟨main_v20, by decide, rfl⟩)),
    Finset.singleton_subset_iff.2 (List.mem_toFinset.2 (List.mem_map.2 ⟨main_v21, by decide, rfl⟩)),
    Finset.singleton_subset_iff.2 (List.mem_toFinset.2 (List.mem_map.2 ⟨main_v22, by decide, rfl⟩)),
    Finset.singleton_subset_iff.2 (List.mem_toFinset.2 (List.mem_map.2 ⟨main_v23, by decide, rfl⟩)),
    Finset.singleton_subset_iff.2 (List.mem_toFinset.2 (List.mem_map.2 ⟨main_v24, by decide, rfl⟩)),
    Finset.singleton_subset_iff.2 (List.mem_toFinset.2 (List.mem_map.2 ⟨main_v25, by decide, rfl⟩)),
    Finset.singleton_subset_iff.2 (List.mem_toFinset.2 (List.mem_map.2 ⟨main_v26, by decide, rfl⟩)),
    Finset.singleton_subset_iff.2 (List.mem_toFinset.2 (List.mem_map.2 ⟨main_v27, by decide, rfl⟩)),
    Finset.singleton_subset_iff.2 (List.mem_toFinset.2 (List.mem_map.2 ⟨main_v28, by decide, rfl⟩))⟩

/-- A buffer the list does not write keeps its contents. -/
theorem ops1_keep (V : Valuation τ sig (Elt F)) {r : Ref sig .tc} (hr : r ∉ writes1) :
    after ops1 V (Proc.devRef .tc r) = V (Proc.devRef .tc r) :=
  after_of_writes_sub ops1 V ops1_writes hr

end Cert.ReferenceIdeal.RefRun

end
-- ==== Proof.RefOps2.lean ====
/-
  The reference program's operations 35 … 81 (of 265), in order, each module-local function's operations
  written inline at its call over the call's buffer record.  The list writes, in order:
  main_cst_4 main_v29 main_cst_5 main_v30 main_v31 main_c_6 main_call0_cst main_call0_v0 main_call0_v1 main_call0_cst_0 main_call0_v2 main_call0_v3 main_call0_v4 main_call0_v5 main_call0_v6 main_call0_v7 main_call0_cst_1 main_call0_v8 main_call0_cst_2 main_call0_v9 main_call0_v10 main_call0_v11 main_call0_cst_3 main_call0_v12 main_call0_cst_4 main_call0_call0_v0 main_call0_call0_v1 main_v32 main_v33 main_v34 main_v35 main_cst_7 main_v36 main_v37 main_v38 main_v39 main_v40 main_v41 main_v42 main_v43 main_v44 main_v45 main_v46 main_v47 main_call1_cst main_call1_v0 main_v48
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 35 … 81: 47 of them. -/
abbrev ops2 : List (HloOp τ sig (Elt F)) :=
  [ StableHlo.nullary main_cst_4 (constant S_ .f32 0x00000000#32),
    StableHlo.binary main_v28 main_cst_4 main_v29 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_5 (constant S_ .f32 0x47C35000#32),
    StableHlo.unary main_cst_5 main_v30 (broadcastInDim S32 ![] bcast_S_S32 : (⟨S_, .f32⟩ : BufTy).Contents (Elt F) → (⟨S32, .f32⟩ : BufTy).Contents (Elt F)),
    StableHlo.binary main_v29 main_v30 main_v31 (Host.divf : (⟨S32, .f32⟩ : BufTy).Contents (Elt F) → (⟨S32, .f32⟩ : BufTy).Contents (Elt F) → (⟨S32, .f32⟩ : BufTy).Contents (Elt F)),
    StableHlo.nullary main_c_6 (constantI S_ 32 0#32),
    StableHlo.TRef.nullary main_call0.cst (constant S_ .f32 0x00000000#32),
    StableHlo.TRef.binary (.of main_v28 : StableHlo.TRef sig ⟨S100000x32, .f32⟩) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (.of main_v28 : StableHlo.TRef sig ⟨S100000x32, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v31 main_v33 (broadcastInDim S1x32 ![1] bcast_S32_S1x32_1 : (⟨S32, .f32⟩ : BufTy).Contents (Elt F) → (⟨S1x32, .f32⟩ : BufTy).Contents (Elt F)),
    StableHlo.unary main_v33 main_v34 (broadcastInDim S100000x32 ![0, 1] bcast_S1x32_S100000x32_0_1 : (⟨S1x32, .f32⟩ : BufTy).Contents (Elt F) → (⟨S100000x32, .f32⟩ : BufTy).Contents (Elt F)),
    StableHlo.binary main_v28 main_v34 main_v35 (subf : (⟨S100000x32, .f32⟩ : BufTy).Contents (Elt F) → (⟨S100000x32, .f32⟩ : BufTy).Contents (Elt F) → (⟨S100000x32, .f32⟩ : BufTy).Contents (Elt F)),
    StableHlo.nullary main_cst_7 (constant S_ .f32 0x3727C5AC#32),
    StableHlo.unary main_cst_7 main_v36 (broadcastInDim S32 ![] bcast_S_S32 : (⟨S_, .f32⟩ : BufTy).Contents (Elt F) → (⟨S32, .f32⟩ : BufTy).Contents (Elt F)),
    StableHlo.binary main_v32 main_v36 main_v37 (addf : (⟨S32, .f32⟩ : BufTy).Contents (Elt F) → (⟨S32, .f32⟩ : BufTy).Contents (Elt F) → (⟨S32, .f32⟩ : BufTy).Contents (Elt F)),
    StableHlo.unary main_v37 main_v38 (Host.rsqrt : (⟨S32, .f32⟩ : BufTy).Contents (Elt F) → (⟨S32, .f32⟩ : BufTy).Contents (Elt F)),
    StableHlo.unary main_v38 main_v39 (broadcastInDim S1x32 ![1] bcast_S32_S1x32_1 : (⟨S32, .f32⟩ : BufTy).Contents (Elt F) → (⟨S1x32, .f32⟩ : BufTy).Contents (Elt F)),
    StableHlo.unary main_v39 main_v40 (broadcastInDim S100000x32 ![0, 1] bcast_S1x32_S100000x32_0_1 : (⟨S1x32, .f32⟩ : BufTy).Contents (Elt F) → (⟨S100000x32, .f32⟩ : BufTy).Contents (Elt F)),
    StableHlo.binary main_v35 main_v40 main_v41 (mulf : (⟨S100000x32, .f32⟩ : BufTy).Contents (Elt F) → (⟨S100000x32, .f32⟩ : BufTy).Contents (Elt F) → (⟨S100000x32, .f32⟩ : BufTy).Contents (Elt F)),
    StableHlo.unary main_arg6 main_v42 (broadcastInDim S1x32 ![1] bcast_S32_S1x32_1 : (⟨S32, .f32⟩ : BufTy).Contents (Elt F) → (⟨S1x32, .f32⟩ : BufTy).Contents (Elt F)),
    StableHlo.unary main_v42 main_v43 (broadcastInDim S100000x32 ![0, 1] bcast_S1x32_S100000x32_0_1 : (⟨S1x32, .f32⟩ : BufTy).Contents (Elt F) → (⟨S100000x32, .f32⟩ : BufTy).Contents (Elt F)),
    StableHlo.binary main_v41 main_v43 main_v44 (mulf : (⟨S100000x32, .f32⟩ : BufTy).Contents (Elt F) → (⟨S100000x32, .f32⟩ : BufTy).Contents (Elt F) → (⟨S100000x32, .f32⟩ : BufTy).Contents (Elt F)),
    StableHlo.unary main_arg7 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S100000x32 ![0, 1] bcast_S1x32_S100000x32_0_1 : (⟨S1x32, .f32⟩ : BufTy).Contents (Elt F) → (⟨S100000x32, .f32⟩ : BufTy).Contents (Elt F)),
    StableHlo.binary main_v44 main_v46 main_v47 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v47 : StableHlo.TRef sig ⟨S100000x32, .f32⟩) main_call1.v0 main_call1.v1 maximumf ]

set_option maxRecDepth 8192 in
set_option maxHeartbeats 4000000 in
/-- Every operation of the list touches TensorCore references only. -/
theorem ops2_sub : (ops2 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

set_option maxRecDepth 8192 in
set_option maxHeartbeats 4000000 in
/-- Every operation of the list determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes, in order: one per operation. -/
abbrev writes2 : List (Ref sig .tc) :=
  [main_cst_4, main_v29, main_cst_5, main_v30, main_v31, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v32, main_v33, main_v34, main_v35, main_cst_7, main_v36, main_v37, main_v38, main_v39, main_v40, main_v41, main_v42, main_v43, main_v44, main_v45, main_v46, main_v47, main_call1_cst, main_call1_v0, main_v48]

set_option maxRecDepth 8192 in
set_option maxHeartbeats 4000000 in
/-- Each operation of the list writes its one result buffer, a member of the list of written buffers. -/
theorem ops2_writes : (ops2 : List (HloOp τ sig (Elt F))).Forall fun op => op.writes ⊆ (writes2.map (Proc.devRef (τ := τ) .tc)).toFinset :=
  ⟨Finset.singleton_subset_iff.2 (List.mem_toFinset.2 (List.mem_map.2 ⟨main_cst_4, by decide, rfl⟩)),
    Finset.singleton_subset_iff.2 (List.mem_toFinset.2 (List.mem_map.2 ⟨main_v29, by decide, rfl⟩)),
    Finset.singleton_subset_iff.2 (List.mem_toFinset.2 (List.mem_map.2 ⟨main_cst_5, by decide, rfl⟩)),
    Finset.singleton_subset_iff.2 (List.mem_toFinset.2 (List.mem_map.2 ⟨main_v30, by decide, rfl⟩)),
    Finset.singleton_subset_iff.2 (List.mem_toFinset.2 (List.mem_map.2 ⟨main_v31, by decide, rfl⟩)),
    Finset.singleton_subset_iff.2 (List.mem_toFinset.2 (List.mem_map.2 ⟨main_c_6, by decide, rfl⟩)),
    Finset.singleton_subset_iff.2 (List.mem_toFinset.2 (List.mem_map.2 ⟨main_call0_cst, by decide, rfl⟩)),
    Finset.singleton_subset_iff.2 (List.mem_toFinset.2 (List.mem_map.2 ⟨main_call0_v0, by decide, rfl⟩)),
    Finset.singleton_subset_iff.2 (List.mem_toFinset.2 (List.mem_map.2 ⟨main_call0_v1, by decide, rfl⟩)),
    Finset.singleton_subset_iff.2 (List.mem_toFinset.2 (List.mem_map.2 ⟨main_call0_cst_0, by decide, rfl⟩)),
    Finset.singleton_subset_iff.2 (List.mem_toFinset.2 (List.mem_map.2 ⟨main_call0_v2, by decide, rfl⟩)),
    Finset.singleton_subset_iff.2 (List.mem_toFinset.2 (List.mem_map.2 ⟨main_call0_v3, by decide, rfl⟩)),
    Finset.singleton_subset_iff.2 (List.mem_toFinset.2 (List.mem_map.2 ⟨main_call0_v4, by decide, rfl⟩)),
    Finset.singleton_subset_iff.2 (List.mem_toFinset.2 (List.mem_map.2 ⟨main_call0_v5, by decide, rfl⟩)),
    Finset.singleton_subset_iff.2 (List.mem_toFinset.2 (List.mem_map.2 ⟨main_call0_v6, by decide, rfl⟩)),
    Finset.singleton_subset_iff.2 (List.mem_toFinset.2 (List.mem_map.2 ⟨main_call0_v7, by decide, rfl⟩)),
    Finset.singleton_subset_iff.2 (List.mem_toFinset.2 (List.mem_map.2 ⟨main_call0_cst_1, by decide, rfl⟩)),
    Finset.singleton_subset_iff.2 (List.mem_toFinset.2 (List.mem_map.2 ⟨main_call0_v8, by decide, rfl⟩)),
    Finset.singleton_subset_iff.2 (List.mem_toFinset.2 (List.mem_map.2 ⟨main_call0_cst_2, by decide, rfl⟩)),
    Finset.singleton_subset_iff.2 (List.mem_toFinset.2 (List.mem_map.2 ⟨main_call0_v9, by decide, rfl⟩)),
    Finset.singleton_subset_iff.2 (List.mem_toFinset.2 (List.mem_map.2 ⟨main_call0_v10, by decide, rfl⟩)),
    Finset.singleton_subset_iff.2 (List.mem_toFinset.2 (List.mem_map.2 ⟨main_call0_v11, by decide, rfl⟩)),
    Finset.singleton_subset_iff.2 (List.mem_toFinset.2 (List.mem_map.2 ⟨main_call0_cst_3, by decide, rfl⟩)),
    Finset.singleton_subset_iff.2 (List.mem_toFinset.2 (List.mem_map.2 ⟨main_call0_v12, by decide, rfl⟩)),
    Finset.singleton_subset_iff.2 (List.mem_toFinset.2 (List.mem_map.2 ⟨main_call0_cst_4, by decide, rfl⟩)),
    Finset.singleton_subset_iff.2 (List.mem_toFinset.2 (List.mem_map.2 ⟨main_call0_call0_v0, by decide, rfl⟩)),
    Finset.singleton_subset_iff.2 (List.mem_toFinset.2 (List.mem_map.2 ⟨main_call0_call0_v1, by decide, rfl⟩)),
    Finset.singleton_subset_iff.2 (List.mem_toFinset.2 (List.mem_map.2 ⟨main_v32, by decide, rfl⟩)),
    Finset.singleton_subset_iff.2 (List.mem_toFinset.2 (List.mem_map.2 ⟨main_v33, by decide, rfl⟩)),
    Finset.singleton_subset_iff.2 (List.mem_toFinset.2 (List.mem_map.2 ⟨main_v34, by decide, rfl⟩)),
    Finset.singleton_subset_iff.2 (List.mem_toFinset.2 (List.mem_map.2 ⟨main_v35, by decide, rfl⟩)),
    Finset.singleton_subset_iff.2 (List.mem_toFinset.2 (List.mem_map.2 ⟨main_cst_7, by decide, rfl⟩)),
    Finset.singleton_subset_iff.2 (List.mem_toFinset.2 (List.mem_map.2 ⟨main_v36, by decide, rfl⟩)),
    Finset.singleton_subset_iff.2 (List.mem_toFinset.2 (List.mem_map.2 ⟨main_v37, by decide, rfl⟩)),
    Finset.singleton_subset_iff.2 (List.mem_toFinset.2 (List.mem_map.2 ⟨main_v38, by decide, rfl⟩)),
    Finset.singleton_subset_iff.2 (List.mem_toFinset.2 (List.mem_map.2 ⟨main_v39, by decide, rfl⟩)),
    Finset.singleton_subset_iff.2 (List.mem_toFinset.2 (List.mem_map.2 ⟨main_v40, by decide, rfl⟩)),
    Finset.singleton_subset_iff.2 (List.mem_toFinset.2 (List.mem_map.2 ⟨main_v41, by decide, rfl⟩)),
    Finset.singleton_subset_iff.2 (List.mem_toFinset.2 (List.mem_map.2 ⟨main_v42, by decide, rfl⟩)),
    Finset.singleton_subset_iff.2 (List.mem_toFinset.2 (List.mem_map.2 ⟨main_v43, by decide, rfl⟩)),
    Finset.singleton_subset_iff.2 (List.mem_toFinset.2 (List.mem_map.2 ⟨main_v44, by decide, rfl⟩)),
    Finset.singleton_subset_iff.2 (List.mem_toFinset.2 (List.mem_map.2 ⟨main_v45, by decide, rfl⟩)),
    Finset.singleton_subset_iff.2 (List.mem_toFinset.2 (List.mem_map.2 ⟨main_v46, by decide, rfl⟩)),
    Finset.singleton_subset_iff.2 (List.mem_toFinset.2 (List.mem_map.2 ⟨main_v47, by decide, rfl⟩)),
    Finset.singleton_subset_iff.2 (List.mem_toFinset.2 (List.mem_map.2 ⟨main_call1_cst, by decide, rfl⟩)),
    Finset.singleton_subset_iff.2 (List.mem_toFinset.2 (List.mem_map.2 ⟨main_call1_v0, by decide, rfl⟩)),
    Finset.singleton_subset_iff.2 (List.mem_toFinset.2 (List.mem_map.2 ⟨main_v48, by decide, rfl⟩))⟩

/-- A buffer the list does not write keeps its contents. -/
theorem ops2_keep (V : Valuation τ sig (Elt F)) {r : Ref sig .tc} (hr : r ∉ writes2) :
    after ops2 V (Proc.devRef .tc r) = V (Proc.devRef .tc r) :=
  after_of_writes_sub ops2 V ops2_writes hr

end Cert.ReferenceIdeal.RefRun

end
-- ==== Proof.RefOps3.lean ====
/-
  The reference program's operations 82 … 112 (of 265), in order, each module-local function's operations
  written inline at its call over the call's buffer record.  The list writes, in order:
  main_cst_8 main_v49 main_cst_9 main_v50 main_v51 main_v52 main_c_10 main_v53 main_v54 main_c_11 main_v55 main_v56 main_v57 main_v58 main_v59 main_cst_12 main_v60 main_v61 main_v62 main_cst_13 main_v63 main_v64 main_v65 main_v66 main_v67 main_v68 main_v69 main_v70 main_v71 main_v72 main_v73
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 82 … 112: 31 of them. -/
abbrev ops3 : List (HloOp τ sig (Elt F)) :=
  [ StableHlo.nullary main_cst_8 (constant S_ .f32 0x3F800000#32),
    StableHlo.unary main_cst_8 main_v49 (broadcastInDim S1600000 ![] bcast_S_S1600000 : (⟨S_, .f32⟩ : BufTy).Contents (Elt F) → (⟨S1600000, .f32⟩ : BufTy).Contents (Elt F)),
    StableHlo.nullary main_cst_9 (constant S_ .f32 0x00000000#32),
    StableHlo.unary main_cst_9 main_v50 (broadcastInDim S100000 ![] bcast_S_S100000 : (⟨S_, .f32⟩ : BufTy).Contents (Elt F) → (⟨S100000, .f32⟩ : BufTy).Contents (Elt F)),
    StableHlo.unary main_v3 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v49 main_v52 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c_10 (constantI S_ 32 0#32),
    StableHlo.unary main_c_10 main_v53 (broadcastInDim S1600000 ![] bcast_S_S1600000 : (⟨S_, .i32⟩ : BufTy).Contents (Elt F) → (⟨S1600000, .i32⟩ : BufTy).Contents (Elt F)),
    StableHlo.binary main_v1 main_v53 main_v54 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v55 (broadcastInDim S1600000 ![] bcast_S_S1600000 : (⟨S_, .i32⟩ : BufTy).Contents (Elt F) → (⟨S1600000, .i32⟩ : BufTy).Contents (Elt F)),
    StableHlo.binary main_v1 main_v55 main_v56 (addi : (⟨S1600000, .i32⟩ : BufTy).Contents (Elt F) → (⟨S1600000, .i32⟩ : BufTy).Contents (Elt F) → (⟨S1600000, .i32⟩ : BufTy).Contents (Elt F)),
    StableHlo.ternary main_v54 main_v56 main_v1 main_v57 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v57 main_v58 (broadcastInDim S1600000x1 ![0] bcast_S1600000_S1600000x1_0 : (⟨S1600000, .i32⟩ : BufTy).Contents (Elt F) → (⟨S1600000x1, .i32⟩ : BufTy).Contents (Elt F)),
    StableHlo.binary main_v48 main_v58 main_v59 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_12 (constant S_ .f32 0x00000000#32),
    StableHlo.unary main_cst_12 main_v60 (broadcastInDim S100000x32 ![] bcast_S_S100000x32 : (⟨S_, .f32⟩ : BufTy).Contents (Elt F) → (⟨S100000x32, .f32⟩ : BufTy).Contents (Elt F)),
    StableHlo.unary main_v3 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.nullary main_cst_13 (constant S_ .f32 0x3F800000#32),
    StableHlo.unary main_cst_13 main_v63 (broadcastInDim S100000 ![] bcast_S_S100000 : (⟨S_, .f32⟩ : BufTy).Contents (Elt F) → (⟨S100000, .f32⟩ : BufTy).Contents (Elt F)),
    StableHlo.binary main_v52 main_v63 main_v64 (maximumf : (⟨S100000, .f32⟩ : BufTy).Contents (Elt F) → (⟨S100000, .f32⟩ : BufTy).Contents (Elt F) → (⟨S100000, .f32⟩ : BufTy).Contents (Elt F)),
    StableHlo.unary main_v64 main_v65 (broadcastInDim S100000x1 ![0] bcast_S100000_S100000x1_0 : (⟨S100000, .f32⟩ : BufTy).Contents (Elt F) → (⟨S100000x1, .f32⟩ : BufTy).Contents (Elt F)),
    StableHlo.unary main_v65 main_v66 (broadcastInDim S100000x32 ![0, 1] bcast_S100000x1_S100000x32_0_1 : (⟨S100000x1, .f32⟩ : BufTy).Contents (Elt F) → (⟨S100000x32, .f32⟩ : BufTy).Contents (Elt F)),
    StableHlo.binary main_v62 main_v66 main_v67 (Host.divf : (⟨S100000x32, .f32⟩ : BufTy).Contents (Elt F) → (⟨S100000x32, .f32⟩ : BufTy).Contents (Elt F) → (⟨S100000x32, .f32⟩ : BufTy).Contents (Elt F)),
    StableHlo.binary main_v67 main_arg8 main_v68 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg9 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)),
    StableHlo.binary main_v48 main_arg10 main_v72 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.binary main_v71 main_v72 main_v73 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- Every operation of the list touches TensorCore references only. -/
theorem ops3_sub : (ops3 : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩

set_option maxRecDepth 8192 in
set_option maxHeartbeats 4000000 in
/-- Every operation of the list determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes, in order: one per operation. -/
abbrev writes3 : List (Ref sig .tc) :=
  [main_cst_8, main_v49, main_cst_9, main_v50, main_v51, main_v52, main_c_10, main_v53, main_v54, main_c_11, main_v55, main_v56, main_v57, main_v58, main_v59, main_cst_12, main_v60, main_v61, main_v62, main_cst_13, main_v63, main_v64, main_v65, main_v66, main_v67, main_v68, main_v69, main_v70, main_v71, main_v72, main_v73]

set_option maxRecDepth 8192 in
set_option maxHeartbeats 4000000 in
/-- Each operation of the list writes its one result buffer, a member of the list of written buffers. -/
theorem ops3_writes : (ops3 : List (HloOp τ sig (Elt F))).Forall fun op => op.writes ⊆ (writes3.map (Proc.devRef (τ := τ) .tc)).toFinset :=
  ⟨Finset.singleton_subset_iff.2 (List.mem_toFinset.2 (List.mem_map.2 ⟨main_cst_8, by decide, rfl⟩)),
    Finset.singleton_subset_iff.2 (List.mem_toFinset.2 (List.mem_map.2 ⟨main_v49, by decide, rfl⟩)),
    Finset.singleton_subset_iff.2 (List.mem_toFinset.2 (List.mem_map.2 ⟨main_cst_9, by decide, rfl⟩)),
    Finset.singleton_subset_iff.2 (List.mem_toFinset.2 (List.mem_map.2 ⟨main_v50, by decide, rfl⟩)),
    Finset.singleton_subset_iff.2 (List.mem_toFinset.2 (List.mem_map.2 ⟨main_v51, by decide, rfl⟩)),
    Finset.singleton_subset_iff.2 (List.mem_toFinset.2 (List.mem_map.2 ⟨main_v52, by decide, rfl⟩)),
    Finset.singleton_subset_iff.2 (List.mem_toFinset.2 (List.mem_map.2 ⟨main_c_10, by decide, rfl⟩)),
    Finset.singleton_subset_iff.2 (List.mem_toFinset.2 (List.mem_map.2 ⟨main_v53, by decide, rfl⟩)),
    Finset.singleton_subset_iff.2 (List.mem_toFinset.2 (List.mem_map.2 ⟨main_v54, by decide, rfl⟩)),
    Finset.singleton_subset_iff.2 (List.mem_toFinset.2 (List.mem_map.2 ⟨main_c_11, by decide, rfl⟩)),
    Finset.singleton_subset_iff.2 (List.mem_toFinset.2 (List.mem_map.2 ⟨main_v55, by decide, rfl⟩)),
    Finset.singleton_subset_iff.2 (List.mem_toFinset.2 (List.mem_map.2 ⟨main_v56, by decide, rfl⟩)),
    Finset.singleton_subset_iff.2 (List.mem_toFinset.2 (List.mem_map.2 ⟨main_v57, by decide, rfl⟩)),
    Finset.singleton_subset_iff.2 (List.mem_toFinset.2 (List.mem_map.2 ⟨main_v58, by decide, rfl⟩)),
    Finset.singleton_subset_iff.2 (List.mem_toFinset.2 (List.mem_map.2 ⟨main_v59, by decide, rfl⟩)),
    Finset.singleton_subset_iff.2 (List.mem_toFinset.2 (List.mem_map.2 ⟨main_cst_12, by decide, rfl⟩)),
    Finset.singleton_subset_iff.2 (List.mem_toFinset.2 (List.mem_map.2 ⟨main_v60, by decide, rfl⟩)),
    Finset.singleton_subset_iff.2 (List.mem_toFinset.2 (List.mem_map.2 ⟨main_v61, by decide, rfl⟩)),
    Finset.singleton_subset_iff.2 (List.mem_toFinset.2 (List.mem_map.2 ⟨main_v62, by decide, rfl⟩)),
    Finset.singleton_subset_iff.2 (List.mem_toFinset.2 (List.mem_map.2 ⟨main_cst_13, by decide, rfl⟩)),
    Finset.singleton_subset_iff.2 (List.mem_toFinset.2 (List.mem_map.2 ⟨main_v63, by decide, rfl⟩)),
    Finset.singleton_subset_iff.2 (List.mem_toFinset.2 (List.mem_map.2 ⟨main_v64, by decide, rfl⟩)),
    Finset.singleton_subset_iff.2 (List.mem_toFinset.2 (List.mem_map.2 ⟨main_v65, by decide, rfl⟩)),
    Finset.singleton_subset_iff.2 (List.mem_toFinset.2 (List.mem_map.2 ⟨main_v66, by decide, rfl⟩)),
    Finset.singleton_subset_iff.2 (List.mem_toFinset.2 (List.mem_map.2 ⟨main_v67, by decide, rfl⟩)),
    Finset.singleton_subset_iff.2 (List.mem_toFinset.2 (List.mem_map.2 ⟨main_v68, by decide, rfl⟩)),
    Finset.singleton_subset_iff.2 (List.mem_toFinset.2 (List.mem_map.2 ⟨main_v69, by decide, rfl⟩)),
    Finset.singleton_subset_iff.2 (List.mem_toFinset.2 (List.mem_map.2 ⟨main_v70, by decide, rfl⟩)),
    Finset.singleton_subset_iff.2 (List.mem_toFinset.2 (List.mem_map.2 ⟨main_v71, by decide, rfl⟩)),
    Finset.singleton_subset_iff.2 (List.mem_toFinset.2 (List.mem_map.2 ⟨main_v72, by decide, rfl⟩)),
    Finset.singleton_subset_iff.2 (List.mem_toFinset.2 (List.mem_map.2 ⟨main_v73, by decide, rfl⟩))⟩

/-- A buffer the list does not write keeps its contents. -/
theorem ops3_keep (V : Valuation τ sig (Elt F)) {r : Ref sig .tc} (hr : r ∉ writes3) :
    after ops3 V (Proc.devRef .tc r) = V (Proc.devRef .tc r) :=
  after_of_writes_sub ops3 V ops3_writes hr

end Cert.ReferenceIdeal.RefRun

end
-- ==== Proof.RefOps4.lean ====
/-
  The reference program's operations 113 … 159 (of 265), in order, each module-local function's operations
  written inline at its call over the call's buffer record.  The list writes, in order:
  main_cst_14 main_v74 main_cst_15 main_v75 main_v76 main_c_16 main_call2_cst main_call2_v0 main_call2_v1 main_call2_cst_0 main_call2_v2 main_call2_v3 main_call2_v4 main_call2_v5 main_call2_v6 main_call2_v7 main_call2_cst_1 main_call2_v8 main_call2_cst_2 main_call2_v9 main_call2_v10 main_call2_v11 main_call2_cst_3 main_call2_v12 main_call2_cst_4 main_call2_call0_v0 main_call2_call0_v1 main_v77 main_v78 main_v79 main_v80 main_cst_17 main_v81 main_v82 main_v83 main_v84 main_v85 main_v86 main_v87 main_v88 main_v89 main_v90 main_v91 main_v92 main_call3_cst main_call3_v0 main_v93
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 113 … 159: 47 of them. -/
abbrev ops4 : List (HloOp τ sig (Elt F)) :=
  [ StableHlo.nullary main_cst_14 (constant S_ .f32 0x00000000#32),
    StableHlo.binary main_v73 main_cst_14 main_v74 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_15 (constant S_ .f32 0x47C35000#32),
    StableHlo.unary main_cst_15 main_v75 (broadcastInDim S64 ![] bcast_S_S64 : (⟨S_, .f32⟩ : BufTy).Contents (Elt F) → (⟨S64, .f32⟩ : BufTy).Contents (Elt F)),
    StableHlo.binary main_v74 main_v75 main_v76 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call2.cst (constant S_ .f32 0x00000000#32),
    StableHlo.TRef.binary (.of main_v73 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v73 : StableHlo.TRef sig ⟨S100000x64, .f32⟩) main_call2.v4 main_call2.v5 subf,
    StableHlo.TRef.binary main_call2.v5 main_call2.v5 main_call2.v6 mulf,
    StableHlo.TRef.unary (.of main_c_16 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v76 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v79 main_v80 (subf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3727C5AC#32),
    StableHlo.unary main_cst_17 main_v81 (broadcastInDim S64 ![] bcast_S_S64 : (⟨S_, .f32⟩ : BufTy).Contents (Elt F) → (⟨S64, .f32⟩ : BufTy).Contents (Elt F)),
    StableHlo.binary main_v77 main_v81 main_v82 (addf : (⟨S64, .f32⟩ : BufTy).Contents (Elt F) → (⟨S64, .f32⟩ : BufTy).Contents (Elt F) → (⟨S64, .f32⟩ : BufTy).Contents (Elt F)),
    StableHlo.unary main_v82 main_v83 (Host.rsqrt : (⟨S64, .f32⟩ : BufTy).Contents (Elt F) → (⟨S64, .f32⟩ : BufTy).Contents (Elt F)),
    StableHlo.unary main_v83 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S100000x64 ![0, 1] bcast_S1x64_S100000x64_0_1 : (⟨S1x64, .f32⟩ : BufTy).Contents (Elt F) → (⟨S100000x64, .f32⟩ : BufTy).Contents (Elt F)),
    StableHlo.binary main_v80 main_v85 main_v86 (mulf : (⟨S100000x64, .f32⟩ : BufTy).Contents (Elt F) → (⟨S100000x64, .f32⟩ : BufTy).Contents (Elt F) → (⟨S100000x64, .f32⟩ : BufTy).Contents (Elt F)),
    StableHlo.unary main_arg11 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v86 main_v88 main_v89 (mulf : (⟨S100000x64, .f32⟩ : BufTy).Contents (Elt F) → (⟨S100000x64, .f32⟩ : BufTy).Contents (Elt F) → (⟨S100000x64, .f32⟩ : BufTy).Contents (Elt F)),
    StableHlo.unary main_arg12 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v91 main_v92 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v92 : StableHlo.TRef sig ⟨S100000x64, .f32⟩) main_call3.v0 main_call3.v1 maximumf ]

set_option maxRecDepth 8192 in
set_option maxHeartbeats 4000000 in
/-- Every operation of the list touches TensorCore references only. -/
theorem ops4_sub : (ops4 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

set_option maxRecDepth 8192 in
set_option maxHeartbeats 4000000 in
/-- Every operation of the list determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes, in order: one per operation. -/
abbrev writes4 : List (Ref sig .tc) :=
  [main_cst_14, main_v74, main_cst_15, main_v75, main_v76, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v77, main_v78, main_v79, main_v80, main_cst_17, main_v81, main_v82, main_v83, main_v84, main_v85, main_v86, main_v87, main_v88, main_v89, main_v90, main_v91, main_v92, main_call3_cst, main_call3_v0, main_v93]

set_option maxRecDepth 8192 in
set_option maxHeartbeats 4000000 in
/-- Each operation of the list writes its one result buffer, a member of the list of written buffers. -/
theorem ops4_writes : (ops4 : List (HloOp τ sig (Elt F))).Forall fun op => op.writes ⊆ (writes4.map (Proc.devRef (τ := τ) .tc)).toFinset :=
  ⟨Finset.singleton_subset_iff.2 (List.mem_toFinset.2 (List.mem_map.2 ⟨main_cst_14, by decide, rfl⟩)),
    Finset.singleton_subset_iff.2 (List.mem_toFinset.2 (List.mem_map.2 ⟨main_v74, by decide, rfl⟩)),
    Finset.singleton_subset_iff.2 (List.mem_toFinset.2 (List.mem_map.2 ⟨main_cst_15, by decide, rfl⟩)),
    Finset.singleton_subset_iff.2 (List.mem_toFinset.2 (List.mem_map.2 ⟨main_v75, by decide, rfl⟩)),
    Finset.singleton_subset_iff.2 (List.mem_toFinset.2 (List.mem_map.2 ⟨main_v76, by decide, rfl⟩)),
    Finset.singleton_subset_iff.2 (List.mem_toFinset.2 (List.mem_map.2 ⟨main_c_16, by decide, rfl⟩)),
    Finset.singleton_subset_iff.2 (List.mem_toFinset.2 (List.mem_map.2 ⟨main_call2_cst, by decide, rfl⟩)),
    Finset.singleton_subset_iff.2 (List.mem_toFinset.2 (List.mem_map.2 ⟨main_call2_v0, by decide, rfl⟩)),
    Finset.singleton_subset_iff.2 (List.mem_toFinset.2 (List.mem_map.2 ⟨main_call2_v1, by decide, rfl⟩)),
    Finset.singleton_subset_iff.2 (List.mem_toFinset.2 (List.mem_map.2 ⟨main_call2_cst_0, by decide, rfl⟩)),
    Finset.singleton_subset_iff.2 (List.mem_toFinset.2 (List.mem_map.2 ⟨main_call2_v2, by decide, rfl⟩)),
    Finset.singleton_subset_iff.2 (List.mem_toFinset.2 (List.mem_map.2 ⟨main_call2_v3, by decide, rfl⟩)),
    Finset.singleton_subset_iff.2 (List.mem_toFinset.2 (List.mem_map.2 ⟨main_call2_v4, by decide, rfl⟩)),
    Finset.singleton_subset_iff.2 (List.mem_toFinset.2 (List.mem_map.2 ⟨main_call2_v5, by decide, rfl⟩)),
    Finset.singleton_subset_iff.2 (List.mem_toFinset.2 (List.mem_map.2 ⟨main_call2_v6, by decide, rfl⟩)),
    Finset.singleton_subset_iff.2 (List.mem_toFinset.2 (List.mem_map.2 ⟨main_call2_v7, by decide, rfl⟩)),
    Finset.singleton_subset_iff.2 (List.mem_toFinset.2 (List.mem_map.2 ⟨main_call2_cst_1, by decide, rfl⟩)),
    Finset.singleton_subset_iff.2 (List.mem_toFinset.2 (List.mem_map.2 ⟨main_call2_v8, by decide, rfl⟩)),
    Finset.singleton_subset_iff.2 (List.mem_toFinset.2 (List.mem_map.2 ⟨main_call2_cst_2, by decide, rfl⟩)),
    Finset.singleton_subset_iff.2 (List.mem_toFinset.2 (List.mem_map.2 ⟨main_call2_v9, by decide, rfl⟩)),
    Finset.singleton_subset_iff.2 (List.mem_toFinset.2 (List.mem_map.2 ⟨main_call2_v10, by decide, rfl⟩)),
    Finset.singleton_subset_iff.2 (List.mem_toFinset.2 (List.mem_map.2 ⟨main_call2_v11, by decide, rfl⟩)),
    Finset.singleton_subset_iff.2 (List.mem_toFinset.2 (List.mem_map.2 ⟨main_call2_cst_3, by decide, rfl⟩)),
    Finset.singleton_subset_iff.2 (List.mem_toFinset.2 (List.mem_map.2 ⟨main_call2_v12, by decide, rfl⟩)),
    Finset.singleton_subset_iff.2 (List.mem_toFinset.2 (List.mem_map.2 ⟨main_call2_cst_4, by decide, rfl⟩)),
    Finset.singleton_subset_iff.2 (List.mem_toFinset.2 (List.mem_map.2 ⟨main_call2_call0_v0, by decide, rfl⟩)),
    Finset.singleton_subset_iff.2 (List.mem_toFinset.2 (List.mem_map.2 ⟨main_call2_call0_v1, by decide, rfl⟩)),
    Finset.singleton_subset_iff.2 (List.mem_toFinset.2 (List.mem_map.2 ⟨main_v77, by decide, rfl⟩)),
    Finset.singleton_subset_iff.2 (List.mem_toFinset.2 (List.mem_map.2 ⟨main_v78, by decide, rfl⟩)),
    Finset.singleton_subset_iff.2 (List.mem_toFinset.2 (List.mem_map.2 ⟨main_v79, by decide, rfl⟩)),
    Finset.singleton_subset_iff.2 (List.mem_toFinset.2 (List.mem_map.2 ⟨main_v80, by decide, rfl⟩)),
    Finset.singleton_subset_iff.2 (List.mem_toFinset.2 (List.mem_map.2 ⟨main_cst_17, by decide, rfl⟩)),
    Finset.singleton_subset_iff.2 (List.mem_toFinset.2 (List.mem_map.2 ⟨main_v81, by decide, rfl⟩)),
    Finset.singleton_subset_iff.2 (List.mem_toFinset.2 (List.mem_map.2 ⟨main_v82, by decide, rfl⟩)),
    Finset.singleton_subset_iff.2 (List.mem_toFinset.2 (List.mem_map.2 ⟨main_v83, by decide, rfl⟩)),
    Finset.singleton_subset_iff.2 (List.mem_toFinset.2 (List.mem_map.2 ⟨main_v84, by decide, rfl⟩)),
    Finset.singleton_subset_iff.2 (List.mem_toFinset.2 (List.mem_map.2 ⟨main_v85, by decide, rfl⟩)),
    Finset.singleton_subset_iff.2 (List.mem_toFinset.2 (List.mem_map.2 ⟨main_v86, by decide, rfl⟩)),
    Finset.singleton_subset_iff.2 (List.mem_toFinset.2 (List.mem_map.2 ⟨main_v87, by decide, rfl⟩)),
    Finset.singleton_subset_iff.2 (List.mem_toFinset.2 (List.mem_map.2 ⟨main_v88, by decide, rfl⟩)),
    Finset.singleton_subset_iff.2 (List.mem_toFinset.2 (List.mem_map.2 ⟨main_v89, by decide, rfl⟩)),
    Finset.singleton_subset_iff.2 (List.mem_toFinset.2 (List.mem_map.2 ⟨main_v90, by decide, rfl⟩)),
    Finset.singleton_subset_iff.2 (List.mem_toFinset.2 (List.mem_map.2 ⟨main_v91, by decide, rfl⟩)),
    Finset.singleton_subset_iff.2 (List.mem_toFinset.2 (List.mem_map.2 ⟨main_v92, by decide, rfl⟩)),
    Finset.singleton_subset_iff.2 (List.mem_toFinset.2 (List.mem_map.2 ⟨main_call3_cst, by decide, rfl⟩)),
    Finset.singleton_subset_iff.2 (List.mem_toFinset.2 (List.mem_map.2 ⟨main_call3_v0, by decide, rfl⟩)),
    Finset.singleton_subset_iff.2 (List.mem_toFinset.2 (List.mem_map.2 ⟨main_v93, by decide, rfl⟩))⟩

/-- A buffer the list does not write keeps its contents. -/
theorem ops4_keep (V : Valuation τ sig (Elt F)) {r : Ref sig .tc} (hr : r ∉ writes4) :
    after ops4 V (Proc.devRef .tc r) = V (Proc.devRef .tc r) :=
  after_of_writes_sub ops4 V ops4_writes hr

end Cert.ReferenceIdeal.RefRun

end
-- ==== Proof.RefOps5.lean ====
/-
  The reference program's operations 160 … 190 (of 265), in order, each module-local function's operations
  written inline at its call over the call's buffer record.  The list writes, in order:
  main_cst_18 main_v94 main_cst_19 main_v95 main_v96 main_v97 main_c_20 main_v98 main_v99 main_c_21 main_v100 main_v101 main_v102 main_v103 main_v104 main_cst_22 main_v105 main_v106 main_v107 main_cst_23 main_v108 main_v109 main_v110 main_v111 main_v112 main_v113 main_v114 main_v115 main_v116 main_v117 main_v118
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 160 … 190: 31 of them. -/
abbrev ops5 : List (HloOp τ sig (Elt F)) :=
  [ StableHlo.nullary main_cst_18 (constant S_ .f32 0x3F800000#32),
    StableHlo.unary main_cst_18 main_v94 (broadcastInDim S1600000 ![] bcast_S_S1600000 : (⟨S_, .f32⟩ : BufTy).Contents (Elt F) → (⟨S1600000, .f32⟩ : BufTy).Contents (Elt F)),
    StableHlo.nullary main_cst_19 (constant S_ .f32 0x00000000#32),
    StableHlo.unary main_cst_19 main_v95 (broadcastInDim S100000 ![] bcast_S_S100000 : (⟨S_, .f32⟩ : BufTy).Contents (Elt F) → (⟨S100000, .f32⟩ : BufTy).Contents (Elt F)),
    StableHlo.unary main_v3 main_v96 (broadcastInDim S1600000x1 ![0] bcast_S1600000_S1600000x1_0 : (⟨S1600000, .i32⟩ : BufTy).Contents (Elt F) → (⟨S1600000x1, .i32⟩ : BufTy).Contents (Elt F)),
    StableHlo.ternary main_v95 main_v96 main_v94 main_v97 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c_20 (constantI S_ 32 0#32),
    StableHlo.unary main_c_20 main_v98 (broadcastInDim S1600000 ![] bcast_S_S1600000 : (⟨S_, .i32⟩ : BufTy).Contents (Elt F) → (⟨S1600000, .i32⟩ : BufTy).Contents (Elt F)),
    StableHlo.binary main_v1 main_v98 main_v99 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v100 (broadcastInDim S1600000 ![] bcast_S_S1600000 : (⟨S_, .i32⟩ : BufTy).Contents (Elt F) → (⟨S1600000, .i32⟩ : BufTy).Contents (Elt F)),
    StableHlo.binary main_v1 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_v1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)),
    StableHlo.binary main_v93 main_v103 main_v104 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_22 (constant S_ .f32 0x00000000#32),
    StableHlo.unary main_cst_22 main_v105 (broadcastInDim S100000x64 ![] bcast_S_S100000x64 : (⟨S_, .f32⟩ : BufTy).Contents (Elt F) → (⟨S100000x64, .f32⟩ : BufTy).Contents (Elt F)),
    StableHlo.unary main_v3 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_23 (constant S_ .f32 0x3F800000#32),
    StableHlo.unary main_cst_23 main_v108 (broadcastInDim S100000 ![] bcast_S_S100000 : (⟨S_, .f32⟩ : BufTy).Contents (Elt F) → (⟨S100000, .f32⟩ : BufTy).Contents (Elt F)),
    StableHlo.binary main_v97 main_v108 main_v109 (maximumf : (⟨S100000, .f32⟩ : BufTy).Contents (Elt F) → (⟨S100000, .f32⟩ : BufTy).Contents (Elt F) → (⟨S100000, .f32⟩ : BufTy).Contents (Elt F)),
    StableHlo.unary main_v109 main_v110 (broadcastInDim S100000x1 ![0] bcast_S100000_S100000x1_0 : (⟨S100000, .f32⟩ : BufTy).Contents (Elt F) → (⟨S100000x1, .f32⟩ : BufTy).Contents (Elt F)),
    StableHlo.unary main_v110 main_v111 (broadcastInDim S100000x64 ![0, 1] bcast_S100000x1_S100000x64_0_1 : (⟨S100000x1, .f32⟩ : BufTy).Contents (Elt F) → (⟨S100000x64, .f32⟩ : BufTy).Contents (Elt F)),
    StableHlo.binary main_v107 main_v111 main_v112 (Host.divf : (⟨S100000x64, .f32⟩ : BufTy).Contents (Elt F) → (⟨S100000x64, .f32⟩ : BufTy).Contents (Elt F) → (⟨S100000x64, .f32⟩ : BufTy).Contents (Elt F)),
    StableHlo.binary main_v112 main_arg13 main_v113 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg14 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v115 main_v116 (addf : (⟨S100000x128, .f32⟩ : BufTy).Contents (Elt F) → (⟨S100000x128, .f32⟩ : BufTy).Contents (Elt F) → (⟨S100000x128, .f32⟩ : BufTy).Contents (Elt F)),
    StableHlo.binary main_v93 main_arg15 main_v117 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.binary main_v116 main_v117 main_v118 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- Every operation of the list touches TensorCore references only. -/
theorem ops5_sub : (ops5 : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩

set_option maxRecDepth 8192 in
set_option maxHeartbeats 4000000 in
/-- Every operation of the list determines its results. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes, in order: one per operation. -/
abbrev writes5 : List (Ref sig .tc) :=
  [main_cst_18, main_v94, main_cst_19, main_v95, main_v96, main_v97, main_c_20, main_v98, main_v99, main_c_21, main_v100, main_v101, main_v102, main_v103, main_v104, main_cst_22, main_v105, main_v106, main_v107, main_cst_23, main_v108, main_v109, main_v110, main_v111, main_v112, main_v113, main_v114, main_v115, main_v116, main_v117, main_v118]

set_option maxRecDepth 8192 in
set_option maxHeartbeats 4000000 in
/-- Each operation of the list writes its one result buffer, a member of the list of written buffers. -/
theorem ops5_writes : (ops5 : List (HloOp τ sig (Elt F))).Forall fun op => op.writes ⊆ (writes5.map (Proc.devRef (τ := τ) .tc)).toFinset :=
  ⟨Finset.singleton_subset_iff.2 (List.mem_toFinset.2 (List.mem_map.2 ⟨main_cst_18, by decide, rfl⟩)),
    Finset.singleton_subset_iff.2 (List.mem_toFinset.2 (List.mem_map.2 ⟨main_v94, by decide, rfl⟩)),
    Finset.singleton_subset_iff.2 (List.mem_toFinset.2 (List.mem_map.2 ⟨main_cst_19, by decide, rfl⟩)),
    Finset.singleton_subset_iff.2 (List.mem_toFinset.2 (List.mem_map.2 ⟨main_v95, by decide, rfl⟩)),
    Finset.singleton_subset_iff.2 (List.mem_toFinset.2 (List.mem_map.2 ⟨main_v96, by decide, rfl⟩)),
    Finset.singleton_subset_iff.2 (List.mem_toFinset.2 (List.mem_map.2 ⟨main_v97, by decide, rfl⟩)),
    Finset.singleton_subset_iff.2 (List.mem_toFinset.2 (List.mem_map.2 ⟨main_c_20, by decide, rfl⟩)),
    Finset.singleton_subset_iff.2 (List.mem_toFinset.2 (List.mem_map.2 ⟨main_v98, by decide, rfl⟩)),
    Finset.singleton_subset_iff.2 (List.mem_toFinset.2 (List.mem_map.2 ⟨main_v99, by decide, rfl⟩)),
    Finset.singleton_subset_iff.2 (List.mem_toFinset.2 (List.mem_map.2 ⟨main_c_21, by decide, rfl⟩)),
    Finset.singleton_subset_iff.2 (List.mem_toFinset.2 (List.mem_map.2 ⟨main_v100, by decide, rfl⟩)),
    Finset.singleton_subset_iff.2 (List.mem_toFinset.2 (List.mem_map.2 ⟨main_v101, by decide, rfl⟩)),
    Finset.singleton_subset_iff.2 (List.mem_toFinset.2 (List.mem_map.2 ⟨main_v102, by decide, rfl⟩)),
    Finset.singleton_subset_iff.2 (List.mem_toFinset.2 (List.mem_map.2 ⟨main_v103, by decide, rfl⟩)),
    Finset.singleton_subset_iff.2 (List.mem_toFinset.2 (List.mem_map.2 ⟨main_v104, by decide, rfl⟩)),
    Finset.singleton_subset_iff.2 (List.mem_toFinset.2 (List.mem_map.2 ⟨main_cst_22, by decide, rfl⟩)),
    Finset.singleton_subset_iff.2 (List.mem_toFinset.2 (List.mem_map.2 ⟨main_v105, by decide, rfl⟩)),
    Finset.singleton_subset_iff.2 (List.mem_toFinset.2 (List.mem_map.2 ⟨main_v106, by decide, rfl⟩)),
    Finset.singleton_subset_iff.2 (List.mem_toFinset.2 (List.mem_map.2 ⟨main_v107, by decide, rfl⟩)),
    Finset.singleton_subset_iff.2 (List.mem_toFinset.2 (List.mem_map.2 ⟨main_cst_23, by decide, rfl⟩)),
    Finset.singleton_subset_iff.2 (List.mem_toFinset.2 (List.mem_map.2 ⟨main_v108, by decide, rfl⟩)),
    Finset.singleton_subset_iff.2 (List.mem_toFinset.2 (List.mem_map.2 ⟨main_v109, by decide, rfl⟩)),
    Finset.singleton_subset_iff.2 (List.mem_toFinset.2 (List.mem_map.2 ⟨main_v110, by decide, rfl⟩)),
    Finset.singleton_subset_iff.2 (List.mem_toFinset.2 (List.mem_map.2 ⟨main_v111, by decide, rfl⟩)),
    Finset.singleton_subset_iff.2 (List.mem_toFinset.2 (List.mem_map.2 ⟨main_v112, by decide, rfl⟩)),
    Finset.singleton_subset_iff.2 (List.mem_toFinset.2 (List.mem_map.2 ⟨main_v113, by decide, rfl⟩)),
    Finset.singleton_subset_iff.2 (List.mem_toFinset.2 (List.mem_map.2 ⟨main_v114, by decide, rfl⟩)),
    Finset.singleton_subset_iff.2 (List.mem_toFinset.2 (List.mem_map.2 ⟨main_v115, by decide, rfl⟩)),
    Finset.singleton_subset_iff.2 (List.mem_toFinset.2 (List.mem_map.2 ⟨main_v116, by decide, rfl⟩)),
    Finset.singleton_subset_iff.2 (List.mem_toFinset.2 (List.mem_map.2 ⟨main_v117, by decide, rfl⟩)),
    Finset.singleton_subset_iff.2 (List.mem_toFinset.2 (List.mem_map.2 ⟨main_v118, by decide, rfl⟩))⟩

/-- A buffer the list does not write keeps its contents. -/
theorem ops5_keep (V : Valuation τ sig (Elt F)) {r : Ref sig .tc} (hr : r ∉ writes5) :
    after ops5 V (Proc.devRef .tc r) = V (Proc.devRef .tc r) :=
  after_of_writes_sub ops5 V ops5_writes hr

end Cert.ReferenceIdeal.RefRun

end
-- ==== Proof.RefOps6.lean ====
/-
  The reference program's operations 191 … 237 (of 265), in order, each module-local function's operations
  written inline at its call over the call's buffer record.  The list writes, in order:
  main_cst_24 main_v119 main_cst_25 main_v120 main_v121 main_c_26 main_call4_cst main_call4_v0 main_call4_v1 main_call4_cst_0 main_call4_v2 main_call4_v3 main_call4_v4 main_call4_v5 main_call4_v6 main_call4_v7 main_call4_cst_1 main_call4_v8 main_call4_cst_2 main_call4_v9 main_call4_v10 main_call4_v11 main_call4_cst_3 main_call4_v12 main_call4_cst_4 main_call4_call0_v0 main_call4_call0_v1 main_v122 main_v123 main_v124 main_v125 main_cst_27 main_v126 main_v127 main_v128 main_v129 main_v130 main_v131 main_v132 main_v133 main_v134 main_v135 main_v136 main_v137 main_call5_cst main_call5_v0 main_v138
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 191 … 237: 47 of them. -/
abbrev ops6 : List (HloOp τ sig (Elt F)) :=
  [ StableHlo.nullary main_cst_24 (constant S_ .f32 0x00000000#32),
    StableHlo.binary main_v118 main_cst_24 main_v119 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_25 (constant S_ .f32 0x47C35000#32),
    StableHlo.unary main_cst_25 main_v120 (broadcastInDim S128 ![] bcast_S_S128 : (⟨S_, .f32⟩ : BufTy).Contents (Elt F) → (⟨S128, .f32⟩ : BufTy).Contents (Elt F)),
    StableHlo.binary main_v119 main_v120 main_v121 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call4.cst (constant S_ .f32 0x00000000#32),
    StableHlo.TRef.binary (.of main_v118 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v118 : StableHlo.TRef sig ⟨S100000x128, .f32⟩) main_call4.v4 main_call4.v5 subf,
    StableHlo.TRef.binary main_call4.v5 main_call4.v5 main_call4.v6 mulf,
    StableHlo.TRef.unary (.of main_c_26 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v121 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v124 main_v125 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v126 (broadcastInDim S128 ![] bcast_S_S128 : (⟨S_, .f32⟩ : BufTy).Contents (Elt F) → (⟨S128, .f32⟩ : BufTy).Contents (Elt F)),
    StableHlo.binary main_v122 main_v126 main_v127 (addf : (⟨S128, .f32⟩ : BufTy).Contents (Elt F) → (⟨S128, .f32⟩ : BufTy).Contents (Elt F) → (⟨S128, .f32⟩ : BufTy).Contents (Elt F)),
    StableHlo.unary main_v127 main_v128 (Host.rsqrt : (⟨S128, .f32⟩ : BufTy).Contents (Elt F) → (⟨S128, .f32⟩ : BufTy).Contents (Elt F)),
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v130 main_v131 (mulf : (⟨S100000x128, .f32⟩ : BufTy).Contents (Elt F) → (⟨S100000x128, .f32⟩ : BufTy).Contents (Elt F) → (⟨S100000x128, .f32⟩ : BufTy).Contents (Elt F)),
    StableHlo.unary main_arg16 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v133 main_v134 (mulf : (⟨S100000x128, .f32⟩ : BufTy).Contents (Elt F) → (⟨S100000x128, .f32⟩ : BufTy).Contents (Elt F) → (⟨S100000x128, .f32⟩ : BufTy).Contents (Elt F)),
    StableHlo.unary main_arg17 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v134 main_v136 main_v137 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v137 : StableHlo.TRef sig ⟨S100000x128, .f32⟩) main_call5.v0 main_call5.v1 maximumf ]

set_option maxRecDepth 8192 in
set_option maxHeartbeats 4000000 in
/-- Every operation of the list touches TensorCore references only. -/
theorem ops6_sub : (ops6 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

set_option maxRecDepth 8192 in
set_option maxHeartbeats 4000000 in
/-- Every operation of the list determines its results. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the list writes, in order: one per operation. -/
abbrev writes6 : List (Ref sig .tc) :=
  [main_cst_24, main_v119, main_cst_25, main_v120, main_v121, main_c_26, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v122, main_v123, main_v124, main_v125, main_cst_27, main_v126, main_v127, main_v128, main_v129, main_v130, main_v131, main_v132, main_v133, main_v134, main_v135, main_v136, main_v137, main_call5_cst, main_call5_v0, main_v138]

set_option maxRecDepth 8192 in
set_option maxHeartbeats 4000000 in
/-- Each operation of the list writes its one result buffer, a member of the list of written buffers. -/
theorem ops6_writes : (ops6 : List (HloOp τ sig (Elt F))).Forall fun op => op.writes ⊆ (writes6.map (Proc.devRef (τ := τ) .tc)).toFinset :=
  ⟨Finset.singleton_subset_iff.2 (List.mem_toFinset.2 (List.mem_map.2 ⟨main_cst_24, by decide, rfl⟩)),
    Finset.singleton_subset_iff.2 (List.mem_toFinset.2 (List.mem_map.2 ⟨main_v119, by decide, rfl⟩)),
    Finset.singleton_subset_iff.2 (List.mem_toFinset.2 (List.mem_map.2 ⟨main_cst_25, by decide, rfl⟩)),
    Finset.singleton_subset_iff.2 (List.mem_toFinset.2 (List.mem_map.2 ⟨main_v120, by decide, rfl⟩)),
    Finset.singleton_subset_iff.2 (List.mem_toFinset.2 (List.mem_map.2 ⟨main_v121, by decide, rfl⟩)),
    Finset.singleton_subset_iff.2 (List.mem_toFinset.2 (List.mem_map.2 ⟨main_c_26, by decide, rfl⟩)),
    Finset.singleton_subset_iff.2 (List.mem_toFinset.2 (List.mem_map.2 ⟨main_call4_cst, by decide, rfl⟩)),
    Finset.singleton_subset_iff.2 (List.mem_toFinset.2 (List.mem_map.2 ⟨main_call4_v0, by decide, rfl⟩)),
    Finset.singleton_subset_iff.2 (List.mem_toFinset.2 (List.mem_map.2 ⟨main_call4_v1, by decide, rfl⟩)),
    Finset.singleton_subset_iff.2 (List.mem_toFinset.2 (List.mem_map.2 ⟨main_call4_cst_0, by decide, rfl⟩)),
    Finset.singleton_subset_iff.2 (List.mem_toFinset.2 (List.mem_map.2 ⟨main_call4_v2, by decide, rfl⟩)),
    Finset.singleton_subset_iff.2 (List.mem_toFinset.2 (List.mem_map.2 ⟨main_call4_v3, by decide, rfl⟩)),
    Finset.singleton_subset_iff.2 (List.mem_toFinset.2 (List.mem_map.2 ⟨main_call4_v4, by decide, rfl⟩)),
    Finset.singleton_subset_iff.2 (List.mem_toFinset.2 (List.mem_map.2 ⟨main_call4_v5, by decide, rfl⟩)),
    Finset.singleton_subset_iff.2 (List.mem_toFinset.2 (List.mem_map.2 ⟨main_call4_v6, by decide, rfl⟩)),
    Finset.singleton_subset_iff.2 (List.mem_toFinset.2 (List.mem_map.2 ⟨main_call4_v7, by decide, rfl⟩)),
    Finset.singleton_subset_iff.2 (List.mem_toFinset.2 (List.mem_map.2 ⟨main_call4_cst_1, by decide, rfl⟩)),
    Finset.singleton_subset_iff.2 (List.mem_toFinset.2 (List.mem_map.2 ⟨main_call4_v8, by decide, rfl⟩)),
    Finset.singleton_subset_iff.2 (List.mem_toFinset.2 (List.mem_map.2 ⟨main_call4_cst_2, by decide, rfl⟩)),
    Finset.singleton_subset_iff.2 (List.mem_toFinset.2 (List.mem_map.2 ⟨main_call4_v9, by decide, rfl⟩)),
    Finset.singleton_subset_iff.2 (List.mem_toFinset.2 (List.mem_map.2 ⟨main_call4_v10, by decide, rfl⟩)),
    Finset.singleton_subset_iff.2 (List.mem_toFinset.2 (List.mem_map.2 ⟨main_call4_v11, by decide, rfl⟩)),
    Finset.singleton_subset_iff.2 (List.mem_toFinset.2 (List.mem_map.2 ⟨main_call4_cst_3, by decide, rfl⟩)),
    Finset.singleton_subset_iff.2 (List.mem_toFinset.2 (List.mem_map.2 ⟨main_call4_v12, by decide, rfl⟩)),
    Finset.singleton_subset_iff.2 (List.mem_toFinset.2 (List.mem_map.2 ⟨main_call4_cst_4, by decide, rfl⟩)),
    Finset.singleton_subset_iff.2 (List.mem_toFinset.2 (List.mem_map.2 ⟨main_call4_call0_v0, by decide, rfl⟩)),
    Finset.singleton_subset_iff.2 (List.mem_toFinset.2 (List.mem_map.2 ⟨main_call4_call0_v1, by decide, rfl⟩)),
    Finset.singleton_subset_iff.2 (List.mem_toFinset.2 (List.mem_map.2 ⟨main_v122, by decide, rfl⟩)),
    Finset.singleton_subset_iff.2 (List.mem_toFinset.2 (List.mem_map.2 ⟨main_v123, by decide, rfl⟩)),
    Finset.singleton_subset_iff.2 (List.mem_toFinset.2 (List.mem_map.2 ⟨main_v124, by decide, rfl⟩)),
    Finset.singleton_subset_iff.2 (List.mem_toFinset.2 (List.mem_map.2 ⟨main_v125, by decide, rfl⟩)),
    Finset.singleton_subset_iff.2 (List.mem_toFinset.2 (List.mem_map.2 ⟨main_cst_27, by decide, rfl⟩)),
    Finset.singleton_subset_iff.2 (List.mem_toFinset.2 (List.mem_map.2 ⟨main_v126, by decide, rfl⟩)),
    Finset.singleton_subset_iff.2 (List.mem_toFinset.2 (List.mem_map.2 ⟨main_v127, by decide, rfl⟩)),
    Finset.singleton_subset_iff.2 (List.mem_toFinset.2 (List.mem_map.2 ⟨main_v128, by decide, rfl⟩)),
    Finset.singleton_subset_iff.2 (List.mem_toFinset.2 (List.mem_map.2 ⟨main_v129, by decide, rfl⟩)),
    Finset.singleton_subset_iff.2 (List.mem_toFinset.2 (List.mem_map.2 ⟨main_v130, by decide, rfl⟩)),
    Finset.singleton_subset_iff.2 (List.mem_toFinset.2 (List.mem_map.2 ⟨main_v131, by decide, rfl⟩)),
    Finset.singleton_subset_iff.2 (List.mem_toFinset.2 (List.mem_map.2 ⟨main_v132, by decide, rfl⟩)),
    Finset.singleton_subset_iff.2 (List.mem_toFinset.2 (List.mem_map.2 ⟨main_v133, by decide, rfl⟩)),
    Finset.singleton_subset_iff.2 (List.mem_toFinset.2 (List.mem_map.2 ⟨main_v134, by decide, rfl⟩)),
    Finset.singleton_subset_iff.2 (List.mem_toFinset.2 (List.mem_map.2 ⟨main_v135, by decide, rfl⟩)),
    Finset.singleton_subset_iff.2 (List.mem_toFinset.2 (List.mem_map.2 ⟨main_v136, by decide, rfl⟩)),
    Finset.singleton_subset_iff.2 (List.mem_toFinset.2 (List.mem_map.2 ⟨main_v137, by decide, rfl⟩)),
    Finset.singleton_subset_iff.2 (List.mem_toFinset.2 (List.mem_map.2 ⟨main_call5_cst, by decide, rfl⟩)),
    Finset.singleton_subset_iff.2 (List.mem_toFinset.2 (List.mem_map.2 ⟨main_call5_v0, by decide, rfl⟩)),
    Finset.singleton_subset_iff.2 (List.mem_toFinset.2 (List.mem_map.2 ⟨main_v138, by decide, rfl⟩))⟩

/-- A buffer the list does not write keeps its contents. -/
theorem ops6_keep (V : Valuation τ sig (Elt F)) {r : Ref sig .tc} (hr : r ∉ writes6) :
    after ops6 V (Proc.devRef .tc r) = V (Proc.devRef .tc r) :=
  after_of_writes_sub ops6 V ops6_writes hr

end Cert.ReferenceIdeal.RefRun

end
-- ==== Proof.RefOps7.lean ====
/-
  The reference program's operations 238 … 264 (of 265), in order, each module-local function's operations
  written inline at its call over the call's buffer record.  The list writes, in order:
  main_cst_28 main_v139 main_cst_29 main_v140 main_v141 main_v142 main_cst_30 main_v143 main_v144 main_v145 main_cst_31 main_v146 main_v147 main_v148 main_v149 main_v150 main_v151 main_v152 main_v153 main_v154 main_call6_cst main_call6_v0 main_v155 main_v156 main_v157 main_v158 main_v159
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Operations 238 … 264: 27 of them. -/
abbrev ops7 : List (HloOp τ sig (Elt F)) :=
  [ StableHlo.nullary main_cst_28 (constant S_ .f32 0x3F800000#32),
    StableHlo.unary main_cst_28 main_v139 (broadcastInDim S100000 ![] bcast_S_S100000 : (⟨S_, .f32⟩ : BufTy).Contents (Elt F) → (⟨S100000, .f32⟩ : BufTy).Contents (Elt F)),
    StableHlo.nullary main_cst_29 (constant S_ .f32 0x00000000#32),
    StableHlo.unary main_cst_29 main_v140 (broadcastInDim S64 ![] bcast_S_S64 : (⟨S_, .f32⟩ : BufTy).Contents (Elt F) → (⟨S64, .f32⟩ : BufTy).Contents (Elt F)),
    StableHlo.unary main_arg2 main_v141 (broadcastInDim S100000x1 ![0] bcast_S100000_S100000x1_0 : (⟨S100000, .i32⟩ : BufTy).Contents (Elt F) → (⟨S100000x1, .i32⟩ : BufTy).Contents (Elt F)),
    StableHlo.ternary main_v140 main_v141 main_v139 main_v142 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_30 (constant S_ .f32 0x00000000#32),
    StableHlo.unary main_cst_30 main_v143 (broadcastInDim S64x128 ![] bcast_S_S64x128 : (⟨S_, .f32⟩ : BufTy).Contents (Elt F) → (⟨S64x128, .f32⟩ : BufTy).Contents (Elt F)),
    StableHlo.unary main_arg2 main_v144 (broadcastInDim S100000x1 ![0] bcast_S100000_S100000x1_0 : (⟨S100000, .i32⟩ : BufTy).Contents (Elt F) → (⟨S100000x1, .i32⟩ : BufTy).Contents (Elt F)),
    StableHlo.ternary main_v143 main_v144 main_v138 main_v145 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_31 (constant S_ .f32 0x3F800000#32),
    StableHlo.unary main_cst_31 main_v146 (broadcastInDim S64 ![] bcast_S_S64 : (⟨S_, .f32⟩ : BufTy).Contents (Elt F) → (⟨S64, .f32⟩ : BufTy).Contents (Elt F)),
    StableHlo.binary main_v142 main_v146 main_v147 (maximumf : (⟨S64, .f32⟩ : BufTy).Contents (Elt F) → (⟨S64, .f32⟩ : BufTy).Contents (Elt F) → (⟨S64, .f32⟩ : BufTy).Contents (Elt F)),
    StableHlo.unary main_v147 main_v148 (broadcastInDim S64x1 ![0] bcast_S64_S64x1_0 : (⟨S64, .f32⟩ : BufTy).Contents (Elt F) → (⟨S64x1, .f32⟩ : BufTy).Contents (Elt F)),
    StableHlo.unary main_v148 main_v149 (broadcastInDim S64x128 ![0, 1] bcast_S64x1_S64x128_0_1 : (⟨S64x1, .f32⟩ : BufTy).Contents (Elt F) → (⟨S64x128, .f32⟩ : BufTy).Contents (Elt F)),
    StableHlo.binary main_v145 main_v149 main_v150 (Host.divf : (⟨S64x128, .f32⟩ : BufTy).Contents (Elt F) → (⟨S64x128, .f32⟩ : BufTy).Contents (Elt F) → (⟨S64x128, .f32⟩ : BufTy).Contents (Elt F)),
    StableHlo.binary main_v150 main_arg18 main_v151 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg19 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S64x64 ![0, 1] bcast_S1x64_S64x64_0_1 : (⟨S1x64, .f32⟩ : BufTy).Contents (Elt F) → (⟨S64x64, .f32⟩ : BufTy).Contents (Elt F)),
    StableHlo.binary main_v151 main_v153 main_v154 (addf : (⟨S64x64, .f32⟩ : BufTy).Contents (Elt F) → (⟨S64x64, .f32⟩ : BufTy).Contents (Elt F) → (⟨S64x64, .f32⟩ : BufTy).Contents (Elt F)),
    StableHlo.TRef.nullary main_call6.cst (constant S_ .f32 0x00000000#32),
    StableHlo.TRef.unary main_call6.cst main_call6.v0 (broadcastInDim S64x64 ![] bcast_S_S64x64),
    StableHlo.TRef.binary (.of main_v154 : StableHlo.TRef sig ⟨S64x64, .f32⟩) main_call6.v0 main_call6.v1 maximumf,
    StableHlo.binary main_v155 main_arg20 main_v156 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),
    StableHlo.unary main_arg21 main_v157 (broadcastInDim S1x1 ![1] bcast_S1_S1x1_1 : (⟨S1, .f32⟩ : BufTy).Contents (Elt F) → (⟨S1x1, .f32⟩ : BufTy).Contents (Elt F)),
    StableHlo.unary main_v157 main_v158 (broadcastInDim S64x1 ![0, 1] bcast_S1x1_S64x1_0_1 : (⟨S1x1, .f32⟩ : BufTy).Contents (Elt F) → (⟨S64x1, .f32⟩ : BufTy).Contents (Elt F)),
    StableHlo.binary main_v156 main_v158 main_v159 (addf : (⟨S64x1, .f32⟩ : BufTy).Contents (Elt F) → (⟨S64x1, .f32⟩ : BufTy).Contents (Elt F) → (⟨S64x1, .f32⟩ : BufTy).Contents (Elt F)) ]

set_option maxRecDepth 8192 in
set_option maxHeartbeats 4000000 in
/-- Every operation of the list touches TensorCore references only. -/
theorem ops7_sub : (ops7 : List (HloOp τ sig (Elt F))).Forall fun op => op.bufs ⊆ tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

set_option maxRecDepth 8192 in
set_option maxHeartbeats 4000000 in
/-- Every operation of the list determines its results. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The buffers the list writes, in order: one per operation. -/
abbrev writes7 : List (Ref sig .tc) :=
  [main_cst_28, main_v139, main_cst_29, main_v140, main_v141, main_v142, main_cst_30, main_v143, main_v144, main_v145, main_cst_31, main_v146, main_v147, main_v148, main_v149, main_v150, main_v151, main_v152, main_v153, main_v154, main_call6_cst, main_call6_v0, main_v155, main_v156, main_v157, main_v158, main_v159]

set_option maxRecDepth 8192 in
set_option maxHeartbeats 4000000 in
/-- Each operation of the list writes its one result buffer, a member of the list of written buffers. -/
theorem ops7_writes : (ops7 : List (HloOp τ sig (Elt F))).Forall fun op => op.writes ⊆ (writes7.map (Proc.devRef (τ := τ) .tc)).toFinset :=
  ⟨Finset.singleton_subset_iff.2 (List.mem_toFinset.2 (List.mem_map.2 ⟨main_cst_28, by decide, rfl⟩)),
    Finset.singleton_subset_iff.2 (List.mem_toFinset.2 (List.mem_map.2 ⟨main_v139, by decide, rfl⟩)),
    Finset.singleton_subset_iff.2 (List.mem_toFinset.2 (List.mem_map.2 ⟨main_cst_29, by decide, rfl⟩)),
    Finset.singleton_subset_iff.2 (List.mem_toFinset.2 (List.mem_map.2 ⟨main_v140, by decide, rfl⟩)),
    Finset.singleton_subset_iff.2 (List.mem_toFinset.2 (List.mem_map.2 ⟨main_v141, by decide, rfl⟩)),
    Finset.singleton_subset_iff.2 (List.mem_toFinset.2 (List.mem_map.2 ⟨main_v142, by decide, rfl⟩)),
    Finset.singleton_subset_iff.2 (List.mem_toFinset.2 (List.mem_map.2 ⟨main_cst_30, by decide, rfl⟩)),
    Finset.singleton_subset_iff.2 (List.mem_toFinset.2 (List.mem_map.2 ⟨main_v143, by decide, rfl⟩)),
    Finset.singleton_subset_iff.2 (List.mem_toFinset.2 (List.mem_map.2 ⟨main_v144, by decide, rfl⟩)),
    Finset.singleton_subset_iff.2 (List.mem_toFinset.2 (List.mem_map.2 ⟨main_v145, by decide, rfl⟩)),
    Finset.singleton_subset_iff.2 (List.mem_toFinset.2 (List.mem_map.2 ⟨main_cst_31, by decide, rfl⟩)),
    Finset.singleton_subset_iff.2 (List.mem_toFinset.2 (List.mem_map.2 ⟨main_v146, by decide, rfl⟩)),
    Finset.singleton_subset_iff.2 (List.mem_toFinset.2 (List.mem_map.2 ⟨main_v147, by decide, rfl⟩)),
    Finset.singleton_subset_iff.2 (List.mem_toFinset.2 (List.mem_map.2 ⟨main_v148, by decide, rfl⟩)),
    Finset.singleton_subset_iff.2 (List.mem_toFinset.2 (List.mem_map.2 ⟨main_v149, by decide, rfl⟩)),
    Finset.singleton_subset_iff.2 (List.mem_toFinset.2 (List.mem_map.2 ⟨main_v150, by decide, rfl⟩)),
    Finset.singleton_subset_iff.2 (List.mem_toFinset.2 (List.mem_map.2 ⟨main_v151, by decide, rfl⟩)),
    Finset.singleton_subset_iff.2 (List.mem_toFinset.2 (List.mem_map.2 ⟨main_v152, by decide, rfl⟩)),
    Finset.singleton_subset_iff.2 (List.mem_toFinset.2 (List.mem_map.2 ⟨main_v153, by decide, rfl⟩)),
    Finset.singleton_subset_iff.2 (List.mem_toFinset.2 (List.mem_map.2 ⟨main_v154, by decide, rfl⟩)),
    Finset.singleton_subset_iff.2 (List.mem_toFinset.2 (List.mem_map.2 ⟨main_call6_cst, by decide, rfl⟩)),
    Finset.singleton_subset_iff.2 (List.mem_toFinset.2 (List.mem_map.2 ⟨main_call6_v0, by decide, rfl⟩)),
    Finset.singleton_subset_iff.2 (List.mem_toFinset.2 (List.mem_map.2 ⟨main_v155, by decide, rfl⟩)),
    Finset.singleton_subset_iff.2 (List.mem_toFinset.2 (List.mem_map.2 ⟨main_v156, by decide, rfl⟩)),
    Finset.singleton_subset_iff.2 (List.mem_toFinset.2 (List.mem_map.2 ⟨main_v157, by decide, rfl⟩)),
    Finset.singleton_subset_iff.2 (List.mem_toFinset.2 (List.mem_map.2 ⟨main_v158, by decide, rfl⟩)),
    Finset.singleton_subset_iff.2 (List.mem_toFinset.2 (List.mem_map.2 ⟨main_v159, by decide, rfl⟩))⟩

/-- A buffer the list does not write keeps its contents. -/
theorem ops7_keep (V : Valuation τ sig (Elt F)) {r : Ref sig .tc} (hr : r ∉ writes7) :
    after ops7 V (Proc.devRef .tc r) = V (Proc.devRef .tc r) :=
  after_of_writes_sub ops7 V ops7_writes hr

end Cert.ReferenceIdeal.RefRun

end
-- ==== Proof.RefWin0.lean ====
/-
  The operations of @main's printed window main_part0, in order, each module-local function's operations written
  inline at its call over the call's buffer record: 83 operations.
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 0 of @main: 83 operations. -/
abbrev win0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x3F800000#32),
    StableHlo.unary main_cst main_v4 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c (constantI S_ 32 0#32),
    StableHlo.unary main_c main_v8 (broadcastInDim S1600000 ![] bcast_S_S1600000 : (⟨S_, .i32⟩ : BufTy).Contents (Elt F) → (⟨S1600000, .i32⟩ : BufTy).Contents (Elt F)),
    StableHlo.binary main_v1 main_v8 main_v9 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v10 (broadcastInDim S1600000 ![] bcast_S_S1600000 : (⟨S_, .i32⟩ : BufTy).Contents (Elt F) → (⟨S1600000, .i32⟩ : BufTy).Contents (Elt F)),
    StableHlo.binary main_v1 main_v10 main_v11 (addi : (⟨S1600000, .i32⟩ : BufTy).Contents (Elt F) → (⟨S1600000, .i32⟩ : BufTy).Contents (Elt F) → (⟨S1600000, .i32⟩ : BufTy).Contents (Elt F)),
    StableHlo.ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v12 main_v13 (broadcastInDim S1600000x1 ![0] bcast_S1600000_S1600000x1_0 : (⟨S1600000, .i32⟩ : BufTy).Contents (Elt F) → (⟨S1600000x1, .i32⟩ : BufTy).Contents (Elt F)),
    StableHlo.binary main_arg0 main_v13 main_v14 ((fun x i => Host.gather gather_S100000x2_S1600000x1_S1600000x2_1_0_n_n_0_1_12 x i) : (⟨S100000x2, .f32⟩ : BufTy).Contents (Elt F) → (⟨S1600000x1, .i32⟩ : BufTy).Contents (Elt F) → (⟨S1600000x2, .f32⟩ : BufTy).Contents (Elt F)),
    StableHlo.nullary main_cst_2 (constant S_ .f32 0x00000000#32),
    StableHlo.unary main_cst_2 main_v15 (broadcastInDim S100000x2 ![] bcast_S_S100000x2 : (⟨S_, .f32⟩ : BufTy).Contents (Elt F) → (⟨S100000x2, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000x2_S1600000x1_S1600000x2_1_0_0_1 x i u) : (⟨S100000x2, .f32⟩ : BufTy).Contents (Elt F) → (⟨S1600000x1, .i32⟩ : BufTy).Contents (Elt F) → (⟨S1600000x2, .f32⟩ : BufTy).Contents (Elt F) → (⟨S100000x2, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v7 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x2 ![0, 1] bcast_S100000x1_S100000x2_0_1 : (⟨S100000x1, .f32⟩ : BufTy).Contents (Elt F) → (⟨S100000x2, .f32⟩ : BufTy).Contents (Elt F)),
    StableHlo.binary main_v17 main_v21 main_v22 (Host.divf : (⟨S100000x2, .f32⟩ : BufTy).Contents (Elt F) → (⟨S100000x2, .f32⟩ : BufTy).Contents (Elt F) → (⟨S100000x2, .f32⟩ : BufTy).Contents (Elt F)),
    StableHlo.binary main_v22 main_arg3 main_v23 ((fun l r => Host.dotGeneral dot_S100000x2_S2x32_S100000x32_1_0_0_1_n_n none l r) : (⟨S100000x2, .f32⟩ : BufTy).Contents (Elt F) → (⟨S2x32, .f32⟩ : BufTy).Contents (Elt F) → (⟨S100000x32, .f32⟩ : BufTy).Contents (Elt F)),
    StableHlo.unary main_arg4 main_v24 (broadcastInDim S1x32 ![1] bcast_S32_S1x32_1 : (⟨S32, .f32⟩ : BufTy).Contents (Elt F) → (⟨S1x32, .f32⟩ : BufTy).Contents (Elt F)),
    StableHlo.unary main_v24 main_v25 (broadcastInDim S100000x32 ![0, 1] bcast_S1x32_S100000x32_0_1 : (⟨S1x32, .f32⟩ : BufTy).Contents (Elt F) → (⟨S100000x32, .f32⟩ : BufTy).Contents (Elt F)),
    StableHlo.binary main_v23 main_v25 main_v26 (addf : (⟨S100000x32, .f32⟩ : BufTy).Contents (Elt F) → (⟨S100000x32, .f32⟩ : BufTy).Contents (Elt F) → (⟨S100000x32, .f32⟩ : BufTy).Contents (Elt F)),
    StableHlo.binary main_arg0 main_arg5 main_v27 ((fun l r => Host.dotGeneral dot_S100000x2_S2x32_S100000x32_1_0_0_1_n_n none l r) : (⟨S100000x2, .f32⟩ : BufTy).Contents (Elt F) → (⟨S2x32, .f32⟩ : BufTy).Contents (Elt F) → (⟨S100000x32, .f32⟩ : BufTy).Contents (Elt F)),
    StableHlo.binary main_v26 main_v27 main_v28 (addf : (⟨S100000x32, .f32⟩ : BufTy).Contents (Elt F) → (⟨S100000x32, .f32⟩ : BufTy).Contents (Elt F) → (⟨S100000x32, .f32⟩ : BufTy).Contents (Elt F)),
    StableHlo.nullary main_cst_4 (constant S_ .f32 0x00000000#32),
    StableHlo.binary main_v28 main_cst_4 main_v29 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_5 (constant S_ .f32 0x47C35000#32),
    StableHlo.unary main_cst_5 main_v30 (broadcastInDim S32 ![] bcast_S_S32 : (⟨S_, .f32⟩ : BufTy).Contents (Elt F) → (⟨S32, .f32⟩ : BufTy).Contents (Elt F)),
    StableHlo.binary main_v29 main_v30 main_v31 (Host.divf : (⟨S32, .f32⟩ : BufTy).Contents (Elt F) → (⟨S32, .f32⟩ : BufTy).Contents (Elt F) → (⟨S32, .f32⟩ : BufTy).Contents (Elt F)),
    StableHlo.nullary main_c_6 (constantI S_ 32 0#32),
    StableHlo.TRef.nullary main_call0.cst (constant S_ .f32 0x00000000#32),
    StableHlo.TRef.binary (.of main_v28 : StableHlo.TRef sig ⟨S100000x32, .f32⟩) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (.of main_v28 : StableHlo.TRef sig ⟨S100000x32, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v31 main_v33 (broadcastInDim S1x32 ![1] bcast_S32_S1x32_1 : (⟨S32, .f32⟩ : BufTy).Contents (Elt F) → (⟨S1x32, .f32⟩ : BufTy).Contents (Elt F)),
    StableHlo.unary main_v33 main_v34 (broadcastInDim S100000x32 ![0, 1] bcast_S1x32_S100000x32_0_1 : (⟨S1x32, .f32⟩ : BufTy).Contents (Elt F) → (⟨S100000x32, .f32⟩ : BufTy).Contents (Elt F)),
    StableHlo.binary main_v28 main_v34 main_v35 (subf : (⟨S100000x32, .f32⟩ : BufTy).Contents (Elt F) → (⟨S100000x32, .f32⟩ : BufTy).Contents (Elt F) → (⟨S100000x32, .f32⟩ : BufTy).Contents (Elt F)),
    StableHlo.nullary main_cst_7 (constant S_ .f32 0x3727C5AC#32),
    StableHlo.unary main_cst_7 main_v36 (broadcastInDim S32 ![] bcast_S_S32 : (⟨S_, .f32⟩ : BufTy).Contents (Elt F) → (⟨S32, .f32⟩ : BufTy).Contents (Elt F)),
    StableHlo.binary main_v32 main_v36 main_v37 (addf : (⟨S32, .f32⟩ : BufTy).Contents (Elt F) → (⟨S32, .f32⟩ : BufTy).Contents (Elt F) → (⟨S32, .f32⟩ : BufTy).Contents (Elt F)),
    StableHlo.unary main_v37 main_v38 (Host.rsqrt : (⟨S32, .f32⟩ : BufTy).Contents (Elt F) → (⟨S32, .f32⟩ : BufTy).Contents (Elt F)),
    StableHlo.unary main_v38 main_v39 (broadcastInDim S1x32 ![1] bcast_S32_S1x32_1 : (⟨S32, .f32⟩ : BufTy).Contents (Elt F) → (⟨S1x32, .f32⟩ : BufTy).Contents (Elt F)),
    StableHlo.unary main_v39 main_v40 (broadcastInDim S100000x32 ![0, 1] bcast_S1x32_S100000x32_0_1 : (⟨S1x32, .f32⟩ : BufTy).Contents (Elt F) → (⟨S100000x32, .f32⟩ : BufTy).Contents (Elt F)),
    StableHlo.binary main_v35 main_v40 main_v41 (mulf : (⟨S100000x32, .f32⟩ : BufTy).Contents (Elt F) → (⟨S100000x32, .f32⟩ : BufTy).Contents (Elt F) → (⟨S100000x32, .f32⟩ : BufTy).Contents (Elt F)),
    StableHlo.unary main_arg6 main_v42 (broadcastInDim S1x32 ![1] bcast_S32_S1x32_1 : (⟨S32, .f32⟩ : BufTy).Contents (Elt F) → (⟨S1x32, .f32⟩ : BufTy).Contents (Elt F)),
    StableHlo.unary main_v42 main_v43 (broadcastInDim S100000x32 ![0, 1] bcast_S1x32_S100000x32_0_1 : (⟨S1x32, .f32⟩ : BufTy).Contents (Elt F) → (⟨S100000x32, .f32⟩ : BufTy).Contents (Elt F)),
    StableHlo.binary main_v41 main_v43 main_v44 (mulf : (⟨S100000x32, .f32⟩ : BufTy).Contents (Elt F) → (⟨S100000x32, .f32⟩ : BufTy).Contents (Elt F) → (⟨S100000x32, .f32⟩ : BufTy).Contents (Elt F)),
    StableHlo.unary main_arg7 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S100000x32 ![0, 1] bcast_S1x32_S100000x32_0_1 : (⟨S1x32, .f32⟩ : BufTy).Contents (Elt F) → (⟨S100000x32, .f32⟩ : BufTy).Contents (Elt F)),
    StableHlo.binary main_v44 main_v46 main_v47 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v47 : StableHlo.TRef sig ⟨S100000x32, .f32⟩) main_call1.v0 main_call1.v1 maximumf,
    StableHlo.nullary main_cst_8 (constant S_ .f32 0x3F800000#32) ]

end Cert.ReferenceIdeal.RefRun

end
-- ==== Proof.RefWin1.lean ====
/-
  The operations of @main's printed window main_part1, in order, each module-local function's operations written
  inline at its call over the call's buffer record: 83 operations.
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 1 of @main: 83 operations. -/
abbrev win1 : List (HloOp τ sig (Elt F)) :=
  [ StableHlo.unary main_cst_8 main_v49 (broadcastInDim S1600000 ![] bcast_S_S1600000 : (⟨S_, .f32⟩ : BufTy).Contents (Elt F) → (⟨S1600000, .f32⟩ : BufTy).Contents (Elt F)),
    StableHlo.nullary main_cst_9 (constant S_ .f32 0x00000000#32),
    StableHlo.unary main_cst_9 main_v50 (broadcastInDim S100000 ![] bcast_S_S100000 : (⟨S_, .f32⟩ : BufTy).Contents (Elt F) → (⟨S100000, .f32⟩ : BufTy).Contents (Elt F)),
    StableHlo.unary main_v3 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v49 main_v52 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_c_10 (constantI S_ 32 0#32),
    StableHlo.unary main_c_10 main_v53 (broadcastInDim S1600000 ![] bcast_S_S1600000 : (⟨S_, .i32⟩ : BufTy).Contents (Elt F) → (⟨S1600000, .i32⟩ : BufTy).Contents (Elt F)),
    StableHlo.binary main_v1 main_v53 main_v54 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v55 (broadcastInDim S1600000 ![] bcast_S_S1600000 : (⟨S_, .i32⟩ : BufTy).Contents (Elt F) → (⟨S1600000, .i32⟩ : BufTy).Contents (Elt F)),
    StableHlo.binary main_v1 main_v55 main_v56 (addi : (⟨S1600000, .i32⟩ : BufTy).Contents (Elt F) → (⟨S1600000, .i32⟩ : BufTy).Contents (Elt F) → (⟨S1600000, .i32⟩ : BufTy).Contents (Elt F)),
    StableHlo.ternary main_v54 main_v56 main_v1 main_v57 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v57 main_v58 (broadcastInDim S1600000x1 ![0] bcast_S1600000_S1600000x1_0 : (⟨S1600000, .i32⟩ : BufTy).Contents (Elt F) → (⟨S1600000x1, .i32⟩ : BufTy).Contents (Elt F)),
    StableHlo.binary main_v48 main_v58 main_v59 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.nullary main_cst_12 (constant S_ .f32 0x00000000#32),
    StableHlo.unary main_cst_12 main_v60 (broadcastInDim S100000x32 ![] bcast_S_S100000x32 : (⟨S_, .f32⟩ : BufTy).Contents (Elt F) → (⟨S100000x32, .f32⟩ : BufTy).Contents (Elt F)),
    StableHlo.unary main_v3 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.nullary main_cst_13 (constant S_ .f32 0x3F800000#32),
    StableHlo.unary main_cst_13 main_v63 (broadcastInDim S100000 ![] bcast_S_S100000 : (⟨S_, .f32⟩ : BufTy).Contents (Elt F) → (⟨S100000, .f32⟩ : BufTy).Contents (Elt F)),
    StableHlo.binary main_v52 main_v63 main_v64 (maximumf : (⟨S100000, .f32⟩ : BufTy).Contents (Elt F) → (⟨S100000, .f32⟩ : BufTy).Contents (Elt F) → (⟨S100000, .f32⟩ : BufTy).Contents (Elt F)),
    StableHlo.unary main_v64 main_v65 (broadcastInDim S100000x1 ![0] bcast_S100000_S100000x1_0 : (⟨S100000, .f32⟩ : BufTy).Contents (Elt F) → (⟨S100000x1, .f32⟩ : BufTy).Contents (Elt F)),
    StableHlo.unary main_v65 main_v66 (broadcastInDim S100000x32 ![0, 1] bcast_S100000x1_S100000x32_0_1 : (⟨S100000x1, .f32⟩ : BufTy).Contents (Elt F) → (⟨S100000x32, .f32⟩ : BufTy).Contents (Elt F)),
    StableHlo.binary main_v62 main_v66 main_v67 (Host.divf : (⟨S100000x32, .f32⟩ : BufTy).Contents (Elt F) → (⟨S100000x32, .f32⟩ : BufTy).Contents (Elt F) → (⟨S100000x32, .f32⟩ : BufTy).Contents (Elt F)),
    StableHlo.binary main_v67 main_arg8 main_v68 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg9 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)),
    StableHlo.binary main_v48 main_arg10 main_v72 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.binary main_v71 main_v72 main_v73 (addf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x00000000#32),
    StableHlo.binary main_v73 main_cst_14 main_v74 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_15 (constant S_ .f32 0x47C35000#32),
    StableHlo.unary main_cst_15 main_v75 (broadcastInDim S64 ![] bcast_S_S64 : (⟨S_, .f32⟩ : BufTy).Contents (Elt F) → (⟨S64, .f32⟩ : BufTy).Contents (Elt F)),
    StableHlo.binary main_v74 main_v75 main_v76 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call2.cst (constant S_ .f32 0x00000000#32),
    StableHlo.TRef.binary (.of main_v73 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v73 : StableHlo.TRef sig ⟨S100000x64, .f32⟩) main_call2.v4 main_call2.v5 subf,
    StableHlo.TRef.binary main_call2.v5 main_call2.v5 main_call2.v6 mulf,
    StableHlo.TRef.unary (.of main_c_16 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v76 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v79 main_v80 (subf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3727C5AC#32),
    StableHlo.unary main_cst_17 main_v81 (broadcastInDim S64 ![] bcast_S_S64 : (⟨S_, .f32⟩ : BufTy).Contents (Elt F) → (⟨S64, .f32⟩ : BufTy).Contents (Elt F)),
    StableHlo.binary main_v77 main_v81 main_v82 (addf : (⟨S64, .f32⟩ : BufTy).Contents (Elt F) → (⟨S64, .f32⟩ : BufTy).Contents (Elt F) → (⟨S64, .f32⟩ : BufTy).Contents (Elt F)),
    StableHlo.unary main_v82 main_v83 (Host.rsqrt : (⟨S64, .f32⟩ : BufTy).Contents (Elt F) → (⟨S64, .f32⟩ : BufTy).Contents (Elt F)),
    StableHlo.unary main_v83 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S100000x64 ![0, 1] bcast_S1x64_S100000x64_0_1 : (⟨S1x64, .f32⟩ : BufTy).Contents (Elt F) → (⟨S100000x64, .f32⟩ : BufTy).Contents (Elt F)),
    StableHlo.binary main_v80 main_v85 main_v86 (mulf : (⟨S100000x64, .f32⟩ : BufTy).Contents (Elt F) → (⟨S100000x64, .f32⟩ : BufTy).Contents (Elt F) → (⟨S100000x64, .f32⟩ : BufTy).Contents (Elt F)),
    StableHlo.unary main_arg11 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v86 main_v88 main_v89 (mulf : (⟨S100000x64, .f32⟩ : BufTy).Contents (Elt F) → (⟨S100000x64, .f32⟩ : BufTy).Contents (Elt F) → (⟨S100000x64, .f32⟩ : BufTy).Contents (Elt F)),
    StableHlo.unary main_arg12 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v91 main_v92 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v92 : StableHlo.TRef sig ⟨S100000x64, .f32⟩) main_call3.v0 main_call3.v1 maximumf,
    StableHlo.nullary main_cst_18 (constant S_ .f32 0x3F800000#32),
    StableHlo.unary main_cst_18 main_v94 (broadcastInDim S1600000 ![] bcast_S_S1600000 : (⟨S_, .f32⟩ : BufTy).Contents (Elt F) → (⟨S1600000, .f32⟩ : BufTy).Contents (Elt F)),
    StableHlo.nullary main_cst_19 (constant S_ .f32 0x00000000#32),
    StableHlo.unary main_cst_19 main_v95 (broadcastInDim S100000 ![] bcast_S_S100000 : (⟨S_, .f32⟩ : BufTy).Contents (Elt F) → (⟨S100000, .f32⟩ : BufTy).Contents (Elt F)),
    StableHlo.unary main_v3 main_v96 (broadcastInDim S1600000x1 ![0] bcast_S1600000_S1600000x1_0 : (⟨S1600000, .i32⟩ : BufTy).Contents (Elt F) → (⟨S1600000x1, .i32⟩ : BufTy).Contents (Elt F)),
    StableHlo.ternary main_v95 main_v96 main_v94 main_v97 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ]

end Cert.ReferenceIdeal.RefRun

end
-- ==== Proof.RefWin2.lean ====
/-
  The operations of @main's printed window main_part2, in order, each module-local function's operations written
  inline at its call over the call's buffer record: 83 operations.
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 2 of @main: 83 operations. -/
abbrev win2 : List (HloOp τ sig (Elt F)) :=
  [ StableHlo.nullary main_c_20 (constantI S_ 32 0#32),
    StableHlo.unary main_c_20 main_v98 (broadcastInDim S1600000 ![] bcast_S_S1600000 : (⟨S_, .i32⟩ : BufTy).Contents (Elt F) → (⟨S1600000, .i32⟩ : BufTy).Contents (Elt F)),
    StableHlo.binary main_v1 main_v98 main_v99 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v100 (broadcastInDim S1600000 ![] bcast_S_S1600000 : (⟨S_, .i32⟩ : BufTy).Contents (Elt F) → (⟨S1600000, .i32⟩ : BufTy).Contents (Elt F)),
    StableHlo.binary main_v1 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_v1 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)),
    StableHlo.binary main_v93 main_v103 main_v104 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_22 (constant S_ .f32 0x00000000#32),
    StableHlo.unary main_cst_22 main_v105 (broadcastInDim S100000x64 ![] bcast_S_S100000x64 : (⟨S_, .f32⟩ : BufTy).Contents (Elt F) → (⟨S100000x64, .f32⟩ : BufTy).Contents (Elt F)),
    StableHlo.unary main_v3 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_23 (constant S_ .f32 0x3F800000#32),
    StableHlo.unary main_cst_23 main_v108 (broadcastInDim S100000 ![] bcast_S_S100000 : (⟨S_, .f32⟩ : BufTy).Contents (Elt F) → (⟨S100000, .f32⟩ : BufTy).Contents (Elt F)),
    StableHlo.binary main_v97 main_v108 main_v109 (maximumf : (⟨S100000, .f32⟩ : BufTy).Contents (Elt F) → (⟨S100000, .f32⟩ : BufTy).Contents (Elt F) → (⟨S100000, .f32⟩ : BufTy).Contents (Elt F)),
    StableHlo.unary main_v109 main_v110 (broadcastInDim S100000x1 ![0] bcast_S100000_S100000x1_0 : (⟨S100000, .f32⟩ : BufTy).Contents (Elt F) → (⟨S100000x1, .f32⟩ : BufTy).Contents (Elt F)),
    StableHlo.unary main_v110 main_v111 (broadcastInDim S100000x64 ![0, 1] bcast_S100000x1_S100000x64_0_1 : (⟨S100000x1, .f32⟩ : BufTy).Contents (Elt F) → (⟨S100000x64, .f32⟩ : BufTy).Contents (Elt F)),
    StableHlo.binary main_v107 main_v111 main_v112 (Host.divf : (⟨S100000x64, .f32⟩ : BufTy).Contents (Elt F) → (⟨S100000x64, .f32⟩ : BufTy).Contents (Elt F) → (⟨S100000x64, .f32⟩ : BufTy).Contents (Elt F)),
    StableHlo.binary main_v112 main_arg13 main_v113 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg14 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v115 main_v116 (addf : (⟨S100000x128, .f32⟩ : BufTy).Contents (Elt F) → (⟨S100000x128, .f32⟩ : BufTy).Contents (Elt F) → (⟨S100000x128, .f32⟩ : BufTy).Contents (Elt F)),
    StableHlo.binary main_v93 main_arg15 main_v117 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.binary main_v116 main_v117 main_v118 (addf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x00000000#32),
    StableHlo.binary main_v118 main_cst_24 main_v119 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_25 (constant S_ .f32 0x47C35000#32),
    StableHlo.unary main_cst_25 main_v120 (broadcastInDim S128 ![] bcast_S_S128 : (⟨S_, .f32⟩ : BufTy).Contents (Elt F) → (⟨S128, .f32⟩ : BufTy).Contents (Elt F)),
    StableHlo.binary main_v119 main_v120 main_v121 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call4.cst (constant S_ .f32 0x00000000#32),
    StableHlo.TRef.binary (.of main_v118 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v118 : StableHlo.TRef sig ⟨S100000x128, .f32⟩) main_call4.v4 main_call4.v5 subf,
    StableHlo.TRef.binary main_call4.v5 main_call4.v5 main_call4.v6 mulf,
    StableHlo.TRef.unary (.of main_c_26 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v121 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S100000x128 ![0, 1] bcast_S1x128_S100000x128_0_1 : (⟨S1x128, .f32⟩ : BufTy).Contents (Elt F) → (⟨S100000x128, .f32⟩ : BufTy).Contents (Elt F)),
    StableHlo.binary main_v118 main_v124 main_v125 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v126 (broadcastInDim S128 ![] bcast_S_S128 : (⟨S_, .f32⟩ : BufTy).Contents (Elt F) → (⟨S128, .f32⟩ : BufTy).Contents (Elt F)),
    StableHlo.binary main_v122 main_v126 main_v127 (addf : (⟨S128, .f32⟩ : BufTy).Contents (Elt F) → (⟨S128, .f32⟩ : BufTy).Contents (Elt F) → (⟨S128, .f32⟩ : BufTy).Contents (Elt F)),
    StableHlo.unary main_v127 main_v128 (Host.rsqrt : (⟨S128, .f32⟩ : BufTy).Contents (Elt F) → (⟨S128, .f32⟩ : BufTy).Contents (Elt F)),
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v130 main_v131 (mulf : (⟨S100000x128, .f32⟩ : BufTy).Contents (Elt F) → (⟨S100000x128, .f32⟩ : BufTy).Contents (Elt F) → (⟨S100000x128, .f32⟩ : BufTy).Contents (Elt F)),
    StableHlo.unary main_arg16 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v133 main_v134 (mulf : (⟨S100000x128, .f32⟩ : BufTy).Contents (Elt F) → (⟨S100000x128, .f32⟩ : BufTy).Contents (Elt F) → (⟨S100000x128, .f32⟩ : BufTy).Contents (Elt F)),
    StableHlo.unary main_arg17 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v134 main_v136 main_v137 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v137 : StableHlo.TRef sig ⟨S100000x128, .f32⟩) main_call5.v0 main_call5.v1 maximumf,
    StableHlo.nullary main_cst_28 (constant S_ .f32 0x3F800000#32),
    StableHlo.unary main_cst_28 main_v139 (broadcastInDim S100000 ![] bcast_S_S100000 : (⟨S_, .f32⟩ : BufTy).Contents (Elt F) → (⟨S100000, .f32⟩ : BufTy).Contents (Elt F)),
    StableHlo.nullary main_cst_29 (constant S_ .f32 0x00000000#32),
    StableHlo.unary main_cst_29 main_v140 (broadcastInDim S64 ![] bcast_S_S64 : (⟨S_, .f32⟩ : BufTy).Contents (Elt F) → (⟨S64, .f32⟩ : BufTy).Contents (Elt F)),
    StableHlo.unary main_arg2 main_v141 (broadcastInDim S100000x1 ![0] bcast_S100000_S100000x1_0 : (⟨S100000, .i32⟩ : BufTy).Contents (Elt F) → (⟨S100000x1, .i32⟩ : BufTy).Contents (Elt F)),
    StableHlo.ternary main_v140 main_v141 main_v139 main_v142 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_30 (constant S_ .f32 0x00000000#32),
    StableHlo.unary main_cst_30 main_v143 (broadcastInDim S64x128 ![] bcast_S_S64x128 : (⟨S_, .f32⟩ : BufTy).Contents (Elt F) → (⟨S64x128, .f32⟩ : BufTy).Contents (Elt F)),
    StableHlo.unary main_arg2 main_v144 (broadcastInDim S100000x1 ![0] bcast_S100000_S100000x1_0 : (⟨S100000, .i32⟩ : BufTy).Contents (Elt F) → (⟨S100000x1, .i32⟩ : BufTy).Contents (Elt F)),
    StableHlo.ternary main_v143 main_v144 main_v138 main_v145 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_31 (constant S_ .f32 0x3F800000#32) ]

end Cert.ReferenceIdeal.RefRun

end
-- ==== Proof.RefWin3.lean ====
/-
  The operations of @main's printed window main_part3, in order, each module-local function's operations written
  inline at its call over the call's buffer record: 16 operations.
-/
import proofs.«416188_j20263655702631_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 3 of @main: 16 operations. -/
abbrev win3 : List (HloOp τ sig (Elt F)) :=
  [ StableHlo.unary main_cst_31 main_v146 (broadcastInDim S64 ![] bcast_S_S64 : (⟨S_, .f32⟩ : BufTy).Contents (Elt F) → (⟨S64, .f32⟩ : BufTy).Contents (Elt F)),
    StableHlo.binary main_v142 main_v146 main_v147 (maximumf : (⟨S64, .f32⟩ : BufTy).Contents (Elt F) → (⟨S64, .f32⟩ : BufTy).Contents (Elt F) → (⟨S64, .f32⟩ : BufTy).Contents (Elt F)),
    StableHlo.unary main_v147 main_v148 (broadcastInDim S64x1 ![0] bcast_S64_S64x1_0 : (⟨S64, .f32⟩ : BufTy).Contents (Elt F) → (⟨S64x1, .f32⟩ : BufTy).Contents (Elt F)),
    StableHlo.unary main_v148 main_v149 (broadcastInDim S64x128 ![0, 1] bcast_S64x1_S64x128_0_1 : (⟨S64x1, .f32⟩ : BufTy).Contents (Elt F) → (⟨S64x128, .f32⟩ : BufTy).Contents (Elt F)),
    StableHlo.binary main_v145 main_v149 main_v150 (Host.divf : (⟨S64x128, .f32⟩ : BufTy).Contents (Elt F) → (⟨S64x128, .f32⟩ : BufTy).Contents (Elt F) → (⟨S64x128, .f32⟩ : BufTy).Contents (Elt F)),
    StableHlo.binary main_v150 main_arg18 main_v151 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg19 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S64x64 ![0, 1] bcast_S1x64_S64x64_0_1 : (⟨S1x64, .f32⟩ : BufTy).Contents (Elt F) → (⟨S64x64, .f32⟩ : BufTy).Contents (Elt F)),
    StableHlo.binary main_v151 main_v153 main_v154 (addf : (⟨S64x64, .f32⟩ : BufTy).Contents (Elt F) → (⟨S64x64, .f32⟩ : BufTy).Contents (Elt F) → (⟨S64x64, .f32⟩ : BufTy).Contents (Elt F)),
    StableHlo.TRef.nullary main_call6.cst (constant S_ .f32 0x00000000#32),
    StableHlo.TRef.unary main_call6.cst main_call6.v0 (broadcastInDim S64x64 ![] bcast_S_S64x64),
    StableHlo.TRef.binary (.of main_v154 : StableHlo.TRef sig ⟨S64x64, .f32⟩) main_call6.v0 main_call6.v1 maximumf,
    StableHlo.binary main_v155 main_arg20 main_v156 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),
    StableHlo.unary main_arg21 main_v157 (broadcastInDim S1x1 ![1] bcast_S1_S1x1_1 : (⟨S1, .f32⟩ : BufTy).Contents (Elt F) → (⟨S1x1, .f32⟩ : BufTy).Contents (Elt F)),
    StableHlo.unary main_v157 main_v158 (broadcastInDim S64x1 ![0, 1] bcast_S1x1_S64x1_0_1 : (⟨S1x1, .f32⟩ : BufTy).Contents (Elt F) → (⟨S64x1, .f32⟩ : BufTy).Contents (Elt F)),
    StableHlo.binary main_v156 main_v158 main_v159 (addf : (⟨S64x1, .f32⟩ : BufTy).Contents (Elt F) → (⟨S64x1, .f32⟩ : BufTy).Contents (Elt F) → (⟨S64x1, .f32⟩ : BufTy).Contents (Elt F)) ]

end Cert.ReferenceIdeal.RefRun

end
-- ==== Proof.RefRun.lean ====
import proofs.«416188_j20263655702631_2_alg».proof.Proof.RefOps0
import proofs.«416188_j20263655702631_2_alg».proof.Proof.RefOps1
import proofs.«416188_j20263655702631_2_alg».proof.Proof.RefOps2
import proofs.«416188_j20263655702631_2_alg».proof.Proof.RefOps3
import proofs.«416188_j20263655702631_2_alg».proof.Proof.RefOps4
import proofs.«416188_j20263655702631_2_alg».proof.Proof.RefOps5
import proofs.«416188_j20263655702631_2_alg».proof.Proof.RefOps6
import proofs.«416188_j20263655702631_2_alg».proof.Proof.RefOps7
import proofs.«416188_j20263655702631_2_alg».proof.Proof.RefWin0
import proofs.«416188_j20263655702631_2_alg».proof.Proof.RefWin1
import proofs.«416188_j20263655702631_2_alg».proof.Proof.RefWin2
import proofs.«416188_j20263655702631_2_alg».proof.Proof.RefWin3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def ops : List (HloOp τ sig (Elt F)) :=
  ops0 ++ (ops1 ++ (ops2 ++ (ops3 ++ (ops4 ++ (ops5 ++ (ops6 ++ ops7))))))

theorem after_concat : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_concat l₁ l₂]

theorem after_ops (V : Valuation τ sig (Elt F)) :
    after ops V = after ops7 (after ops6 (after ops5 (after ops4 (after ops3 (after ops2 (after ops1 (after ops0 V))))))) := by
  simp only [ops, after_concat]

abbrev writes : List (Ref sig .tc) :=
  writes0 ++ (writes1 ++ (writes2 ++ (writes3 ++ (writes4 ++ (writes5 ++ (writes6 ++ writes7))))))

theorem ops_keep (V : Valuation τ sig (Elt F)) {r : Ref sig .tc} (hr : r ∉ writes) :
    after ops V (Proc.devRef .tc r) = V (Proc.devRef .tc r) := by
  simp only [writes, List.mem_append, not_or] at hr
  obtain ⟨h0, h1, h2, h3, h4, h5, h6, h7⟩ := hr
  rw [after_ops, ops7_keep _ h7, ops6_keep _ h6, ops5_keep _ h5, ops4_keep _ h4, ops3_keep _ h3, ops2_keep _ h2,
    ops1_keep _ h1, ops0_keep _ h0]

set_option maxRecDepth 8192 in
set_option maxHeartbeats 4000000 in
theorem main_part0_eq (c : Dev nD) : main_part0 (F := F) c = seq win0 := by
  simp only [main_part0, fn_var.body, fn_where.body, fn_relu.body, seq, bind_assoc, pure_bind]
  rfl

set_option maxRecDepth 8192 in
set_option maxHeartbeats 4000000 in
theorem main_part1_eq (c : Dev nD) : main_part1 (F := F) c = seq win1 := by
  simp only [main_part1, fn_var_0.body, fn_where_1.body, fn_relu_2.body, seq, bind_assoc, pure_bind]
  rfl

set_option maxRecDepth 8192 in
set_option maxHeartbeats 4000000 in
theorem main_part2_eq (c : Dev nD) : main_part2 (F := F) c = seq win2 := by
  simp only [main_part2, fn_var_3.body, fn_where_4.body, fn_relu_5.body, seq, bind_assoc, pure_bind]
  rfl

set_option maxRecDepth 8192 in
set_option maxHeartbeats 4000000 in
theorem main_part3_eq (c : Dev nD) : main_part3 (F := F) c = seq win3 := by
  simp only [main_part3, fn_relu_6.body, seq, bind_assoc, pure_bind]

set_option maxRecDepth 8192 in
set_option maxHeartbeats 4000000 in
theorem wins_eq : (win0 ++ (win1 ++ (win2 ++ win3)) : List (HloOp τ sig (Elt F))) = ops := rfl

theorem main_eq (c : Dev nD) : main (F := F) c = seq ops := by
  have h : main (F := F) c = (main_part0 c >>= fun _ => main_part1 c >>= fun _ => main_part2 c >>= fun _ => main_part3 c) := rfl
  rw [h, main_part0_eq, main_part1_eq, main_part2_eq, main_part3_eq, ← seq_append, ← seq_append, ← seq_append, wins_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨ops0_sub, ops1_sub, ops2_sub, ops3_sub, ops4_sub, ops5_sub, ops6_sub, ops7_sub⟩

theorem ops_fresh : ∀ op ∈ (ops : List (HloOp τ sig (Elt F))), op.fresh = ∅ := by
  refine List.forall_iff_forall_mem.1 ?_
  simp only [ops, List.forall_append]
  exact ⟨ops0_fresh, ops1_fresh, ops2_fresh, ops3_fresh, ops4_fresh, ops5_fresh, ops6_fresh, ops7_fresh⟩

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

set_option maxRecDepth 8192 in
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = after ops (launchContents m c) (main_v159 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => by
      refine ⟨h c _, ?_⟩
      repeat' apply And.intro
      all_goals exact (h c _).trans (ops_keep _ (by decide)))
    (run_main m ρ)

end Cert.ReferenceIdeal.RefRun

end
-- ==== Proof.RefFrame.lean ====
import proofs.«416188_j20263655702631_2_alg».proof.Proof.RefRun
import proofs.«416188_j20263655702631_2_alg».proof.Defs

noncomputable section

namespace Cert.ReferenceIdeal.RefRun

open Idealize.ShloMosaic Idealize.SL.Sem

theorem frame_ref [hReferenceIdeal : Cert.ReferenceIdeal.Facts] [hPre_finite_inputs : Cert.Pre_finite_inputs.Facts] :
    Cert.frame_ReferenceIdeal :=
  fun m g _ => (θ_run _ _ _).mono (fun _ h c => (h c).2) (run_result (F := Ideal) m g)

end Cert.ReferenceIdeal.RefRun

end
-- ==== Proof.Spec.lean ====
import Idealize.ShloMosaic.PureOps.Ideal
import Idealize.ShloMosaic.Lib.ValueIdx

noncomputable section

namespace Cert.Spec

open Idealize.ShloMosaic

def c2 {a b : ℕ} {α : Type} (v : (⟨2, ![a, b]⟩ : Shape).Idx → α) : Fin a → Fin b → α := fun i j => v (ValueIdx.ix2 i j)

def c1 {a : ℕ} {α : Type} (v : (⟨1, ![a]⟩ : Shape).Idx → α) : Fin a → α := fun i => v (ValueIdx.ix1 i)

def c0 {α : Type} (v : (⟨0, ![]⟩ : Shape).Idx → α) : α := v ValueIdx.ix0

def IsReal1 {a : ℕ} (v : Fin a → EReal) : Prop := ∀ i, v i ≠ ⊤ ∧ v i ≠ ⊥

def IsReal2 {a b : ℕ} (v : Fin a → Fin b → EReal) : Prop := ∀ i j, v i j ≠ ⊤ ∧ v i j ≠ ⊥

section Layer
variable {N da dx dout : ℕ}

def dinv (one : EReal) (deg : Fin N → EReal) : Fin N → EReal := fun n => Ideal.div one (max (deg n) one)

def anorm (agg : Fin N → Fin da → EReal) (di : Fin N → EReal) : Fin N → Fin da → EReal := fun n k => agg n k * di n

def colSum {d : ℕ} (a : Fin N → Fin d → EReal) : Fin d → EReal := fun k => ∑ n, a n k

def gram {d e : ℕ} (a : Fin N → Fin d → EReal) (b : Fin N → Fin e → EReal) : Fin d → Fin e → EReal := fun k l => ∑ n, a n k * b n l

def kMu (cN : EReal) (sa : Fin da → EReal) (sx : Fin dx → EReal) (Wl : Fin da → Fin dout → EReal) (Wr : Fin dx → Fin dout → EReal)
    (bl : Fin dout → EReal) : Fin dout → EReal :=
  fun j => ((∑ k, Ideal.div (sa k) cN * Wl k j) + ∑ k, Ideal.div (sx k) cN * Wr k j) + bl j

def kMa (Gaa : Fin da → Fin da → EReal) (Gax : Fin da → Fin dx → EReal) (Wl : Fin da → Fin dout → EReal) (Wr : Fin dx → Fin dout → EReal) :
    Fin da → Fin dout → EReal := fun k j => (∑ l, Gaa k l * Wl l j) + ∑ l, Gax k l * Wr l j

def kMx (Gax : Fin da → Fin dx → EReal) (Gxx : Fin dx → Fin dx → EReal) (Wl : Fin da → Fin dout → EReal) (Wr : Fin dx → Fin dout → EReal) :
    Fin dx → Fin dout → EReal := fun k j => (∑ l, Gax l k * Wl l j) + ∑ l, Gxx k l * Wr l j

def kDiag (Gaa : Fin da → Fin da → EReal) (Gxx : Fin dx → Fin dx → EReal) (Gax : Fin da → Fin dx → EReal)
    (Wl : Fin da → Fin dout → EReal) (Wr : Fin dx → Fin dout → EReal) : Fin dout → EReal :=
  fun j => (∑ k, Wl k j * kMa Gaa Gax Wl Wr k j) + ∑ k, Wr k j * kMx Gax Gxx Wl Wr k j

def kVar (cN zero : EReal) (diag mu bl : Fin dout → EReal) : Fin dout → EReal :=
  fun j => max (Ideal.div (diag j) cN - (mu j - bl j) * (mu j - bl j)) zero

def invStd (eps : EReal) (var : Fin dout → EReal) : Fin dout → EReal := fun j => Ideal.rsqrt (var j + eps)

def kY (a : Fin N → Fin da → EReal) (h : Fin N → Fin dx → EReal) (Wl : Fin da → Fin dout → EReal) (Wr : Fin dx → Fin dout → EReal)
    (bl : Fin dout → EReal) : Fin N → Fin dout → EReal :=
  fun n j => ((∑ k, a n k * Wl k j) + ∑ k, h n k * Wr k j) + bl j

def bnRelu (zero : EReal) (y : Fin N → Fin dout → EReal) (mu inv g be : Fin dout → EReal) : Fin N → Fin dout → EReal :=
  fun n j => max ((y n j - mu j) * inv j * g j + be j) zero

def kLayer (cN eps one zero : EReal) (agg : Fin N → Fin da → EReal) (deg : Fin N → EReal) (h : Fin N → Fin dx → EReal)
    (Wl : Fin da → Fin dout → EReal) (Wr : Fin dx → Fin dout → EReal) (bl g be : Fin dout → EReal) : Fin N → Fin dout → EReal :=
  let a := anorm agg (dinv one deg)
  let mu := kMu cN (colSum a) (colSum h) Wl Wr bl
  let var := kVar cN zero (kDiag (gram a a) (gram h h) (gram a h) Wl Wr) mu bl
  bnRelu zero (kY a h Wl Wr bl) mu (invStd eps var) g be

def rAgg (one : EReal) (agg : Fin N → Fin da → EReal) (deg : Fin N → EReal) : Fin N → Fin da → EReal :=
  fun n k => Ideal.div (agg n k) (max (deg n) one)

def rY (a : Fin N → Fin da → EReal) (h : Fin N → Fin dx → EReal) (Wl : Fin da → Fin dout → EReal) (Wr : Fin dx → Fin dout → EReal)
    (bl : Fin dout → EReal) : Fin N → Fin dout → EReal :=
  fun n j => ((∑ k, a n k * Wl k j) + bl j) + ∑ k, h n k * Wr k j

def rMean (cN : EReal) (y : Fin N → Fin dout → EReal) : Fin dout → EReal := fun j => Ideal.div (∑ n, y n j) cN

def rVar (cN : EReal) (y : Fin N → Fin dout → EReal) : Fin dout → EReal :=
  fun j => Ideal.div (∑ n, (y n j - rMean cN y j) * (y n j - rMean cN y j)) cN

def rLayer (cN eps one zero : EReal) (agg : Fin N → Fin da → EReal) (deg : Fin N → EReal) (h : Fin N → Fin dx → EReal)
    (Wl : Fin da → Fin dout → EReal) (Wr : Fin dx → Fin dout → EReal) (bl g be : Fin dout → EReal) : Fin N → Fin dout → EReal :=
  let y := rY (rAgg one agg deg) h Wl Wr bl
  bnRelu zero y (rMean cN y) (invStd eps (rVar cN y)) g be

end Layer

section Pool
variable {N G d dm : ℕ}

def poolSum (sel : Fin N → Fin G → Prop) [∀ n g, Decidable (sel n g)] (h : Fin N → Fin d → EReal) : Fin G → Fin d → EReal :=
  fun g j => ∑ n, if sel n g then h n j else 0

def poolCnt (sel : Fin N → Fin G → Prop) [∀ n g, Decidable (sel n g)] : Fin G → EReal :=
  fun g => ∑ n : Fin N, if sel n g then (1 : EReal) else 0

def poolMean (one : EReal) (s : Fin G → Fin d → EReal) (cnt : Fin G → EReal) : Fin G → Fin d → EReal :=
  fun g j => Ideal.div (s g j) (max (cnt g) one)

def head (zero : EReal) (p : Fin G → Fin d → EReal) (W1 : Fin d → Fin dm → EReal) (b1 : Fin dm → EReal)
    (W2 : Fin dm → Fin 1 → EReal) (b2 : Fin 1 → EReal) : Fin G → Fin 1 → EReal :=
  fun g o => (∑ k, max ((∑ j, p g j * W1 j k) + b1 k) zero * W2 k o) + b2 o

end Pool

end Cert.Spec

end
-- ==== Proof.Reals.lean ====
import proofs.«416188_j20263655702631_2_alg».proof.Proof.Spec
import Idealize.ShloMosaic.PureOps.Ideal
import Idealize.ShloMosaic.PureOps.Contract
import Idealize.ShloMosaic.PureOps.ShapeOps
import Mathlib.Data.EReal.Operations

noncomputable section

namespace Cert.Spec

open Idealize.ShloMosaic

theorem ofBits_N : Ideal.ofBits .f32 0x47C35000#32 = (((100000 : ℕ) : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

theorem ofBits_inf : Ideal.ofBits .f32 0x7F800000#32 = ⊤ := by
  simp [Ideal.ofBits, Ideal.ieee]

theorem ofBits_eps : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

theorem sum_ne_top_bot {ι : Type} (s : Finset ι) (f : ι → EReal) (h : ∀ j, f j ≠ ⊤ ∧ f j ≠ ⊥) :
    (∑ j ∈ s, f j) ≠ ⊤ ∧ (∑ j ∈ s, f j) ≠ ⊥ := by
  classical
  induction s using Finset.induction_on with
  | empty => simp
  | insert a s ha ih =>
    rw [Finset.sum_insert ha]
    exact ⟨EReal.add_ne_top (h a).1 ih.1, EReal.add_ne_bot_iff.2 ⟨(h a).2, ih.2⟩⟩

theorem hostScatterAdd_isReal {s si su : Shape} {w : ℕ} (d : ScatterDims s si su) (x : s.Idx → EReal) (idx : IVec si w)
    (upd : su.Idx → EReal) (hx : ∀ i, x i ≠ ⊤ ∧ x i ≠ ⊥) (hu : ∀ j, upd j ≠ ⊤ ∧ upd j ≠ ⊥) :
    ∀ i, Ideal.hostScatterAdd d x idx upd i ≠ ⊤ ∧ Ideal.hostScatterAdd d x idx upd i ≠ ⊥ := by
  intro i
  have hs := sum_ne_top_bot (Finset.univ.filter (fun j => d.resultIdx? j idx = some i)) upd hu
  exact ⟨EReal.add_ne_top (hx i).1 hs.1, EReal.add_ne_bot_iff.2 ⟨(hx i).2, hs.2⟩⟩

theorem scatterAdd_isReal {s si su : Shape} {w : ℕ} {φ : FTy} (d : ScatterDims s si su) (x : FVec Ideal s φ) (idx : IVec si w)
    (upd : FVec Ideal su φ) (hx : ∀ i, x i ≠ ⊤ ∧ x i ≠ ⊥) (hu : ∀ j, upd j ≠ ⊤ ∧ upd j ≠ ⊥) :
    ∀ i, Host.scatterAdd (F := Ideal) d x idx upd i ≠ ⊤ ∧ Host.scatterAdd (F := Ideal) d x idx upd i ≠ ⊥ :=
  hostScatterAdd_isReal d x idx upd hx hu

theorem gather_mem {s si t : Shape} {w : ℕ} {α : Type} (d : GatherDims s si t) (x : s.Idx → α) (idx : IVec si w) :
    ∀ j, ∃ i, Host.gather d x idx j = x i :=
  fun j => ⟨d.operandIdx j idx, rfl⟩

theorem gather_isReal {s si t : Shape} {w : ℕ} (d : GatherDims s si t) (x : s.Idx → EReal) (idx : IVec si w)
    (hx : ∀ i, x i ≠ ⊤ ∧ x i ≠ ⊥) : ∀ j, Host.gather d x idx j ≠ ⊤ ∧ Host.gather d x idx j ≠ ⊥ :=
  fun j => hx (d.operandIdx j idx)

theorem isReal_of_abs_lt (x : EReal) (h : Ideal.cmp .olt (max x (-x)) (Ideal.ofBits .f32 0x7F800000#32) = 1#1) :
    x ≠ ⊤ ∧ x ≠ ⊥ := by
  rw [ofBits_inf] at h
  induction x using EReal.rec with
  | bot => simp [Ideal.cmp] at h
  | coe r => exact ⟨EReal.coe_ne_top r, EReal.coe_ne_bot r⟩
  | top => simp [Ideal.cmp] at h

end Cert.Spec

end
-- ==== Proof.PreReal.lean ====
import proofs.«416188_j20263655702631_2_alg».proof.Pre_finite_inputs
import proofs.«416188_j20263655702631_2_alg».proof.Proof.Gen.Pre_finite_inputs
import proofs.«416188_j20263655702631_2_alg».proof.Proof.Spec
import proofs.«416188_j20263655702631_2_alg».proof.Proof.Reals
import Idealize.ShloMosaic.Lib.ReduceAll

noncomputable section

namespace Cert.Spec

open Idealize.ShloMosaic Cert.Pre_finite_inputs

instance subsingleton_S_Idx : Subsingleton S_.Idx := ⟨fun a b => funext fun d => d.elim0⟩

theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (h : Host.reduce IntOp.andi
          (cmpf .olt (Host.absf x) (broadcastInDim s ![] hb (constant (F := Ideal) S_ .f32 0x7F800000#32))) init hr hu j = 1#1) :
    ∀ i, x i ≠ ⊤ ∧ x i ≠ ⊥ :=
  fun i => isReal_of_abs_lt (x i) (Host.reduce_andi_all _ init hr hu j h i)

theorem real2_of_all {a b : ℕ} {axes : List (Fin (⟨2, ![a, b]⟩ : Shape).rank)} (x : FVec Ideal ⟨2, ![a, b]⟩ .f32)
    (hb : S_.BroadcastsInDim ⟨2, ![a, b]⟩ (![] : Fin 0 → Fin (⟨2, ![a, b]⟩ : Shape).rank))
    (hr : (⟨2, ![a, b]⟩ : Shape).ReducesTo axes S_) (hu : 0 < S_.numel) (init : IVec S_ 1) (j : S_.Idx)
    (h : Host.reduce IntOp.andi
          (cmpf .olt (Host.absf x) (broadcastInDim ⟨2, ![a, b]⟩ ![] hb (constant (F := Ideal) S_ .f32 0x7F800000#32))) init hr hu j = 1#1) :
    IsReal2 (c2 x) :=
  fun i k => real_of_all x hb hr hu init j h (ValueIdx.ix2 i k)

theorem real1_of_all {a : ℕ} {axes : List (Fin (⟨1, ![a]⟩ : Shape).rank)} (x : FVec Ideal ⟨1, ![a]⟩ .f32)
    (hb : S_.BroadcastsInDim ⟨1, ![a]⟩ (![] : Fin 0 → Fin (⟨1, ![a]⟩ : Shape).rank))
    (hr : (⟨1, ![a]⟩ : Shape).ReducesTo axes S_) (hu : 0 < S_.numel) (init : IVec S_ 1) (j : S_.Idx)
    (h : Host.reduce IntOp.andi
          (cmpf .olt (Host.absf x) (broadcastInDim ⟨1, ![a]⟩ ![] hb (constant (F := Ideal) S_ .f32 0x7F800000#32))) init hr hu j = 1#1) :
    IsReal1 (c1 x) :=
  fun i => real_of_all x hb hr hu init j h (ValueIdx.ix1 i)

theorem real_of_pre [Cert.Pre_finite_inputs.Facts]
    (x : FVec Ideal S100000x2 .f32) (e : IVec S2x1600000 32) (b : IVec S100000 32)
    (Wl1 : FVec Ideal S2x32 .f32) (bl1 : FVec Ideal S32 .f32) (Wr1 : FVec Ideal S2x32 .f32)
    (g1 : FVec Ideal S32 .f32) (be1 : FVec Ideal S32 .f32)
    (Wl2 : FVec Ideal S32x64 .f32) (bl2 : FVec Ideal S64 .f32) (Wr2 : FVec Ideal S32x64 .f32)
    (g2 : FVec Ideal S64 .f32) (be2 : FVec Ideal S64 .f32)
    (Wl3 : FVec Ideal S64x128 .f32) (bl3 : FVec Ideal S128 .f32) (Wr3 : FVec Ideal S64x128 .f32)
    (g3 : FVec Ideal S128 .f32) (be3 : FVec Ideal S128 .f32)
    (Wf1 : FVec Ideal S128x64 .f32) (bf1 : FVec Ideal S64 .f32) (Wf2 : FVec Ideal S64x1 .f32) (bf2 : FVec Ideal S1 .f32)
    (h : Cert.Pre_finite_inputs.fn (F := Ideal) x e b Wl1 bl1 Wr1 g1 be1 Wl2 bl2 Wr2 g2 be2 Wl3 bl3 Wr3 g3 be3 Wf1 bf1 Wf2 bf2
          = fun _ => 1#1) :
    IsReal2 (c2 x) ∧ IsReal2 (c2 Wl1) ∧ IsReal1 (c1 bl1) ∧ IsReal2 (c2 Wr1) ∧ IsReal1 (c1 g1) ∧ IsReal1 (c1 be1)
      ∧ IsReal2 (c2 Wl2) ∧ IsReal1 (c1 bl2) ∧ IsReal2 (c2 Wr2) ∧ IsReal1 (c1 g2) ∧ IsReal1 (c1 be2)
      ∧ IsReal2 (c2 Wl3) ∧ IsReal1 (c1 bl3) ∧ IsReal2 (c2 Wr3) ∧ IsReal1 (c1 g3) ∧ IsReal1 (c1 be3)
      ∧ IsReal2 (c2 Wf1) ∧ IsReal1 (c1 bf1) ∧ IsReal2 (c2 Wf2) ∧ IsReal1 (c1 bf2) := by
  have h0 := congrFun h ValueIdx.ix0
  dsimp only [Cert.Pre_finite_inputs.fn, fn_part1, fn_part2, fn_part3, fn_part4, fn_part5, andi] at h0
  simp only [IntOp.andi_eq_one] at h0
  obtain ⟨⟨⟨⟨⟨⟨⟨⟨⟨⟨⟨⟨⟨⟨⟨⟨⟨⟨⟨h1, h2⟩, h3⟩, h4⟩, h5⟩, h6⟩, h7⟩, h8⟩, h9⟩, h10⟩, h11⟩, h12⟩, h13⟩, h14⟩, h15⟩, h16⟩, h17⟩, h18⟩, h19⟩,
    h20⟩ := h0
  exact ⟨real2_of_all x _ _ _ _ _ h1, real2_of_all Wl1 _ _ _ _ _ h2, real1_of_all bl1 _ _ _ _ _ h3,
    real2_of_all Wr1 _ _ _ _ _ h4, real1_of_all g1 _ _ _ _ _ h5, real1_of_all be1 _ _ _ _ _ h6,
    real2_of_all Wl2 _ _ _ _ _ h7, real1_of_all bl2 _ _ _ _ _ h8, real2_of_all Wr2 _ _ _ _ _ h9,
    real1_of_all g2 _ _ _ _ _ h10, real1_of_all be2 _ _ _ _ _ h11,
    real2_of_all Wl3 _ _ _ _ _ h12, real1_of_all bl3 _ _ _ _ _ h13, real2_of_all Wr3 _ _ _ _ _ h14,
    real1_of_all g3 _ _ _ _ _ h15, real1_of_all be3 _ _ _ _ _ h16,
    real2_of_all Wf1 _ _ _ _ _ h17, real1_of_all bf1 _ _ _ _ _ h18, real2_of_all Wf2 _ _ _ _ _ h19,
    real1_of_all bf2 _ _ _ _ _ h20⟩

end Cert.Spec

end
-- ==== Proof.LayerAlgebra.lean ====
import proofs.«416188_j20263655702631_2_alg».proof.Proof.Spec
import Mathlib.Algebra.BigOperators.Field
import Mathlib.Algebra.BigOperators.Ring.Finset
import Mathlib.Algebra.Order.BigOperators.Group.Finset
import Mathlib.Data.EReal.Inv
import Mathlib.Analysis.SpecialFunctions.Sqrt
import Mathlib.Tactic.Ring
import Mathlib.Tactic.FieldSimp

noncomputable section

namespace Cert.Spec

open Idealize.ShloMosaic

section RealIdentities

variable {ι κ μ : Type*} [Fintype ι] [Fintype κ] [Fintype μ]

theorem real_sum_div_mul (p : ι → κ → ℝ) (U : κ → ℝ) (c : ℝ) :
    ∑ k, (∑ n, p n k) / c * U k = (∑ n, ∑ k, p n k * U k) / c := by
  rw [Finset.sum_comm, Finset.sum_div]
  refine Finset.sum_congr rfl fun k _ => ?_
  rw [← Finset.sum_mul]
  ring

theorem real_gram_bilin (p : ι → κ → ℝ) (q : ι → μ → ℝ) (U : κ → ℝ) (V : μ → ℝ) :
    ∑ k, U k * ∑ l, (∑ n, p n k * q n l) * V l = ∑ n, (∑ k, p n k * U k) * ∑ l, q n l * V l := by
  calc ∑ k, U k * ∑ l, (∑ n, p n k * q n l) * V l
      = ∑ k, ∑ l, ∑ n, (p n k * U k) * (q n l * V l) := by
        refine Finset.sum_congr rfl fun k _ => ?_
        rw [Finset.mul_sum]
        refine Finset.sum_congr rfl fun l _ => ?_
        rw [Finset.sum_mul, Finset.mul_sum]
        exact Finset.sum_congr rfl fun n _ => by ring
    _ = ∑ n, ∑ k, ∑ l, (p n k * U k) * (q n l * V l) :=
        (Finset.sum_congr rfl fun k _ => Finset.sum_comm).trans Finset.sum_comm
    _ = ∑ n, (∑ k, p n k * U k) * ∑ l, q n l * V l :=
        Finset.sum_congr rfl fun n _ => (Finset.sum_mul_sum _ _ _ _).symm

theorem real_gram_bilin_tr (p : ι → κ → ℝ) (q : ι → μ → ℝ) (U : κ → ℝ) (V : μ → ℝ) :
    ∑ k, U k * ∑ l, (∑ n, q n l * p n k) * V l = ∑ n, (∑ k, p n k * U k) * ∑ l, q n l * V l := by
  rw [← real_gram_bilin p q U V]
  refine Finset.sum_congr rfl fun k _ => ?_
  congr 1
  refine Finset.sum_congr rfl fun l _ => ?_
  congr 1
  exact Finset.sum_congr rfl fun n _ => mul_comm _ _

theorem real_diag (a : ι → κ → ℝ) (h : ι → μ → ℝ) (Wl : κ → ℝ) (Wr : μ → ℝ) :
    (∑ k, Wl k * ((∑ l, (∑ n, a n k * a n l) * Wl l) + ∑ l, (∑ n, a n k * h n l) * Wr l))
      + ∑ k, Wr k * ((∑ l, (∑ n, a n l * h n k) * Wl l) + ∑ l, (∑ n, h n k * h n l) * Wr l)
    = ∑ n, ((∑ k, a n k * Wl k) + ∑ k, h n k * Wr k) * ((∑ k, a n k * Wl k) + ∑ k, h n k * Wr k) := by
  simp only [mul_add, Finset.sum_add_distrib]
  rw [real_gram_bilin a a Wl Wl, real_gram_bilin a h Wl Wr, real_gram_bilin_tr h a Wr Wl,
    real_gram_bilin h h Wr Wr]
  simp only [← Finset.sum_add_distrib]
  exact Finset.sum_congr rfl fun n _ => by ring

theorem real_mean_shift (A H : ι → ℝ) (b c : ℝ) (hc : c = Fintype.card ι) (hc0 : c ≠ 0) :
    (∑ n, A n) / c + (∑ n, H n) / c + b = (∑ n, ((A n + b) + H n)) / c := by
  simp only [Finset.sum_add_distrib, Finset.sum_const, Finset.card_univ, nsmul_eq_mul, ← hc]
  field_simp
  ring

theorem real_var_shift (A H : ι → ℝ) (b c : ℝ) (hc : c = Fintype.card ι) (hc0 : c ≠ 0) :
    (∑ n, (A n + H n) * (A n + H n)) / c
        - ((∑ n, A n) / c + (∑ n, H n) / c + b - b) * ((∑ n, A n) / c + (∑ n, H n) / c + b - b)
      = (∑ n, (((A n + b) + H n) - (∑ n, ((A n + b) + H n)) / c)
            * (((A n + b) + H n) - (∑ n, ((A n + b) + H n)) / c)) / c := by
  rw [← real_mean_shift A H b c hc hc0]
  set m : ℝ := (∑ n, A n) / c + (∑ n, H n) / c with hm
  have hS : ∑ n, (A n + H n) = c * m := by
    rw [hm, Finset.sum_add_distrib]; field_simp
  have hterm : ∀ n, ((A n + b) + H n - (m + b)) * ((A n + b) + H n - (m + b))
      = (A n + H n) * (A n + H n) - 2 * m * (A n + H n) + m * m := fun n => by ring
  simp only [hterm, Finset.sum_add_distrib, Finset.sum_sub_distrib, ← Finset.mul_sum, Finset.sum_const,
    Finset.card_univ, nsmul_eq_mul, ← hc]
  rw [← Finset.sum_add_distrib, hS]
  field_simp
  ring

end RealIdentities

section Coe

@[norm_cast] theorem coe_finset_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem coe_max (x y : ℝ) : ((max x y : ℝ) : EReal) = max (x : EReal) (y : EReal) :=
  EReal.coe_strictMono.monotone.map_max

theorem div_coe_coe (x : ℝ) {y : ℝ} (hy : y ≠ 0) :
    Ideal.div (x : EReal) (y : EReal) = ((x / y : ℝ) : EReal) := by
  rw [Ideal.div, if_neg (by exact_mod_cast hy), ← EReal.coe_inv, ← EReal.coe_mul, div_eq_mul_inv]

theorem rsqrt_coe_pos {r : ℝ} (hr : 0 < r) : Ideal.rsqrt (r : EReal) = (((Real.sqrt r)⁻¹ : ℝ) : EReal) := by
  rw [Ideal.rsqrt_coe, if_neg (not_lt.2 hr.le), if_neg hr.ne']

theorem IsReal1.exists_real {a : ℕ} {v : Fin a → EReal} (h : IsReal1 v) :
    ∃ v' : Fin a → ℝ, v = fun i => (v' i : EReal) :=
  ⟨fun i => (v i).toReal, funext fun i => (EReal.coe_toReal (h i).1 (h i).2).symm⟩

theorem IsReal2.exists_real {a b : ℕ} {v : Fin a → Fin b → EReal} (h : IsReal2 v) :
    ∃ v' : Fin a → Fin b → ℝ, v = fun i j => (v' i j : EReal) :=
  ⟨fun i j => (v i j).toReal, funext fun i => funext fun j => (EReal.coe_toReal (h i j).1 (h i j).2).symm⟩

theorem isReal1_coe {a : ℕ} (v : Fin a → ℝ) : IsReal1 fun i => (v i : EReal) :=
  fun _ => ⟨EReal.coe_ne_top _, EReal.coe_ne_bot _⟩

theorem isReal2_coe {a b : ℕ} (v : Fin a → Fin b → ℝ) : IsReal2 fun i j => (v i j : EReal) :=
  fun _ _ => ⟨EReal.coe_ne_top _, EReal.coe_ne_bot _⟩

end Coe

section Layer
variable {N da dx dout : ℕ}

theorem anorm_dinv_eq_rAgg (one : EReal) (hone : one = 1) (agg : Fin N → Fin da → EReal) (deg : Fin N → EReal) :
    anorm agg (dinv one deg) = rAgg one agg deg := by
  subst hone
  funext n k
  have hpos : (0 : EReal) < max (deg n) 1 := lt_of_lt_of_le (by exact_mod_cast (zero_lt_one : (0 : ℝ) < 1)) (le_max_right _ _)
  simp only [anorm, dinv, rAgg, Ideal.div, if_neg hpos.ne', one_mul]

theorem rAgg_coe (agg : Fin N → Fin da → ℝ) (deg : Fin N → ℝ) :
    rAgg 1 (fun n k => (agg n k : EReal)) (fun n => (deg n : EReal))
      = fun n k => ((agg n k / max (deg n) 1 : ℝ) : EReal) := by
  funext n k
  have h1 : max (deg n) 1 ≠ 0 := (lt_of_lt_of_le one_pos (le_max_right _ _)).ne'
  simp only [rAgg]
  rw [← EReal.coe_one, ← coe_max, div_coe_coe _ h1]

theorem rAgg_isReal (one : EReal) (hone : one = 1) (agg : Fin N → Fin da → EReal) (deg : Fin N → EReal)
    (hagg : IsReal2 agg) (hdeg : IsReal1 deg) : IsReal2 (rAgg one agg deg) := by
  subst hone
  obtain ⟨agg', rfl⟩ := hagg.exists_real
  obtain ⟨deg', rfl⟩ := hdeg.exists_real
  rw [rAgg_coe]
  exact isReal2_coe _

theorem kY_eq_rY (a : Fin N → Fin da → EReal) (h : Fin N → Fin dx → EReal) (Wl : Fin da → Fin dout → EReal)
    (Wr : Fin dx → Fin dout → EReal) (bl : Fin dout → EReal) : kY a h Wl Wr bl = rY a h Wl Wr bl := by
  funext n j
  simp only [kY, rY]
  exact add_right_comm _ _ _

theorem rY_coe (a : Fin N → Fin da → ℝ) (h : Fin N → Fin dx → ℝ) (Wl : Fin da → Fin dout → ℝ)
    (Wr : Fin dx → Fin dout → ℝ) (bl : Fin dout → ℝ) :
    rY (fun n k => (a n k : EReal)) (fun n k => (h n k : EReal)) (fun k j => (Wl k j : EReal))
        (fun k j => (Wr k j : EReal)) (fun j => (bl j : EReal))
      = fun n j => ((((∑ k, a n k * Wl k j) + bl j) + ∑ k, h n k * Wr k j : ℝ) : EReal) := by
  funext n j
  simp only [rY, ← EReal.coe_mul, ← coe_finset_sum, ← EReal.coe_add]

theorem rMean_coe (hN : ((N : ℕ) : ℝ) ≠ 0) (y : Fin N → Fin dout → ℝ) :
    rMean (((N : ℕ) : ℝ) : EReal) (fun n j => (y n j : EReal))
      = fun j => (((∑ n, y n j) / ((N : ℕ) : ℝ) : ℝ) : EReal) := by
  funext j
  simp only [rMean, ← coe_finset_sum, div_coe_coe _ hN]

theorem rVar_coe (hN : ((N : ℕ) : ℝ) ≠ 0) (y : Fin N → Fin dout → ℝ) :
    rVar (((N : ℕ) : ℝ) : EReal) (fun n j => (y n j : EReal))
      = fun j => (((∑ n, (y n j - (∑ n, y n j) / ((N : ℕ) : ℝ)) * (y n j - (∑ n, y n j) / ((N : ℕ) : ℝ)))
          / ((N : ℕ) : ℝ) : ℝ) : EReal) := by
  funext j
  simp only [rVar, rMean, ← coe_finset_sum, div_coe_coe _ hN, ← EReal.coe_sub, ← EReal.coe_mul]

theorem kMu_eq_rMean (hN : 0 < N) (a : Fin N → Fin da → ℝ) (h : Fin N → Fin dx → ℝ) (Wl : Fin da → Fin dout → ℝ)
    (Wr : Fin dx → Fin dout → ℝ) (bl : Fin dout → ℝ) :
    kMu (((N : ℕ) : ℝ) : EReal) (colSum fun n k => (a n k : EReal)) (colSum fun n k => (h n k : EReal))
        (fun k j => (Wl k j : EReal)) (fun k j => (Wr k j : EReal)) (fun j => (bl j : EReal))
      = rMean (((N : ℕ) : ℝ) : EReal) (rY (fun n k => (a n k : EReal)) (fun n k => (h n k : EReal))
          (fun k j => (Wl k j : EReal)) (fun k j => (Wr k j : EReal)) (fun j => (bl j : EReal))) := by
  have hN' : ((N : ℕ) : ℝ) ≠ 0 := Nat.cast_ne_zero.2 hN.ne'
  rw [rY_coe, rMean_coe hN']
  funext j
  simp only [kMu, colSum, ← coe_finset_sum, div_coe_coe _ hN', ← EReal.coe_mul, ← EReal.coe_add]
  rw [EReal.coe_eq_coe_iff, real_sum_div_mul, real_sum_div_mul]
  exact real_mean_shift _ _ _ _ (by simp) hN'

theorem kVar_eq_rVar (hN : 0 < N) (a : Fin N → Fin da → ℝ) (h : Fin N → Fin dx → ℝ) (Wl : Fin da → Fin dout → ℝ)
    (Wr : Fin dx → Fin dout → ℝ) (bl : Fin dout → ℝ) :
    kVar (((N : ℕ) : ℝ) : EReal) 0
        (kDiag (gram (fun n k => (a n k : EReal)) fun n k => (a n k : EReal))
          (gram (fun n k => (h n k : EReal)) fun n k => (h n k : EReal))
          (gram (fun n k => (a n k : EReal)) fun n k => (h n k : EReal))
          (fun k j => (Wl k j : EReal)) (fun k j => (Wr k j : EReal)))
        (kMu (((N : ℕ) : ℝ) : EReal) (colSum fun n k => (a n k : EReal)) (colSum fun n k => (h n k : EReal))
          (fun k j => (Wl k j : EReal)) (fun k j => (Wr k j : EReal)) (fun j => (bl j : EReal)))
        (fun j => (bl j : EReal))
      = rVar (((N : ℕ) : ℝ) : EReal) (rY (fun n k => (a n k : EReal)) (fun n k => (h n k : EReal))
          (fun k j => (Wl k j : EReal)) (fun k j => (Wr k j : EReal)) (fun j => (bl j : EReal))) := by
  have hN' : ((N : ℕ) : ℝ) ≠ 0 := Nat.cast_ne_zero.2 hN.ne'
  rw [rY_coe, rVar_coe hN']
  funext j
  simp only [kVar, kDiag, kMa, kMx, gram, kMu, colSum, ← coe_finset_sum, div_coe_coe _ hN', ← EReal.coe_mul,
    ← EReal.coe_add, ← EReal.coe_sub]
  rw [← EReal.coe_zero, ← coe_max, EReal.coe_eq_coe_iff, real_diag, real_sum_div_mul, real_sum_div_mul,
    real_var_shift _ _ _ _ (by simp) hN']
  exact max_eq_left (div_nonneg (Finset.sum_nonneg fun n _ => mul_self_nonneg _) (Nat.cast_nonneg N))

theorem invStd_coe {e : ℝ} (he : 0 < e) (v : Fin dout → ℝ) (hv : ∀ j, 0 ≤ v j) :
    invStd (e : EReal) (fun j => (v j : EReal)) = fun j => (((Real.sqrt (v j + e))⁻¹ : ℝ) : EReal) := by
  funext j
  simp only [invStd, ← EReal.coe_add]
  exact rsqrt_coe_pos (add_pos_of_nonneg_of_pos (hv j) he)

theorem bnRelu_coe (y : Fin N → Fin dout → ℝ) (mu inv g be : Fin dout → ℝ) :
    bnRelu 0 (fun n j => (y n j : EReal)) (fun j => (mu j : EReal)) (fun j => (inv j : EReal))
        (fun j => (g j : EReal)) (fun j => (be j : EReal))
      = fun n j => ((max ((y n j - mu j) * inv j * g j + be j) 0 : ℝ) : EReal) := by
  funext n j
  simp only [bnRelu, ← EReal.coe_sub, ← EReal.coe_mul, ← EReal.coe_add]
  rw [← EReal.coe_zero, ← coe_max]

theorem kLayer_eq_rLayer (cN eps one zero : EReal) (hN : 0 < N) (hcN : cN = (((N : ℕ) : ℝ) : EReal))
    (hone : one = 1) (hzero : zero = 0) (heps : ∃ e : ℝ, 0 < e ∧ eps = (e : EReal))
    (agg : Fin N → Fin da → EReal) (deg : Fin N → EReal) (h : Fin N → Fin dx → EReal)
    (Wl : Fin da → Fin dout → EReal) (Wr : Fin dx → Fin dout → EReal) (bl g be : Fin dout → EReal)
    (hagg : IsReal2 agg) (hdeg : IsReal1 deg) (hh : IsReal2 h) (hWl : IsReal2 Wl) (hWr : IsReal2 Wr)
    (hbl : IsReal1 bl) :
    kLayer cN eps one zero agg deg h Wl Wr bl g be = rLayer cN eps one zero agg deg h Wl Wr bl g be := by
  have ha : IsReal2 (rAgg one agg deg) := rAgg_isReal one hone agg deg hagg hdeg
  simp only [kLayer, rLayer, anorm_dinv_eq_rAgg one hone]
  subst hzero hcN
  generalize rAgg one agg deg = a at ha ⊢
  obtain ⟨a', rfl⟩ := ha.exists_real
  obtain ⟨h', rfl⟩ := hh.exists_real
  obtain ⟨Wl', rfl⟩ := hWl.exists_real
  obtain ⟨Wr', rfl⟩ := hWr.exists_real
  obtain ⟨bl', rfl⟩ := hbl.exists_real
  rw [kVar_eq_rVar hN, kMu_eq_rMean hN, kY_eq_rY]

theorem rLayer_isReal (cN eps one zero : EReal) (hN : 0 < N) (hcN : cN = (((N : ℕ) : ℝ) : EReal))
    (hone : one = 1) (hzero : zero = 0) (heps : ∃ e : ℝ, 0 < e ∧ eps = (e : EReal))
    (agg : Fin N → Fin da → EReal) (deg : Fin N → EReal) (h : Fin N → Fin dx → EReal)
    (Wl : Fin da → Fin dout → EReal) (Wr : Fin dx → Fin dout → EReal) (bl g be : Fin dout → EReal)
    (hagg : IsReal2 agg) (hdeg : IsReal1 deg) (hh : IsReal2 h) (hWl : IsReal2 Wl) (hWr : IsReal2 Wr)
    (hbl : IsReal1 bl) (hg : IsReal1 g) (hbe : IsReal1 be) :
    IsReal2 (rLayer cN eps one zero agg deg h Wl Wr bl g be) := by
  have ha : IsReal2 (rAgg one agg deg) := rAgg_isReal one hone agg deg hagg hdeg
  have hN' : ((N : ℕ) : ℝ) ≠ 0 := Nat.cast_ne_zero.2 hN.ne'
  obtain ⟨e, he, rfl⟩ := heps
  simp only [rLayer]
  subst hzero hcN
  generalize rAgg one agg deg = a at ha ⊢
  obtain ⟨a', rfl⟩ := ha.exists_real
  obtain ⟨h', rfl⟩ := hh.exists_real
  obtain ⟨Wl', rfl⟩ := hWl.exists_real
  obtain ⟨Wr', rfl⟩ := hWr.exists_real
  obtain ⟨bl', rfl⟩ := hbl.exists_real
  obtain ⟨g', rfl⟩ := hg.exists_real
  obtain ⟨be', rfl⟩ := hbe.exists_real
  rw [rY_coe, rMean_coe hN', rVar_coe hN', invStd_coe he, bnRelu_coe]
  · exact isReal2_coe _
  · exact fun j => div_nonneg (Finset.sum_nonneg fun n _ => mul_self_nonneg _) (Nat.cast_nonneg N)

end Layer

end Cert.Spec

end
-- ==== Proof.AggDefs.lean ====
import proofs.«416188_j20263655702631_2_alg».proof.KernelIdeal
import proofs.«416188_j20263655702631_2_alg».proof.ReferenceIdeal

noncomputable section

namespace Cert.KernelIdeal.Agg

open Idealize.ShloMosaic Cert.KernelIdeal Cert.KernelIdeal.Facts₀

variable [Facts₀]

def src (e : IVec S2x1600000 32) : IVec S1600000 32 :=
  shapeCast S1600000 (extractStridedSlice S1x1600000 ![0, 0] e slices_S2x1600000_S1x1600000_0_0) shapeCasts_S1x1600000_S1600000

def dst (e : IVec S2x1600000 32) : IVec S1600000 32 :=
  shapeCast S1600000 (extractStridedSlice S1x1600000 ![1, 0] e slices_S2x1600000_S1x1600000_1_0) shapeCasts_S1x1600000_S1600000

def gix (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def six (d : IVec S1600000 32) : IVec S1600000x1 32 :=
  broadcastInDim S1600000x1 ![0] bcast_S1600000_S1600000x1_0 d

variable {F : FTy → Type} [FloatOps F]

def deg' (d : IVec S1600000 32) : FVec F S100000 .f32 :=
  Host.scatterAdd scatter_S100000_S1600000x1_S1600000_n_0_0_1
    (broadcastInDim S100000 ![] bcast_S_S100000 (constant (F := F) S_ .f32 0x00000000#32))
    (six d)
    (broadcastInDim S1600000 ![] bcast_S_S1600000 (constant (F := F) S_ .f32 0x3F800000#32))

def deg (e : IVec S2x1600000 32) : FVec F S100000 .f32 := deg' (dst e)

def dinvOf (g : FVec F S100000 .f32) : FVec F S100000x1 .f32 :=
  shapeCast S100000x1
    (Host.divf (broadcastInDim S100000 ![] bcast_S_S100000 (constant (F := F) S_ .f32 0x3F800000#32))
      (maximumf g (broadcastInDim S100000 ![] bcast_S_S100000 (constant (F := F) S_ .f32 0x3F800000#32))))
    shapeCasts_S100000_S100000x1

def agg2' (x : FVec F S100000x2 .f32) (s d : IVec S1600000 32) : FVec F S100000x2 .f32 :=
  Host.scatterAdd scatter_S100000x2_S1600000x1_S1600000x2_1_0_0_1
    (broadcastInDim S100000x2 ![] bcast_S_S100000x2 (constant (F := F) S_ .f32 0x00000000#32))
    (six d)
    (Host.gather gather_S100000x2_S1600000x1_S1600000x2_1_0_n_n_0_1_12 x (gix s))

def agg2 (x : FVec F S100000x2 .f32) (e : IVec S2x1600000 32) : FVec F S100000x2 .f32 := agg2' x (src e) (dst e)

def agg32' (h : FVec F S100000x32 .bf16) (s d : IVec S1600000 32) : FVec F S100000x32 .f32 :=
  Host.scatterAdd scatter_S100000x32_S1600000x1_S1600000x32_1_0_0_1
    (broadcastInDim S100000x32 ![] bcast_S_S100000x32 (constant (F := F) S_ .f32 0x00000000#32))
    (six d)
    (extf .f32 (Host.gather gather_S100000x32_S1600000x1_S1600000x32_1_0_n_n_0_1_132 h (gix s)) bitsLt_bf16_f32)

def agg32 (h : FVec F S100000x32 .bf16) (e : IVec S2x1600000 32) : FVec F S100000x32 .f32 := agg32' h (src e) (dst e)

def agg64' (h : FVec F S100000x64 .bf16) (s d : IVec S1600000 32) : FVec F S100000x64 .f32 :=
  Host.scatterAdd scatter_S100000x64_S1600000x1_S1600000x64_1_0_0_1
    (broadcastInDim S100000x64 ![] bcast_S_S100000x64 (constant (F := F) S_ .f32 0x00000000#32))
    (six d)
    (extf .f32 (Host.gather gather_S100000x64_S1600000x1_S1600000x64_1_0_n_n_0_1_164 h (gix s)) bitsLt_bf16_f32)

def agg64 (h : FVec F S100000x64 .bf16) (e : IVec S2x1600000 32) : FVec F S100000x64 .f32 := agg64' h (src e) (dst e)

end Cert.KernelIdeal.Agg

namespace Cert.ReferenceIdeal.Agg

open Idealize.ShloMosaic Cert.ReferenceIdeal Cert.ReferenceIdeal.Facts₀

variable [Facts₀]

def src (e : IVec S2x1600000 32) : IVec S1600000 32 :=
  shapeCast S1600000 (extractStridedSlice S1x1600000 ![0, 0] e slices_S2x1600000_S1x1600000_0_0) shapeCasts_S1x1600000_S1600000

def dst (e : IVec S2x1600000 32) : IVec S1600000 32 :=
  shapeCast S1600000 (extractStridedSlice S1x1600000 ![1, 0] e slices_S2x1600000_S1x1600000_1_0) shapeCasts_S1x1600000_S1600000

def gix (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def six (d : IVec S1600000 32) : IVec S1600000x1 32 :=
  broadcastInDim S1600000x1 ![0] bcast_S1600000_S1600000x1_0 d

variable {F : FTy → Type} [FloatOps F]

def deg' (d : IVec S1600000 32) : FVec F S100000 .f32 :=
  Host.scatterAdd scatter_S100000_S1600000x1_S1600000_n_0_0_1
    (broadcastInDim S100000 ![] bcast_S_S100000 (constant (F := F) S_ .f32 0x00000000#32))
    (six d)
    (broadcastInDim S1600000 ![] bcast_S_S1600000 (constant (F := F) S_ .f32 0x3F800000#32))

def deg (e : IVec S2x1600000 32) : FVec F S100000 .f32 := deg' (dst e)

def agg2' (x : FVec F S100000x2 .f32) (s d : IVec S1600000 32) : FVec F S100000x2 .f32 :=
  Host.scatterAdd scatter_S100000x2_S1600000x1_S1600000x2_1_0_0_1
    (broadcastInDim S100000x2 ![] bcast_S_S100000x2 (constant (F := F) S_ .f32 0x00000000#32))
    (six d)
    (Host.gather gather_S100000x2_S1600000x1_S1600000x2_1_0_n_n_0_1_12 x (gix s))

def agg2 (x : FVec F S100000x2 .f32) (e : IVec S2x1600000 32) : FVec F S100000x2 .f32 := agg2' x (src e) (dst e)

def agg32' (h : FVec F S100000x32 .f32) (s d : IVec S1600000 32) : FVec F S100000x32 .f32 :=
  Host.scatterAdd scatter_S100000x32_S1600000x1_S1600000x32_1_0_0_1
    (broadcastInDim S100000x32 ![] bcast_S_S100000x32 (constant (F := F) S_ .f32 0x00000000#32))
    (six d)
    (Host.gather gather_S100000x32_S1600000x1_S1600000x32_1_0_n_n_0_1_132 h (gix s))

def agg32 (h : FVec F S100000x32 .f32) (e : IVec S2x1600000 32) : FVec F S100000x32 .f32 := agg32' h (src e) (dst e)

def agg64' (h : FVec F S100000x64 .f32) (s d : IVec S1600000 32) : FVec F S100000x64 .f32 :=
  Host.scatterAdd scatter_S100000x64_S1600000x1_S1600000x64_1_0_0_1
    (broadcastInDim S100000x64 ![] bcast_S_S100000x64 (constant (F := F) S_ .f32 0x00000000#32))
    (six d)
    (Host.gather gather_S100000x64_S1600000x1_S1600000x64_1_0_n_n_0_1_164 h (gix s))

def agg64 (h : FVec F S100000x64 .f32) (e : IVec S2x1600000 32) : FVec F S100000x64 .f32 := agg64' h (src e) (dst e)

end Cert.ReferenceIdeal.Agg

end
-- ==== Proof.AggEq.lean ====
import proofs.«416188_j20263655702631_2_alg».proof.Proof.AggDefs
import proofs.«416188_j20263655702631_2_alg».proof.Proof.Spec
import proofs.«416188_j20263655702631_2_alg».proof.Proof.Reals
import Idealize.ShloMosaic.Lib.ValueIdx

noncomputable section

namespace Cert.AggEq

open Idealize.ShloMosaic Idealize.ShloMosaic.ValueIdx Cert.Spec

variable [Cert.KernelIdeal.Facts₀] [Cert.ReferenceIdeal.Facts₀]

section Generic
variable {F : FTy → Type} [FloatOps F]

theorem deg_eq (e : IVec Cert.KernelIdeal.S2x1600000 32) : Cert.KernelIdeal.Agg.deg (F := F) e = Cert.ReferenceIdeal.Agg.deg (F := F) e := rfl

theorem agg2_eq (x : FVec F Cert.KernelIdeal.S100000x2 .f32) (e : IVec Cert.KernelIdeal.S2x1600000 32) :
    Cert.KernelIdeal.Agg.agg2 (F := F) x e = Cert.ReferenceIdeal.Agg.agg2 (F := F) x e := rfl

end Generic

theorem agg32_eq (h : FVec Ideal Cert.KernelIdeal.S100000x32 .bf16) (e : IVec Cert.KernelIdeal.S2x1600000 32) :
    Cert.KernelIdeal.Agg.agg32 (F := Ideal) h e = Cert.ReferenceIdeal.Agg.agg32 (F := Ideal) h e := rfl

theorem agg64_eq (h : FVec Ideal Cert.KernelIdeal.S100000x64 .bf16) (e : IVec Cert.KernelIdeal.S2x1600000 32) :
    Cert.KernelIdeal.Agg.agg64 (F := Ideal) h e = Cert.ReferenceIdeal.Agg.agg64 (F := Ideal) h e := rfl

theorem isReal_zero : Ideal.ofBits .f32 0x00000000#32 ≠ ⊤ ∧ Ideal.ofBits .f32 0x00000000#32 ≠ ⊥ := by
  rw [ofBits_zero]; exact ⟨EReal.coe_ne_top 0, EReal.coe_ne_bot 0⟩

theorem isReal_one : Ideal.ofBits .f32 0x3F800000#32 ≠ ⊤ ∧ Ideal.ofBits .f32 0x3F800000#32 ≠ ⊥ := by
  rw [ofBits_one]; exact ⟨EReal.coe_ne_top 1, EReal.coe_ne_bot 1⟩

theorem isReal_of_c2 {a b : ℕ} (v : (⟨2, ![a, b]⟩ : Shape).Idx → EReal) (h : IsReal2 (c2 v)) : ∀ i, v i ≠ ⊤ ∧ v i ≠ ⊥ := fun i => by
  have e : v i = v (ix2 (i 0) (i 1)) := congrArg v (eq_ix2 i)
  rw [e]
  exact h (i 0) (i 1)

theorem deg_isReal_R (e : IVec Cert.ReferenceIdeal.S2x1600000 32) : IsReal1 (c1 (Cert.ReferenceIdeal.Agg.deg (F := Ideal) e)) := fun n => by
  unfold Cert.Spec.c1 Cert.ReferenceIdeal.Agg.deg Cert.ReferenceIdeal.Agg.deg'
  exact scatterAdd_isReal (φ := .f32) _ _ _ _ (fun _ => isReal_zero) (fun _ => isReal_one) _

theorem agg2_isReal_R (h : FVec Ideal Cert.ReferenceIdeal.S100000x2 .f32) (e : IVec Cert.ReferenceIdeal.S2x1600000 32) (hh : IsReal2 (c2 h)) :
    IsReal2 (c2 (Cert.ReferenceIdeal.Agg.agg2 (F := Ideal) h e)) := fun n k => by
  unfold Cert.Spec.c2 Cert.ReferenceIdeal.Agg.agg2 Cert.ReferenceIdeal.Agg.agg2'
  exact scatterAdd_isReal (φ := .f32) _ _ _ _ (fun _ => isReal_zero) (gather_isReal _ _ _ (isReal_of_c2 h hh)) _

theorem agg32_isReal_R (h : FVec Ideal Cert.ReferenceIdeal.S100000x32 .f32) (e : IVec Cert.ReferenceIdeal.S2x1600000 32) (hh : IsReal2 (c2 h)) :
    IsReal2 (c2 (Cert.ReferenceIdeal.Agg.agg32 (F := Ideal) h e)) := fun n k => by
  unfold Cert.Spec.c2 Cert.ReferenceIdeal.Agg.agg32 Cert.ReferenceIdeal.Agg.agg32'
  exact scatterAdd_isReal (φ := .f32) _ _ _ _ (fun _ => isReal_zero) (gather_isReal _ _ _ (isReal_of_c2 h hh)) _

theorem agg64_isReal_R (h : FVec Ideal Cert.ReferenceIdeal.S100000x64 .f32) (e : IVec Cert.ReferenceIdeal.S2x1600000 32) (hh : IsReal2 (c2 h)) :
    IsReal2 (c2 (Cert.ReferenceIdeal.Agg.agg64 (F := Ideal) h e)) := fun n k => by
  unfold Cert.Spec.c2 Cert.ReferenceIdeal.Agg.agg64 Cert.ReferenceIdeal.Agg.agg64'
  exact scatterAdd_isReal (φ := .f32) _ _ _ _ (fun _ => isReal_zero) (gather_isReal _ _ _ (isReal_of_c2 h hh)) _

end Cert.AggEq

end
-- ==== Proof.AsmKLib.lean ====
import proofs.«416188_j20263655702631_2_alg».proof.Proof.Spec

noncomputable section

namespace Cert.KernelIdeal.Asm

open Cert.Spec

theorem kLayer_of_pieces {N da dx dout : ℕ} {cN eps one zero : EReal}
    {agg : Fin N → Fin da → EReal} {deg : Fin N → EReal} {h : Fin N → Fin dx → EReal}
    {Wl : Fin da → Fin dout → EReal} {Wr : Fin dx → Fin dout → EReal} {bl g be : Fin dout → EReal}
    {out : Fin N → Fin dout → EReal}
    {A₁ : Fin N → Fin da → EReal} {D₁ : Fin N → EReal} {X₁ : Fin N → Fin dx → EReal}
    {Wl₁ : Fin da → Fin dout → EReal} {Wr₁ : Fin dx → Fin dout → EReal} {b₁ mu₁ inv₁ g₁ be₁ : Fin dout → EReal}
    (hout : out = bnRelu zero (kY (anorm A₁ D₁) X₁ Wl₁ Wr₁ b₁) mu₁ inv₁ g₁ be₁)
    {sa : Fin da → EReal} {sx : Fin dx → EReal} {Gaa : Fin da → Fin da → EReal} {Gxx : Fin dx → Fin dx → EReal}
    {Gax : Fin da → Fin dx → EReal}
    {Wl₂ : Fin da → Fin dout → EReal} {Wr₂ : Fin dx → Fin dout → EReal} {bl₂ : Fin dout → EReal}
    (hmu : mu₁ = kMu cN sa sx Wl₂ Wr₂ bl₂)
    (hinv : inv₁ = invStd eps (kVar cN zero (kDiag Gaa Gxx Gax Wl₂ Wr₂) (kMu cN sa sx Wl₂ Wr₂ bl₂) bl₂))
    {A₀ : Fin N → Fin da → EReal} {D₀ : Fin N → EReal} {X₀ : Fin N → Fin dx → EReal}
    (hsa : sa = colSum (anorm A₀ D₀)) (hsx : sx = colSum X₀)
    (hGaa : Gaa = gram (anorm A₀ D₀) (anorm A₀ D₀)) (hGxx : Gxx = gram X₀ X₀) (hGax : Gax = gram (anorm A₀ D₀) X₀)
    (hA₁ : A₁ = agg) (hD₁ : D₁ = dinv one deg) (hX₁ : X₁ = h) (hWl₁ : Wl₁ = Wl) (hWr₁ : Wr₁ = Wr)
    (hb₁ : b₁ = bl) (hg₁ : g₁ = g) (hbe₁ : be₁ = be)
    (hWl₂ : Wl₂ = Wl) (hWr₂ : Wr₂ = Wr) (hbl₂ : bl₂ = bl)
    (hA₀ : A₀ = agg) (hD₀ : D₀ = dinv one deg) (hX₀ : X₀ = h) :
    out = kLayer cN eps one zero agg deg h Wl Wr bl g be := by
  subst hout hmu hinv hsa hsx hGaa hGxx hGax hA₁ hD₁ hX₁ hWl₁ hWr₁ hb₁ hg₁ hbe₁ hWl₂ hWr₂ hbl₂ hA₀ hD₀ hX₀
  rfl

theorem poolSum_congr {N G d : ℕ} {sel sel' : Fin N → Fin G → Prop} [∀ n g, Decidable (sel n g)]
    [∀ n g, Decidable (sel' n g)] (hsel : ∀ n g, sel n g ↔ sel' n g) (x : Fin N → Fin d → EReal) :
    poolSum sel x = poolSum sel' x := by
  funext g j
  exact Finset.sum_congr rfl fun n _ => if_congr (hsel n g) rfl rfl

theorem poolCnt_congr {N G : ℕ} {sel sel' : Fin N → Fin G → Prop} [∀ n g, Decidable (sel n g)]
    [∀ n g, Decidable (sel' n g)] (hsel : ∀ n g, sel n g ↔ sel' n g) :
    poolCnt sel = poolCnt sel' := by
  funext g
  exact Finset.sum_congr rfl fun n _ => if_congr (hsel n g) rfl rfl

theorem head_of_pieces {N G d dm : ℕ} {one zero : EReal}
    {sel : Fin N → Fin G → Prop} [∀ n g, Decidable (sel n g)]
    {x : Fin N → Fin d → EReal}
    {W1 : Fin d → Fin dm → EReal} {b1 : Fin dm → EReal} {W2 : Fin dm → Fin 1 → EReal} {b2 : Fin 1 → EReal}
    {out : Fin G → Fin 1 → EReal}
    {p₁ : Fin G → Fin d → EReal} {W1₁ : Fin d → Fin dm → EReal} {b1₁ : Fin dm → EReal} {W2₁ : Fin dm → Fin 1 → EReal}
    {b2₁ : Fin 1 → EReal}
    (hout : out = head zero p₁ W1₁ b1₁ W2₁ b2₁)
    {s : Fin G → Fin d → EReal} {cnt : Fin G → EReal}
    (hp : p₁ = poolMean one s cnt)
    {sel₁ : Fin N → Fin G → Prop} [∀ n g, Decidable (sel₁ n g)] {x₁ : Fin N → Fin d → EReal}
    (hs : s = poolSum sel₁ x₁) (hcnt : cnt = poolCnt sel₁)
    (hsel : ∀ n g, sel₁ n g ↔ sel n g) (hx : x₁ = x)
    (hW1 : W1₁ = W1) (hb1 : b1₁ = b1) (hW2 : W2₁ = W2) (hb2 : b2₁ = b2) :
    out = head zero (poolMean one (poolSum sel x) (poolCnt sel)) W1 b1 W2 b2 := by
  subst hout hp hs hcnt hx hW1 hb1 hW2 hb2
  rw [poolSum_congr hsel, poolCnt_congr hsel]

end Cert.KernelIdeal.Asm

end
-- ==== Proof.Carry.lean ====
import proofs.«416188_j20263655702631_2_alg».proof.Proof.Gen.KernelIdeal.Frame

noncomputable section

namespace Cert.KernelIdeal.Carry

open Cert.KernelIdeal Cert.KernelIdeal.Gen
open Idealize.ShloMosaic Idealize.ShloMosaic.TcCoe Idealize.SL.Sem

abbrev wr0 : List (Ref sig .tc) :=
  [main_v0, main_v1, main_v2, main_v3, main_cst, main_v4, main_cst_0, main_v5, main_v6, main_v7, main_cst_1, main_v8,
   main_v9, main_cst_2, main_v10, main_v11, main_v12, main_c, main_v13, main_v14, main_c_3, main_v15, main_v16, main_v17,
   main_v18, main_v19, main_cst_4, main_v20, main_v21, main_v22]
abbrev wr1 : List (Ref sig .tc) :=
  [main_cst_5, main_v24, main_v25, main_cst_6, main_v26, main_v27, main_v28, main_v29, main_v30, main_v31, main_v32, main_v33,
   main_v34, main_v35, main_v36, main_v37, main_v38, main_v39, main_v40, main_cst_7, main_v41, main_v42, main_cst_8, main_v43,
   main_v44, main_v45, main_v46, main_v47, main_cst_9, main_v48, main_v49, main_cst_10, main_v50, main_v51, main_v52, main_v53,
   main_v54, main_v55]
abbrev wr2 : List (Ref sig .tc) :=
  [main_c_11, main_v57, main_v58, main_c_12, main_v59, main_v60, main_v61, main_v62, main_v63, main_v64, main_cst_13, main_v65,
   main_v66, main_v67]
abbrev wr3 : List (Ref sig .tc) :=
  [main_cst_14, main_v69, main_v70, main_cst_15, main_v71, main_v72, main_v73, main_v74, main_v75, main_v76, main_v77, main_v78,
   main_v79, main_v80, main_v81, main_v82, main_v83, main_v84, main_v85, main_cst_16, main_v86, main_v87, main_cst_17, main_v88,
   main_v89, main_v90, main_v91, main_v92, main_cst_18, main_v93, main_v94, main_cst_19, main_v95, main_v96, main_v97, main_v98,
   main_v99, main_v100]
abbrev wr4 : List (Ref sig .tc) :=
  [main_c_20, main_v102, main_v103, main_c_21, main_v104, main_v105, main_v106, main_v107, main_v108, main_v109, main_cst_22, main_v110,
   main_v111, main_v112]
abbrev wr5 : List (Ref sig .tc) :=
  [main_cst_23, main_v114, main_v115, main_cst_24, main_v116, main_v117, main_v118, main_v119, main_v120, main_v121, main_v122, main_v123,
   main_v124, main_v125, main_v126, main_v127, main_v128, main_v129, main_v130, main_cst_25, main_v131, main_v132, main_cst_26, main_v133,
   main_v134, main_v135, main_v136, main_v137, main_cst_27, main_v138, main_v139, main_cst_28, main_v140, main_v141, main_v142, main_v143,
   main_v144, main_v145]
abbrev wr6 : List (Ref sig .tc) :=
  [main_v147]
abbrev wr7 : List (Ref sig .tc) :=
  [main_v149, main_cst_29, main_v150, main_v151, main_v152, main_v153, main_v154, main_v155, main_v156]

variable {F : FTy → Type} [FloatOps F]

abbrev Wrote (ops : List (HloOp τ sig (Elt F))) (W : List (Ref sig .tc)) : Prop :=
  ops.Forall fun op => op.writes ⊆ (W.map (Proc.devRef (τ := τ) .tc)).toFinset

-- Each host stretch writes only the buffers on its list: every operation writes its one result buffer.
theorem wrote : Wrote (F := F) hostOps0 wr0 ∧ Wrote (F := F) hostOps1 wr1 ∧ Wrote (F := F) hostOps2 wr2 ∧ Wrote (F := F) hostOps3 wr3 ∧ Wrote (F := F) hostOps4 wr4 ∧ Wrote (F := F) hostOps5 wr5 ∧ Wrote (F := F) hostOps6 wr6 ∧ Wrote (F := F) hostOps7 wr7 := by
  simp only [Wrote, hostOps0, hostOps1, hostOps2, hostOps3, hostOps4, hostOps5, hostOps6, hostOps7, List.Forall, StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

variable (m : (ℓ : Loc nD τ sig) → Buf (Elt F) ℓ) (ρ : Dev nD → PrngReg)

-- A buffer off a stretch's list is the same after the stretch as before it.
theorem keep1 {c : Dev nD} {r : Ref sig .tc} (h : r ∉ wr0) :
    W1 m ρ c (Proc.devRef .tc r) = W0 m ρ c (Proc.devRef .tc r) :=
  StableHlo.after_of_writes_sub hostOps0 _ wrote.1 h
theorem keep3 {c : Dev nD} {r : Ref sig .tc} (h : r ∉ wr1) :
    W3 m ρ c (Proc.devRef .tc r) = W2 m ρ c (Proc.devRef .tc r) :=
  StableHlo.after_of_writes_sub hostOps1 _ wrote.2.1 h
theorem keep5 {c : Dev nD} {r : Ref sig .tc} (h : r ∉ wr2) :
    W5 m ρ c (Proc.devRef .tc r) = W4 m ρ c (Proc.devRef .tc r) :=
  StableHlo.after_of_writes_sub hostOps2 _ wrote.2.2.1 h
theorem keep7 {c : Dev nD} {r : Ref sig .tc} (h : r ∉ wr3) :
    W7 m ρ c (Proc.devRef .tc r) = W6 m ρ c (Proc.devRef .tc r) :=
  StableHlo.after_of_writes_sub hostOps3 _ wrote.2.2.2.1 h
theorem keep9 {c : Dev nD} {r : Ref sig .tc} (h : r ∉ wr4) :
    W9 m ρ c (Proc.devRef .tc r) = W8 m ρ c (Proc.devRef .tc r) :=
  StableHlo.after_of_writes_sub hostOps4 _ wrote.2.2.2.2.1 h
theorem keep11 {c : Dev nD} {r : Ref sig .tc} (h : r ∉ wr5) :
    W11 m ρ c (Proc.devRef .tc r) = W10 m ρ c (Proc.devRef .tc r) :=
  StableHlo.after_of_writes_sub hostOps5 _ wrote.2.2.2.2.2.1 h
theorem keep13 {c : Dev nD} {r : Ref sig .tc} (h : r ∉ wr6) :
    W13 m ρ c (Proc.devRef .tc r) = W12 m ρ c (Proc.devRef .tc r) :=
  StableHlo.after_of_writes_sub hostOps6 _ wrote.2.2.2.2.2.2.1 h
theorem keep15 {c : Dev nD} {r : Ref sig .tc} (h : r ∉ wr7) :
    W15 m ρ c (Proc.devRef .tc r) = W14 m ρ c (Proc.devRef .tc r) :=
  StableHlo.after_of_writes_sub hostOps7 _ wrote.2.2.2.2.2.2.2 h

-- A region's input window ends holding what it held at entry.
theorem thru2 (c : Dev nD) (w : Fin cfg0.W) (h : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w h _).trans (A_eq0 (V1 m ρ) c w))
theorem thru4 (c : Dev nD) (w : Fin cfg1.W) (h : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w h _).trans (A_eq1 (V3 m ρ) c w))
theorem thru6 (c : Dev nD) (w : Fin cfg2.W) (h : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w h _).trans (A_eq2 (V5 m ρ) c w))
theorem thru8 (c : Dev nD) (w : Fin cfg3.W) (h : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w h _).trans (A_eq3 (V7 m ρ) c w))
theorem thru10 (c : Dev nD) (w : Fin cfg4.W) (h : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w h _).trans (A_eq4 (V9 m ρ) c w))

theorem W1_main_arg0_from0 (c : Dev nD) : W1 m ρ c (Proc.devRef .tc main_arg0) = m ((c : Thread nD τ).loc main_arg0) :=
  keep1 m ρ (by decide)
theorem W2_main_arg3_from0 (c : Dev nD) : W2 m ρ c (Proc.devRef .tc main_arg3) = m ((c : Thread nD τ).loc main_arg3) :=
  (W2_of_ne m ρ c _ (by decide)).trans <| keep1 m ρ (by decide)
theorem W2_main_arg5_from0 (c : Dev nD) : W2 m ρ c (Proc.devRef .tc main_arg5) = m ((c : Thread nD τ).loc main_arg5) :=
  (W2_of_ne m ρ c _ (by decide)).trans <| keep1 m ρ (by decide)
theorem W2_main_arg4_from0 (c : Dev nD) : W2 m ρ c (Proc.devRef .tc main_arg4) = m ((c : Thread nD τ).loc main_arg4) :=
  (W2_of_ne m ρ c _ (by decide)).trans <| keep1 m ρ (by decide)
theorem W2_main_arg6_from0 (c : Dev nD) : W2 m ρ c (Proc.devRef .tc main_arg6) = m ((c : Thread nD τ).loc main_arg6) :=
  (W2_of_ne m ρ c _ (by decide)).trans <| keep1 m ρ (by decide)
theorem W2_main_arg7_from0 (c : Dev nD) : W2 m ρ c (Proc.devRef .tc main_arg7) = m ((c : Thread nD τ).loc main_arg7) :=
  (W2_of_ne m ρ c _ (by decide)).trans <| keep1 m ρ (by decide)
theorem W3_main_arg0_from0 (c : Dev nD) : W3 m ρ c (Proc.devRef .tc main_arg0) = m ((c : Thread nD τ).loc main_arg0) :=
  (keep3 m ρ (by decide)).trans <| (thru2 m ρ c 1 rfl).trans <| keep1 m ρ (by decide)
theorem W3_main_arg3_from0 (c : Dev nD) : W3 m ρ c (Proc.devRef .tc main_arg3) = m ((c : Thread nD τ).loc main_arg3) :=
  (keep3 m ρ (by decide)).trans <| (W2_of_ne m ρ c _ (by decide)).trans <| keep1 m ρ (by decide)
theorem W3_main_arg5_from0 (c : Dev nD) : W3 m ρ c (Proc.devRef .tc main_arg5) = m ((c : Thread nD τ).loc main_arg5) :=
  (keep3 m ρ (by decide)).trans <| (W2_of_ne m ρ c _ (by decide)).trans <| keep1 m ρ (by decide)
theorem W3_main_v22_from1 (c : Dev nD) : W3 m ρ c (Proc.devRef .tc main_v22) = W1 m ρ c (Proc.devRef .tc main_v22) :=
  (keep3 m ρ (by decide)).trans <| thru2 m ρ c 0 rfl
theorem W3_main_v12_from1 (c : Dev nD) : W3 m ρ c (Proc.devRef .tc main_v12) = W1 m ρ c (Proc.devRef .tc main_v12) :=
  (keep3 m ρ (by decide)).trans <| thru2 m ρ c 2 rfl
theorem W4_main_v1_from1 (c : Dev nD) : W4 m ρ c (Proc.devRef .tc main_v1) = W1 m ρ c (Proc.devRef .tc main_v1) :=
  (W4_of_ne m ρ c _ (by decide)).trans <| (keep3 m ρ (by decide)).trans <| W2_of_ne m ρ c _ (by decide)
theorem W4_main_v3_from1 (c : Dev nD) : W4 m ρ c (Proc.devRef .tc main_v3) = W1 m ρ c (Proc.devRef .tc main_v3) :=
  (W4_of_ne m ρ c _ (by decide)).trans <| (keep3 m ρ (by decide)).trans <| W2_of_ne m ρ c _ (by decide)
theorem W5_main_v56_from4 (c : Dev nD) : W5 m ρ c (Proc.devRef .tc main_v56) = W4 m ρ c (Proc.devRef .tc main_v56) :=
  keep5 m ρ (by decide)
theorem W5_main_v12_from1 (c : Dev nD) : W5 m ρ c (Proc.devRef .tc main_v12) = W1 m ρ c (Proc.devRef .tc main_v12) :=
  (keep5 m ρ (by decide)).trans <| (thru4 m ρ c 2 rfl).trans <| (keep3 m ρ (by decide)).trans <| thru2 m ρ c 2 rfl
theorem W6_main_arg8_from0 (c : Dev nD) : W6 m ρ c (Proc.devRef .tc main_arg8) = m ((c : Thread nD τ).loc main_arg8) :=
  (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W6_main_arg10_from0 (c : Dev nD) : W6 m ρ c (Proc.devRef .tc main_arg10) = m ((c : Thread nD τ).loc main_arg10) :=
  (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W6_main_arg9_from0 (c : Dev nD) : W6 m ρ c (Proc.devRef .tc main_arg9) = m ((c : Thread nD τ).loc main_arg9) :=
  (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W6_main_arg11_from0 (c : Dev nD) : W6 m ρ c (Proc.devRef .tc main_arg11) = m ((c : Thread nD τ).loc main_arg11) :=
  (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W6_main_arg12_from0 (c : Dev nD) : W6 m ρ c (Proc.devRef .tc main_arg12) = m ((c : Thread nD τ).loc main_arg12) :=
  (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W7_main_v67_from5 (c : Dev nD) : W7 m ρ c (Proc.devRef .tc main_v67) = W5 m ρ c (Proc.devRef .tc main_v67) :=
  (keep7 m ρ (by decide)).trans <| thru6 m ρ c 0 rfl
theorem W7_main_v56_from4 (c : Dev nD) : W7 m ρ c (Proc.devRef .tc main_v56) = W4 m ρ c (Proc.devRef .tc main_v56) :=
  (keep7 m ρ (by decide)).trans <| (thru6 m ρ c 1 rfl).trans <| keep5 m ρ (by decide)
theorem W7_main_v12_from1 (c : Dev nD) : W7 m ρ c (Proc.devRef .tc main_v12) = W1 m ρ c (Proc.devRef .tc main_v12) :=
  (keep7 m ρ (by decide)).trans <| (thru6 m ρ c 2 rfl).trans <| (keep5 m ρ (by decide)).trans <| (thru4 m ρ c 2 rfl).trans <|
    (keep3 m ρ (by decide)).trans <| thru2 m ρ c 2 rfl
theorem W7_main_arg8_from0 (c : Dev nD) : W7 m ρ c (Proc.devRef .tc main_arg8) = m ((c : Thread nD τ).loc main_arg8) :=
  (keep7 m ρ (by decide)).trans <| (W6_of_ne m ρ c _ (by decide)).trans <| (keep5 m ρ (by decide)).trans <| (W4_of_ne m ρ c _ (by decide)).trans <|
    (keep3 m ρ (by decide)).trans <| (W2_of_ne m ρ c _ (by decide)).trans <| keep1 m ρ (by decide)
theorem W7_main_arg10_from0 (c : Dev nD) : W7 m ρ c (Proc.devRef .tc main_arg10) = m ((c : Thread nD τ).loc main_arg10) :=
  (keep7 m ρ (by decide)).trans <| (W6_of_ne m ρ c _ (by decide)).trans <| (keep5 m ρ (by decide)).trans <| (W4_of_ne m ρ c _ (by decide)).trans <|
    (keep3 m ρ (by decide)).trans <| (W2_of_ne m ρ c _ (by decide)).trans <| keep1 m ρ (by decide)
theorem W8_main_v1_from1 (c : Dev nD) : W8 m ρ c (Proc.devRef .tc main_v1) = W1 m ρ c (Proc.devRef .tc main_v1) :=
  (W8_of_ne m ρ c _ (by decide)).trans <| (keep7 m ρ (by decide)).trans <| (W6_of_ne m ρ c _ (by decide)).trans <| (keep5 m ρ (by decide)).trans <|
    (W4_of_ne m ρ c _ (by decide)).trans <| (keep3 m ρ (by decide)).trans <| W2_of_ne m ρ c _ (by decide)
theorem W8_main_v3_from1 (c : Dev nD) : W8 m ρ c (Proc.devRef .tc main_v3) = W1 m ρ c (Proc.devRef .tc main_v3) :=
  (W8_of_ne m ρ c _ (by decide)).trans <| (keep7 m ρ (by decide)).trans <| (W6_of_ne m ρ c _ (by decide)).trans <| (keep5 m ρ (by decide)).trans <|
    (W4_of_ne m ρ c _ (by decide)).trans <| (keep3 m ρ (by decide)).trans <| W2_of_ne m ρ c _ (by decide)
theorem W9_main_v101_from8 (c : Dev nD) : W9 m ρ c (Proc.devRef .tc main_v101) = W8 m ρ c (Proc.devRef .tc main_v101) :=
  keep9 m ρ (by decide)
theorem W9_main_v12_from1 (c : Dev nD) : W9 m ρ c (Proc.devRef .tc main_v12) = W1 m ρ c (Proc.devRef .tc main_v12) :=
  (keep9 m ρ (by decide)).trans <| (thru8 m ρ c 2 rfl).trans <| (keep7 m ρ (by decide)).trans <| (thru6 m ρ c 2 rfl).trans <|
    (keep5 m ρ (by decide)).trans <| (thru4 m ρ c 2 rfl).trans <| (keep3 m ρ (by decide)).trans <| thru2 m ρ c 2 rfl
theorem W10_main_arg13_from0 (c : Dev nD) : W10 m ρ c (Proc.devRef .tc main_arg13) = m ((c : Thread nD τ).loc main_arg13) :=
  (W10_of_ne m ρ c _ (by decide)).trans <| (keep9 m ρ (by decide)).trans <| (W8_of_ne m ρ c _ (by decide)).trans <| (keep7 m ρ (by decide)).trans <|
    (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W10_main_arg15_from0 (c : Dev nD) : W10 m ρ c (Proc.devRef .tc main_arg15) = m ((c : Thread nD τ).loc main_arg15) :=
  (W10_of_ne m ρ c _ (by decide)).trans <| (keep9 m ρ (by decide)).trans <| (W8_of_ne m ρ c _ (by decide)).trans <| (keep7 m ρ (by decide)).trans <|
    (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W10_main_arg14_from0 (c : Dev nD) : W10 m ρ c (Proc.devRef .tc main_arg14) = m ((c : Thread nD τ).loc main_arg14) :=
  (W10_of_ne m ρ c _ (by decide)).trans <| (keep9 m ρ (by decide)).trans <| (W8_of_ne m ρ c _ (by decide)).trans <| (keep7 m ρ (by decide)).trans <|
    (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W10_main_arg16_from0 (c : Dev nD) : W10 m ρ c (Proc.devRef .tc main_arg16) = m ((c : Thread nD τ).loc main_arg16) :=
  (W10_of_ne m ρ c _ (by decide)).trans <| (keep9 m ρ (by decide)).trans <| (W8_of_ne m ρ c _ (by decide)).trans <| (keep7 m ρ (by decide)).trans <|
    (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W10_main_arg17_from0 (c : Dev nD) : W10 m ρ c (Proc.devRef .tc main_arg17) = m ((c : Thread nD τ).loc main_arg17) :=
  (W10_of_ne m ρ c _ (by decide)).trans <| (keep9 m ρ (by decide)).trans <| (W8_of_ne m ρ c _ (by decide)).trans <| (keep7 m ρ (by decide)).trans <|
    (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W11_main_v112_from9 (c : Dev nD) : W11 m ρ c (Proc.devRef .tc main_v112) = W9 m ρ c (Proc.devRef .tc main_v112) :=
  (keep11 m ρ (by decide)).trans <| thru10 m ρ c 0 rfl
theorem W11_main_v101_from8 (c : Dev nD) : W11 m ρ c (Proc.devRef .tc main_v101) = W8 m ρ c (Proc.devRef .tc main_v101) :=
  (keep11 m ρ (by decide)).trans <| (thru10 m ρ c 1 rfl).trans <| keep9 m ρ (by decide)
theorem W11_main_v12_from1 (c : Dev nD) : W11 m ρ c (Proc.devRef .tc main_v12) = W1 m ρ c (Proc.devRef .tc main_v12) :=
  (keep11 m ρ (by decide)).trans <| (thru10 m ρ c 2 rfl).trans <| (keep9 m ρ (by decide)).trans <| (thru8 m ρ c 2 rfl).trans <|
    (keep7 m ρ (by decide)).trans <| (thru6 m ρ c 2 rfl).trans <| (keep5 m ρ (by decide)).trans <| (thru4 m ρ c 2 rfl).trans <|
    (keep3 m ρ (by decide)).trans <| thru2 m ρ c 2 rfl
theorem W11_main_arg13_from0 (c : Dev nD) : W11 m ρ c (Proc.devRef .tc main_arg13) = m ((c : Thread nD τ).loc main_arg13) :=
  (keep11 m ρ (by decide)).trans <| (W10_of_ne m ρ c _ (by decide)).trans <| (keep9 m ρ (by decide)).trans <| (W8_of_ne m ρ c _ (by decide)).trans <|
    (keep7 m ρ (by decide)).trans <| (W6_of_ne m ρ c _ (by decide)).trans <| (keep5 m ρ (by decide)).trans <| (W4_of_ne m ρ c _ (by decide)).trans <|
    (keep3 m ρ (by decide)).trans <| (W2_of_ne m ρ c _ (by decide)).trans <| keep1 m ρ (by decide)
theorem W11_main_arg15_from0 (c : Dev nD) : W11 m ρ c (Proc.devRef .tc main_arg15) = m ((c : Thread nD τ).loc main_arg15) :=
  (keep11 m ρ (by decide)).trans <| (W10_of_ne m ρ c _ (by decide)).trans <| (keep9 m ρ (by decide)).trans <| (W8_of_ne m ρ c _ (by decide)).trans <|
    (keep7 m ρ (by decide)).trans <| (W6_of_ne m ρ c _ (by decide)).trans <| (keep5 m ρ (by decide)).trans <| (W4_of_ne m ρ c _ (by decide)).trans <|
    (keep3 m ρ (by decide)).trans <| (W2_of_ne m ρ c _ (by decide)).trans <| keep1 m ρ (by decide)
theorem W12_main_arg2_from0 (c : Dev nD) : W12 m ρ c (Proc.devRef .tc main_arg2) = m ((c : Thread nD τ).loc main_arg2) :=
  (W12_of_ne m ρ c _ (by decide)).trans <| (keep11 m ρ (by decide)).trans <| (W10_of_ne m ρ c _ (by decide)).trans <| (keep9 m ρ (by decide)).trans <|
    (W8_of_ne m ρ c _ (by decide)).trans <| (keep7 m ρ (by decide)).trans <| (W6_of_ne m ρ c _ (by decide)).trans <| (keep5 m ρ (by decide)).trans <|
    (W4_of_ne m ρ c _ (by decide)).trans <| (keep3 m ρ (by decide)).trans <| (W2_of_ne m ρ c _ (by decide)).trans <| keep1 m ρ (by decide)
theorem W13_main_v146_from12 (c : Dev nD) : W13 m ρ c (Proc.devRef .tc main_v146) = W12 m ρ c (Proc.devRef .tc main_v146) :=
  keep13 m ρ (by decide)
theorem W14_main_arg19_from0 (c : Dev nD) : W14 m ρ c (Proc.devRef .tc main_arg19) = m ((c : Thread nD τ).loc main_arg19) :=
  (W14_of_ne m ρ c _ (by decide)).trans <| (keep13 m ρ (by decide)).trans <| (W12_of_ne m ρ c _ (by decide)).trans <| (keep11 m ρ (by decide)).trans <|
    (W10_of_ne m ρ c _ (by decide)).trans <| (keep9 m ρ (by decide)).trans <| (W8_of_ne m ρ c _ (by decide)).trans <| (keep7 m ρ (by decide)).trans <|
    (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W14_main_arg21_from0 (c : Dev nD) : W14 m ρ c (Proc.devRef .tc main_arg21) = m ((c : Thread nD τ).loc main_arg21) :=
  (W14_of_ne m ρ c _ (by decide)).trans <| (keep13 m ρ (by decide)).trans <| (W12_of_ne m ρ c _ (by decide)).trans <| (keep11 m ρ (by decide)).trans <|
    (W10_of_ne m ρ c _ (by decide)).trans <| (keep9 m ρ (by decide)).trans <| (W8_of_ne m ρ c _ (by decide)).trans <| (keep7 m ρ (by decide)).trans <|
    (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W14_main_arg18_from0 (c : Dev nD) : W14 m ρ c (Proc.devRef .tc main_arg18) = m ((c : Thread nD τ).loc main_arg18) :=
  (W14_of_ne m ρ c _ (by decide)).trans <| (keep13 m ρ (by decide)).trans <| (W12_of_ne m ρ c _ (by decide)).trans <| (keep11 m ρ (by decide)).trans <|
    (W10_of_ne m ρ c _ (by decide)).trans <| (keep9 m ρ (by decide)).trans <| (W8_of_ne m ρ c _ (by decide)).trans <| (keep7 m ρ (by decide)).trans <|
    (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W14_main_arg20_from0 (c : Dev nD) : W14 m ρ c (Proc.devRef .tc main_arg20) = m ((c : Thread nD τ).loc main_arg20) :=
  (W14_of_ne m ρ c _ (by decide)).trans <| (keep13 m ρ (by decide)).trans <| (W12_of_ne m ρ c _ (by decide)).trans <| (keep11 m ρ (by decide)).trans <|
    (W10_of_ne m ρ c _ (by decide)).trans <| (keep9 m ρ (by decide)).trans <| (W8_of_ne m ρ c _ (by decide)).trans <| (keep7 m ρ (by decide)).trans <|
    (W6_of_ne m ρ c _ (by decide)).trans <| (keep5 m ρ (by decide)).trans <| (W4_of_ne m ρ c _ (by decide)).trans <| (keep3 m ρ (by decide)).trans <|
    (W2_of_ne m ρ c _ (by decide)).trans <| keep1 m ρ (by decide)
theorem W15_main_arg18_from0 (c : Dev nD) : W15 m ρ c (Proc.devRef .tc main_arg18) = m ((c : Thread nD τ).loc main_arg18) :=
  (keep15 m ρ (by decide)).trans <| (W14_of_ne m ρ c _ (by decide)).trans <| (keep13 m ρ (by decide)).trans <| (W12_of_ne m ρ c _ (by decide)).trans <|
    (keep11 m ρ (by decide)).trans <| (W10_of_ne m ρ c _ (by decide)).trans <| (keep9 m ρ (by decide)).trans <| (W8_of_ne m ρ c _ (by decide)).trans <|
    (keep7 m ρ (by decide)).trans <| (W6_of_ne m ρ c _ (by decide)).trans <| (keep5 m ρ (by decide)).trans <| (W4_of_ne m ρ c _ (by decide)).trans <|
    (keep3 m ρ (by decide)).trans <| (W2_of_ne m ρ c _ (by decide)).trans <| keep1 m ρ (by decide)
theorem W15_main_arg20_from0 (c : Dev nD) : W15 m ρ c (Proc.devRef .tc main_arg20) = m ((c : Thread nD τ).loc main_arg20) :=
  (keep15 m ρ (by decide)).trans <| (W14_of_ne m ρ c _ (by decide)).trans <| (keep13 m ρ (by decide)).trans <| (W12_of_ne m ρ c _ (by decide)).trans <|
    (keep11 m ρ (by decide)).trans <| (W10_of_ne m ρ c _ (by decide)).trans <| (keep9 m ρ (by decide)).trans <| (W8_of_ne m ρ c _ (by decide)).trans <|
    (keep7 m ρ (by decide)).trans <| (W6_of_ne m ρ c _ (by decide)).trans <| (keep5 m ρ (by decide)).trans <| (W4_of_ne m ρ c _ (by decide)).trans <|
    (keep3 m ρ (by decide)).trans <| (W2_of_ne m ρ c _ (by decide)).trans <| keep1 m ρ (by decide)

end Cert.KernelIdeal.Carry

end
-- ==== Proof.AggK.lean ====
import proofs.«416188_j20263655702631_2_alg».proof.Proof.Gen.KernelIdeal.Launch
import proofs.«416188_j20263655702631_2_alg».proof.Proof.AggDefs
import proofs.«416188_j20263655702631_2_alg».proof.Proof.Spec
import Idealize.ShloMosaic.Lib.StableHlo.Run
import Idealize.ShloMosaic.Lib.ValueIdx
import Idealize.ShloMosaic.Lib.Pipeline.Value

noncomputable section

namespace Cert.KernelIdeal.AggK

open Idealize.ShloMosaic Idealize.ShloMosaic.StableHlo Idealize.ShloMosaic.ValueIdx
open Cert.KernelIdeal Cert.KernelIdeal.Gen

variable {F : FTy → Type} [FloatOps F]

theorem after0_v1 (W : Valuation τ sig (Elt F)) :
    (StableHlo.after hostOps0 W (Proc.devRef .tc main_v1) : IVec S1600000 32) = Agg.src (W (Proc.devRef .tc main_arg1)) := by
  after_results_simp
  rfl

theorem after0_v3 (W : Valuation τ sig (Elt F)) :
    (StableHlo.after hostOps0 W (Proc.devRef .tc main_v3) : IVec S1600000 32) = Agg.dst (W (Proc.devRef .tc main_arg1)) := by
  after_results_simp
  rfl

theorem after0_v12 (W : Valuation τ sig (Elt F)) :
    (StableHlo.after hostOps0 W (Proc.devRef .tc main_v12) : FVec F S100000x1 .f32)
      = Agg.dinvOf (Agg.deg (W (Proc.devRef .tc main_arg1))) := by
  after_results_simp
  rfl

theorem after0_v22 (W : Valuation τ sig (Elt F)) :
    (StableHlo.after hostOps0 W (Proc.devRef .tc main_v22) : FVec F S100000x2 .f32)
      = Agg.agg2 (W (Proc.devRef .tc main_arg0)) (W (Proc.devRef .tc main_arg1)) := by
  after_results_simp
  rfl

theorem after2_v67 (W : Valuation τ sig (Elt F)) (e : IVec S2x1600000 32)
    (h1 : (W (Proc.devRef .tc main_v1) : IVec S1600000 32) = Agg.src e)
    (h3 : (W (Proc.devRef .tc main_v3) : IVec S1600000 32) = Agg.dst e) :
    (StableHlo.after hostOps2 W (Proc.devRef .tc main_v67) : FVec F S100000x32 .f32)
      = Agg.agg32 (W (Proc.devRef .tc main_v56)) e := by
  after_results_simp
  rw [h1, h3]; rfl

theorem after4_v112 (W : Valuation τ sig (Elt F)) (e : IVec S2x1600000 32)
    (h1 : (W (Proc.devRef .tc main_v1) : IVec S1600000 32) = Agg.src e)
    (h3 : (W (Proc.devRef .tc main_v3) : IVec S1600000 32) = Agg.dst e) :
    (StableHlo.after hostOps4 W (Proc.devRef .tc main_v112) : FVec F S100000x64 .f32)
      = Agg.agg64 (W (Proc.devRef .tc main_v101)) e := by
  after_results_simp
  rw [h1, h3]; rfl

theorem dinvOf_apply (g : FVec Ideal S100000 .f32) (n : Fin 100000) :
    Agg.dinvOf (F := Ideal) g (ix2 n (0 : Fin 1))
      = Cert.Spec.dinv (Ideal.ofBits .f32 0x3F800000#32) (Cert.Spec.c1 g) n := by
  unfold Agg.dinvOf
  refine (shapeCast_apply _ _ (ix2 n (0 : Fin 1)) (ix1 n) ?_).trans rfl
  rw [Shape.rowMajor_val_one, Shape.rowMajor_val_two]
  show n.val = n.val * 1 + 0
  omega

theorem after0_v12_apply (W : Valuation τ sig (Elt Ideal)) (n : Fin 100000) :
    (StableHlo.after hostOps0 W (Proc.devRef .tc main_v12) : FVec Ideal S100000x1 .f32) (ix2 n (0 : Fin 1))
      = Cert.Spec.dinv (Ideal.ofBits .f32 0x3F800000#32)
          (Cert.Spec.c1 (Agg.deg (F := Ideal) (W (Proc.devRef .tc main_arg1)))) n := by
  rw [after0_v12]; exact dinvOf_apply _ n

end Cert.KernelIdeal.AggK

end
-- ==== Proof.MomAlg.lean ====
import Idealize.ShloMosaic.Lib.ValueIdx
import Mathlib.Algebra.BigOperators.Fin
import Mathlib.Data.Fintype.BigOperators
import Mathlib.Logic.Equiv.Fin.Basic

open scoped BigOperators
open Idealize.ShloMosaic Idealize.ShloMosaic.ValueIdx

namespace Cert.KernelIdeal.MomAlg

theorem row_lt {T R N : ℕ} (hN : N = T * R) {t : ℕ} (ht : t < T) (r : Fin R) : R * t + r.val < N := by
  have h1 : R * t + r.val < R * (t + 1) := by rw [Nat.mul_succ]; exact Nat.add_lt_add_left r.isLt _
  have h2 : R * (t + 1) ≤ R * T := Nat.mul_le_mul_left R ht
  rw [hN, Nat.mul_comm T R]; exact lt_of_lt_of_le h1 h2

def row {T R N : ℕ} (hN : N = T * R) (t : ℕ) (ht : t < T) (r : Fin R) : Fin N := ⟨R * t + r.val, row_lt hN ht r⟩

-- Row r of block t is row n = R t + r of the array: a bijection of (block, row in block) with the rows.
theorem sum_blocks {ι : Type} {T R N : ℕ} (hN : N = T * R) (f : Fin N → ι → EReal) (i : ι) :
    ∑ t : Fin T, ∑ r : Fin R, f (row hN t.val t.isLt r) i = ∑ n : Fin N, f n i := by
  subst hN
  rw [← Fintype.sum_prod_type' (f := fun (t : Fin T) (r : Fin R) => f (row rfl t.val t.isLt r) i)]
  refine Fintype.sum_equiv finProdFinEquiv _ _ (fun p => ?_)
  refine congrArg (fun n => f n i) (Fin.ext ?_)
  show R * p.1.val + p.2.val = p.2.val + R * p.1.val
  exact Nat.add_comm _ _

-- A value that starts at zero and gains every block's row sum in turn is, after the last block, the sum over all rows.
theorem rows_fold {κ ι : Type} {T R N : ℕ} (hN : N = T * R) (f : Fin N → ι → EReal) (rd : κ → ι → EReal)
    (o : (n : ℕ) → n < T → κ) (P : (n : ℕ) → n < T → κ → κ) (z : κ) (hz : ∀ i, rd z i = 0)
    (hP : ∀ n h acc i, rd (P n h acc) i = rd acc i + ∑ r : Fin R, f (row hN n h r) i)
    (h0 : ∀ h, o 0 h = P 0 h z) (hs : ∀ n h, o (n + 1) h = P (n + 1) h (o n (Nat.lt_of_succ_lt h)))
    (n : ℕ) (h : n < T) (hl : n + 1 = T) (i : ι) : rd (o n h) i = ∑ m : Fin N, f m i := by
  have key : ∀ (n : ℕ) (h : n < T),
      rd (o n h) i = ∑ s : Fin (n + 1), ∑ r : Fin R, f (row hN s.val (Nat.lt_of_lt_of_le s.isLt h) r) i := by
    intro n
    induction n with
    | zero => intro h; rw [h0 h, hP, hz, zero_add, Fin.sum_univ_one] <;> rfl
    | succ n ih => intro h; rw [Fin.sum_univ_castSucc, hs n h, hP, ih (Nat.lt_of_succ_lt h)] <;> rfl
  subst hl
  exact (key n h).trans (sum_blocks hN f i)

-- Two rank-2 arrays that agree at every pair of coordinates are equal.
theorem ext_ix2 {n0 n1 : ℕ} {α : Type} {g h : (⟨2, ![n0, n1]⟩ : Shape).Idx → α}
    (H : ∀ a b, g (ix2 a b) = h (ix2 a b)) : g = h :=
  funext fun j => by rw [eq_ix2 j]; exact H _ _

end Cert.KernelIdeal.MomAlg
-- ==== Proof.Mom0Pay.lean ====
import proofs.«416188_j20263655702631_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Mom0

open Idealize.ShloMosaic Idealize.ShloMosaic.ValueIdx
open Cert.KernelIdeal Cert.KernelIdeal.Gen

-- Row r, column k of the scaled block: the raw sum there times row r's reciprocal degree.
theorem scaled_apply (x0 : FVec Ideal S2000x2 .f32) (x2 : FVec Ideal S2000x1 .f32) (r : Fin 2000) (k : Fin 2) :
    k0_pay8 (F := Ideal) x0 x2 (ix2 r k) = x0 (ix2 r k) * x2 (ix2 r (0 : Fin 1)) := by
  unfold k0_pay8
  simp only [shapeCast_self]
  refine (mulf_apply _ _ _).trans (congrArg (x0 (ix2 r k) * ·) ?_)
  refine broadcastTo_apply x2 Gen.broadcasts_S2000x1_S2000x2 (ix2 r k) (ix2 r (0 : Fin 1)) fun ax => ?_
  match ax with
  | ⟨0, _⟩ => rfl
  | ⟨1, _⟩ => rfl

-- The old column sums plus the block's: the reduction over the row axis at column k is the sum over the 2000 rows.
theorem colsum_acc (v : FVec Ideal S2000x2 .f32) (acc : FVec Ideal S1x2 .f32) (u : Fin 1) (k : Fin 2) (hφ : FKind.Formats .f32)
    (hacc : (0x00000000#32 : BitVec 32) = FKind.add.neutral .f32 hφ) :
    addf acc (shapeCast S1x2 (multiReduction .add [0] S2 v 0x00000000#32 Gen.reduces_S2000x2_S2 hφ hacc) Gen.shapeCasts_S2_S1x2) (ix2 u k)
      = acc (ix2 u k) + ∑ r : Fin 2000, v (ix2 r k) := by
  refine (addf_apply _ _ _).trans (congrArg (acc (ix2 u k) + ·) ?_)
  refine (shapeCast_a_1a_apply _ Gen.shapeCasts_S2_S1x2 u k).trans ?_
  refine (Ideal.multiReduction_add_single v 0x00000000#32 Gen.reduces_S2000x2_S2 hφ hacc (ix1 k)).trans ?_
  refine Finset.sum_congr rfl fun r _ => congrArg v (funext fun c => Fin.ext ?_)
  match c with
  | ⟨0, _⟩ => rfl
  | ⟨1, _⟩ => rfl

theorem pay_sa_apply (x0 : FVec Ideal S2000x2 .f32) (x2 : FVec Ideal S2000x1 .f32) (acc : FVec Ideal S1x2 .f32)
    (u : Fin 1) (k : Fin 2) :
    k0_pay11 (F := Ideal) x0 x2 acc (ix2 u k)
      = acc (ix2 u k) + ∑ r : Fin 2000, x0 (ix2 r k) * x2 (ix2 r (0 : Fin 1)) := by
  unfold k0_pay11
  simp only [shapeCast_self]
  exact (colsum_acc _ acc u k _ _).trans (congrArg (_ + ·) (Finset.sum_congr rfl fun r _ => scaled_apply x0 x2 r k))

theorem pay_sx_apply (x1 : FVec Ideal S2000x2 .f32) (acc : FVec Ideal S1x2 .f32) (u : Fin 1) (k : Fin 2) :
    k0_pay12 (F := Ideal) x1 acc (ix2 u k) = acc (ix2 u k) + ∑ r : Fin 2000, x1 (ix2 r k) := by
  unfold k0_pay12
  simp only [shapeCast_self]
  exact colsum_acc _ acc u k _ _

theorem dot_ax (j : S2x2.Idx) (q : dot_S2000x2_S2000x2_S2x2_0_0_1_1_n_n.contr.Idx) :
    (dot_S2000x2_S2000x2_S2x2_0_0_1_1_n_n.lhsIdx j q 0 : ℕ) = q ⟨0, by decide⟩ ∧ (dot_S2000x2_S2000x2_S2x2_0_0_1_1_n_n.lhsIdx j q 1 : ℕ) = j 0
      ∧ (dot_S2000x2_S2000x2_S2x2_0_0_1_1_n_n.rhsIdx j q 0 : ℕ) = q ⟨0, by decide⟩ ∧ (dot_S2000x2_S2000x2_S2x2_0_0_1_1_n_n.rhsIdx j q 1 : ℕ) = j 1 := by
  refine ⟨?_, ?_, ?_, ?_⟩ <;> simp [DotDims.lhsIdx, DotDims.rhsIdx, dot_S2000x2_S2000x2_S2x2_0_0_1_1_n_n] <;> rfl

-- The old Gram block plus the block's: the product contracted over the row axis at (k, l) is the sum over the 2000 rows.
theorem gram_acc (lhs rhs : FVec Ideal S2000x2 .bf16) (acc : FVec Ideal S2x2 .f32) (k l : Fin 2) :
    addf acc (matmul dot_S2000x2_S2000x2_S2x2_0_0_1_1_n_n none lhs rhs (constant (F := Ideal) S2x2 .f32 0x00000000#32)) (ix2 k l)
      = acc (ix2 k l) + ∑ r : Fin 2000, lhs (ix2 r k) * rhs (ix2 r l) := by
  refine (addf_apply _ _ _).trans (congrArg (acc (ix2 k l) + ·) ?_)
  refine (Ideal.matmul_constant_zero_apply dot_S2000x2_S2000x2_S2x2_0_0_1_1_n_n none lhs rhs (ix2 k l)).trans ?_
  refine (Equiv.sum_comp (contrEquiv1 dot_S2000x2_S2000x2_S2x2_0_0_1_1_n_n 2000 rfl rfl).symm
    (fun q => lhs (dot_S2000x2_S2000x2_S2x2_0_0_1_1_n_n.lhsIdx (ix2 k l) q) * rhs (dot_S2000x2_S2000x2_S2x2_0_0_1_1_n_n.rhsIdx (ix2 k l) q))).symm.trans ?_
  refine Finset.sum_congr rfl fun r _ => congrArg₂ (fun a b => lhs a * rhs b) (funext fun a => Fin.ext ?_) (funext fun a => Fin.ext ?_)
  · match a with
    | ⟨0, _⟩ => exact (dot_ax _ _).1.trans (contrEquiv1_symm_val dot_S2000x2_S2000x2_S2x2_0_0_1_1_n_n 2000 rfl rfl r)
    | ⟨1, _⟩ => exact (dot_ax _ _).2.1
  · match a with
    | ⟨0, _⟩ => exact (dot_ax _ _).2.2.1.trans (contrEquiv1_symm_val dot_S2000x2_S2000x2_S2x2_0_0_1_1_n_n 2000 rfl rfl r)
    | ⟨1, _⟩ => exact (dot_ax _ _).2.2.2

theorem pay_gaa_apply (x0 : FVec Ideal S2000x2 .f32) (x2 : FVec Ideal S2000x1 .f32) (acc : FVec Ideal S2x2 .f32)
    (k l : Fin 2) :
    k0_pay13 (F := Ideal) x0 x2 acc (ix2 k l)
      = acc (ix2 k l) + ∑ r : Fin 2000, (x0 (ix2 r k) * x2 (ix2 r (0 : Fin 1))) * (x0 (ix2 r l) * x2 (ix2 r (0 : Fin 1))) := by
  unfold k0_pay13
  simp only [shapeCast_self]
  exact (gram_acc _ _ acc k l).trans (congrArg (_ + ·) (Finset.sum_congr rfl fun r _ =>
    congrArg₂ (· * ·) (scaled_apply x0 x2 r k) (scaled_apply x0 x2 r l)))

theorem pay_gxx_apply (x1 : FVec Ideal S2000x2 .f32) (acc : FVec Ideal S2x2 .f32) (k l : Fin 2) :
    k0_pay1 (F := Ideal) (k0_pay10 (F := Ideal) x1) acc (ix2 k l)
      = acc (ix2 k l) + ∑ r : Fin 2000, x1 (ix2 r k) * x1 (ix2 r l) := by
  unfold k0_pay1
  simp only [shapeCast_self]
  exact gram_acc _ _ acc k l

theorem pay_gax_apply (x0 : FVec Ideal S2000x2 .f32) (x1 : FVec Ideal S2000x2 .f32) (x2 : FVec Ideal S2000x1 .f32)
    (acc : FVec Ideal S2x2 .f32) (k l : Fin 2) :
    k0_pay2 (F := Ideal) (k0_pay9 (F := Ideal) x0 x2) (k0_pay10 (F := Ideal) x1) acc (ix2 k l)
      = acc (ix2 k l) + ∑ r : Fin 2000, (x0 (ix2 r k) * x2 (ix2 r (0 : Fin 1))) * x1 (ix2 r l) := by
  unfold k0_pay2
  simp only [shapeCast_self]
  exact (gram_acc _ _ acc k l).trans (congrArg (_ + ·) (Finset.sum_congr rfl fun r _ =>
    congrArg (· * x1 (ix2 r l)) (scaled_apply x0 x2 r k)))

end Cert.KernelIdeal.Mom0

end
-- ==== Proof.Mom0.lean ====
import proofs.«416188_j20263655702631_2_alg».proof.Proof.Gen.KernelIdeal.Frame
import proofs.«416188_j20263655702631_2_alg».proof.Proof.Spec
import proofs.«416188_j20263655702631_2_alg».proof.Proof.MomAlg
import proofs.«416188_j20263655702631_2_alg».proof.Proof.Mom0Pay
import Idealize.ShloMosaic.Lib.Pipeline.Value
import Idealize.ShloMosaic.Lib.Tactic

set_option maxRecDepth 16384

noncomputable section

open scoped BigOperators

namespace Cert.KernelIdeal.Mom0

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen

theorem hz2 : (![0, 0] : Fin 2 → Nat) = fun _ => 0 := funext fun a => by fin_cases a <;> rfl

section Value

variable (V : (c : Dev nD) → (b : Ref sig .tc) → Buf (Elt Ideal) ((c : Thread nD τ).loc b))

abbrev aArr (c : Dev nD) : FVec Ideal S100000x2 .f32 := V c main_v22
abbrev xArr (c : Dev nD) : FVec Ideal S100000x2 .f32 := V c main_arg0
abbrev dArr (c : Dev nD) : FVec Ideal S100000x1 .f32 := V c main_v12
abbrev aBlk (c : Dev nD) (t : Fin cfg0.N) : FVec Ideal S2000x2 .f32 := iblk0 V c 0 t
abbrev xBlk (c : Dev nD) (t : Fin cfg0.N) : FVec Ideal S2000x2 .f32 := iblk0 V c 1 t
abbrev dBlk (c : Dev nD) (t : Fin cfg0.N) : FVec Ideal S2000x1 .f32 := iblk0 V c 2 t
abbrev aN (c : Dev nD) : Fin 100000 → Fin 2 → EReal :=
  Cert.Spec.anorm (Cert.Spec.c2 (aArr V c)) (fun n => Cert.Spec.c2 (dArr V c) n 0)
abbrev xN (c : Dev nD) : Fin 100000 → Fin 2 → EReal := Cert.Spec.c2 (xArr V c)

theorem hN : (100000 : ℕ) = cfg0.N * 2000 := by have h : cfg0.N = 50 := N_0; omega

theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)
theorem idx_out : ∀ (t : Fin cfg0.N) (a : Fin 2), win0_3.index t a = 0 ∧ win0_4.index t a = 0 ∧ win0_5.index t a = 0
    ∧ win0_6.index t a = 0 ∧ win0_7.index t a = 0 :=
  (by decide +kernel : ∀ t : Fin grid0.N, _)

-- Row r of point t's block is row 2000 t + r of the array.
theorem aBlk_apply (c : Dev nD) (t : Fin cfg0.N) (r : Fin 2000) (k : Fin 2) :
    aBlk V c t (ix2 r k) = aArr V c (ix2 (MomAlg.row hN t.val t.isLt r) k) := by
  obtain ⟨e0, e1, -⟩ := idx_in t
  refine congrArg (V c main_v22) (funext fun a => Fin.ext ?_)
  match a with
  | ⟨0, _⟩ => show win0_0.index t (0 : Fin 2) * 2000 + 1 * r.val = 2000 * t.val + r.val; rw [e0]; omega
  | ⟨1, _⟩ => show win0_0.index t (1 : Fin 2) * 2 + 1 * k.val = k.val; rw [e1]; omega
theorem xBlk_apply (c : Dev nD) (t : Fin cfg0.N) (r : Fin 2000) (k : Fin 2) :
    xBlk V c t (ix2 r k) = xArr V c (ix2 (MomAlg.row hN t.val t.isLt r) k) := by
  obtain ⟨-, -, e0, e1, -⟩ := idx_in t
  refine congrArg (V c main_arg0) (funext fun a => Fin.ext ?_)
  match a with
  | ⟨0, _⟩ => show win0_1.index t (0 : Fin 2) * 2000 + 1 * r.val = 2000 * t.val + r.val; rw [e0]; omega
  | ⟨1, _⟩ => show win0_1.index t (1 : Fin 2) * 2 + 1 * k.val = k.val; rw [e1]; omega
theorem dBlk_apply (c : Dev nD) (t : Fin cfg0.N) (r : Fin 2000) (u : Fin 1) :
    dBlk V c t (ix2 r u) = dArr V c (ix2 (MomAlg.row hN t.val t.isLt r) u) := by
  obtain ⟨-, -, -, -, e0, e1⟩ := idx_in t
  refine congrArg (V c main_v12) (funext fun a => Fin.ext ?_)
  match a with
  | ⟨0, _⟩ => show win0_2.index t (0 : Fin 2) * 2000 + 1 * r.val = 2000 * t.val + r.val; rw [e0]; omega
  | ⟨1, _⟩ => show win0_2.index t (1 : Fin 2) * 1 + 1 * u.val = u.val; rw [e1]; omega
theorem aRow (c : Dev nD) (t : Fin cfg0.N) (r : Fin 2000) (k : Fin 2) :
    aBlk V c t (ix2 r k) * dBlk V c t (ix2 r (0 : Fin 1)) = aN V c (MomAlg.row hN t.val t.isLt r) k :=
  congrArg₂ (· * ·) (aBlk_apply V c t r k) (dBlk_apply V c t r 0)

abbrev Outs : Type := Vec Ideal S1x2 .f32 × Vec Ideal S1x2 .f32 × Vec Ideal S2x2 .f32 × Vec Ideal S2x2 .f32 × Vec Ideal S2x2 .f32
-- The five running values: zero before point 0; point n applies its five payloads to them.
abbrev Z : Outs :=
  (k0_pay3 (F := Ideal), k0_pay4 (F := Ideal), k0_pay5 (F := Ideal), k0_pay6 (F := Ideal), k0_pay7 (F := Ideal))
abbrev step (c : Dev nD) (t : Fin cfg0.N) (s : Outs) : Outs :=
  (k0_pay11 (F := Ideal) (aBlk V c t) (dBlk V c t) s.1, k0_pay12 (F := Ideal) (xBlk V c t) s.2.1,
    k0_pay13 (F := Ideal) (aBlk V c t) (dBlk V c t) s.2.2.1, k0_pay1 (F := Ideal) (k0_pay10 (F := Ideal) (xBlk V c t)) s.2.2.2.1,
    k0_pay2 (F := Ideal) (k0_pay9 (F := Ideal) (aBlk V c t) (dBlk V c t)) (k0_pay10 (F := Ideal) (xBlk V c t)) s.2.2.2.2)

theorem outs_A (c : Dev nD) (t : Fin cfg0.N) (h0 : t.val % 50 = 0) : outsAt0 V c t.val t.isLt = step V c t Z := by
  rw [outsAt0_A V c t h0]
  simp only [out0_A_3, out0_A_4, out0_A_5, out0_A_6, out0_A_7,
    View.read_writes_eq_canon _ _ _ fun y => cover0_A_3 (y := y) ..,
    View.read_writes_eq_canon _ _ _ fun y => cover0_A_4 (y := y) ..,
    View.read_writes_eq_canon _ _ _ fun y => cover0_A_5 (y := y) ..,
    View.read_writes_eq_canon _ _ _ fun y => cover0_A_6 (y := y) ..,
    View.read_writes_eq_canon _ _ _ fun y => cover0_A_7 (y := y) ..]
  unfold kernelRun0_A
  dsimp only
  sl_unfold_words
  simp only [View.canon_cons_unit_zero (S := S1x2) hz2, View.canon_cons_unit_zero (S := S2x2) hz2, View.readCov_unit_zero (S := S1x2) _ hz2, View.readCov_unit_zero (S := S2x2) _ hz2, View.readAt_eq_ld, Memref.IsWhole.read_unread, View.ld_unit_zero (S := S2000x2) hz2, View.ld_unit_zero (S := S2000x1) hz2, View.ld_unit_zero (S := S1x2) hz2, View.ld_unit_zero (S := S2x2) hz2]
theorem outs_B (c : Dev nD) (t : Fin cfg0.N) (h0 : ¬t.val % 50 = 0) :
    outsAt0 V c t.val t.isLt = step V c t (outsAt0 V c (t.val - 1) (Nat.lt_of_le_of_lt (Nat.sub_le _ _) t.isLt)) := by
  rw [outsAt0_B V c t h0]
  simp only [out0_B_3, out0_B_4, out0_B_5, out0_B_6, out0_B_7,
    View.read_writes_eq_canon _ _ _ fun y => cover0_B_3 (y := y) ..,
    View.read_writes_eq_canon _ _ _ fun y => cover0_B_4 (y := y) ..,
    View.read_writes_eq_canon _ _ _ fun y => cover0_B_5 (y := y) ..,
    View.read_writes_eq_canon _ _ _ fun y => cover0_B_6 (y := y) ..,
    View.read_writes_eq_canon _ _ _ fun y => cover0_B_7 (y := y) ..]
  unfold kernelRun0_B
  dsimp only
  sl_unfold_words
  simp only [View.canon_cons_unit_zero (S := S1x2) hz2, View.canon_cons_unit_zero (S := S2x2) hz2, View.readCov_unit_zero (S := S1x2) _ hz2, View.readCov_unit_zero (S := S2x2) _ hz2, View.readAt_eq_ld, Memref.IsWhole.read_unread, View.ld_unit_zero (S := S2000x2) hz2, View.ld_unit_zero (S := S2000x1) hz2, View.ld_unit_zero (S := S1x2) hz2, View.ld_unit_zero (S := S2x2) hz2]

theorem isLast (t : Fin cfg0.N) (h : t.val % 50 = 49) : t.val + 1 = cfg0.N := by
  have h1 := t.isLt
  have h50 : cfg0.N = 50 := N_0
  omega
def tLast : Fin cfg0.N := ⟨49, by have h : cfg0.N = 50 := N_0; omega⟩

-- A quantity read off the running values that is zero on Z and to which every point adds its block's row sum is, after the last point, the sum over all rows.
theorem last (c : Dev nD) {ι : Type} (f : Fin 100000 → ι → EReal) (rd : Outs → ι → EReal) (hz : ∀ i, rd Z i = 0)
    (hP : ∀ n h s i, rd (step V c ⟨n, h⟩ s) i = rd s i + ∑ r : Fin 2000, f (MomAlg.row hN n h r) i)
    (t : Fin cfg0.N) (hf : t.val % 50 = 49) (i : ι) : rd (outsAt0 V c t.val t.isLt) i = ∑ m, f m i :=
  MomAlg.rows_fold hN f rd (outsAt0 V c) (fun n h => step V c ⟨n, h⟩) Z hz hP
    (fun h => outs_A V c ⟨0, h⟩ (Nat.zero_mod 50))
    (fun n h => outs_B V c ⟨n + 1, h⟩ (by have h50 : cfg0.N = 50 := N_0; show ¬(n + 1) % 50 = 0; omega))
    t.val t.isLt (isLast t hf) i

abbrev G3 (c : Dev nD) : FVec Ideal S1x2 .f32 := fun j => Cert.Spec.colSum (aN V c) (j 1)
theorem last_3 (c : Dev nD) (t : Fin cfg0.N) (hf : t.val % 50 = 49) : (outsAt0 V c t.val t.isLt).1 = G3 V c :=
  MomAlg.ext_ix2 fun u k => last V c (fun m (p : Fin 1 × Fin 2) => aN V c m p.2) (fun s p => s.1 (ix2 p.1 p.2))
    (fun _ => Ideal.ofBits_zero_f32)
    (fun n h s p => (pay_sa_apply _ _ s.1 p.1 p.2).trans (congrArg (_ + ·) (Finset.sum_congr rfl fun r _ => aRow V c ⟨n, h⟩ r p.2)))
    t hf (u, k)
theorem off3 (t : Fin cfg0.N) : (fun a => win0_3.index t a * main_v23_0.ty.shape.size a) = fun _ => 0 :=
  funext fun a => mul_eq_zero_of_left (idx_out t a).1 _
theorem mom0_3 (c : Dev nD) :
    Cert.Spec.c2 (a := 1) (b := 2) (α := EReal) ((dat0 V c).arrAt 3 cfg0.N)
      = fun _ k => Cert.Spec.colSum (Cert.Spec.anorm (Cert.Spec.c2 (a := 100000) (b := 2) (α := EReal) (V c main_v22))
          (fun n => Cert.Spec.c2 (a := 100000) (b := 1) (α := EReal) (V c main_v12) n 0)) k := by
  rw [(dat0 V c).arrAt_eq_of_cover 3 (G3 V c) (fun t hf => by
      show (cfg0.win 3).cut (grid0.coords t) ((dat0 V c).after 3 t) = _
      rw [after0_3, last_3 V c t ((flush0_3 t).mp hf)]
      exact (Memref.read_access_unit_zero (Elt Ideal) main_v23_0 (off3 t) _ (G3 V c)).symm)
    fun i => ⟨tLast, (flush0_3 tLast).mpr rfl, (congrArg (i ∈ ·) (View.set_slice_whole main_v23_0 _)).mpr (View.mem_set_unit_zero (off3 tLast) _ i)⟩]
  rfl

abbrev G4 (c : Dev nD) : FVec Ideal S1x2 .f32 := fun j => Cert.Spec.colSum (xN V c) (j 1)
theorem last_4 (c : Dev nD) (t : Fin cfg0.N) (hf : t.val % 50 = 49) : (outsAt0 V c t.val t.isLt).2.1 = G4 V c :=
  MomAlg.ext_ix2 fun u k => last V c (fun m (p : Fin 1 × Fin 2) => xN V c m p.2) (fun s p => s.2.1 (ix2 p.1 p.2))
    (fun _ => Ideal.ofBits_zero_f32)
    (fun n h s p => (pay_sx_apply _ s.2.1 p.1 p.2).trans (congrArg (_ + ·) (Finset.sum_congr rfl fun r _ => xBlk_apply V c ⟨n, h⟩ r p.2)))
    t hf (u, k)
theorem off4 (t : Fin cfg0.N) : (fun a => win0_4.index t a * main_v23_1.ty.shape.size a) = fun _ => 0 :=
  funext fun a => mul_eq_zero_of_left (idx_out t a).2.1 _
theorem mom0_4 (c : Dev nD) :
    Cert.Spec.c2 (a := 1) (b := 2) (α := EReal) ((dat0 V c).arrAt 4 cfg0.N)
      = fun _ k => Cert.Spec.colSum (Cert.Spec.c2 (a := 100000) (b := 2) (α := EReal) (V c main_arg0)) k := by
  rw [(dat0 V c).arrAt_eq_of_cover 4 (G4 V c) (fun t hf => by
      show (cfg0.win 4).cut (grid0.coords t) ((dat0 V c).after 4 t) = _
      rw [after0_4, last_4 V c t ((flush0_4 t).mp hf)]
      exact (Memref.read_access_unit_zero (Elt Ideal) main_v23_1 (off4 t) _ (G4 V c)).symm)
    fun i => ⟨tLast, (flush0_4 tLast).mpr rfl, (congrArg (i ∈ ·) (View.set_slice_whole main_v23_1 _)).mpr (View.mem_set_unit_zero (off4 tLast) _ i)⟩]
  rfl

abbrev G5 (c : Dev nD) : FVec Ideal S2x2 .f32 := fun j => Cert.Spec.gram (aN V c) (aN V c) (j 0) (j 1)
theorem last_5 (c : Dev nD) (t : Fin cfg0.N) (hf : t.val % 50 = 49) : (outsAt0 V c t.val t.isLt).2.2.1 = G5 V c :=
  MomAlg.ext_ix2 fun u k => last V c (fun m (p : Fin 2 × Fin 2) => aN V c m p.1 * aN V c m p.2) (fun s p => s.2.2.1 (ix2 p.1 p.2))
    (fun _ => Ideal.ofBits_zero_f32)
    (fun n h s p => (pay_gaa_apply _ _ s.2.2.1 p.1 p.2).trans (congrArg (_ + ·) (Finset.sum_congr rfl fun r _ => congrArg₂ (· * ·) (aRow V c ⟨n, h⟩ r p.1) (aRow V c ⟨n, h⟩ r p.2))))
    t hf (u, k)
theorem off5 (t : Fin cfg0.N) : (fun a => win0_5.index t a * main_v23_2.ty.shape.size a) = fun _ => 0 :=
  funext fun a => mul_eq_zero_of_left (idx_out t a).2.2.1 _
theorem mom0_5 (c : Dev nD) :
    Cert.Spec.c2 (a := 2) (b := 2) (α := EReal) ((dat0 V c).arrAt 5 cfg0.N)
      = Cert.Spec.gram (Cert.Spec.anorm (Cert.Spec.c2 (a := 100000) (b := 2) (α := EReal) (V c main_v22))
          (fun n => Cert.Spec.c2 (a := 100000) (b := 1) (α := EReal) (V c main_v12) n 0))
        (Cert.Spec.anorm (Cert.Spec.c2 (a := 100000) (b := 2) (α := EReal) (V c main_v22))
          (fun n => Cert.Spec.c2 (a := 100000) (b := 1) (α := EReal) (V c main_v12) n 0)) := by
  rw [(dat0 V c).arrAt_eq_of_cover 5 (G5 V c) (fun t hf => by
      show (cfg0.win 5).cut (grid0.coords t) ((dat0 V c).after 5 t) = _
      rw [after0_5, last_5 V c t ((flush0_5 t).mp hf)]
      exact (Memref.read_access_unit_zero (Elt Ideal) main_v23_2 (off5 t) _ (G5 V c)).symm)
    fun i => ⟨tLast, (flush0_5 tLast).mpr rfl, (congrArg (i ∈ ·) (View.set_slice_whole main_v23_2 _)).mpr (View.mem_set_unit_zero (off5 tLast) _ i)⟩]
  rfl

abbrev G6 (c : Dev nD) : FVec Ideal S2x2 .f32 := fun j => Cert.Spec.gram (xN V c) (xN V c) (j 0) (j 1)
theorem last_6 (c : Dev nD) (t : Fin cfg0.N) (hf : t.val % 50 = 49) : (outsAt0 V c t.val t.isLt).2.2.2.1 = G6 V c :=
  MomAlg.ext_ix2 fun u k => last V c (fun m (p : Fin 2 × Fin 2) => xN V c m p.1 * xN V c m p.2) (fun s p => s.2.2.2.1 (ix2 p.1 p.2))
    (fun _ => Ideal.ofBits_zero_f32)
    (fun n h s p => (pay_gxx_apply _ s.2.2.2.1 p.1 p.2).trans (congrArg (_ + ·) (Finset.sum_congr rfl fun r _ => congrArg₂ (· * ·) (xBlk_apply V c ⟨n, h⟩ r p.1) (xBlk_apply V c ⟨n, h⟩ r p.2))))
    t hf (u, k)
theorem off6 (t : Fin cfg0.N) : (fun a => win0_6.index t a * main_v23_3.ty.shape.size a) = fun _ => 0 :=
  funext fun a => mul_eq_zero_of_left (idx_out t a).2.2.2.1 _
theorem mom0_6 (c : Dev nD) :
    Cert.Spec.c2 (a := 2) (b := 2) (α := EReal) ((dat0 V c).arrAt 6 cfg0.N)
      = Cert.Spec.gram (Cert.Spec.c2 (a := 100000) (b := 2) (α := EReal) (V c main_arg0))
        (Cert.Spec.c2 (a := 100000) (b := 2) (α := EReal) (V c main_arg0)) := by
  rw [(dat0 V c).arrAt_eq_of_cover 6 (G6 V c) (fun t hf => by
      show (cfg0.win 6).cut (grid0.coords t) ((dat0 V c).after 6 t) = _
      rw [after0_6, last_6 V c t ((flush0_6 t).mp hf)]
      exact (Memref.read_access_unit_zero (Elt Ideal) main_v23_3 (off6 t) _ (G6 V c)).symm)
    fun i => ⟨tLast, (flush0_6 tLast).mpr rfl, (congrArg (i ∈ ·) (View.set_slice_whole main_v23_3 _)).mpr (View.mem_set_unit_zero (off6 tLast) _ i)⟩]
  rfl

abbrev G7 (c : Dev nD) : FVec Ideal S2x2 .f32 := fun j => Cert.Spec.gram (aN V c) (xN V c) (j 0) (j 1)
theorem last_7 (c : Dev nD) (t : Fin cfg0.N) (hf : t.val % 50 = 49) : (outsAt0 V c t.val t.isLt).2.2.2.2 = G7 V c :=
  MomAlg.ext_ix2 fun u k => last V c (fun m (p : Fin 2 × Fin 2) => aN V c m p.1 * xN V c m p.2) (fun s p => s.2.2.2.2 (ix2 p.1 p.2))
    (fun _ => Ideal.ofBits_zero_f32)
    (fun n h s p => (pay_gax_apply _ _ _ s.2.2.2.2 p.1 p.2).trans (congrArg (_ + ·) (Finset.sum_congr rfl fun r _ => congrArg₂ (· * ·) (aRow V c ⟨n, h⟩ r p.1) (xBlk_apply V c ⟨n, h⟩ r p.2))))
    t hf (u, k)
theorem off7 (t : Fin cfg0.N) : (fun a => win0_7.index t a * main_v23_4.ty.shape.size a) = fun _ => 0 :=
  funext fun a => mul_eq_zero_of_left (idx_out t a).2.2.2.2 _
theorem mom0_7 (c : Dev nD) :
    Cert.Spec.c2 (a := 2) (b := 2) (α := EReal) ((dat0 V c).arrAt 7 cfg0.N)
      = Cert.Spec.gram (Cert.Spec.anorm (Cert.Spec.c2 (a := 100000) (b := 2) (α := EReal) (V c main_v22))
          (fun n => Cert.Spec.c2 (a := 100000) (b := 1) (α := EReal) (V c main_v12) n 0))
        (Cert.Spec.c2 (a := 100000) (b := 2) (α := EReal) (V c main_arg0)) := by
  rw [(dat0 V c).arrAt_eq_of_cover 7 (G7 V c) (fun t hf => by
      show (cfg0.win 7).cut (grid0.coords t) ((dat0 V c).after 7 t) = _
      rw [after0_7, last_7 V c t ((flush0_7 t).mp hf)]
      exact (Memref.read_access_unit_zero (Elt Ideal) main_v23_4 (off7 t) _ (G7 V c)).symm)
    fun i => ⟨tLast, (flush0_7 tLast).mpr rfl, (congrArg (i ∈ ·) (View.set_slice_whole main_v23_4 _)).mpr (View.mem_set_unit_zero (off7 tLast) _ i)⟩]
  rfl

end Value

end Cert.KernelIdeal.Mom0

end
-- ==== Proof.HostAlgLib.lean ====
import Idealize.ShloMosaic.Lib.ValueLayout
import Idealize.ShloMosaic.Lib.IdealHost
import Idealize.ShloMosaic.PureOps.Ideal.Laws
import Mathlib.Algebra.BigOperators.Fin
import proofs.«416188_j20263655702631_2_alg».proof.Proof.Spec

noncomputable section

open scoped BigOperators

namespace Cert.HostAlg

open Idealize.ShloMosaic Idealize.ShloMosaic.ValueIdx Cert.Spec

variable {α : Type}

/-- Shapes: an r by c matrix, an n-vector, a scalar. -/
abbrev Mat (r c : ℕ) : Shape := ⟨2, ![r, c]⟩
abbrev Vec (n : ℕ) : Shape := ⟨1, ![n]⟩
abbrev Sc : Shape := ⟨0, ![]⟩

/-- Of two matrices side by side, the first a columns are the left one's … -/
theorem concat_cols_left {r a b : ℕ} (x₁ : (Mat r a).Idx → α) (x₂ : (Mat r b).Idx → α)
    (h : Shape.Concatenates [Mat r a, Mat r b] (Mat r (a + b)) 1) (i : Fin r) (k : Fin a) :
    concatenate (Mat r (a + b)) 1 [⟨Mat r a, x₁⟩, ⟨Mat r b, x₂⟩] h (ix2 i (Fin.castAdd b k)) = x₁ (ix2 i k) :=
  concatenate_pair_apply_left 1 x₁ x₂ h _ rfl (ix2 i k) fun | ⟨0, _⟩ => rfl | ⟨1, _⟩ => rfl

/-- … and the b columns after them the right one's. -/
theorem concat_cols_right {r a b : ℕ} (x₁ : (Mat r a).Idx → α) (x₂ : (Mat r b).Idx → α)
    (h : Shape.Concatenates [Mat r a, Mat r b] (Mat r (a + b)) 1) (i : Fin r) (k : Fin b) :
    concatenate (Mat r (a + b)) 1 [⟨Mat r a, x₁⟩, ⟨Mat r b, x₂⟩] h (ix2 i (Fin.natAdd a k)) = x₂ (ix2 i k) :=
  concatenate_pair_apply_right 1 x₁ x₂ h _ rfl rfl (ix2 i k) (fun | ⟨0, _⟩, _ => rfl | ⟨1, _⟩, hd => absurd (Fin.ext rfl) hd)
    (Nat.add_comm _ _)

/-- Of one matrix above another, the first a rows are the upper one's … -/
theorem concat_rows_left {a b n : ℕ} (x₁ : (Mat a n).Idx → α) (x₂ : (Mat b n).Idx → α)
    (h : Shape.Concatenates [Mat a n, Mat b n] (Mat (a + b) n) 0) (k : Fin a) (j : Fin n) :
    concatenate (Mat (a + b) n) 0 [⟨Mat a n, x₁⟩, ⟨Mat b n, x₂⟩] h (ix2 (Fin.castAdd b k) j) = x₁ (ix2 k j) :=
  concatenate_pair_apply_left 0 x₁ x₂ h _ rfl (ix2 k j) fun | ⟨0, _⟩ => rfl | ⟨1, _⟩ => rfl

/-- … and the b rows after them the lower one's. -/
theorem concat_rows_right {a b n : ℕ} (x₁ : (Mat a n).Idx → α) (x₂ : (Mat b n).Idx → α)
    (h : Shape.Concatenates [Mat a n, Mat b n] (Mat (a + b) n) 0) (k : Fin b) (j : Fin n) :
    concatenate (Mat (a + b) n) 0 [⟨Mat a n, x₁⟩, ⟨Mat b n, x₂⟩] h (ix2 (Fin.natAdd a k) j) = x₂ (ix2 k j) :=
  concatenate_pair_apply_right 0 x₁ x₂ h _ rfl rfl (ix2 k j) (fun | ⟨0, _⟩, hd => absurd (Fin.ext rfl) hd | ⟨1, _⟩, _ => rfl)
    (Nat.add_comm _ _)

/-- Entry (i, j) of a matrix product: row i of the left factor against column j of the right. -/
theorem dot_plain_apply {φ₁ φ₂ : FTy} {m k n : ℕ} (prec : Option ContractPrecision)
    (l : FVec Ideal (Mat m k) φ₁) (r : FVec Ideal (Mat k n) φ₂) (i : Fin m) (j : Fin n) :
    Host.dotGeneral (DotDims.plain m k n) prec l r (ix2 i j) = ∑ q : Fin k, l (ix2 i q) * r (ix2 q j) := by
  show FloatOps.dotGeneral (DotDims.plain m k n) prec .single l r (ix2 i j) = _
  rw [Ideal.dotGeneral_apply, ← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 i j) ((contrEquiv1 (DotDims.plain m k n) k rfl rfl).symm q) = ix2 i q :=
    funext fun | ⟨0, _⟩ => Fin.ext rfl | ⟨1, _⟩ => Fin.ext (((DotDims.plain m k n).lhsIdx_val_of_single rfl _ _).trans hq)
  have er : (DotDims.plain m k n).rhsIdx (ix2 i j) ((contrEquiv1 (DotDims.plain m k n) k rfl rfl).symm q) = ix2 q j :=
    funext fun | ⟨0, _⟩ => Fin.ext (((DotDims.plain m k n).rhsIdx_val_of_single rfl _ _).trans hq) | ⟨1, _⟩ => Fin.ext rfl
  rw [el, er]

/-- Reducing a matrix along its rows adds each column up onto the initial value. -/
theorem reduce_rows_apply {φ : FTy} {a n : ℕ} (x : FVec Ideal (Mat a n) φ) (init : Sc.Idx → Ideal φ)
    (h : (Mat a n).ReducesTo [0] (Vec n)) (hu : 0 < Sc.numel) (j : Fin n) :
    Host.reduceAdd x init h hu (ix1 j) = init ix0 + ∑ k : Fin a, x (ix2 k j) := by
  have hR : (Mat a n).Reduces [0] (Vec n) := ⟨rfl, Nat.one_pos, fun | ⟨0, _⟩ => rfl⟩
  unfold Host.reduceAdd
  rw [Ideal.hostReduceAdd_def, Ideal.hostReduceAdd_single h hR, eq_ix0 (Shape.Idx.first hu)]
  exact congrArg (_ + ·) (Finset.sum_congr rfl fun k _ => congrArg x (funext fun | ⟨0, _⟩ => Fin.ext rfl | ⟨1, _⟩ => Fin.ext rfl))

/-- A coordinate is itself, or 0 where its axis has extent 1: what a broadcast asks of a kept axis. -/
theorem val_kept {m : ℕ} (i : Fin m) : i.val = if m = 1 then 0 else i.val := by
  have := i.isLt; split <;> omega

/-- A broadcast scalar is that scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun d => d.elim0)

/-- Broadcast down the rows, a vector is every row. -/
theorem bcast_row_apply {r n : ℕ} (h : (Vec n).BroadcastsInDim (Mat r n) ![1]) (x : (Vec n).Idx → α) (i : Fin r) (j : Fin n) :
    broadcastInDim (Mat r n) ![1] h x (ix2 i j) = x (ix1 j) :=
  broadcastInDim_apply ![1] h x (ix2 i j) (ix1 j) fun | ⟨0, _⟩ => by exact val_kept j

/-- Broadcast across the columns, a vector is every column. -/
theorem bcast_col_apply {a c : ℕ} (h : (⟨1, ![a]⟩ : Shape).BroadcastsInDim ⟨2, ![a, c]⟩ ![0])
    (x : (⟨1, ![a]⟩ : Shape).Idx → α) (i : Fin a) (u : Fin c) :
    broadcastInDim ⟨2, ![a, c]⟩ ![0] h x (ix2 i u) = x (ix1 i) :=
  broadcastInDim_apply ![0] h x (ix2 i u) (ix1 i) fun | ⟨0, _⟩ => by exact val_kept i

/-- A one-column matrix broadcast to b columns repeats its column. -/
theorem bcast_cols_apply {a b : ℕ} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply ![0, 1] h x (ix2 i j) (ix2 i 0) fun | ⟨0, _⟩ => by exact val_kept i | ⟨1, _⟩ => rfl

/-- A vector recast as a one-column matrix keeps its entries. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The shape side conditions of a layer whose two inputs have width a each and whose output has width n. -/
structure Widths (a n : ℕ) : Prop where
  sa : Sc.BroadcastsInDim (Mat 1 a) ![]
  sn : Sc.BroadcastsInDim (Mat 1 n) ![]
  vn : (Vec n).BroadcastsInDim (Mat 1 n) ![1]
  rc : (Vec n).ShapeCasts (Mat 1 n)
  cz : Shape.Concatenates [Mat 1 a, Mat 1 a] (Mat 1 (a + a)) 1
  cw : Shape.Concatenates [Mat a n, Mat a n] (Mat (a + a) n) 0
  cg : Shape.Concatenates [Mat a a, Mat a a] (Mat a (a + a)) 1
  cG : Shape.Concatenates [Mat a (a + a), Mat a (a + a)] (Mat (a + a) (a + a)) 0
  tr : (Mat a a).Transposes [1, 0] (Mat a a)
  rd : (Mat (a + a) n).ReducesTo [0] (Vec n)

section Stats

variable {a n : ℕ} (w : Widths a n) (sa sx : FVec Ideal (Mat 1 a) .f32) (gaa gxx gax : FVec Ideal (Mat a a) .f32)
  (wl wr : FVec Ideal (Mat a n) .f32) (bl : FVec Ideal (Vec n) .f32)

/-- The left and the right weights stacked into one matrix. -/
def wc : FVec Ideal (Mat (a + a) n) .f32 :=
  extf .f32 (truncf .bf16 (concatenate (Mat (a + a) n) 0 [⟨Mat a n, wl⟩, ⟨Mat a n, wr⟩] w.cw) (by decide)) (by decide)

/-- The batch mean of the linear output: the mean input row [Σa/N, Σh/N] times the stacked weights, plus the bias. -/
def mu : FVec Ideal (Mat 1 n) .f32 :=
  addf (Host.dotGeneral (DotDims.plain 1 (a + a) n) (some .fp32)
      (concatenate (Mat 1 (a + a)) 1
        [⟨Mat 1 a, Host.divf sa (broadcastInDim (Mat 1 a) ![] w.sa (constant (F := Ideal) Sc .f32 0x47C35000#32))⟩,
         ⟨Mat 1 a, Host.divf sx (broadcastInDim (Mat 1 a) ![] w.sa (constant (F := Ideal) Sc .f32 0x47C35000#32))⟩] w.cz)
      (wc w wl wr))
    (shapeCast (Mat 1 n) bl w.rc)

/-- diag(Wᵀ G W) for the Gram matrix G = [[Gaa, Gax], [Gaxᵀ, Gxx]], as the column sums of W ∘ (G W). -/
def diag : FVec Ideal (Vec n) .f32 :=
  Host.reduceAdd
    (mulf (wc w wl wr)
      (Host.dotGeneral (DotDims.plain (a + a) (a + a) n) (some .fp32)
        (concatenate (Mat (a + a) (a + a)) 0
          [⟨Mat a (a + a), concatenate (Mat a (a + a)) 1 [⟨Mat a a, gaa⟩, ⟨Mat a a, gax⟩] w.cg⟩,
           ⟨Mat a (a + a), concatenate (Mat a (a + a)) 1 [⟨Mat a a, transpose (Mat a a) [1, 0] gax w.tr⟩, ⟨Mat a a, gxx⟩] w.cg⟩] w.cG)
        (wc w wl wr)))
    (constant (F := Ideal) Sc .f32 0x00000000#32) w.rd (by decide)

/-- 1 / sqrt(max(diag / N − (mean − bias)², 0) + ε). -/
def inv : FVec Ideal (Mat 1 n) .f32 :=
  Host.rsqrt
    (addf
      (maximumf
        (subf
          (Host.divf (broadcastInDim (Mat 1 n) ![1] w.vn (diag w gaa gxx gax wl wr))
            (broadcastInDim (Mat 1 n) ![] w.sn (constant (F := Ideal) Sc .f32 0x47C35000#32)))
          (mulf (subf (mu w sa sx wl wr bl) (shapeCast (Mat 1 n) bl w.rc)) (subf (mu w sa sx wl wr bl) (shapeCast (Mat 1 n) bl w.rc))))
        (broadcastInDim (Mat 1 n) ![] w.sn (constant (F := Ideal) Sc .f32 0x00000000#32)))
      (broadcastInDim (Mat 1 n) ![] w.sn (constant (F := Ideal) Sc .f32 0x3727C5AC#32)))

theorem wc_top (k : Fin a) (j : Fin n) : wc w wl wr (ix2 (Fin.castAdd a k) j) = wl (ix2 k j) :=
  concat_rows_left _ _ w.cw k j

theorem wc_bot (k : Fin a) (j : Fin n) : wc w wl wr (ix2 (Fin.natAdd a k) j) = wr (ix2 k j) :=
  concat_rows_right _ _ w.cw k j

/-- A product against the stacked weights is a sum against the left weights plus a sum against the right. -/
theorem dot_wc {m : ℕ} (x : FVec Ideal (Mat m (a + a)) .f32) (i : Fin m) (j : Fin n) :
    Host.dotGeneral (DotDims.plain m (a + a) n) (some .fp32) x (wc w wl wr) (ix2 i j)
      = (∑ k, x (ix2 i (Fin.castAdd a k)) * wl (ix2 k j)) + ∑ k, x (ix2 i (Fin.natAdd a k)) * wr (ix2 k j) := by
  rw [dot_plain_apply, Fin.sum_univ_add]
  simp only [wc_top, wc_bot]

/-- Split at the seam, the product is the specification's mean. -/
theorem mu_apply (j : Fin n) :
    mu w sa sx wl wr bl (ix2 0 j)
      = kMu (Ideal.ofBits .f32 0x47C35000#32) (fun k => c2 sa 0 k) (fun k => c2 sx 0 k) (c2 wl) (c2 wr) (c1 bl) j := by
  unfold mu
  rw [addf_apply, dot_wc]
  simp only [concat_cols_left, concat_cols_right, hostDivf_apply, bcast_scalar_apply, constant_apply, shapeCast_a_1a_apply]
  rfl

/-- With the outer and the inner sum split at the seam, this is the specification's diagonal. -/
theorem diag_apply (j : Fin n) :
    diag w gaa gxx gax wl wr (ix1 j) = kDiag (c2 gaa) (c2 gxx) (c2 gax) (c2 wl) (c2 wr) j := by
  unfold diag
  rw [reduce_rows_apply, constant_apply, Ideal.ofBits_zero_f32, zero_add, Fin.sum_univ_add]
  simp only [mulf_apply, wc_top, wc_bot, dot_wc, concat_rows_left, concat_rows_right, concat_cols_left, concat_cols_right,
    transpose_ix2_apply gax w.tr]
  rfl

/-- Read entry by entry, with the mean and the diagonal above, this is the specification's inverse deviation. -/
theorem inv_apply (j : Fin n) :
    inv w sa sx gaa gxx gax wl wr bl (ix2 0 j)
      = invStd (Ideal.ofBits .f32 0x3727C5AC#32)
          (kVar (Ideal.ofBits .f32 0x47C35000#32) (Ideal.ofBits .f32 0x00000000#32)
            (kDiag (c2 gaa) (c2 gxx) (c2 gax) (c2 wl) (c2 wr))
            (kMu (Ideal.ofBits .f32 0x47C35000#32) (fun k => c2 sa 0 k) (fun k => c2 sx 0 k) (c2 wl) (c2 wr) (c1 bl)) (c1 bl)) j := by
  show Ideal.rsqrt (max (Ideal.div _ _ - (_ - _) * (_ - _)) _ + _) = _
  rw [bcast_row_apply, diag_apply, mu_apply, shapeCast_a_1a_apply]
  simp only [bcast_scalar_apply, constant_apply]
  rfl

end Stats

end Cert.HostAlg

end
-- ==== Proof.HostAlg1.lean ====
import proofs.«416188_j20263655702631_2_alg».proof.Proof.Gen.KernelIdeal.Launch
import proofs.«416188_j20263655702631_2_alg».proof.Proof.Spec
import proofs.«416188_j20263655702631_2_alg».proof.Proof.HostAlgLib

noncomputable section

namespace Cert.HostAlg1

open Idealize.ShloMosaic Idealize.ShloMosaic.ValueIdx Idealize.ShloMosaic.TcCoe
open Cert.KernelIdeal Cert.KernelIdeal.Gen Cert.Spec Cert.HostAlg

variable (W : Valuation τ sig (Elt Ideal))

/-- This layer's side conditions: inputs of width 2 on either side, 32 outputs. -/
theorem widths : Widths 2 32 :=
  ⟨bcast_S_S1x2, bcast_S_S1x32, bcast_S32_S1x32_1, shapeCasts_S32_S1x32, concatenates_S1x2_S1x2_S1x4_d1,
    concatenates_S2x32_S2x32_S4x32_d0, concatenates_S2x2_S2x2_S2x4_d1, concatenates_S2x4_S2x4_S4x4_d0,
    transposes_S2x2_S2x2_1_0, reducesTo_S4x32_S32_d0⟩

theorem mean_eq (j : Fin 32) :
    c2 (StableHlo.after (hostOps1 (F := Ideal)) W (Proc.devRef .tc main_v34)) 0 j
      = kMu (Ideal.ofBits .f32 0x47C35000#32) (fun k => c2 (W (Proc.devRef .tc main_v23_0)) 0 k)
          (fun k => c2 (W (Proc.devRef .tc main_v23_1)) 0 k) (c2 (W (Proc.devRef .tc main_arg3)))
          (c2 (W (Proc.devRef .tc main_arg5))) (c1 (W (Proc.devRef .tc main_arg4))) j := by
  after_results_simp
  exact mu_apply widths _ _ _ _ _ j

theorem inv_eq (j : Fin 32) :
    c2 (StableHlo.after (hostOps1 (F := Ideal)) W (Proc.devRef .tc main_v52)) 0 j
      = invStd (Ideal.ofBits .f32 0x3727C5AC#32)
          (kVar (Ideal.ofBits .f32 0x47C35000#32) (Ideal.ofBits .f32 0x00000000#32)
            (kDiag (c2 (W (Proc.devRef .tc main_v23_2))) (c2 (W (Proc.devRef .tc main_v23_3)))
              (c2 (W (Proc.devRef .tc main_v23_4))) (c2 (W (Proc.devRef .tc main_arg3))) (c2 (W (Proc.devRef .tc main_arg5))))
            (kMu (Ideal.ofBits .f32 0x47C35000#32) (fun k => c2 (W (Proc.devRef .tc main_v23_0)) 0 k)
              (fun k => c2 (W (Proc.devRef .tc main_v23_1)) 0 k) (c2 (W (Proc.devRef .tc main_arg3)))
              (c2 (W (Proc.devRef .tc main_arg5))) (c1 (W (Proc.devRef .tc main_arg4))))
            (c1 (W (Proc.devRef .tc main_arg4)))) j := by
  after_results_simp
  exact inv_apply widths _ _ _ _ _ _ _ _ j

theorem bias_row (j : Fin 32) :
    c2 (StableHlo.after (hostOps1 (F := Ideal)) W (Proc.devRef .tc main_v53)) 0 j = c1 (W (Proc.devRef .tc main_arg4)) j := by
  after_results
  exact shapeCast_a_1a_apply _ _ 0 j

theorem gamma_row (j : Fin 32) :
    c2 (StableHlo.after (hostOps1 (F := Ideal)) W (Proc.devRef .tc main_v54)) 0 j = c1 (W (Proc.devRef .tc main_arg6)) j := by
  after_results
  exact shapeCast_a_1a_apply _ _ 0 j

theorem beta_row (j : Fin 32) :
    c2 (StableHlo.after (hostOps1 (F := Ideal)) W (Proc.devRef .tc main_v55)) 0 j = c1 (W (Proc.devRef .tc main_arg7)) j := by
  after_results
  exact shapeCast_a_1a_apply _ _ 0 j

end Cert.HostAlg1

end
-- ==== Proof.FusedLayer.lean ====
import proofs.«416188_j20263655702631_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.FusedLayer

open Idealize.ShloMosaic Idealize.ShloMosaic.ValueIdx Cert.Spec

-- The contraction has one axis, so the product's sum over it re-indexes by that coordinate.
theorem matmul_at {M K N : ℕ} {φ₁ φ₂ : FTy} (D : DotDims ⟨2, ![M, K]⟩ ⟨2, ![K, N]⟩ ⟨2, ![M, N]⟩) (hD : D = DotDims.plain M K N)
    (a : FVec Ideal ⟨2, ![M, K]⟩ φ₁) (w : FVec Ideal ⟨2, ![K, N]⟩ φ₂) (p : Fin M) (j : Fin N) :
    matmul D none a w (constant ⟨2, ![M, N]⟩ .f32 0x00000000#32) (ix2 p j) = ∑ k : Fin K, a (ix2 p k) * w (ix2 k j) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 p j) ((contrEquiv1 (DotDims.plain M K N) K rfl rfl).symm k) = ix2 p k from
      Shape.idx_ext₂ rfl hk,
    show (DotDims.plain M K N).rhsIdx (ix2 p j) ((contrEquiv1 (DotDims.plain M K N) K rfl rfl).symm k) = ix2 k j from
      Shape.idx_ext₂ hk rfl]

-- On the unit axis every column reads entry 0; the row coordinate is kept.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- One layer as a function of its ten arrays, at any widths: both linear maps, the bias, then normalised, scaled, shifted, clamped at zero.
def layerOut {N da dx dout : ℕ} (agg : (⟨2, ![N, da]⟩ : Shape).Idx → EReal) (di : (⟨2, ![N, 1]⟩ : Shape).Idx → EReal)
    (x : (⟨2, ![N, dx]⟩ : Shape).Idx → EReal) (wl : (⟨2, ![da, dout]⟩ : Shape).Idx → EReal) (wr : (⟨2, ![dx, dout]⟩ : Shape).Idx → EReal)
    (b mu inv g be : (⟨2, ![1, dout]⟩ : Shape).Idx → EReal) : Fin N → Fin dout → EReal :=
  bnRelu (Ideal.ofBits .f32 0x00000000#32) (kY (anorm (c2 agg) (fun n => c2 di n 0)) (c2 x) (c2 wl) (c2 wr) (fun j => c2 b 0 j))
    (fun j => c2 mu 0 j) (fun j => c2 inv 0 j) (fun j => c2 g 0 j) (fun j => c2 be 0 j)

-- Every sum runs along one row, so equal rows of the three row-indexed arrays give equal outputs.
theorem layerOut_row {N N' da dx dout : ℕ} {agg : (⟨2, ![N, da]⟩ : Shape).Idx → EReal} {agg' : (⟨2, ![N', da]⟩ : Shape).Idx → EReal}
    {di : (⟨2, ![N, 1]⟩ : Shape).Idx → EReal} {di' : (⟨2, ![N', 1]⟩ : Shape).Idx → EReal} {x : (⟨2, ![N, dx]⟩ : Shape).Idx → EReal}
    {x' : (⟨2, ![N', dx]⟩ : Shape).Idx → EReal} (wl : (⟨2, ![da, dout]⟩ : Shape).Idx → EReal) (wr : (⟨2, ![dx, dout]⟩ : Shape).Idx → EReal)
    (b mu inv g be : (⟨2, ![1, dout]⟩ : Shape).Idx → EReal) {n : Fin N} {n' : Fin N'}
    (h0 : c2 agg n = c2 agg' n') (h1 : c2 di n = c2 di' n') (h2 : c2 x n = c2 x' n') (j : Fin dout) :
    layerOut agg di x wl wr b mu inv g be n j = layerOut agg' di' x' wl wr b mu inv g be n' j := by
  simp only [layerOut, bnRelu, kY, anorm, h0, h1, h2]

-- With every block index zero all offsets vanish.
theorem emb_whole {s : Shape} (ι : Fin s.rank → ℕ) (inb : ∀ a, ι a * s.size a + s.size a ≤ s.size a) (h : ∀ a, ι a = 0) (y : s.Idx) :
    (Rect.unit (fun a => ι a * s.size a) s.size inb).emb y = y :=
  funext fun a => Fin.ext (by show ι a * s.size a + 1 * (y a).val = (y a).val; rw [h a]; omega)

-- The row offset is t·r and the column offset zero.
theorem emb_rows {A B r : ℕ} (ι : Fin 2 → ℕ) (inb : ∀ a, ι a * ![r, B] a + ![r, B] a ≤ ![A, B] a) {t : ℕ} (h0 : ι 0 = t) (h1 : ι 1 = 0)
    (p : Fin r) (k : Fin B) {n : Fin A} (hn : t * r + p.val = n.val) :
    (Rect.unit (s := ⟨2, ![A, B]⟩) (fun a => ι a * ![r, B] a) ![r, B] inb).emb (ix2 p k) = ix2 n k :=
  Shape.idx_ext₂ (by show ι 0 * r + 1 * p.val = n.val; rw [h0]; omega) (by show ι 1 * B + 1 * k.val = k.val; rw [h1]; omega)

-- (i / r)·r ≤ i < (i / r)·r + r.
theorem mem_rows {A B r : ℕ} (ι : Fin 2 → ℕ) (inb : ∀ a, ι a * ![r, B] a + ![r, B] a ≤ ![A, B] a) (i : (⟨2, ![A, B]⟩ : Shape).Idx)
    (h0 : ι 0 = (i 0).val / r) (h1 : ι 1 = 0) (hr : 0 < r) :
    i ∈ (Rect.unit (s := ⟨2, ![A, B]⟩) (fun a => ι a * ![r, B] a) ![r, B] inb).set := by
  rw [Rect.mem_set_unit]
  have hi1 : (i 1).val < B := idx2_lt1 i
  intro a
  match a with
  | ⟨0, _⟩ =>
    show ι 0 * r ≤ (i 0).val ∧ (i 0).val < ι 0 * r + r
    rw [h0]; exact ⟨Nat.div_mul_le_self _ _, Nat.lt_div_mul_add hr⟩
  | ⟨1, _⟩ =>
    show ι 1 * B ≤ (i 1).val ∧ (i 1).val < ι 1 * B + B
    rw [h1]; omega

theorem zz : (![0, 0] : Fin 2 → Nat) = fun _ => 0 := funext fun a => by fin_cases a <;> rfl

end Cert.KernelIdeal.FusedLayer

end
-- ==== Proof.Fused1.lean ====
import proofs.«416188_j20263655702631_2_alg».proof.Proof.Gen.KernelIdeal.Frame
import proofs.«416188_j20263655702631_2_alg».proof.Proof.FusedLayer

noncomputable section

namespace Cert.KernelIdeal.Fused1

open Idealize.ShloMosaic Idealize.ShloMosaic.TcCoe Idealize.ShloMosaic.ValueIdx
open Cert.KernelIdeal Cert.KernelIdeal.Gen Cert.KernelIdeal.FusedLayer Cert.Spec

-- At the ideal values rounding to a narrower format is the identity, so the body is the layer of its ten blocks.
theorem pay_at (v0 : Vec Ideal S2000x2 .f32) (v2 : Vec Ideal S2000x1 .f32) (v7 : Vec Ideal S2000x2 .f32)
    (v9 v11 : Vec Ideal S2x32 .f32) (v16 v20 v24 v28 v32 : Vec Ideal S1x32 .f32) (p : Fin 2000) (j : Fin 32) :
    k1_pay1 (F := Ideal) (k1_pay2 v0 v2 v7 v9 v11 v16 v20 v24 v28 v32) (Scalar.ofBits .f32 0x00000000#32) (ix2 p j)
      = layerOut v0 v2 v7 v9 v11 v16 v20 v24 v28 v32 p j := by
  unfold k1_pay1 k1_pay2
  simp only [shapeCast_self]
  simp only [maximumf_apply, truncf_apply, addf_apply, subf_apply, mulf_apply, broadcast_apply, matmul_at dot_S2000x2_S2x32_S2000x32_1_0_0_1_n_n rfl,
    broadcastTo_1b_ab_apply, broadcastTo_a1_ab_apply]
  rfl

variable (V : (c : Dev nD) → (b : Ref sig .tc) → Buf (Elt Ideal) ((c : Thread nD τ).loc b))

-- The block indices, checked at each of the fifty points.
theorem idx : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_10.index t (0 : Fin 2) = t.val ∧ win1_10.index t (1 : Fin 2) = 0)
    ∧ (∀ a, win1_3.index t a = 0) ∧ (∀ a, win1_4.index t a = 0) ∧ (∀ a, win1_5.index t a = 0) ∧ (∀ a, win1_6.index t a = 0) ∧ (∀ a, win1_7.index t a = 0) ∧ (∀ a, win1_8.index t a = 0) ∧ (∀ a, win1_9.index t a = 0) :=
  (by decide +kernel : ∀ t : Fin grid1.N, _)

-- A block is read through its place in the array: row 2000 t + p for the row blocks, the same entry for the small ones.
theorem reads (c : Dev nD) (t : Fin cfg1.N) (p : Fin 2000) (n : Fin 100000) (hn : t.val * 2000 + p.val = n.val) :
    (c2 (iblk1 V c 0 t : Vec Ideal S2000x2 .f32) p = c2 (V c main_v22) n ∧ c2 (iblk1 V c 2 t : Vec Ideal S2000x1 .f32) p = c2 (V c main_v12) n
      ∧ c2 (iblk1 V c 1 t : Vec Ideal S2000x2 .f32) p = c2 (V c main_arg0) n)
    ∧ (iblk1 V c 3 t : Vec Ideal S2x32 .f32) = V c main_arg3
    ∧ (iblk1 V c 4 t : Vec Ideal S2x32 .f32) = V c main_arg5
    ∧ (iblk1 V c 5 t : Vec Ideal S1x32 .f32) = V c main_v53
    ∧ (iblk1 V c 6 t : Vec Ideal S1x32 .f32) = V c main_v34
    ∧ (iblk1 V c 7 t : Vec Ideal S1x32 .f32) = V c main_v52
    ∧ (iblk1 V c 8 t : Vec Ideal S1x32 .f32) = V c main_v54
    ∧ (iblk1 V c 9 t : Vec Ideal S1x32 .f32) = V c main_v55 := by
  obtain ⟨⟨a0, a1⟩, ⟨b0, b1⟩, ⟨c0, c1⟩, -, h3, h4, h5, h6, h7, h8, h9⟩ := idx t
  exact ⟨⟨funext fun k => congrArg (V c main_v22) (emb_rows _ _ a0 a1 p k hn), funext fun k => congrArg (V c main_v12) (emb_rows _ _ c0 c1 p k hn),
      funext fun k => congrArg (V c main_arg0) (emb_rows _ _ b0 b1 p k hn)⟩,
    funext fun y => congrArg (V c main_arg3) (emb_whole _ _ h3 y),
    funext fun y => congrArg (V c main_arg5) (emb_whole _ _ h4 y),
    funext fun y => congrArg (V c main_v53) (emb_whole _ _ h5 y),
    funext fun y => congrArg (V c main_v34) (emb_whole _ _ h6 y),
    funext fun y => congrArg (V c main_v52) (emb_whole _ _ h7 y),
    funext fun y => congrArg (V c main_v54) (emb_whole _ _ h8 y),
    funext fun y => congrArg (V c main_v55) (emb_whole _ _ h9 y)⟩

def G (c : Dev nD) : Vec Ideal S100000x32 .bf16 := fun i =>
  layerOut (V c main_v22) (V c main_v12) (V c main_arg0) (V c main_arg3) (V c main_arg5) (V c main_v53) (V c main_v34) (V c main_v52) (V c main_v54) (V c main_v55) (i 0) (i 1)

-- By row locality the body's value at (p, j) is the layer's at row 2000 t + p.
theorem flushed_eq (c : Dev nD) (t : Fin cfg1.N) :
    (dat1 V c).flushed 10 t = ((cfg1.win 10).blk t).view.read (Elt Ideal) (G V c) := by
  show (cfg1.win 10).cut (grid1.coords t) ((dat1 V c).after 10 t) = _
  rw [after1_10]
  unfold out1_10
  rw [View.canon_unit_zero zz]
  simp only [View.ld_unit_zero (S := S2000x2) zz, View.ld_unit_zero (S := S2000x1) zz, View.ld_unit_zero (S := S2x32) zz,
    View.ld_unit_zero (S := S1x32) zz]
  funext y
  obtain ⟨p, j, rfl⟩ : ∃ (p : Fin 2000) (j : Fin 32), y = ix2 p j := ⟨y 0, y 1, eq_ix2 y⟩
  obtain ⟨-, -, -, ⟨o0, o1⟩, -⟩ := idx t
  have hN : cfg1.N = 50 := N_1
  obtain ⟨n, hn⟩ : ∃ n : Fin 100000, t.val * 2000 + p.val = n.val :=
    ⟨⟨t.val * 2000 + p.val, by have := t.isLt; have := p.isLt; omega⟩, rfl⟩
  obtain ⟨⟨r0, r2, r1⟩, r3, r4, r5, r6, r7, r8, r9⟩ := reads V c t p n hn
  refine (pay_at _ _ _ _ _ _ _ _ _ _ p j).trans ?_
  rw [r3, r4, r5, r6, r7, r8, r9, View.read_apply,
    show ((cfg1.win 10).blk t).view.emb (ix2 p j) = ix2 n j from emb_rows _ _ o0 o1 p j hn]
  exact layerOut_row _ _ _ _ _ _ _ r0 r2 r1 j

-- Row n lies in the block of point n / 2000.
theorem cover (i : S100000x32.Idx) :
    ∃ t : Fin cfg1.N, (cfg1.win 10).flush t = true ∧ i ∈ ((cfg1.win 10).blk t).view.set := by
  have hi0 : (i 0).val < 100000 := idx2_lt0 i
  have hN : cfg1.N = 50 := N_1
  obtain ⟨t, ht⟩ : ∃ t : Fin cfg1.N, t.val = (i 0).val / 2000 := ⟨⟨(i 0).val / 2000, by rw [hN]; omega⟩, rfl⟩
  obtain ⟨-, -, -, ⟨e0, e1⟩, -⟩ := idx t
  refine ⟨t, flush1_10 t, ?_⟩
  show i ∈ ((View.whole main_v56).slice (win1_10.rect t)).set
  rw [View.set_slice_whole]
  exact mem_rows _ _ i (e0.trans ht) e1 (by decide)

theorem fused1 (c : Dev nD) :
    c2 ((dat1 V c).arrAt 10 cfg1.N)
      = bnRelu (Ideal.ofBits .f32 0x00000000#32)
          (kY (anorm (c2 (V c main_v22)) (fun n => c2 (V c main_v12) n 0)) (c2 (V c main_arg0)) (c2 (V c main_arg3))
            (c2 (V c main_arg5)) (fun j => c2 (V c main_v53) 0 j))
          (fun j => c2 (V c main_v34) 0 j) (fun j => c2 (V c main_v52) 0 j) (fun j => c2 (V c main_v54) 0 j)
          (fun j => c2 (V c main_v55) 0 j) := by
  rw [(dat1 V c).arrAt_eq_of_cover 10 (G V c) (fun t _ => flushed_eq V c t) cover]
  rfl

end Cert.KernelIdeal.Fused1

end
-- ==== Proof.AsmK1.lean ====
import proofs.«416188_j20263655702631_2_alg».proof.Proof.Gen.KernelIdeal.Frame
import proofs.«416188_j20263655702631_2_alg».proof.Proof.Spec
import proofs.«416188_j20263655702631_2_alg».proof.Proof.AsmKLib
import proofs.«416188_j20263655702631_2_alg».proof.Proof.Carry
import proofs.«416188_j20263655702631_2_alg».proof.Proof.AggDefs
import proofs.«416188_j20263655702631_2_alg».proof.Proof.AggK
import proofs.«416188_j20263655702631_2_alg».proof.Proof.Mom0
import proofs.«416188_j20263655702631_2_alg».proof.Proof.HostAlg1
import proofs.«416188_j20263655702631_2_alg».proof.Proof.Fused1

set_option maxRecDepth 16384

noncomputable section

namespace Cert.KernelIdeal.Asm

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec

variable (m : (ℓ : Loc nD τ sig) → Buf (Elt Ideal) ℓ) (ρ : Dev nD → PrngReg)

theorem layer1 (c : Dev nD) :
    c2 (W4 m ρ c (Proc.devRef .tc main_v56))
      = kLayer (Ideal.ofBits .f32 0x47C35000#32) (Ideal.ofBits .f32 0x3727C5AC#32) (Ideal.ofBits .f32 0x3F800000#32) (Ideal.ofBits .f32 0x00000000#32)
          (c2 (Agg.agg2 (F := Ideal) (m ((c : Thread nD τ).loc main_arg0)) (m ((c : Thread nD τ).loc main_arg1)))) (c1 (Agg.deg (F := Ideal) (m ((c : Thread nD τ).loc main_arg1)))) (c2 (m ((c : Thread nD τ).loc main_arg0)))
          (c2 (m ((c : Thread nD τ).loc main_arg3))) (c2 (m ((c : Thread nD τ).loc main_arg5))) (c1 (m ((c : Thread nD τ).loc main_arg4))) (c1 (m ((c : Thread nD τ).loc main_arg6))) (c1 (m ((c : Thread nD τ).loc main_arg7))) := by

  have hagg : (W1 m ρ c (Proc.devRef .tc main_v22) : FVec Ideal S100000x2 .f32) = (Agg.agg2 (F := Ideal) (m ((c : Thread nD τ).loc main_arg0)) (m ((c : Thread nD τ).loc main_arg1))) :=
    AggK.after0_v22 (W0 m ρ c)

  have hout : W4 m ρ c (Proc.devRef .tc main_v56) = (dat1 (V3 m ρ) c).arrAt 10 cfg1.N := W4_arr m ρ c 10
  have h3 : W2 m ρ c (Proc.devRef .tc main_v23_0) = (dat0 (V1 m ρ) c).arrAt 3 cfg0.N := W2_arr m ρ c 3
  have h4 : W2 m ρ c (Proc.devRef .tc main_v23_1) = (dat0 (V1 m ρ) c).arrAt 4 cfg0.N := W2_arr m ρ c 4
  have h5 : W2 m ρ c (Proc.devRef .tc main_v23_2) = (dat0 (V1 m ρ) c).arrAt 5 cfg0.N := W2_arr m ρ c 5
  have h6 : W2 m ρ c (Proc.devRef .tc main_v23_3) = (dat0 (V1 m ρ) c).arrAt 6 cfg0.N := W2_arr m ρ c 6
  have h7 : W2 m ρ c (Proc.devRef .tc main_v23_4) = (dat0 (V1 m ρ) c).arrAt 7 cfg0.N := W2_arr m ρ c 7
  refine kLayer_of_pieces
    (A₀ := c2 (V1 m ρ c main_v22)) (D₀ := fun n => c2 (V1 m ρ c main_v12) n 0) (X₀ := c2 (V1 m ρ c main_arg0))
    (hout := (congrArg (fun v => c2 v) hout).trans (Fused1.fused1 (V3 m ρ) c))
    (hmu := funext fun j => Cert.HostAlg1.mean_eq (W2 m ρ c) j)
    (hinv := funext fun j => Cert.HostAlg1.inv_eq (W2 m ρ c) j)
    (hsa := ?hsa) (hsx := ?hsx) (hGaa := ?hGaa) (hGxx := ?hGxx) (hGax := ?hGax)
    (hA₁ := ?hA₁) (hD₁ := ?hD₁) (hX₁ := ?hX₁) (hWl₁ := ?hWl₁) (hWr₁ := ?hWr₁)
    (hb₁ := ?hb₁) (hg₁ := ?hg₁) (hbe₁ := ?hbe₁)
    (hWl₂ := ?hWl₂) (hWr₂ := ?hWr₂) (hbl₂ := ?hbl₂)
    (hA₀ := ?hA₀) (hD₀ := ?hD₀) (hX₀ := ?hX₀)
  case hsa => exact funext fun k => (congrArg (fun v => c2 v 0 k) h3).trans (congrFun (congrFun (Mom0.mom0_3 (V1 m ρ) c) 0) k)
  case hsx => exact funext fun k => (congrArg (fun v => c2 v 0 k) h4).trans (congrFun (congrFun (Mom0.mom0_4 (V1 m ρ) c) 0) k)
  case hGaa => exact (congrArg (fun v => c2 v) h5).trans (Mom0.mom0_5 (V1 m ρ) c)
  case hGxx => exact (congrArg (fun v => c2 v) h6).trans (Mom0.mom0_6 (V1 m ρ) c)
  case hGax => exact (congrArg (fun v => c2 v) h7).trans (Mom0.mom0_7 (V1 m ρ) c)
  case hA₁ => exact congrArg (fun v : FVec Ideal S100000x2 .f32 => c2 v) ((Carry.W3_main_v22_from1 m ρ c).trans hagg)
  case hD₁ => exact funext (fun n => (congrArg (fun v : FVec Ideal S100000x1 .f32 => v (ix2 n (0 : Fin 1))) (Carry.W3_main_v12_from1 m ρ c)).trans
        (AggK.after0_v12_apply (W0 m ρ c) n))
  case hX₁ => exact congrArg (fun v : FVec Ideal S100000x2 .f32 => c2 v) (Carry.W3_main_arg0_from0 m ρ c)
  case hWl₁ => exact congrArg (fun v => c2 v) (Carry.W3_main_arg3_from0 m ρ c)
  case hWr₁ => exact congrArg (fun v => c2 v) (Carry.W3_main_arg5_from0 m ρ c)
  case hb₁ => exact funext fun j => (Cert.HostAlg1.bias_row (W2 m ρ c) j).trans (congrArg (fun v => c1 v j) (Carry.W2_main_arg4_from0 m ρ c))
  case hg₁ => exact funext fun j => (Cert.HostAlg1.gamma_row (W2 m ρ c) j).trans (congrArg (fun v => c1 v j) (Carry.W2_main_arg6_from0 m ρ c))
  case hbe₁ => exact funext fun j => (Cert.HostAlg1.beta_row (W2 m ρ c) j).trans (congrArg (fun v => c1 v j) (Carry.W2_main_arg7_from0 m ρ c))
  case hWl₂ => exact congrArg (fun v => c2 v) (Carry.W2_main_arg3_from0 m ρ c)
  case hWr₂ => exact congrArg (fun v => c2 v) (Carry.W2_main_arg5_from0 m ρ c)
  case hbl₂ => exact congrArg (fun v => c1 v) (Carry.W2_main_arg4_from0 m ρ c)
  case hA₀ => exact congrArg (fun v : FVec Ideal S100000x2 .f32 => c2 v) hagg
  case hD₀ => exact funext (fun n => AggK.after0_v12_apply (W0 m ρ c) n)
  case hX₀ => exact congrArg (fun v : FVec Ideal S100000x2 .f32 => c2 v) (Carry.W1_main_arg0_from0 m ρ c)

end Cert.KernelIdeal.Asm

end
-- ==== Proof.Mom2Pay.lean ====
import proofs.«416188_j20263655702631_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Mom2

open Idealize.ShloMosaic Idealize.ShloMosaic.ValueIdx
open Cert.KernelIdeal Cert.KernelIdeal.Gen

-- Row r, column k of the scaled block: the raw sum there times row r's reciprocal degree.
theorem scaled_apply (x0 : FVec Ideal S2000x32 .f32) (x2 : FVec Ideal S2000x1 .f32) (r : Fin 2000) (k : Fin 32) :
    k2_pay8 (F := Ideal) x0 x2 (ix2 r k) = x0 (ix2 r k) * x2 (ix2 r (0 : Fin 1)) := by
  unfold k2_pay8
  simp only [shapeCast_self]
  refine (mulf_apply _ _ _).trans (congrArg (x0 (ix2 r k) * ·) ?_)
  refine broadcastTo_apply x2 Gen.broadcasts_S2000x1_S2000x32 (ix2 r k) (ix2 r (0 : Fin 1)) fun ax => ?_
  match ax with
  | ⟨0, _⟩ => rfl
  | ⟨1, _⟩ => rfl

-- The feature block widened to f32 is the feature block.
theorem wide_apply (x1 : FVec Ideal S2000x32 .bf16) (j : S2000x32.Idx) : k2_pay9 (F := Ideal) x1 j = x1 j := by
  unfold k2_pay9
  simp only [shapeCast_self, extf_apply]

-- The old column sums plus the block's: the reduction over the row axis at column k is the sum over the 2000 rows.
theorem colsum_acc (v : FVec Ideal S2000x32 .f32) (acc : FVec Ideal S1x32 .f32) (u : Fin 1) (k : Fin 32) (hφ : FKind.Formats .f32)
    (hacc : (0x00000000#32 : BitVec 32) = FKind.add.neutral .f32 hφ) :
    addf acc (shapeCast S1x32 (multiReduction .add [0] S32 v 0x00000000#32 Gen.reduces_S2000x32_S32 hφ hacc) Gen.shapeCasts_S32_S1x32) (ix2 u k)
      = acc (ix2 u k) + ∑ r : Fin 2000, v (ix2 r k) := by
  refine (addf_apply _ _ _).trans (congrArg (acc (ix2 u k) + ·) ?_)
  refine (shapeCast_a_1a_apply _ Gen.shapeCasts_S32_S1x32 u k).trans ?_
  refine (Ideal.multiReduction_add_single v 0x00000000#32 Gen.reduces_S2000x32_S32 hφ hacc (ix1 k)).trans ?_
  refine Finset.sum_congr rfl fun r _ => congrArg v (funext fun c => Fin.ext ?_)
  match c with
  | ⟨0, _⟩ => rfl
  | ⟨1, _⟩ => rfl

theorem pay_sa_apply (x0 : FVec Ideal S2000x32 .f32) (x2 : FVec Ideal S2000x1 .f32) (acc : FVec Ideal S1x32 .f32)
    (u : Fin 1) (k : Fin 32) :
    k2_pay12 (F := Ideal) x0 x2 acc (ix2 u k)
      = acc (ix2 u k) + ∑ r : Fin 2000, x0 (ix2 r k) * x2 (ix2 r (0 : Fin 1)) := by
  unfold k2_pay12
  simp only [shapeCast_self]
  exact (colsum_acc _ acc u k _ _).trans (congrArg (_ + ·) (Finset.sum_congr rfl fun r _ => scaled_apply x0 x2 r k))

theorem pay_sx_apply (x1 : FVec Ideal S2000x32 .bf16) (acc : FVec Ideal S1x32 .f32) (u : Fin 1) (k : Fin 32) :
    k2_pay13 (F := Ideal) x1 acc (ix2 u k) = acc (ix2 u k) + ∑ r : Fin 2000, x1 (ix2 r k) := by
  unfold k2_pay13
  simp only [shapeCast_self]
  exact (colsum_acc _ acc u k _ _).trans (congrArg (_ + ·) (Finset.sum_congr rfl fun r _ => wide_apply x1 (ix2 r k)))

theorem dot_ax (j : S32x32.Idx) (q : dot_S2000x32_S2000x32_S32x32_0_0_1_1_n_n.contr.Idx) :
    (dot_S2000x32_S2000x32_S32x32_0_0_1_1_n_n.lhsIdx j q 0 : ℕ) = q ⟨0, by decide⟩ ∧ (dot_S2000x32_S2000x32_S32x32_0_0_1_1_n_n.lhsIdx j q 1 : ℕ) = j 0
      ∧ (dot_S2000x32_S2000x32_S32x32_0_0_1_1_n_n.rhsIdx j q 0 : ℕ) = q ⟨0, by decide⟩ ∧ (dot_S2000x32_S2000x32_S32x32_0_0_1_1_n_n.rhsIdx j q 1 : ℕ) = j 1 := by
  refine ⟨?_, ?_, ?_, ?_⟩ <;> simp [DotDims.lhsIdx, DotDims.rhsIdx, dot_S2000x32_S2000x32_S32x32_0_0_1_1_n_n] <;> rfl

-- The old Gram block plus the block's: the product contracted over the row axis at (k, l) is the sum over the 2000 rows.
theorem gram_acc (lhs rhs : FVec Ideal S2000x32 .bf16) (acc : FVec Ideal S32x32 .f32) (k l : Fin 32) :
    addf acc (matmul dot_S2000x32_S2000x32_S32x32_0_0_1_1_n_n none lhs rhs (constant (F := Ideal) S32x32 .f32 0x00000000#32)) (ix2 k l)
      = acc (ix2 k l) + ∑ r : Fin 2000, lhs (ix2 r k) * rhs (ix2 r l) := by
  refine (addf_apply _ _ _).trans (congrArg (acc (ix2 k l) + ·) ?_)
  refine (Ideal.matmul_constant_zero_apply dot_S2000x32_S2000x32_S32x32_0_0_1_1_n_n none lhs rhs (ix2 k l)).trans ?_
  refine (Equiv.sum_comp (contrEquiv1 dot_S2000x32_S2000x32_S32x32_0_0_1_1_n_n 2000 rfl rfl).symm
    (fun q => lhs (dot_S2000x32_S2000x32_S32x32_0_0_1_1_n_n.lhsIdx (ix2 k l) q) * rhs (dot_S2000x32_S2000x32_S32x32_0_0_1_1_n_n.rhsIdx (ix2 k l) q))).symm.trans ?_
  refine Finset.sum_congr rfl fun r _ => congrArg₂ (fun a b => lhs a * rhs b) (funext fun a => Fin.ext ?_) (funext fun a => Fin.ext ?_)
  · match a with
    | ⟨0, _⟩ => exact (dot_ax _ _).1.trans (contrEquiv1_symm_val dot_S2000x32_S2000x32_S32x32_0_0_1_1_n_n 2000 rfl rfl r)
    | ⟨1, _⟩ => exact (dot_ax _ _).2.1
  · match a with
    | ⟨0, _⟩ => exact (dot_ax _ _).2.2.1.trans (contrEquiv1_symm_val dot_S2000x32_S2000x32_S32x32_0_0_1_1_n_n 2000 rfl rfl r)
    | ⟨1, _⟩ => exact (dot_ax _ _).2.2.2

theorem pay_gaa_apply (x0 : FVec Ideal S2000x32 .f32) (x2 : FVec Ideal S2000x1 .f32) (acc : FVec Ideal S32x32 .f32)
    (k l : Fin 32) :
    k2_pay14 (F := Ideal) x0 x2 acc (ix2 k l)
      = acc (ix2 k l) + ∑ r : Fin 2000, (x0 (ix2 r k) * x2 (ix2 r (0 : Fin 1))) * (x0 (ix2 r l) * x2 (ix2 r (0 : Fin 1))) := by
  unfold k2_pay14
  simp only [shapeCast_self]
  exact (gram_acc _ _ acc k l).trans (congrArg (_ + ·) (Finset.sum_congr rfl fun r _ =>
    congrArg₂ (· * ·) (scaled_apply x0 x2 r k) (scaled_apply x0 x2 r l)))

theorem pay_gxx_apply (x1 : FVec Ideal S2000x32 .bf16) (acc : FVec Ideal S32x32 .f32) (k l : Fin 32) :
    k2_pay1 (F := Ideal) (k2_pay11 (F := Ideal) x1) acc (ix2 k l)
      = acc (ix2 k l) + ∑ r : Fin 2000, x1 (ix2 r k) * x1 (ix2 r l) := by
  unfold k2_pay1
  simp only [shapeCast_self]
  exact (gram_acc _ _ acc k l).trans (congrArg (_ + ·) (Finset.sum_congr rfl fun r _ =>
    congrArg₂ (· * ·) (wide_apply x1 (ix2 r k)) (wide_apply x1 (ix2 r l))))

theorem pay_gax_apply (x0 : FVec Ideal S2000x32 .f32) (x1 : FVec Ideal S2000x32 .bf16) (x2 : FVec Ideal S2000x1 .f32)
    (acc : FVec Ideal S32x32 .f32) (k l : Fin 32) :
    k2_pay2 (F := Ideal) (k2_pay10 (F := Ideal) x0 x2) (k2_pay11 (F := Ideal) x1) acc (ix2 k l)
      = acc (ix2 k l) + ∑ r : Fin 2000, (x0 (ix2 r k) * x2 (ix2 r (0 : Fin 1))) * x1 (ix2 r l) := by
  unfold k2_pay2
  simp only [shapeCast_self]
  exact (gram_acc _ _ acc k l).trans (congrArg (_ + ·) (Finset.sum_congr rfl fun r _ =>
    congrArg₂ (· * ·) (scaled_apply x0 x2 r k) (wide_apply x1 (ix2 r l))))

end Cert.KernelIdeal.Mom2

end
-- ==== Proof.Mom2.lean ====
import proofs.«416188_j20263655702631_2_alg».proof.Proof.Gen.KernelIdeal.Frame
import proofs.«416188_j20263655702631_2_alg».proof.Proof.Spec
import proofs.«416188_j20263655702631_2_alg».proof.Proof.MomAlg
import proofs.«416188_j20263655702631_2_alg».proof.Proof.Mom2Pay
import Idealize.ShloMosaic.Lib.Pipeline.Value
import Idealize.ShloMosaic.Lib.Tactic

set_option maxRecDepth 16384

noncomputable section

open scoped BigOperators

namespace Cert.KernelIdeal.Mom2

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen

theorem hz2 : (![0, 0] : Fin 2 → Nat) = fun _ => 0 := funext fun a => by fin_cases a <;> rfl

section Value

variable (V : (c : Dev nD) → (b : Ref sig .tc) → Buf (Elt Ideal) ((c : Thread nD τ).loc b))

abbrev aArr (c : Dev nD) : FVec Ideal S100000x32 .f32 := V c main_v67
abbrev xArr (c : Dev nD) : FVec Ideal S100000x32 .bf16 := V c main_v56
abbrev dArr (c : Dev nD) : FVec Ideal S100000x1 .f32 := V c main_v12
abbrev aBlk (c : Dev nD) (t : Fin cfg2.N) : FVec Ideal S2000x32 .f32 := iblk2 V c 0 t
abbrev xBlk (c : Dev nD) (t : Fin cfg2.N) : FVec Ideal S2000x32 .bf16 := iblk2 V c 1 t
abbrev dBlk (c : Dev nD) (t : Fin cfg2.N) : FVec Ideal S2000x1 .f32 := iblk2 V c 2 t
abbrev aN (c : Dev nD) : Fin 100000 → Fin 32 → EReal :=
  Cert.Spec.anorm (Cert.Spec.c2 (aArr V c)) (fun n => Cert.Spec.c2 (dArr V c) n 0)
abbrev xN (c : Dev nD) : Fin 100000 → Fin 32 → EReal := Cert.Spec.c2 (xArr V c)

theorem hN : (100000 : ℕ) = cfg2.N * 2000 := by have h : cfg2.N = 50 := N_2; omega

theorem idx_in : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)
theorem idx_out : ∀ (t : Fin cfg2.N) (a : Fin 2), win2_3.index t a = 0 ∧ win2_4.index t a = 0 ∧ win2_5.index t a = 0
    ∧ win2_6.index t a = 0 ∧ win2_7.index t a = 0 :=
  (by decide +kernel : ∀ t : Fin grid2.N, _)

-- Row r of point t's block is row 2000 t + r of the array.
theorem aBlk_apply (c : Dev nD) (t : Fin cfg2.N) (r : Fin 2000) (k : Fin 32) :
    aBlk V c t (ix2 r k) = aArr V c (ix2 (MomAlg.row hN t.val t.isLt r) k) := by
  obtain ⟨e0, e1, -⟩ := idx_in t
  refine congrArg (V c main_v67) (funext fun a => Fin.ext ?_)
  match a with
  | ⟨0, _⟩ => show win2_0.index t (0 : Fin 2) * 2000 + 1 * r.val = 2000 * t.val + r.val; rw [e0]; omega
  | ⟨1, _⟩ => show win2_0.index t (1 : Fin 2) * 32 + 1 * k.val = k.val; rw [e1]; omega
theorem xBlk_apply (c : Dev nD) (t : Fin cfg2.N) (r : Fin 2000) (k : Fin 32) :
    xBlk V c t (ix2 r k) = xArr V c (ix2 (MomAlg.row hN t.val t.isLt r) k) := by
  obtain ⟨-, -, e0, e1, -⟩ := idx_in t
  refine congrArg (V c main_v56) (funext fun a => Fin.ext ?_)
  match a with
  | ⟨0, _⟩ => show win2_1.index t (0 : Fin 2) * 2000 + 1 * r.val = 2000 * t.val + r.val; rw [e0]; omega
  | ⟨1, _⟩ => show win2_1.index t (1 : Fin 2) * 32 + 1 * k.val = k.val; rw [e1]; omega
theorem dBlk_apply (c : Dev nD) (t : Fin cfg2.N) (r : Fin 2000) (u : Fin 1) :
    dBlk V c t (ix2 r u) = dArr V c (ix2 (MomAlg.row hN t.val t.isLt r) u) := by
  obtain ⟨-, -, -, -, e0, e1⟩ := idx_in t
  refine congrArg (V c main_v12) (funext fun a => Fin.ext ?_)
  match a with
  | ⟨0, _⟩ => show win2_2.index t (0 : Fin 2) * 2000 + 1 * r.val = 2000 * t.val + r.val; rw [e0]; omega
  | ⟨1, _⟩ => show win2_2.index t (1 : Fin 2) * 1 + 1 * u.val = u.val; rw [e1]; omega
theorem aRow (c : Dev nD) (t : Fin cfg2.N) (r : Fin 2000) (k : Fin 32) :
    aBlk V c t (ix2 r k) * dBlk V c t (ix2 r (0 : Fin 1)) = aN V c (MomAlg.row hN t.val t.isLt r) k :=
  congrArg₂ (· * ·) (aBlk_apply V c t r k) (dBlk_apply V c t r 0)

abbrev Outs : Type := Vec Ideal S1x32 .f32 × Vec Ideal S1x32 .f32 × Vec Ideal S32x32 .f32 × Vec Ideal S32x32 .f32 × Vec Ideal S32x32 .f32
-- The five running values: zero before point 0; point n applies its five payloads to them.
abbrev Z : Outs :=
  (k2_pay3 (F := Ideal), k2_pay4 (F := Ideal), k2_pay5 (F := Ideal), k2_pay6 (F := Ideal), k2_pay7 (F := Ideal))
abbrev step (c : Dev nD) (t : Fin cfg2.N) (s : Outs) : Outs :=
  (k2_pay12 (F := Ideal) (aBlk V c t) (dBlk V c t) s.1, k2_pay13 (F := Ideal) (xBlk V c t) s.2.1,
    k2_pay14 (F := Ideal) (aBlk V c t) (dBlk V c t) s.2.2.1, k2_pay1 (F := Ideal) (k2_pay11 (F := Ideal) (xBlk V c t)) s.2.2.2.1,
    k2_pay2 (F := Ideal) (k2_pay10 (F := Ideal) (aBlk V c t) (dBlk V c t)) (k2_pay11 (F := Ideal) (xBlk V c t)) s.2.2.2.2)

theorem outs_A (c : Dev nD) (t : Fin cfg2.N) (h0 : t.val % 50 = 0) : outsAt2 V c t.val t.isLt = step V c t Z := by
  rw [outsAt2_A V c t h0]
  simp only [out2_A_3, out2_A_4, out2_A_5, out2_A_6, out2_A_7,
    View.read_writes_eq_canon _ _ _ fun y => cover2_A_3 (y := y) ..,
    View.read_writes_eq_canon _ _ _ fun y => cover2_A_4 (y := y) ..,
    View.read_writes_eq_canon _ _ _ fun y => cover2_A_5 (y := y) ..,
    View.read_writes_eq_canon _ _ _ fun y => cover2_A_6 (y := y) ..,
    View.read_writes_eq_canon _ _ _ fun y => cover2_A_7 (y := y) ..]
  unfold kernelRun2_A
  dsimp only
  sl_unfold_words
  simp only [View.canon_cons_unit_zero (S := S1x32) hz2, View.canon_cons_unit_zero (S := S32x32) hz2, View.readCov_unit_zero (S := S1x32) _ hz2, View.readCov_unit_zero (S := S32x32) _ hz2, View.readAt_eq_ld, Memref.IsWhole.read_unread, View.ld_unit_zero (S := S2000x32) hz2, View.ld_unit_zero (S := S2000x1) hz2, View.ld_unit_zero (S := S1x32) hz2, View.ld_unit_zero (S := S32x32) hz2]
theorem outs_B (c : Dev nD) (t : Fin cfg2.N) (h0 : ¬t.val % 50 = 0) :
    outsAt2 V c t.val t.isLt = step V c t (outsAt2 V c (t.val - 1) (Nat.lt_of_le_of_lt (Nat.sub_le _ _) t.isLt)) := by
  rw [outsAt2_B V c t h0]
  simp only [out2_B_3, out2_B_4, out2_B_5, out2_B_6, out2_B_7,
    View.read_writes_eq_canon _ _ _ fun y => cover2_B_3 (y := y) ..,
    View.read_writes_eq_canon _ _ _ fun y => cover2_B_4 (y := y) ..,
    View.read_writes_eq_canon _ _ _ fun y => cover2_B_5 (y := y) ..,
    View.read_writes_eq_canon _ _ _ fun y => cover2_B_6 (y := y) ..,
    View.read_writes_eq_canon _ _ _ fun y => cover2_B_7 (y := y) ..]
  unfold kernelRun2_B
  dsimp only
  sl_unfold_words
  simp only [View.canon_cons_unit_zero (S := S1x32) hz2, View.canon_cons_unit_zero (S := S32x32) hz2, View.readCov_unit_zero (S := S1x32) _ hz2, View.readCov_unit_zero (S := S32x32) _ hz2, View.readAt_eq_ld, Memref.IsWhole.read_unread, View.ld_unit_zero (S := S2000x32) hz2, View.ld_unit_zero (S := S2000x1) hz2, View.ld_unit_zero (S := S1x32) hz2, View.ld_unit_zero (S := S32x32) hz2]

theorem isLast (t : Fin cfg2.N) (h : t.val % 50 = 49) : t.val + 1 = cfg2.N := by
  have h1 := t.isLt
  have h50 : cfg2.N = 50 := N_2
  omega
def tLast : Fin cfg2.N := ⟨49, by have h : cfg2.N = 50 := N_2; omega⟩

-- A quantity read off the running values that is zero on Z and to which every point adds its block's row sum is, after the last point, the sum over all rows.
theorem last (c : Dev nD) {ι : Type} (f : Fin 100000 → ι → EReal) (rd : Outs → ι → EReal) (hz : ∀ i, rd Z i = 0)
    (hP : ∀ n h s i, rd (step V c ⟨n, h⟩ s) i = rd s i + ∑ r : Fin 2000, f (MomAlg.row hN n h r) i)
    (t : Fin cfg2.N) (hf : t.val % 50 = 49) (i : ι) : rd (outsAt2 V c t.val t.isLt) i = ∑ m, f m i :=
  MomAlg.rows_fold hN f rd (outsAt2 V c) (fun n h => step V c ⟨n, h⟩) Z hz hP
    (fun h => outs_A V c ⟨0, h⟩ (Nat.zero_mod 50))
    (fun n h => outs_B V c ⟨n + 1, h⟩ (by have h50 : cfg2.N = 50 := N_2; show ¬(n + 1) % 50 = 0; omega))
    t.val t.isLt (isLast t hf) i

abbrev G3 (c : Dev nD) : FVec Ideal S1x32 .f32 := fun j => Cert.Spec.colSum (aN V c) (j 1)
theorem last_3 (c : Dev nD) (t : Fin cfg2.N) (hf : t.val % 50 = 49) : (outsAt2 V c t.val t.isLt).1 = G3 V c :=
  MomAlg.ext_ix2 fun u k => last V c (fun m (p : Fin 1 × Fin 32) => aN V c m p.2) (fun s p => s.1 (ix2 p.1 p.2))
    (fun _ => Ideal.ofBits_zero_f32)
    (fun n h s p => (pay_sa_apply _ _ s.1 p.1 p.2).trans (congrArg (_ + ·) (Finset.sum_congr rfl fun r _ => aRow V c ⟨n, h⟩ r p.2)))
    t hf (u, k)
theorem off3 (t : Fin cfg2.N) : (fun a => win2_3.index t a * main_v68_0.ty.shape.size a) = fun _ => 0 :=
  funext fun a => mul_eq_zero_of_left (idx_out t a).1 _
theorem mom2_3 (c : Dev nD) :
    Cert.Spec.c2 (a := 1) (b := 32) (α := EReal) ((dat2 V c).arrAt 3 cfg2.N)
      = fun _ k => Cert.Spec.colSum (Cert.Spec.anorm (Cert.Spec.c2 (a := 100000) (b := 32) (α := EReal) (V c main_v67))
          (fun n => Cert.Spec.c2 (a := 100000) (b := 1) (α := EReal) (V c main_v12) n 0)) k := by
  rw [(dat2 V c).arrAt_eq_of_cover 3 (G3 V c) (fun t hf => by
      show (cfg2.win 3).cut (grid2.coords t) ((dat2 V c).after 3 t) = _
      rw [after2_3, last_3 V c t ((flush2_3 t).mp hf)]
      exact (Memref.read_access_unit_zero (Elt Ideal) main_v68_0 (off3 t) _ (G3 V c)).symm)
    fun i => ⟨tLast, (flush2_3 tLast).mpr rfl, (congrArg (i ∈ ·) (View.set_slice_whole main_v68_0 _)).mpr (View.mem_set_unit_zero (off3 tLast) _ i)⟩]
  rfl

abbrev G4 (c : Dev nD) : FVec Ideal S1x32 .f32 := fun j => Cert.Spec.colSum (xN V c) (j 1)
theorem last_4 (c : Dev nD) (t : Fin cfg2.N) (hf : t.val % 50 = 49) : (outsAt2 V c t.val t.isLt).2.1 = G4 V c :=
  MomAlg.ext_ix2 fun u k => last V c (fun m (p : Fin 1 × Fin 32) => xN V c m p.2) (fun s p => s.2.1 (ix2 p.1 p.2))
    (fun _ => Ideal.ofBits_zero_f32)
    (fun n h s p => (pay_sx_apply _ s.2.1 p.1 p.2).trans (congrArg (_ + ·) (Finset.sum_congr rfl fun r _ => xBlk_apply V c ⟨n, h⟩ r p.2)))
    t hf (u, k)
theorem off4 (t : Fin cfg2.N) : (fun a => win2_4.index t a * main_v68_1.ty.shape.size a) = fun _ => 0 :=
  funext fun a => mul_eq_zero_of_left (idx_out t a).2.1 _
theorem mom2_4 (c : Dev nD) :
    Cert.Spec.c2 (a := 1) (b := 32) (α := EReal) ((dat2 V c).arrAt 4 cfg2.N)
      = fun _ k => Cert.Spec.colSum (Cert.Spec.c2 (a := 100000) (b := 32) (α := EReal) (V c main_v56)) k := by
  rw [(dat2 V c).arrAt_eq_of_cover 4 (G4 V c) (fun t hf => by
      show (cfg2.win 4).cut (grid2.coords t) ((dat2 V c).after 4 t) = _
      rw [after2_4, last_4 V c t ((flush2_4 t).mp hf)]
      exact (Memref.read_access_unit_zero (Elt Ideal) main_v68_1 (off4 t) _ (G4 V c)).symm)
    fun i => ⟨tLast, (flush2_4 tLast).mpr rfl, (congrArg (i ∈ ·) (View.set_slice_whole main_v68_1 _)).mpr (View.mem_set_unit_zero (off4 tLast) _ i)⟩]
  rfl

abbrev G5 (c : Dev nD) : FVec Ideal S32x32 .f32 := fun j => Cert.Spec.gram (aN V c) (aN V c) (j 0) (j 1)
theorem last_5 (c : Dev nD) (t : Fin cfg2.N) (hf : t.val % 50 = 49) : (outsAt2 V c t.val t.isLt).2.2.1 = G5 V c :=
  MomAlg.ext_ix2 fun u k => last V c (fun m (p : Fin 32 × Fin 32) => aN V c m p.1 * aN V c m p.2) (fun s p => s.2.2.1 (ix2 p.1 p.2))
    (fun _ => Ideal.ofBits_zero_f32)
    (fun n h s p => (pay_gaa_apply _ _ s.2.2.1 p.1 p.2).trans (congrArg (_ + ·) (Finset.sum_congr rfl fun r _ => congrArg₂ (· * ·) (aRow V c ⟨n, h⟩ r p.1) (aRow V c ⟨n, h⟩ r p.2))))
    t hf (u, k)
theorem off5 (t : Fin cfg2.N) : (fun a => win2_5.index t a * main_v68_2.ty.shape.size a) = fun _ => 0 :=
  funext fun a => mul_eq_zero_of_left (idx_out t a).2.2.1 _
theorem mom2_5 (c : Dev nD) :
    Cert.Spec.c2 (a := 32) (b := 32) (α := EReal) ((dat2 V c).arrAt 5 cfg2.N)
      = Cert.Spec.gram (Cert.Spec.anorm (Cert.Spec.c2 (a := 100000) (b := 32) (α := EReal) (V c main_v67))
          (fun n => Cert.Spec.c2 (a := 100000) (b := 1) (α := EReal) (V c main_v12) n 0))
        (Cert.Spec.anorm (Cert.Spec.c2 (a := 100000) (b := 32) (α := EReal) (V c main_v67))
          (fun n => Cert.Spec.c2 (a := 100000) (b := 1) (α := EReal) (V c main_v12) n 0)) := by
  rw [(dat2 V c).arrAt_eq_of_cover 5 (G5 V c) (fun t hf => by
      show (cfg2.win 5).cut (grid2.coords t) ((dat2 V c).after 5 t) = _
      rw [after2_5, last_5 V c t ((flush2_5 t).mp hf)]
      exact (Memref.read_access_unit_zero (Elt Ideal) main_v68_2 (off5 t) _ (G5 V c)).symm)
    fun i => ⟨tLast, (flush2_5 tLast).mpr rfl, (congrArg (i ∈ ·) (View.set_slice_whole main_v68_2 _)).mpr (View.mem_set_unit_zero (off5 tLast) _ i)⟩]
  rfl

abbrev G6 (c : Dev nD) : FVec Ideal S32x32 .f32 := fun j => Cert.Spec.gram (xN V c) (xN V c) (j 0) (j 1)
theorem last_6 (c : Dev nD) (t : Fin cfg2.N) (hf : t.val % 50 = 49) : (outsAt2 V c t.val t.isLt).2.2.2.1 = G6 V c :=
  MomAlg.ext_ix2 fun u k => last V c (fun m (p : Fin 32 × Fin 32) => xN V c m p.1 * xN V c m p.2) (fun s p => s.2.2.2.1 (ix2 p.1 p.2))
    (fun _ => Ideal.ofBits_zero_f32)
    (fun n h s p => (pay_gxx_apply _ s.2.2.2.1 p.1 p.2).trans (congrArg (_ + ·) (Finset.sum_congr rfl fun r _ => congrArg₂ (· * ·) (xBlk_apply V c ⟨n, h⟩ r p.1) (xBlk_apply V c ⟨n, h⟩ r p.2))))
    t hf (u, k)
theorem off6 (t : Fin cfg2.N) : (fun a => win2_6.index t a * main_v68_3.ty.shape.size a) = fun _ => 0 :=
  funext fun a => mul_eq_zero_of_left (idx_out t a).2.2.2.1 _
theorem mom2_6 (c : Dev nD) :
    Cert.Spec.c2 (a := 32) (b := 32) (α := EReal) ((dat2 V c).arrAt 6 cfg2.N)
      = Cert.Spec.gram (Cert.Spec.c2 (a := 100000) (b := 32) (α := EReal) (V c main_v56))
        (Cert.Spec.c2 (a := 100000) (b := 32) (α := EReal) (V c main_v56)) := by
  rw [(dat2 V c).arrAt_eq_of_cover 6 (G6 V c) (fun t hf => by
      show (cfg2.win 6).cut (grid2.coords t) ((dat2 V c).after 6 t) = _
      rw [after2_6, last_6 V c t ((flush2_6 t).mp hf)]
      exact (Memref.read_access_unit_zero (Elt Ideal) main_v68_3 (off6 t) _ (G6 V c)).symm)
    fun i => ⟨tLast, (flush2_6 tLast).mpr rfl, (congrArg (i ∈ ·) (View.set_slice_whole main_v68_3 _)).mpr (View.mem_set_unit_zero (off6 tLast) _ i)⟩]
  rfl

abbrev G7 (c : Dev nD) : FVec Ideal S32x32 .f32 := fun j => Cert.Spec.gram (aN V c) (xN V c) (j 0) (j 1)
theorem last_7 (c : Dev nD) (t : Fin cfg2.N) (hf : t.val % 50 = 49) : (outsAt2 V c t.val t.isLt).2.2.2.2 = G7 V c :=
  MomAlg.ext_ix2 fun u k => last V c (fun m (p : Fin 32 × Fin 32) => aN V c m p.1 * xN V c m p.2) (fun s p => s.2.2.2.2 (ix2 p.1 p.2))
    (fun _ => Ideal.ofBits_zero_f32)
    (fun n h s p => (pay_gax_apply _ _ _ s.2.2.2.2 p.1 p.2).trans (congrArg (_ + ·) (Finset.sum_congr rfl fun r _ => congrArg₂ (· * ·) (aRow V c ⟨n, h⟩ r p.1) (xBlk_apply V c ⟨n, h⟩ r p.2))))
    t hf (u, k)
theorem off7 (t : Fin cfg2.N) : (fun a => win2_7.index t a * main_v68_4.ty.shape.size a) = fun _ => 0 :=
  funext fun a => mul_eq_zero_of_left (idx_out t a).2.2.2.2 _
theorem mom2_7 (c : Dev nD) :
    Cert.Spec.c2 (a := 32) (b := 32) (α := EReal) ((dat2 V c).arrAt 7 cfg2.N)
      = Cert.Spec.gram (Cert.Spec.anorm (Cert.Spec.c2 (a := 100000) (b := 32) (α := EReal) (V c main_v67))
          (fun n => Cert.Spec.c2 (a := 100000) (b := 1) (α := EReal) (V c main_v12) n 0))
        (Cert.Spec.c2 (a := 100000) (b := 32) (α := EReal) (V c main_v56)) := by
  rw [(dat2 V c).arrAt_eq_of_cover 7 (G7 V c) (fun t hf => by
      show (cfg2.win 7).cut (grid2.coords t) ((dat2 V c).after 7 t) = _
      rw [after2_7, last_7 V c t ((flush2_7 t).mp hf)]
      exact (Memref.read_access_unit_zero (Elt Ideal) main_v68_4 (off7 t) _ (G7 V c)).symm)
    fun i => ⟨tLast, (flush2_7 tLast).mpr rfl, (congrArg (i ∈ ·) (View.set_slice_whole main_v68_4 _)).mpr (View.mem_set_unit_zero (off7 tLast) _ i)⟩]
  rfl

end Value

end Cert.KernelIdeal.Mom2

end
-- ==== Proof.HostAlg3.lean ====
import proofs.«416188_j20263655702631_2_alg».proof.Proof.Gen.KernelIdeal.Launch
import proofs.«416188_j20263655702631_2_alg».proof.Proof.Spec
import proofs.«416188_j20263655702631_2_alg».proof.Proof.HostAlgLib

noncomputable section

namespace Cert.HostAlg3

open Idealize.ShloMosaic Idealize.ShloMosaic.ValueIdx Idealize.ShloMosaic.TcCoe
open Cert.KernelIdeal Cert.KernelIdeal.Gen Cert.Spec Cert.HostAlg

variable (W : Valuation τ sig (Elt Ideal))

/-- This layer's side conditions: inputs of width 32 on either side, 64 outputs. -/
theorem widths : Widths 32 64 :=
  ⟨bcast_S_S1x32, bcast_S_S1x64, bcast_S64_S1x64_1, shapeCasts_S64_S1x64, concatenates_S1x32_S1x32_S1x64_d1,
    concatenates_S32x64_S32x64_S64x64_d0, concatenates_S32x32_S32x32_S32x64_d1, concatenates_S32x64_S32x64_S64x64_d0,
    transposes_S32x32_S32x32_1_0, reducesTo_S64x64_S64_d0⟩

theorem mean_eq (j : Fin 64) :
    c2 (StableHlo.after (hostOps3 (F := Ideal)) W (Proc.devRef .tc main_v79)) 0 j
      = kMu (Ideal.ofBits .f32 0x47C35000#32) (fun k => c2 (W (Proc.devRef .tc main_v68_0)) 0 k)
          (fun k => c2 (W (Proc.devRef .tc main_v68_1)) 0 k) (c2 (W (Proc.devRef .tc main_arg8)))
          (c2 (W (Proc.devRef .tc main_arg10))) (c1 (W (Proc.devRef .tc main_arg9))) j := by
  after_results_simp
  exact mu_apply widths _ _ _ _ _ j

theorem inv_eq (j : Fin 64) :
    c2 (StableHlo.after (hostOps3 (F := Ideal)) W (Proc.devRef .tc main_v97)) 0 j
      = invStd (Ideal.ofBits .f32 0x3727C5AC#32)
          (kVar (Ideal.ofBits .f32 0x47C35000#32) (Ideal.ofBits .f32 0x00000000#32)
            (kDiag (c2 (W (Proc.devRef .tc main_v68_2))) (c2 (W (Proc.devRef .tc main_v68_3)))
              (c2 (W (Proc.devRef .tc main_v68_4))) (c2 (W (Proc.devRef .tc main_arg8))) (c2 (W (Proc.devRef .tc main_arg10))))
            (kMu (Ideal.ofBits .f32 0x47C35000#32) (fun k => c2 (W (Proc.devRef .tc main_v68_0)) 0 k)
              (fun k => c2 (W (Proc.devRef .tc main_v68_1)) 0 k) (c2 (W (Proc.devRef .tc main_arg8)))
              (c2 (W (Proc.devRef .tc main_arg10))) (c1 (W (Proc.devRef .tc main_arg9))))
            (c1 (W (Proc.devRef .tc main_arg9)))) j := by
  after_results_simp
  exact inv_apply widths _ _ _ _ _ _ _ _ j

theorem bias_row (j : Fin 64) :
    c2 (StableHlo.after (hostOps3 (F := Ideal)) W (Proc.devRef .tc main_v98)) 0 j = c1 (W (Proc.devRef .tc main_arg9)) j := by
  after_results
  exact shapeCast_a_1a_apply _ _ 0 j

theorem gamma_row (j : Fin 64) :
    c2 (StableHlo.after (hostOps3 (F := Ideal)) W (Proc.devRef .tc main_v99)) 0 j = c1 (W (Proc.devRef .tc main_arg11)) j := by
  after_results
  exact shapeCast_a_1a_apply _ _ 0 j

theorem beta_row (j : Fin 64) :
    c2 (StableHlo.after (hostOps3 (F := Ideal)) W (Proc.devRef .tc main_v100)) 0 j = c1 (W (Proc.devRef .tc main_arg12)) j := by
  after_results
  exact shapeCast_a_1a_apply _ _ 0 j

end Cert.HostAlg3

end
-- ==== Proof.Fused3.lean ====
import proofs.«416188_j20263655702631_2_alg».proof.Proof.Gen.KernelIdeal.Frame
import proofs.«416188_j20263655702631_2_alg».proof.Proof.FusedLayer

noncomputable section

namespace Cert.KernelIdeal.Fused3

open Idealize.ShloMosaic Idealize.ShloMosaic.TcCoe Idealize.ShloMosaic.ValueIdx
open Cert.KernelIdeal Cert.KernelIdeal.Gen Cert.KernelIdeal.FusedLayer Cert.Spec

-- At the ideal values rounding to a narrower format is the identity, so the body is the layer of its ten blocks.
theorem pay_at (v0 : Vec Ideal S2000x32 .f32) (v2 : Vec Ideal S2000x1 .f32) (v7 : Vec Ideal S2000x32 .bf16)
    (v9 v11 : Vec Ideal S32x64 .f32) (v16 v20 v24 v28 v32 : Vec Ideal S1x64 .f32) (p : Fin 2000) (j : Fin 64) :
    k3_pay1 (F := Ideal) (k3_pay2 v0 v2 v7 v9 v11 v16 v20 v24 v28 v32) (Scalar.ofBits .f32 0x00000000#32) (ix2 p j)
      = layerOut v0 v2 v7 v9 v11 v16 v20 v24 v28 v32 p j := by
  unfold k3_pay1 k3_pay2
  simp only [shapeCast_self]
  simp only [maximumf_apply, truncf_apply, addf_apply, subf_apply, mulf_apply, broadcast_apply, matmul_at dot_S2000x32_S32x64_S2000x64_1_0_0_1_n_n rfl,
    broadcastTo_1b_ab_apply, broadcastTo_a1_ab_apply]
  rfl

variable (V : (c : Dev nD) → (b : Ref sig .tc) → Buf (Elt Ideal) ((c : Thread nD τ).loc b))

-- The block indices, checked at each of the fifty points.
theorem idx : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_10.index t (0 : Fin 2) = t.val ∧ win3_10.index t (1 : Fin 2) = 0)
    ∧ (∀ a, win3_3.index t a = 0) ∧ (∀ a, win3_4.index t a = 0) ∧ (∀ a, win3_5.index t a = 0) ∧ (∀ a, win3_6.index t a = 0) ∧ (∀ a, win3_7.index t a = 0) ∧ (∀ a, win3_8.index t a = 0) ∧ (∀ a, win3_9.index t a = 0) :=
  (by decide +kernel : ∀ t : Fin grid3.N, _)

-- A block is read through its place in the array: row 2000 t + p for the row blocks, the same entry for the small ones.
theorem reads (c : Dev nD) (t : Fin cfg3.N) (p : Fin 2000) (n : Fin 100000) (hn : t.val * 2000 + p.val = n.val) :
    (c2 (iblk3 V c 0 t : Vec Ideal S2000x32 .f32) p = c2 (V c main_v67) n ∧ c2 (iblk3 V c 2 t : Vec Ideal S2000x1 .f32) p = c2 (V c main_v12) n
      ∧ c2 (iblk3 V c 1 t : Vec Ideal S2000x32 .bf16) p = c2 (V c main_v56) n)
    ∧ (iblk3 V c 3 t : Vec Ideal S32x64 .f32) = V c main_arg8
    ∧ (iblk3 V c 4 t : Vec Ideal S32x64 .f32) = V c main_arg10
    ∧ (iblk3 V c 5 t : Vec Ideal S1x64 .f32) = V c main_v98
    ∧ (iblk3 V c 6 t : Vec Ideal S1x64 .f32) = V c main_v79
    ∧ (iblk3 V c 7 t : Vec Ideal S1x64 .f32) = V c main_v97
    ∧ (iblk3 V c 8 t : Vec Ideal S1x64 .f32) = V c main_v99
    ∧ (iblk3 V c 9 t : Vec Ideal S1x64 .f32) = V c main_v100 := by
  obtain ⟨⟨a0, a1⟩, ⟨b0, b1⟩, ⟨c0, c1⟩, -, h3, h4, h5, h6, h7, h8, h9⟩ := idx t
  exact ⟨⟨funext fun k => congrArg (V c main_v67) (emb_rows _ _ a0 a1 p k hn), funext fun k => congrArg (V c main_v12) (emb_rows _ _ c0 c1 p k hn),
      funext fun k => congrArg (V c main_v56) (emb_rows _ _ b0 b1 p k hn)⟩,
    funext fun y => congrArg (V c main_arg8) (emb_whole _ _ h3 y),
    funext fun y => congrArg (V c main_arg10) (emb_whole _ _ h4 y),
    funext fun y => congrArg (V c main_v98) (emb_whole _ _ h5 y),
    funext fun y => congrArg (V c main_v79) (emb_whole _ _ h6 y),
    funext fun y => congrArg (V c main_v97) (emb_whole _ _ h7 y),
    funext fun y => congrArg (V c main_v99) (emb_whole _ _ h8 y),
    funext fun y => congrArg (V c main_v100) (emb_whole _ _ h9 y)⟩

def G (c : Dev nD) : Vec Ideal S100000x64 .bf16 := fun i =>
  layerOut (V c main_v67) (V c main_v12) (V c main_v56) (V c main_arg8) (V c main_arg10) (V c main_v98) (V c main_v79) (V c main_v97) (V c main_v99) (V c main_v100) (i 0) (i 1)

-- By row locality the body's value at (p, j) is the layer's at row 2000 t + p.
theorem flushed_eq (c : Dev nD) (t : Fin cfg3.N) :
    (dat3 V c).flushed 10 t = ((cfg3.win 10).blk t).view.read (Elt Ideal) (G V c) := by
  show (cfg3.win 10).cut (grid3.coords t) ((dat3 V c).after 10 t) = _
  rw [after3_10]
  unfold out3_10
  rw [View.canon_unit_zero zz]
  simp only [View.ld_unit_zero (S := S2000x32) zz, View.ld_unit_zero (S := S2000x1) zz, View.ld_unit_zero (S := S32x64) zz,
    View.ld_unit_zero (S := S1x64) zz]
  funext y
  obtain ⟨p, j, rfl⟩ : ∃ (p : Fin 2000) (j : Fin 64), y = ix2 p j := ⟨y 0, y 1, eq_ix2 y⟩
  obtain ⟨-, -, -, ⟨o0, o1⟩, -⟩ := idx t
  have hN : cfg3.N = 50 := N_3
  obtain ⟨n, hn⟩ : ∃ n : Fin 100000, t.val * 2000 + p.val = n.val :=
    ⟨⟨t.val * 2000 + p.val, by have := t.isLt; have := p.isLt; omega⟩, rfl⟩
  obtain ⟨⟨r0, r2, r1⟩, r3, r4, r5, r6, r7, r8, r9⟩ := reads V c t p n hn
  refine (pay_at _ _ _ _ _ _ _ _ _ _ p j).trans ?_
  rw [r3, r4, r5, r6, r7, r8, r9, View.read_apply,
    show ((cfg3.win 10).blk t).view.emb (ix2 p j) = ix2 n j from emb_rows _ _ o0 o1 p j hn]
  exact layerOut_row _ _ _ _ _ _ _ r0 r2 r1 j

-- Row n lies in the block of point n / 2000.
theorem cover (i : S100000x64.Idx) :
    ∃ t : Fin cfg3.N, (cfg3.win 10).flush t = true ∧ i ∈ ((cfg3.win 10).blk t).view.set := by
  have hi0 : (i 0).val < 100000 := idx2_lt0 i
  have hN : cfg3.N = 50 := N_3
  obtain ⟨t, ht⟩ : ∃ t : Fin cfg3.N, t.val = (i 0).val / 2000 := ⟨⟨(i 0).val / 2000, by rw [hN]; omega⟩, rfl⟩
  obtain ⟨-, -, -, ⟨e0, e1⟩, -⟩ := idx t
  refine ⟨t, flush3_10 t, ?_⟩
  show i ∈ ((View.whole main_v101).slice (win3_10.rect t)).set
  rw [View.set_slice_whole]
  exact mem_rows _ _ i (e0.trans ht) e1 (by decide)

theorem fused3 (c : Dev nD) :
    c2 ((dat3 V c).arrAt 10 cfg3.N)
      = bnRelu (Ideal.ofBits .f32 0x00000000#32)
          (kY (anorm (c2 (V c main_v67)) (fun n => c2 (V c main_v12) n 0)) (c2 (V c main_v56)) (c2 (V c main_arg8))
            (c2 (V c main_arg10)) (fun j => c2 (V c main_v98) 0 j))
          (fun j => c2 (V c main_v79) 0 j) (fun j => c2 (V c main_v97) 0 j) (fun j => c2 (V c main_v99) 0 j)
          (fun j => c2 (V c main_v100) 0 j) := by
  rw [(dat3 V c).arrAt_eq_of_cover 10 (G V c) (fun t _ => flushed_eq V c t) cover]
  rfl

end Cert.KernelIdeal.Fused3

end
-- ==== Proof.AsmK2.lean ====
import proofs.«416188_j20263655702631_2_alg».proof.Proof.Gen.KernelIdeal.Frame
import proofs.«416188_j20263655702631_2_alg».proof.Proof.Spec
import proofs.«416188_j20263655702631_2_alg».proof.Proof.AsmKLib
import proofs.«416188_j20263655702631_2_alg».proof.Proof.Carry
import proofs.«416188_j20263655702631_2_alg».proof.Proof.AggDefs
import proofs.«416188_j20263655702631_2_alg».proof.Proof.AggK
import proofs.«416188_j20263655702631_2_alg».proof.Proof.Mom2
import proofs.«416188_j20263655702631_2_alg».proof.Proof.HostAlg3
import proofs.«416188_j20263655702631_2_alg».proof.Proof.Fused3

set_option maxRecDepth 16384

noncomputable section

namespace Cert.KernelIdeal.Asm

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec

variable (m : (ℓ : Loc nD τ sig) → Buf (Elt Ideal) ℓ) (ρ : Dev nD → PrngReg)

theorem layer2 (c : Dev nD) :
    c2 (W8 m ρ c (Proc.devRef .tc main_v101))
      = kLayer (Ideal.ofBits .f32 0x47C35000#32) (Ideal.ofBits .f32 0x3727C5AC#32) (Ideal.ofBits .f32 0x3F800000#32) (Ideal.ofBits .f32 0x00000000#32)
          (c2 (Agg.agg32 (F := Ideal) (W4 m ρ c (Proc.devRef .tc main_v56)) (m ((c : Thread nD τ).loc main_arg1)))) (c1 (Agg.deg (F := Ideal) (m ((c : Thread nD τ).loc main_arg1)))) (c2 (W4 m ρ c (Proc.devRef .tc main_v56)))
          (c2 (m ((c : Thread nD τ).loc main_arg8))) (c2 (m ((c : Thread nD τ).loc main_arg10))) (c1 (m ((c : Thread nD τ).loc main_arg9))) (c1 (m ((c : Thread nD τ).loc main_arg11))) (c1 (m ((c : Thread nD τ).loc main_arg12))) := by

  have hagg : (W5 m ρ c (Proc.devRef .tc main_v67) : FVec Ideal S100000x32 .f32) = (Agg.agg32 (F := Ideal) (W4 m ρ c (Proc.devRef .tc main_v56)) (m ((c : Thread nD τ).loc main_arg1))) :=
    AggK.after2_v67 (W4 m ρ c) (m ((c : Thread nD τ).loc main_arg1))
        ((Carry.W4_main_v1_from1 m ρ c).trans (AggK.after0_v1 (W0 m ρ c)))
        ((Carry.W4_main_v3_from1 m ρ c).trans (AggK.after0_v3 (W0 m ρ c)))

  have hout : W8 m ρ c (Proc.devRef .tc main_v101) = (dat3 (V7 m ρ) c).arrAt 10 cfg3.N := W8_arr m ρ c 10
  have h3 : W6 m ρ c (Proc.devRef .tc main_v68_0) = (dat2 (V5 m ρ) c).arrAt 3 cfg2.N := W6_arr m ρ c 3
  have h4 : W6 m ρ c (Proc.devRef .tc main_v68_1) = (dat2 (V5 m ρ) c).arrAt 4 cfg2.N := W6_arr m ρ c 4
  have h5 : W6 m ρ c (Proc.devRef .tc main_v68_2) = (dat2 (V5 m ρ) c).arrAt 5 cfg2.N := W6_arr m ρ c 5
  have h6 : W6 m ρ c (Proc.devRef .tc main_v68_3) = (dat2 (V5 m ρ) c).arrAt 6 cfg2.N := W6_arr m ρ c 6
  have h7 : W6 m ρ c (Proc.devRef .tc main_v68_4) = (dat2 (V5 m ρ) c).arrAt 7 cfg2.N := W6_arr m ρ c 7
  refine kLayer_of_pieces
    (A₀ := c2 (V5 m ρ c main_v67)) (D₀ := fun n => c2 (V5 m ρ c main_v12) n 0) (X₀ := c2 (V5 m ρ c main_v56))
    (hout := (congrArg (fun v => c2 v) hout).trans (Fused3.fused3 (V7 m ρ) c))
    (hmu := funext fun j => Cert.HostAlg3.mean_eq (W6 m ρ c) j)
    (hinv := funext fun j => Cert.HostAlg3.inv_eq (W6 m ρ c) j)
    (hsa := ?hsa) (hsx := ?hsx) (hGaa := ?hGaa) (hGxx := ?hGxx) (hGax := ?hGax)
    (hA₁ := ?hA₁) (hD₁ := ?hD₁) (hX₁ := ?hX₁) (hWl₁ := ?hWl₁) (hWr₁ := ?hWr₁)
    (hb₁ := ?hb₁) (hg₁ := ?hg₁) (hbe₁ := ?hbe₁)
    (hWl₂ := ?hWl₂) (hWr₂ := ?hWr₂) (hbl₂ := ?hbl₂)
    (hA₀ := ?hA₀) (hD₀ := ?hD₀) (hX₀ := ?hX₀)
  case hsa => exact funext fun k => (congrArg (fun v => c2 v 0 k) h3).trans (congrFun (congrFun (Mom2.mom2_3 (V5 m ρ) c) 0) k)
  case hsx => exact funext fun k => (congrArg (fun v => c2 v 0 k) h4).trans (congrFun (congrFun (Mom2.mom2_4 (V5 m ρ) c) 0) k)
  case hGaa => exact (congrArg (fun v => c2 v) h5).trans (Mom2.mom2_5 (V5 m ρ) c)
  case hGxx => exact (congrArg (fun v => c2 v) h6).trans (Mom2.mom2_6 (V5 m ρ) c)
  case hGax => exact (congrArg (fun v => c2 v) h7).trans (Mom2.mom2_7 (V5 m ρ) c)
  case hA₁ => exact congrArg (fun v : FVec Ideal S100000x32 .f32 => c2 v) ((Carry.W7_main_v67_from5 m ρ c).trans hagg)
  case hD₁ => exact funext (fun n => (congrArg (fun v : FVec Ideal S100000x1 .f32 => v (ix2 n (0 : Fin 1))) (Carry.W7_main_v12_from1 m ρ c)).trans
        (AggK.after0_v12_apply (W0 m ρ c) n))
  case hX₁ => exact congrArg (fun v : FVec Ideal S100000x32 .bf16 => c2 v) (Carry.W7_main_v56_from4 m ρ c)
  case hWl₁ => exact congrArg (fun v => c2 v) (Carry.W7_main_arg8_from0 m ρ c)
  case hWr₁ => exact congrArg (fun v => c2 v) (Carry.W7_main_arg10_from0 m ρ c)
  case hb₁ => exact funext fun j => (Cert.HostAlg3.bias_row (W6 m ρ c) j).trans (congrArg (fun v => c1 v j) (Carry.W6_main_arg9_from0 m ρ c))
  case hg₁ => exact funext fun j => (Cert.HostAlg3.gamma_row (W6 m ρ c) j).trans (congrArg (fun v => c1 v j) (Carry.W6_main_arg11_from0 m ρ c))
  case hbe₁ => exact funext fun j => (Cert.HostAlg3.beta_row (W6 m ρ c) j).trans (congrArg (fun v => c1 v j) (Carry.W6_main_arg12_from0 m ρ c))
  case hWl₂ => exact congrArg (fun v => c2 v) (Carry.W6_main_arg8_from0 m ρ c)
  case hWr₂ => exact congrArg (fun v => c2 v) (Carry.W6_main_arg10_from0 m ρ c)
  case hbl₂ => exact congrArg (fun v => c1 v) (Carry.W6_main_arg9_from0 m ρ c)
  case hA₀ => exact congrArg (fun v : FVec Ideal S100000x32 .f32 => c2 v) hagg
  case hD₀ => exact funext (fun n => (congrArg (fun v : FVec Ideal S100000x1 .f32 => v (ix2 n (0 : Fin 1))) (Carry.W5_main_v12_from1 m ρ c)).trans
        (AggK.after0_v12_apply (W0 m ρ c) n))
  case hX₀ => exact congrArg (fun v : FVec Ideal S100000x32 .bf16 => c2 v) (Carry.W5_main_v56_from4 m ρ c)

end Cert.KernelIdeal.Asm

end
-- ==== Proof.Mom4Pay.lean ====
import proofs.«416188_j20263655702631_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Mom4

open Idealize.ShloMosaic Idealize.ShloMosaic.ValueIdx
open Cert.KernelIdeal Cert.KernelIdeal.Gen

-- Row r, column k of the scaled block: the raw sum there times row r's reciprocal degree.
theorem scaled_apply (x0 : FVec Ideal S2000x64 .f32) (x2 : FVec Ideal S2000x1 .f32) (r : Fin 2000) (k : Fin 64) :
    k4_pay8 (F := Ideal) x0 x2 (ix2 r k) = x0 (ix2 r k) * x2 (ix2 r (0 : Fin 1)) := by
  unfold k4_pay8
  simp only [shapeCast_self]
  refine (mulf_apply _ _ _).trans (congrArg (x0 (ix2 r k) * ·) ?_)
  refine broadcastTo_apply x2 Gen.broadcasts_S2000x1_S2000x64 (ix2 r k) (ix2 r (0 : Fin 1)) fun ax => ?_
  match ax with
  | ⟨0, _⟩ => rfl
  | ⟨1, _⟩ => rfl

-- The feature block widened to f32 is the feature block.
theorem wide_apply (x1 : FVec Ideal S2000x64 .bf16) (j : S2000x64.Idx) : k4_pay9 (F := Ideal) x1 j = x1 j := by
  unfold k4_pay9
  simp only [shapeCast_self, extf_apply]

-- The old column sums plus the block's: the reduction over the row axis at column k is the sum over the 2000 rows.
theorem colsum_acc (v : FVec Ideal S2000x64 .f32) (acc : FVec Ideal S1x64 .f32) (u : Fin 1) (k : Fin 64) (hφ : FKind.Formats .f32)
    (hacc : (0x00000000#32 : BitVec 32) = FKind.add.neutral .f32 hφ) :
    addf acc (shapeCast S1x64 (multiReduction .add [0] S64 v 0x00000000#32 Gen.reduces_S2000x64_S64 hφ hacc) Gen.shapeCasts_S64_S1x64) (ix2 u k)
      = acc (ix2 u k) + ∑ r : Fin 2000, v (ix2 r k) := by
  refine (addf_apply _ _ _).trans (congrArg (acc (ix2 u k) + ·) ?_)
  refine (shapeCast_a_1a_apply _ Gen.shapeCasts_S64_S1x64 u k).trans ?_
  refine (Ideal.multiReduction_add_single v 0x00000000#32 Gen.reduces_S2000x64_S64 hφ hacc (ix1 k)).trans ?_
  refine Finset.sum_congr rfl fun r _ => congrArg v (funext fun c => Fin.ext ?_)
  match c with
  | ⟨0, _⟩ => rfl
  | ⟨1, _⟩ => rfl

theorem pay_sa_apply (x0 : FVec Ideal S2000x64 .f32) (x2 : FVec Ideal S2000x1 .f32) (acc : FVec Ideal S1x64 .f32)
    (u : Fin 1) (k : Fin 64) :
    k4_pay12 (F := Ideal) x0 x2 acc (ix2 u k)
      = acc (ix2 u k) + ∑ r : Fin 2000, x0 (ix2 r k) * x2 (ix2 r (0 : Fin 1)) := by
  unfold k4_pay12
  simp only [shapeCast_self]
  exact (colsum_acc _ acc u k _ _).trans (congrArg (_ + ·) (Finset.sum_congr rfl fun r _ => scaled_apply x0 x2 r k))

theorem pay_sx_apply (x1 : FVec Ideal S2000x64 .bf16) (acc : FVec Ideal S1x64 .f32) (u : Fin 1) (k : Fin 64) :
    k4_pay13 (F := Ideal) x1 acc (ix2 u k) = acc (ix2 u k) + ∑ r : Fin 2000, x1 (ix2 r k) := by
  unfold k4_pay13
  simp only [shapeCast_self]
  exact (colsum_acc _ acc u k _ _).trans (congrArg (_ + ·) (Finset.sum_congr rfl fun r _ => wide_apply x1 (ix2 r k)))

theorem dot_ax (j : S64x64.Idx) (q : dot_S2000x64_S2000x64_S64x64_0_0_1_1_n_n.contr.Idx) :
    (dot_S2000x64_S2000x64_S64x64_0_0_1_1_n_n.lhsIdx j q 0 : ℕ) = q ⟨0, by decide⟩ ∧ (dot_S2000x64_S2000x64_S64x64_0_0_1_1_n_n.lhsIdx j q 1 : ℕ) = j 0
      ∧ (dot_S2000x64_S2000x64_S64x64_0_0_1_1_n_n.rhsIdx j q 0 : ℕ) = q ⟨0, by decide⟩ ∧ (dot_S2000x64_S2000x64_S64x64_0_0_1_1_n_n.rhsIdx j q 1 : ℕ) = j 1 := by
  refine ⟨?_, ?_, ?_, ?_⟩ <;> simp [DotDims.lhsIdx, DotDims.rhsIdx, dot_S2000x64_S2000x64_S64x64_0_0_1_1_n_n] <;> rfl

-- The old Gram block plus the block's: the product contracted over the row axis at (k, l) is the sum over the 2000 rows.
theorem gram_acc (lhs rhs : FVec Ideal S2000x64 .bf16) (acc : FVec Ideal S64x64 .f32) (k l : Fin 64) :
    addf acc (matmul dot_S2000x64_S2000x64_S64x64_0_0_1_1_n_n none lhs rhs (constant (F := Ideal) S64x64 .f32 0x00000000#32)) (ix2 k l)
      = acc (ix2 k l) + ∑ r : Fin 2000, lhs (ix2 r k) * rhs (ix2 r l) := by
  refine (addf_apply _ _ _).trans (congrArg (acc (ix2 k l) + ·) ?_)
  refine (Ideal.matmul_constant_zero_apply dot_S2000x64_S2000x64_S64x64_0_0_1_1_n_n none lhs rhs (ix2 k l)).trans ?_
  refine (Equiv.sum_comp (contrEquiv1 dot_S2000x64_S2000x64_S64x64_0_0_1_1_n_n 2000 rfl rfl).symm
    (fun q => lhs (dot_S2000x64_S2000x64_S64x64_0_0_1_1_n_n.lhsIdx (ix2 k l) q) * rhs (dot_S2000x64_S2000x64_S64x64_0_0_1_1_n_n.rhsIdx (ix2 k l) q))).symm.trans ?_
  refine Finset.sum_congr rfl fun r _ => congrArg₂ (fun a b => lhs a * rhs b) (funext fun a => Fin.ext ?_) (funext fun a => Fin.ext ?_)
  · match a with
    | ⟨0, _⟩ => exact (dot_ax _ _).1.trans (contrEquiv1_symm_val dot_S2000x64_S2000x64_S64x64_0_0_1_1_n_n 2000 rfl rfl r)
    | ⟨1, _⟩ => exact (dot_ax _ _).2.1
  · match a with
    | ⟨0, _⟩ => exact (dot_ax _ _).2.2.1.trans (contrEquiv1_symm_val dot_S2000x64_S2000x64_S64x64_0_0_1_1_n_n 2000 rfl rfl r)
    | ⟨1, _⟩ => exact (dot_ax _ _).2.2.2

theorem pay_gaa_apply (x0 : FVec Ideal S2000x64 .f32) (x2 : FVec Ideal S2000x1 .f32) (acc : FVec Ideal S64x64 .f32)
    (k l : Fin 64) :
    k4_pay14 (F := Ideal) x0 x2 acc (ix2 k l)
      = acc (ix2 k l) + ∑ r : Fin 2000, (x0 (ix2 r k) * x2 (ix2 r (0 : Fin 1))) * (x0 (ix2 r l) * x2 (ix2 r (0 : Fin 1))) := by
  unfold k4_pay14
  simp only [shapeCast_self]
  exact (gram_acc _ _ acc k l).trans (congrArg (_ + ·) (Finset.sum_congr rfl fun r _ =>
    congrArg₂ (· * ·) (scaled_apply x0 x2 r k) (scaled_apply x0 x2 r l)))

theorem pay_gxx_apply (x1 : FVec Ideal S2000x64 .bf16) (acc : FVec Ideal S64x64 .f32) (k l : Fin 64) :
    k4_pay1 (F := Ideal) (k4_pay11 (F := Ideal) x1) acc (ix2 k l)
      = acc (ix2 k l) + ∑ r : Fin 2000, x1 (ix2 r k) * x1 (ix2 r l) := by
  unfold k4_pay1
  simp only [shapeCast_self]
  exact (gram_acc _ _ acc k l).trans (congrArg (_ + ·) (Finset.sum_congr rfl fun r _ =>
    congrArg₂ (· * ·) (wide_apply x1 (ix2 r k)) (wide_apply x1 (ix2 r l))))

theorem pay_gax_apply (x0 : FVec Ideal S2000x64 .f32) (x1 : FVec Ideal S2000x64 .bf16) (x2 : FVec Ideal S2000x1 .f32)
    (acc : FVec Ideal S64x64 .f32) (k l : Fin 64) :
    k4_pay2 (F := Ideal) (k4_pay10 (F := Ideal) x0 x2) (k4_pay11 (F := Ideal) x1) acc (ix2 k l)
      = acc (ix2 k l) + ∑ r : Fin 2000, (x0 (ix2 r k) * x2 (ix2 r (0 : Fin 1))) * x1 (ix2 r l) := by
  unfold k4_pay2
  simp only [shapeCast_self]
  exact (gram_acc _ _ acc k l).trans (congrArg (_ + ·) (Finset.sum_congr rfl fun r _ =>
    congrArg₂ (· * ·) (scaled_apply x0 x2 r k) (wide_apply x1 (ix2 r l))))

end Cert.KernelIdeal.Mom4

end
-- ==== Proof.Mom4.lean ====
import proofs.«416188_j20263655702631_2_alg».proof.Proof.Gen.KernelIdeal.Frame
import proofs.«416188_j20263655702631_2_alg».proof.Proof.Spec
import proofs.«416188_j20263655702631_2_alg».proof.Proof.MomAlg
import proofs.«416188_j20263655702631_2_alg».proof.Proof.Mom4Pay
import Idealize.ShloMosaic.Lib.Pipeline.Value
import Idealize.ShloMosaic.Lib.Tactic

set_option maxRecDepth 16384

noncomputable section

open scoped BigOperators

namespace Cert.KernelIdeal.Mom4

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen

theorem hz2 : (![0, 0] : Fin 2 → Nat) = fun _ => 0 := funext fun a => by fin_cases a <;> rfl

section Value

variable (V : (c : Dev nD) → (b : Ref sig .tc) → Buf (Elt Ideal) ((c : Thread nD τ).loc b))

abbrev aArr (c : Dev nD) : FVec Ideal S100000x64 .f32 := V c main_v112
abbrev xArr (c : Dev nD) : FVec Ideal S100000x64 .bf16 := V c main_v101
abbrev dArr (c : Dev nD) : FVec Ideal S100000x1 .f32 := V c main_v12
abbrev aBlk (c : Dev nD) (t : Fin cfg4.N) : FVec Ideal S2000x64 .f32 := iblk4 V c 0 t
abbrev xBlk (c : Dev nD) (t : Fin cfg4.N) : FVec Ideal S2000x64 .bf16 := iblk4 V c 1 t
abbrev dBlk (c : Dev nD) (t : Fin cfg4.N) : FVec Ideal S2000x1 .f32 := iblk4 V c 2 t
abbrev aN (c : Dev nD) : Fin 100000 → Fin 64 → EReal :=
  Cert.Spec.anorm (Cert.Spec.c2 (aArr V c)) (fun n => Cert.Spec.c2 (dArr V c) n 0)
abbrev xN (c : Dev nD) : Fin 100000 → Fin 64 → EReal := Cert.Spec.c2 (xArr V c)

theorem hN : (100000 : ℕ) = cfg4.N * 2000 := by have h : cfg4.N = 50 := N_4; omega

theorem idx_in : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)
theorem idx_out : ∀ (t : Fin cfg4.N) (a : Fin 2), win4_3.index t a = 0 ∧ win4_4.index t a = 0 ∧ win4_5.index t a = 0
    ∧ win4_6.index t a = 0 ∧ win4_7.index t a = 0 :=
  (by decide +kernel : ∀ t : Fin grid4.N, _)

-- Row r of point t's block is row 2000 t + r of the array.
theorem aBlk_apply (c : Dev nD) (t : Fin cfg4.N) (r : Fin 2000) (k : Fin 64) :
    aBlk V c t (ix2 r k) = aArr V c (ix2 (MomAlg.row hN t.val t.isLt r) k) := by
  obtain ⟨e0, e1, -⟩ := idx_in t
  refine congrArg (V c main_v112) (funext fun a => Fin.ext ?_)
  match a with
  | ⟨0, _⟩ => show win4_0.index t (0 : Fin 2) * 2000 + 1 * r.val = 2000 * t.val + r.val; rw [e0]; omega
  | ⟨1, _⟩ => show win4_0.index t (1 : Fin 2) * 64 + 1 * k.val = k.val; rw [e1]; omega
theorem xBlk_apply (c : Dev nD) (t : Fin cfg4.N) (r : Fin 2000) (k : Fin 64) :
    xBlk V c t (ix2 r k) = xArr V c (ix2 (MomAlg.row hN t.val t.isLt r) k) := by
  obtain ⟨-, -, e0, e1, -⟩ := idx_in t
  refine congrArg (V c main_v101) (funext fun a => Fin.ext ?_)
  match a with
  | ⟨0, _⟩ => show win4_1.index t (0 : Fin 2) * 2000 + 1 * r.val = 2000 * t.val + r.val; rw [e0]; omega
  | ⟨1, _⟩ => show win4_1.index t (1 : Fin 2) * 64 + 1 * k.val = k.val; rw [e1]; omega
theorem dBlk_apply (c : Dev nD) (t : Fin cfg4.N) (r : Fin 2000) (u : Fin 1) :
    dBlk V c t (ix2 r u) = dArr V c (ix2 (MomAlg.row hN t.val t.isLt r) u) := by
  obtain ⟨-, -, -, -, e0, e1⟩ := idx_in t
  refine congrArg (V c main_v12) (funext fun a => Fin.ext ?_)
  match a with
  | ⟨0, _⟩ => show win4_2.index t (0 : Fin 2) * 2000 + 1 * r.val = 2000 * t.val + r.val; rw [e0]; omega
  | ⟨1, _⟩ => show win4_2.index t (1 : Fin 2) * 1 + 1 * u.val = u.val; rw [e1]; omega
theorem aRow (c : Dev nD) (t : Fin cfg4.N) (r : Fin 2000) (k : Fin 64) :
    aBlk V c t (ix2 r k) * dBlk V c t (ix2 r (0 : Fin 1)) = aN V c (MomAlg.row hN t.val t.isLt r) k :=
  congrArg₂ (· * ·) (aBlk_apply V c t r k) (dBlk_apply V c t r 0)

abbrev Outs : Type := Vec Ideal S1x64 .f32 × Vec Ideal S1x64 .f32 × Vec Ideal S64x64 .f32 × Vec Ideal S64x64 .f32 × Vec Ideal S64x64 .f32
-- The five running values: zero before point 0; point n applies its five payloads to them.
abbrev Z : Outs :=
  (k4_pay3 (F := Ideal), k4_pay4 (F := Ideal), k4_pay5 (F := Ideal), k4_pay6 (F := Ideal), k4_pay7 (F := Ideal))
abbrev step (c : Dev nD) (t : Fin cfg4.N) (s : Outs) : Outs :=
  (k4_pay12 (F := Ideal) (aBlk V c t) (dBlk V c t) s.1, k4_pay13 (F := Ideal) (xBlk V c t) s.2.1,
    k4_pay14 (F := Ideal) (aBlk V c t) (dBlk V c t) s.2.2.1, k4_pay1 (F := Ideal) (k4_pay11 (F := Ideal) (xBlk V c t)) s.2.2.2.1,
    k4_pay2 (F := Ideal) (k4_pay10 (F := Ideal) (aBlk V c t) (dBlk V c t)) (k4_pay11 (F := Ideal) (xBlk V c t)) s.2.2.2.2)

theorem outs_A (c : Dev nD) (t : Fin cfg4.N) (h0 : t.val % 50 = 0) : outsAt4 V c t.val t.isLt = step V c t Z := by
  rw [outsAt4_A V c t h0]
  simp only [out4_A_3, out4_A_4, out4_A_5, out4_A_6, out4_A_7,
    View.read_writes_eq_canon _ _ _ fun y => cover4_A_3 (y := y) ..,
    View.read_writes_eq_canon _ _ _ fun y => cover4_A_4 (y := y) ..,
    View.read_writes_eq_canon _ _ _ fun y => cover4_A_5 (y := y) ..,
    View.read_writes_eq_canon _ _ _ fun y => cover4_A_6 (y := y) ..,
    View.read_writes_eq_canon _ _ _ fun y => cover4_A_7 (y := y) ..]
  unfold kernelRun4_A
  dsimp only
  sl_unfold_words
  simp only [View.canon_cons_unit_zero (S := S1x64) hz2, View.canon_cons_unit_zero (S := S64x64) hz2, View.readCov_unit_zero (S := S1x64) _ hz2, View.readCov_unit_zero (S := S64x64) _ hz2, View.readAt_eq_ld, Memref.IsWhole.read_unread, View.ld_unit_zero (S := S2000x64) hz2, View.ld_unit_zero (S := S2000x1) hz2, View.ld_unit_zero (S := S1x64) hz2, View.ld_unit_zero (S := S64x64) hz2]
theorem outs_B (c : Dev nD) (t : Fin cfg4.N) (h0 : ¬t.val % 50 = 0) :
    outsAt4 V c t.val t.isLt = step V c t (outsAt4 V c (t.val - 1) (Nat.lt_of_le_of_lt (Nat.sub_le _ _) t.isLt)) := by
  rw [outsAt4_B V c t h0]
  simp only [out4_B_3, out4_B_4, out4_B_5, out4_B_6, out4_B_7,
    View.read_writes_eq_canon _ _ _ fun y => cover4_B_3 (y := y) ..,
    View.read_writes_eq_canon _ _ _ fun y => cover4_B_4 (y := y) ..,
    View.read_writes_eq_canon _ _ _ fun y => cover4_B_5 (y := y) ..,
    View.read_writes_eq_canon _ _ _ fun y => cover4_B_6 (y := y) ..,
    View.read_writes_eq_canon _ _ _ fun y => cover4_B_7 (y := y) ..]
  unfold kernelRun4_B
  dsimp only
  sl_unfold_words
  simp only [View.canon_cons_unit_zero (S := S1x64) hz2, View.canon_cons_unit_zero (S := S64x64) hz2, View.readCov_unit_zero (S := S1x64) _ hz2, View.readCov_unit_zero (S := S64x64) _ hz2, View.readAt_eq_ld, Memref.IsWhole.read_unread, View.ld_unit_zero (S := S2000x64) hz2, View.ld_unit_zero (S := S2000x1) hz2, View.ld_unit_zero (S := S1x64) hz2, View.ld_unit_zero (S := S64x64) hz2]

theorem isLast (t : Fin cfg4.N) (h : t.val % 50 = 49) : t.val + 1 = cfg4.N := by
  have h1 := t.isLt
  have h50 : cfg4.N = 50 := N_4
  omega
def tLast : Fin cfg4.N := ⟨49, by have h : cfg4.N = 50 := N_4; omega⟩

-- A quantity read off the running values that is zero on Z and to which every point adds its block's row sum is, after the last point, the sum over all rows.
theorem last (c : Dev nD) {ι : Type} (f : Fin 100000 → ι → EReal) (rd : Outs → ι → EReal) (hz : ∀ i, rd Z i = 0)
    (hP : ∀ n h s i, rd (step V c ⟨n, h⟩ s) i = rd s i + ∑ r : Fin 2000, f (MomAlg.row hN n h r) i)
    (t : Fin cfg4.N) (hf : t.val % 50 = 49) (i : ι) : rd (outsAt4 V c t.val t.isLt) i = ∑ m, f m i :=
  MomAlg.rows_fold hN f rd (outsAt4 V c) (fun n h => step V c ⟨n, h⟩) Z hz hP
    (fun h => outs_A V c ⟨0, h⟩ (Nat.zero_mod 50))
    (fun n h => outs_B V c ⟨n + 1, h⟩ (by have h50 : cfg4.N = 50 := N_4; show ¬(n + 1) % 50 = 0; omega))
    t.val t.isLt (isLast t hf) i

abbrev G3 (c : Dev nD) : FVec Ideal S1x64 .f32 := fun j => Cert.Spec.colSum (aN V c) (j 1)
theorem last_3 (c : Dev nD) (t : Fin cfg4.N) (hf : t.val % 50 = 49) : (outsAt4 V c t.val t.isLt).1 = G3 V c :=
  MomAlg.ext_ix2 fun u k => last V c (fun m (p : Fin 1 × Fin 64) => aN V c m p.2) (fun s p => s.1 (ix2 p.1 p.2))
    (fun _ => Ideal.ofBits_zero_f32)
    (fun n h s p => (pay_sa_apply _ _ s.1 p.1 p.2).trans (congrArg (_ + ·) (Finset.sum_congr rfl fun r _ => aRow V c ⟨n, h⟩ r p.2)))
    t hf (u, k)
theorem off3 (t : Fin cfg4.N) : (fun a => win4_3.index t a * main_v113_0.ty.shape.size a) = fun _ => 0 :=
  funext fun a => mul_eq_zero_of_left (idx_out t a).1 _
theorem mom4_3 (c : Dev nD) :
    Cert.Spec.c2 (a := 1) (b := 64) (α := EReal) ((dat4 V c).arrAt 3 cfg4.N)
      = fun _ k => Cert.Spec.colSum (Cert.Spec.anorm (Cert.Spec.c2 (a := 100000) (b := 64) (α := EReal) (V c main_v112))
          (fun n => Cert.Spec.c2 (a := 100000) (b := 1) (α := EReal) (V c main_v12) n 0)) k := by
  rw [(dat4 V c).arrAt_eq_of_cover 3 (G3 V c) (fun t hf => by
      show (cfg4.win 3).cut (grid4.coords t) ((dat4 V c).after 3 t) = _
      rw [after4_3, last_3 V c t ((flush4_3 t).mp hf)]
      exact (Memref.read_access_unit_zero (Elt Ideal) main_v113_0 (off3 t) _ (G3 V c)).symm)
    fun i => ⟨tLast, (flush4_3 tLast).mpr rfl, (congrArg (i ∈ ·) (View.set_slice_whole main_v113_0 _)).mpr (View.mem_set_unit_zero (off3 tLast) _ i)⟩]
  rfl

abbrev G4 (c : Dev nD) : FVec Ideal S1x64 .f32 := fun j => Cert.Spec.colSum (xN V c) (j 1)
theorem last_4 (c : Dev nD) (t : Fin cfg4.N) (hf : t.val % 50 = 49) : (outsAt4 V c t.val t.isLt).2.1 = G4 V c :=
  MomAlg.ext_ix2 fun u k => last V c (fun m (p : Fin 1 × Fin 64) => xN V c m p.2) (fun s p => s.2.1 (ix2 p.1 p.2))
    (fun _ => Ideal.ofBits_zero_f32)
    (fun n h s p => (pay_sx_apply _ s.2.1 p.1 p.2).trans (congrArg (_ + ·) (Finset.sum_congr rfl fun r _ => xBlk_apply V c ⟨n, h⟩ r p.2)))
    t hf (u, k)
theorem off4 (t : Fin cfg4.N) : (fun a => win4_4.index t a * main_v113_1.ty.shape.size a) = fun _ => 0 :=
  funext fun a => mul_eq_zero_of_left (idx_out t a).2.1 _
theorem mom4_4 (c : Dev nD) :
    Cert.Spec.c2 (a := 1) (b := 64) (α := EReal) ((dat4 V c).arrAt 4 cfg4.N)
      = fun _ k => Cert.Spec.colSum (Cert.Spec.c2 (a := 100000) (b := 64) (α := EReal) (V c main_v101)) k := by
  rw [(dat4 V c).arrAt_eq_of_cover 4 (G4 V c) (fun t hf => by
      show (cfg4.win 4).cut (grid4.coords t) ((dat4 V c).after 4 t) = _
      rw [after4_4, last_4 V c t ((flush4_4 t).mp hf)]
      exact (Memref.read_access_unit_zero (Elt Ideal) main_v113_1 (off4 t) _ (G4 V c)).symm)
    fun i => ⟨tLast, (flush4_4 tLast).mpr rfl, (congrArg (i ∈ ·) (View.set_slice_whole main_v113_1 _)).mpr (View.mem_set_unit_zero (off4 tLast) _ i)⟩]
  rfl

abbrev G5 (c : Dev nD) : FVec Ideal S64x64 .f32 := fun j => Cert.Spec.gram (aN V c) (aN V c) (j 0) (j 1)
theorem last_5 (c : Dev nD) (t : Fin cfg4.N) (hf : t.val % 50 = 49) : (outsAt4 V c t.val t.isLt).2.2.1 = G5 V c :=
  MomAlg.ext_ix2 fun u k => last V c (fun m (p : Fin 64 × Fin 64) => aN V c m p.1 * aN V c m p.2) (fun s p => s.2.2.1 (ix2 p.1 p.2))
    (fun _ => Ideal.ofBits_zero_f32)
    (fun n h s p => (pay_gaa_apply _ _ s.2.2.1 p.1 p.2).trans (congrArg (_ + ·) (Finset.sum_congr rfl fun r _ => congrArg₂ (· * ·) (aRow V c ⟨n, h⟩ r p.1) (aRow V c ⟨n, h⟩ r p.2))))
    t hf (u, k)
theorem off5 (t : Fin cfg4.N) : (fun a => win4_5.index t a * main_v113_2.ty.shape.size a) = fun _ => 0 :=
  funext fun a => mul_eq_zero_of_left (idx_out t a).2.2.1 _
theorem mom4_5 (c : Dev nD) :
    Cert.Spec.c2 (a := 64) (b := 64) (α := EReal) ((dat4 V c).arrAt 5 cfg4.N)
      = Cert.Spec.gram (Cert.Spec.anorm (Cert.Spec.c2 (a := 100000) (b := 64) (α := EReal) (V c main_v112))
          (fun n => Cert.Spec.c2 (a := 100000) (b := 1) (α := EReal) (V c main_v12) n 0))
        (Cert.Spec.anorm (Cert.Spec.c2 (a := 100000) (b := 64) (α := EReal) (V c main_v112))
          (fun n => Cert.Spec.c2 (a := 100000) (b := 1) (α := EReal) (V c main_v12) n 0)) := by
  rw [(dat4 V c).arrAt_eq_of_cover 5 (G5 V c) (fun t hf => by
      show (cfg4.win 5).cut (grid4.coords t) ((dat4 V c).after 5 t) = _
      rw [after4_5, last_5 V c t ((flush4_5 t).mp hf)]
      exact (Memref.read_access_unit_zero (Elt Ideal) main_v113_2 (off5 t) _ (G5 V c)).symm)
    fun i => ⟨tLast, (flush4_5 tLast).mpr rfl, (congrArg (i ∈ ·) (View.set_slice_whole main_v113_2 _)).mpr (View.mem_set_unit_zero (off5 tLast) _ i)⟩]
  rfl

abbrev G6 (c : Dev nD) : FVec Ideal S64x64 .f32 := fun j => Cert.Spec.gram (xN V c) (xN V c) (j 0) (j 1)
theorem last_6 (c : Dev nD) (t : Fin cfg4.N) (hf : t.val % 50 = 49) : (outsAt4 V c t.val t.isLt).2.2.2.1 = G6 V c :=
  MomAlg.ext_ix2 fun u k => last V c (fun m (p : Fin 64 × Fin 64) => xN V c m p.1 * xN V c m p.2) (fun s p => s.2.2.2.1 (ix2 p.1 p.2))
    (fun _ => Ideal.ofBits_zero_f32)
    (fun n h s p => (pay_gxx_apply _ s.2.2.2.1 p.1 p.2).trans (congrArg (_ + ·) (Finset.sum_congr rfl fun r _ => congrArg₂ (· * ·) (xBlk_apply V c ⟨n, h⟩ r p.1) (xBlk_apply V c ⟨n, h⟩ r p.2))))
    t hf (u, k)
theorem off6 (t : Fin cfg4.N) : (fun a => win4_6.index t a * main_v113_3.ty.shape.size a) = fun _ => 0 :=
  funext fun a => mul_eq_zero_of_left (idx_out t a).2.2.2.1 _
theorem mom4_6 (c : Dev nD) :
    Cert.Spec.c2 (a := 64) (b := 64) (α := EReal) ((dat4 V c).arrAt 6 cfg4.N)
      = Cert.Spec.gram (Cert.Spec.c2 (a := 100000) (b := 64) (α := EReal) (V c main_v101))
        (Cert.Spec.c2 (a := 100000) (b := 64) (α := EReal) (V c main_v101)) := by
  rw [(dat4 V c).arrAt_eq_of_cover 6 (G6 V c) (fun t hf => by
      show (cfg4.win 6).cut (grid4.coords t) ((dat4 V c).after 6 t) = _
      rw [after4_6, last_6 V c t ((flush4_6 t).mp hf)]
      exact (Memref.read_access_unit_zero (Elt Ideal) main_v113_3 (off6 t) _ (G6 V c)).symm)
    fun i => ⟨tLast, (flush4_6 tLast).mpr rfl, (congrArg (i ∈ ·) (View.set_slice_whole main_v113_3 _)).mpr (View.mem_set_unit_zero (off6 tLast) _ i)⟩]
  rfl

abbrev G7 (c : Dev nD) : FVec Ideal S64x64 .f32 := fun j => Cert.Spec.gram (aN V c) (xN V c) (j 0) (j 1)
theorem last_7 (c : Dev nD) (t : Fin cfg4.N) (hf : t.val % 50 = 49) : (outsAt4 V c t.val t.isLt).2.2.2.2 = G7 V c :=
  MomAlg.ext_ix2 fun u k => last V c (fun m (p : Fin 64 × Fin 64) => aN V c m p.1 * xN V c m p.2) (fun s p => s.2.2.2.2 (ix2 p.1 p.2))
    (fun _ => Ideal.ofBits_zero_f32)
    (fun n h s p => (pay_gax_apply _ _ _ s.2.2.2.2 p.1 p.2).trans (congrArg (_ + ·) (Finset.sum_congr rfl fun r _ => congrArg₂ (· * ·) (aRow V c ⟨n, h⟩ r p.1) (xBlk_apply V c ⟨n, h⟩ r p.2))))
    t hf (u, k)
theorem off7 (t : Fin cfg4.N) : (fun a => win4_7.index t a * main_v113_4.ty.shape.size a) = fun _ => 0 :=
  funext fun a => mul_eq_zero_of_left (idx_out t a).2.2.2.2 _
theorem mom4_7 (c : Dev nD) :
    Cert.Spec.c2 (a := 64) (b := 64) (α := EReal) ((dat4 V c).arrAt 7 cfg4.N)
      = Cert.Spec.gram (Cert.Spec.anorm (Cert.Spec.c2 (a := 100000) (b := 64) (α := EReal) (V c main_v112))
          (fun n => Cert.Spec.c2 (a := 100000) (b := 1) (α := EReal) (V c main_v12) n 0))
        (Cert.Spec.c2 (a := 100000) (b := 64) (α := EReal) (V c main_v101)) := by
  rw [(dat4 V c).arrAt_eq_of_cover 7 (G7 V c) (fun t hf => by
      show (cfg4.win 7).cut (grid4.coords t) ((dat4 V c).after 7 t) = _
      rw [after4_7, last_7 V c t ((flush4_7 t).mp hf)]
      exact (Memref.read_access_unit_zero (Elt Ideal) main_v113_4 (off7 t) _ (G7 V c)).symm)
    fun i => ⟨tLast, (flush4_7 tLast).mpr rfl, (congrArg (i ∈ ·) (View.set_slice_whole main_v113_4 _)).mpr (View.mem_set_unit_zero (off7 tLast) _ i)⟩]
  rfl

end Value

end Cert.KernelIdeal.Mom4

end
-- ==== Proof.HostAlg5.lean ====
import proofs.«416188_j20263655702631_2_alg».proof.Proof.Gen.KernelIdeal.Launch
import proofs.«416188_j20263655702631_2_alg».proof.Proof.Spec
import proofs.«416188_j20263655702631_2_alg».proof.Proof.HostAlgLib

noncomputable section

namespace Cert.HostAlg5

open Idealize.ShloMosaic Idealize.ShloMosaic.ValueIdx Idealize.ShloMosaic.TcCoe
open Cert.KernelIdeal Cert.KernelIdeal.Gen Cert.Spec Cert.HostAlg

variable (W : Valuation τ sig (Elt Ideal))

/-- This layer's side conditions: inputs of width 64 on either side, 128 outputs. -/
theorem widths : Widths 64 128 :=
  ⟨bcast_S_S1x64, bcast_S_S1x128, bcast_S128_S1x128_1, shapeCasts_S128_S1x128, concatenates_S1x64_S1x64_S1x128_d1,
    concatenates_S64x128_S64x128_S128x128_d0, concatenates_S64x64_S64x64_S64x128_d1, concatenates_S64x128_S64x128_S128x128_d0,
    transposes_S64x64_S64x64_1_0, reducesTo_S128x128_S128_d0⟩

theorem mean_eq (j : Fin 128) :
    c2 (StableHlo.after (hostOps5 (F := Ideal)) W (Proc.devRef .tc main_v124)) 0 j
      = kMu (Ideal.ofBits .f32 0x47C35000#32) (fun k => c2 (W (Proc.devRef .tc main_v113_0)) 0 k)
          (fun k => c2 (W (Proc.devRef .tc main_v113_1)) 0 k) (c2 (W (Proc.devRef .tc main_arg13)))
          (c2 (W (Proc.devRef .tc main_arg15))) (c1 (W (Proc.devRef .tc main_arg14))) j := by
  after_results_simp
  exact mu_apply widths _ _ _ _ _ j

theorem inv_eq (j : Fin 128) :
    c2 (StableHlo.after (hostOps5 (F := Ideal)) W (Proc.devRef .tc main_v142)) 0 j
      = invStd (Ideal.ofBits .f32 0x3727C5AC#32)
          (kVar (Ideal.ofBits .f32 0x47C35000#32) (Ideal.ofBits .f32 0x00000000#32)
            (kDiag (c2 (W (Proc.devRef .tc main_v113_2))) (c2 (W (Proc.devRef .tc main_v113_3)))
              (c2 (W (Proc.devRef .tc main_v113_4))) (c2 (W (Proc.devRef .tc main_arg13))) (c2 (W (Proc.devRef .tc main_arg15))))
            (kMu (Ideal.ofBits .f32 0x47C35000#32) (fun k => c2 (W (Proc.devRef .tc main_v113_0)) 0 k)
              (fun k => c2 (W (Proc.devRef .tc main_v113_1)) 0 k) (c2 (W (Proc.devRef .tc main_arg13)))
              (c2 (W (Proc.devRef .tc main_arg15))) (c1 (W (Proc.devRef .tc main_arg14))))
            (c1 (W (Proc.devRef .tc main_arg14)))) j := by
  after_results_simp
  exact inv_apply widths _ _ _ _ _ _ _ _ j

theorem bias_row (j : Fin 128) :
    c2 (StableHlo.after (hostOps5 (F := Ideal)) W (Proc.devRef .tc main_v143)) 0 j = c1 (W (Proc.devRef .tc main_arg14)) j := by
  after_results
  exact shapeCast_a_1a_apply _ _ 0 j

theorem gamma_row (j : Fin 128) :
    c2 (StableHlo.after (hostOps5 (F := Ideal)) W (Proc.devRef .tc main_v144)) 0 j = c1 (W (Proc.devRef .tc main_arg16)) j := by
  after_results
  exact shapeCast_a_1a_apply _ _ 0 j

theorem beta_row (j : Fin 128) :
    c2 (StableHlo.after (hostOps5 (F := Ideal)) W (Proc.devRef .tc main_v145)) 0 j = c1 (W (Proc.devRef .tc main_arg17)) j := by
  after_results
  exact shapeCast_a_1a_apply _ _ 0 j

end Cert.HostAlg5

end
-- ==== Proof.Fused5.lean ====
import proofs.«416188_j20263655702631_2_alg».proof.Proof.Gen.KernelIdeal.Frame
import proofs.«416188_j20263655702631_2_alg».proof.Proof.FusedLayer

noncomputable section

namespace Cert.KernelIdeal.Fused5

open Idealize.ShloMosaic Idealize.ShloMosaic.TcCoe Idealize.ShloMosaic.ValueIdx
open Cert.KernelIdeal Cert.KernelIdeal.Gen Cert.KernelIdeal.FusedLayer Cert.Spec

-- At the ideal values rounding to a narrower format is the identity, so the body is the layer of its ten blocks.
theorem pay_at (v0 : Vec Ideal S2000x64 .f32) (v2 : Vec Ideal S2000x1 .f32) (v7 : Vec Ideal S2000x64 .bf16)
    (v9 v11 : Vec Ideal S64x128 .f32) (v16 v20 v24 v28 v32 : Vec Ideal S1x128 .f32) (p : Fin 2000) (j : Fin 128) :
    k5_pay1 (F := Ideal) (k5_pay2 v0 v2 v7 v9 v11 v16 v20 v24 v28 v32) (Scalar.ofBits .f32 0x00000000#32) (ix2 p j)
      = layerOut v0 v2 v7 v9 v11 v16 v20 v24 v28 v32 p j := by
  unfold k5_pay1 k5_pay2
  simp only [shapeCast_self]
  simp only [maximumf_apply, truncf_apply, addf_apply, subf_apply, mulf_apply, broadcast_apply, matmul_at dot_S2000x64_S64x128_S2000x128_1_0_0_1_n_n rfl,
    broadcastTo_1b_ab_apply, broadcastTo_a1_ab_apply]
  rfl

variable (V : (c : Dev nD) → (b : Ref sig .tc) → Buf (Elt Ideal) ((c : Thread nD τ).loc b))

-- The block indices, checked at each of the fifty points.
theorem idx : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_10.index t (0 : Fin 2) = t.val ∧ win5_10.index t (1 : Fin 2) = 0)
    ∧ (∀ a, win5_3.index t a = 0) ∧ (∀ a, win5_4.index t a = 0) ∧ (∀ a, win5_5.index t a = 0) ∧ (∀ a, win5_6.index t a = 0) ∧ (∀ a, win5_7.index t a = 0) ∧ (∀ a, win5_8.index t a = 0) ∧ (∀ a, win5_9.index t a = 0) :=
  (by decide +kernel : ∀ t : Fin grid5.N, _)

-- A block is read through its place in the array: row 2000 t + p for the row blocks, the same entry for the small ones.
theorem reads (c : Dev nD) (t : Fin cfg5.N) (p : Fin 2000) (n : Fin 100000) (hn : t.val * 2000 + p.val = n.val) :
    (c2 (iblk5 V c 0 t : Vec Ideal S2000x64 .f32) p = c2 (V c main_v112) n ∧ c2 (iblk5 V c 2 t : Vec Ideal S2000x1 .f32) p = c2 (V c main_v12) n
      ∧ c2 (iblk5 V c 1 t : Vec Ideal S2000x64 .bf16) p = c2 (V c main_v101) n)
    ∧ (iblk5 V c 3 t : Vec Ideal S64x128 .f32) = V c main_arg13
    ∧ (iblk5 V c 4 t : Vec Ideal S64x128 .f32) = V c main_arg15
    ∧ (iblk5 V c 5 t : Vec Ideal S1x128 .f32) = V c main_v143
    ∧ (iblk5 V c 6 t : Vec Ideal S1x128 .f32) = V c main_v124
    ∧ (iblk5 V c 7 t : Vec Ideal S1x128 .f32) = V c main_v142
    ∧ (iblk5 V c 8 t : Vec Ideal S1x128 .f32) = V c main_v144
    ∧ (iblk5 V c 9 t : Vec Ideal S1x128 .f32) = V c main_v145 := by
  obtain ⟨⟨a0, a1⟩, ⟨b0, b1⟩, ⟨c0, c1⟩, -, h3, h4, h5, h6, h7, h8, h9⟩ := idx t
  exact ⟨⟨funext fun k => congrArg (V c main_v112) (emb_rows _ _ a0 a1 p k hn), funext fun k => congrArg (V c main_v12) (emb_rows _ _ c0 c1 p k hn),
      funext fun k => congrArg (V c main_v101) (emb_rows _ _ b0 b1 p k hn)⟩,
    funext fun y => congrArg (V c main_arg13) (emb_whole _ _ h3 y),
    funext fun y => congrArg (V c main_arg15) (emb_whole _ _ h4 y),
    funext fun y => congrArg (V c main_v143) (emb_whole _ _ h5 y),
    funext fun y => congrArg (V c main_v124) (emb_whole _ _ h6 y),
    funext fun y => congrArg (V c main_v142) (emb_whole _ _ h7 y),
    funext fun y => congrArg (V c main_v144) (emb_whole _ _ h8 y),
    funext fun y => congrArg (V c main_v145) (emb_whole _ _ h9 y)⟩

def G (c : Dev nD) : Vec Ideal S100000x128 .bf16 := fun i =>
  layerOut (V c main_v112) (V c main_v12) (V c main_v101) (V c main_arg13) (V c main_arg15) (V c main_v143) (V c main_v124) (V c main_v142) (V c main_v144) (V c main_v145) (i 0) (i 1)

-- By row locality the body's value at (p, j) is the layer's at row 2000 t + p.
theorem flushed_eq (c : Dev nD) (t : Fin cfg5.N) :
    (dat5 V c).flushed 10 t = ((cfg5.win 10).blk t).view.read (Elt Ideal) (G V c) := by
  show (cfg5.win 10).cut (grid5.coords t) ((dat5 V c).after 10 t) = _
  rw [after5_10]
  unfold out5_10
  rw [View.canon_unit_zero zz]
  simp only [View.ld_unit_zero (S := S2000x64) zz, View.ld_unit_zero (S := S2000x1) zz, View.ld_unit_zero (S := S64x128) zz,
    View.ld_unit_zero (S := S1x128) zz]
  funext y
  obtain ⟨p, j, rfl⟩ : ∃ (p : Fin 2000) (j : Fin 128), y = ix2 p j := ⟨y 0, y 1, eq_ix2 y⟩
  obtain ⟨-, -, -, ⟨o0, o1⟩, -⟩ := idx t
  have hN : cfg5.N = 50 := N_5
  obtain ⟨n, hn⟩ : ∃ n : Fin 100000, t.val * 2000 + p.val = n.val :=
    ⟨⟨t.val * 2000 + p.val, by have := t.isLt; have := p.isLt; omega⟩, rfl⟩
  obtain ⟨⟨r0, r2, r1⟩, r3, r4, r5, r6, r7, r8, r9⟩ := reads V c t p n hn
  refine (pay_at _ _ _ _ _ _ _ _ _ _ p j).trans ?_
  rw [r3, r4, r5, r6, r7, r8, r9, View.read_apply,
    show ((cfg5.win 10).blk t).view.emb (ix2 p j) = ix2 n j from emb_rows _ _ o0 o1 p j hn]
  exact layerOut_row _ _ _ _ _ _ _ r0 r2 r1 j

-- Row n lies in the block of point n / 2000.
theorem cover (i : S100000x128.Idx) :
    ∃ t : Fin cfg5.N, (cfg5.win 10).flush t = true ∧ i ∈ ((cfg5.win 10).blk t).view.set := by
  have hi0 : (i 0).val < 100000 := idx2_lt0 i
  have hN : cfg5.N = 50 := N_5
  obtain ⟨t, ht⟩ : ∃ t : Fin cfg5.N, t.val = (i 0).val / 2000 := ⟨⟨(i 0).val / 2000, by rw [hN]; omega⟩, rfl⟩
  obtain ⟨-, -, -, ⟨e0, e1⟩, -⟩ := idx t
  refine ⟨t, flush5_10 t, ?_⟩
  show i ∈ ((View.whole main_v146).slice (win5_10.rect t)).set
  rw [View.set_slice_whole]
  exact mem_rows _ _ i (e0.trans ht) e1 (by decide)

theorem fused5 (c : Dev nD) :
    c2 ((dat5 V c).arrAt 10 cfg5.N)
      = bnRelu (Ideal.ofBits .f32 0x00000000#32)
          (kY (anorm (c2 (V c main_v112)) (fun n => c2 (V c main_v12) n 0)) (c2 (V c main_v101)) (c2 (V c main_arg13))
            (c2 (V c main_arg15)) (fun j => c2 (V c main_v143) 0 j))
          (fun j => c2 (V c main_v124) 0 j) (fun j => c2 (V c main_v142) 0 j) (fun j => c2 (V c main_v144) 0 j)
          (fun j => c2 (V c main_v145) 0 j) := by
  rw [(dat5 V c).arrAt_eq_of_cover 10 (G V c) (fun t _ => flushed_eq V c t) cover]
  rfl

end Cert.KernelIdeal.Fused5

end
-- ==== Proof.AsmK3.lean ====
import proofs.«416188_j20263655702631_2_alg».proof.Proof.Gen.KernelIdeal.Frame
import proofs.«416188_j20263655702631_2_alg».proof.Proof.Spec
import proofs.«416188_j20263655702631_2_alg».proof.Proof.AsmKLib
import proofs.«416188_j20263655702631_2_alg».proof.Proof.Carry
import proofs.«416188_j20263655702631_2_alg».proof.Proof.AggDefs
import proofs.«416188_j20263655702631_2_alg».proof.Proof.AggK
import proofs.«416188_j20263655702631_2_alg».proof.Proof.Mom4
import proofs.«416188_j20263655702631_2_alg».proof.Proof.HostAlg5
import proofs.«416188_j20263655702631_2_alg».proof.Proof.Fused5

set_option maxRecDepth 16384

noncomputable section

namespace Cert.KernelIdeal.Asm

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec

variable (m : (ℓ : Loc nD τ sig) → Buf (Elt Ideal) ℓ) (ρ : Dev nD → PrngReg)

theorem layer3 (c : Dev nD) :
    c2 (W12 m ρ c (Proc.devRef .tc main_v146))
      = kLayer (Ideal.ofBits .f32 0x47C35000#32) (Ideal.ofBits .f32 0x3727C5AC#32) (Ideal.ofBits .f32 0x3F800000#32) (Ideal.ofBits .f32 0x00000000#32)
          (c2 (Agg.agg64 (F := Ideal) (W8 m ρ c (Proc.devRef .tc main_v101)) (m ((c : Thread nD τ).loc main_arg1)))) (c1 (Agg.deg (F := Ideal) (m ((c : Thread nD τ).loc main_arg1)))) (c2 (W8 m ρ c (Proc.devRef .tc main_v101)))
          (c2 (m ((c : Thread nD τ).loc main_arg13))) (c2 (m ((c : Thread nD τ).loc main_arg15))) (c1 (m ((c : Thread nD τ).loc main_arg14))) (c1 (m ((c : Thread nD τ).loc main_arg16))) (c1 (m ((c : Thread nD τ).loc main_arg17))) := by

  have hagg : (W9 m ρ c (Proc.devRef .tc main_v112) : FVec Ideal S100000x64 .f32) = (Agg.agg64 (F := Ideal) (W8 m ρ c (Proc.devRef .tc main_v101)) (m ((c : Thread nD τ).loc main_arg1))) :=
    AggK.after4_v112 (W8 m ρ c) (m ((c : Thread nD τ).loc main_arg1))
        ((Carry.W8_main_v1_from1 m ρ c).trans (AggK.after0_v1 (W0 m ρ c)))
        ((Carry.W8_main_v3_from1 m ρ c).trans (AggK.after0_v3 (W0 m ρ c)))

  have hout : W12 m ρ c (Proc.devRef .tc main_v146) = (dat5 (V11 m ρ) c).arrAt 10 cfg5.N := W12_arr m ρ c 10
  have h3 : W10 m ρ c (Proc.devRef .tc main_v113_0) = (dat4 (V9 m ρ) c).arrAt 3 cfg4.N := W10_arr m ρ c 3
  have h4 : W10 m ρ c (Proc.devRef .tc main_v113_1) = (dat4 (V9 m ρ) c).arrAt 4 cfg4.N := W10_arr m ρ c 4
  have h5 : W10 m ρ c (Proc.devRef .tc main_v113_2) = (dat4 (V9 m ρ) c).arrAt 5 cfg4.N := W10_arr m ρ c 5
  have h6 : W10 m ρ c (Proc.devRef .tc main_v113_3) = (dat4 (V9 m ρ) c).arrAt 6 cfg4.N := W10_arr m ρ c 6
  have h7 : W10 m ρ c (Proc.devRef .tc main_v113_4) = (dat4 (V9 m ρ) c).arrAt 7 cfg4.N := W10_arr m ρ c 7
  refine kLayer_of_pieces
    (A₀ := c2 (V9 m ρ c main_v112)) (D₀ := fun n => c2 (V9 m ρ c main_v12) n 0) (X₀ := c2 (V9 m ρ c main_v101))
    (hout := (congrArg (fun v => c2 v) hout).trans (Fused5.fused5 (V11 m ρ) c))
    (hmu := funext fun j => Cert.HostAlg5.mean_eq (W10 m ρ c) j)
    (hinv := funext fun j => Cert.HostAlg5.inv_eq (W10 m ρ c) j)
    (hsa := ?hsa) (hsx := ?hsx) (hGaa := ?hGaa) (hGxx := ?hGxx) (hGax := ?hGax)
    (hA₁ := ?hA₁) (hD₁ := ?hD₁) (hX₁ := ?hX₁) (hWl₁ := ?hWl₁) (hWr₁ := ?hWr₁)
    (hb₁ := ?hb₁) (hg₁ := ?hg₁) (hbe₁ := ?hbe₁)
    (hWl₂ := ?hWl₂) (hWr₂ := ?hWr₂) (hbl₂ := ?hbl₂)
    (hA₀ := ?hA₀) (hD₀ := ?hD₀) (hX₀ := ?hX₀)
  case hsa => exact funext fun k => (congrArg (fun v => c2 v 0 k) h3).trans (congrFun (congrFun (Mom4.mom4_3 (V9 m ρ) c) 0) k)
  case hsx => exact funext fun k => (congrArg (fun v => c2 v 0 k) h4).trans (congrFun (congrFun (Mom4.mom4_4 (V9 m ρ) c) 0) k)
  case hGaa => exact (congrArg (fun v => c2 v) h5).trans (Mom4.mom4_5 (V9 m ρ) c)
  case hGxx => exact (congrArg (fun v => c2 v) h6).trans (Mom4.mom4_6 (V9 m ρ) c)
  case hGax => exact (congrArg (fun v => c2 v) h7).trans (Mom4.mom4_7 (V9 m ρ) c)
  case hA₁ => exact congrArg (fun v : FVec Ideal S100000x64 .f32 => c2 v) ((Carry.W11_main_v112_from9 m ρ c).trans hagg)
  case hD₁ => exact funext (fun n => (congrArg (fun v : FVec Ideal S100000x1 .f32 => v (ix2 n (0 : Fin 1))) (Carry.W11_main_v12_from1 m ρ c)).trans
        (AggK.after0_v12_apply (W0 m ρ c) n))
  case hX₁ => exact congrArg (fun v : FVec Ideal S100000x64 .bf16 => c2 v) (Carry.W11_main_v101_from8 m ρ c)
  case hWl₁ => exact congrArg (fun v => c2 v) (Carry.W11_main_arg13_from0 m ρ c)
  case hWr₁ => exact congrArg (fun v => c2 v) (Carry.W11_main_arg15_from0 m ρ c)
  case hb₁ => exact funext fun j => (Cert.HostAlg5.bias_row (W10 m ρ c) j).trans (congrArg (fun v => c1 v j) (Carry.W10_main_arg14_from0 m ρ c))
  case hg₁ => exact funext fun j => (Cert.HostAlg5.gamma_row (W10 m ρ c) j).trans (congrArg (fun v => c1 v j) (Carry.W10_main_arg16_from0 m ρ c))
  case hbe₁ => exact funext fun j => (Cert.HostAlg5.beta_row (W10 m ρ c) j).trans (congrArg (fun v => c1 v j) (Carry.W10_main_arg17_from0 m ρ c))
  case hWl₂ => exact congrArg (fun v => c2 v) (Carry.W10_main_arg13_from0 m ρ c)
  case hWr₂ => exact congrArg (fun v => c2 v) (Carry.W10_main_arg15_from0 m ρ c)
  case hbl₂ => exact congrArg (fun v => c1 v) (Carry.W10_main_arg14_from0 m ρ c)
  case hA₀ => exact congrArg (fun v : FVec Ideal S100000x64 .f32 => c2 v) hagg
  case hD₀ => exact funext (fun n => (congrArg (fun v : FVec Ideal S100000x1 .f32 => v (ix2 n (0 : Fin 1))) (Carry.W9_main_v12_from1 m ρ c)).trans
        (AggK.after0_v12_apply (W0 m ρ c) n))
  case hX₀ => exact congrArg (fun v : FVec Ideal S100000x64 .bf16 => c2 v) (Carry.W9_main_v101_from8 m ρ c)

end Cert.KernelIdeal.Asm

end
-- ==== Proof.HostTail.lean ====
import proofs.«416188_j20263655702631_2_alg».proof.Proof.Gen.KernelIdeal.Launch
import proofs.«416188_j20263655702631_2_alg».proof.Proof.Spec
import proofs.«416188_j20263655702631_2_alg».proof.Proof.HostAlgLib

noncomputable section

namespace Cert.HostTail

open Idealize.ShloMosaic Idealize.ShloMosaic.ValueIdx Idealize.ShloMosaic.TcCoe
open Cert.KernelIdeal Cert.KernelIdeal.Gen Cert.Spec Cert.HostAlg

variable (W : Valuation τ sig (Elt Ideal))

theorem batch_col (n : Fin 100000) :
    (StableHlo.after (hostOps6 (F := Ideal)) W (Proc.devRef .tc main_v147) : S100000x1.Idx → BitVec 32) (ix2 n 0)
      = (W (Proc.devRef .tc main_arg2) : S100000.Idx → BitVec 32) (ix1 n) := by
  after_results
  exact shapeCast_a_a1_apply _ _ n 0

/-- Entry by entry: a graph's sum over that graph's node count, the count taken as at least one. -/
theorem pool_eq :
    c2 (StableHlo.after (hostOps7 (F := Ideal)) W (Proc.devRef .tc main_v154))
      = poolMean (Ideal.ofBits .f32 0x3F800000#32) (c2 (W (Proc.devRef .tc main_v148_0)))
          (fun g => c2 (W (Proc.devRef .tc main_v148_1)) 0 g) := by
  funext g j
  after_results
  show Host.divf _ _ (ix2 g j) = _
  rw [hostDivf_apply, bcast_cols_apply, bcast_col_apply, maximumf_apply, bcast_scalar_apply]
  exact congrArg (fun x => Ideal.div _ (max x _)) (shapeCast_1a_a_apply _ _ g)

theorem bias1_row (k : Fin 64) :
    c2 (StableHlo.after (hostOps7 (F := Ideal)) W (Proc.devRef .tc main_v155)) 0 k = c1 (W (Proc.devRef .tc main_arg19)) k := by
  after_results
  exact shapeCast_a_1a_apply _ _ 0 k

theorem bias2_row (o : Fin 1) :
    c2 (StableHlo.after (hostOps7 (F := Ideal)) W (Proc.devRef .tc main_v156)) 0 o = c1 (W (Proc.devRef .tc main_arg21)) o := by
  after_results
  exact shapeCast_a_1a_apply _ _ 0 o

end Cert.HostTail

end
-- ==== Proof.Pool6Pay.lean ====
import proofs.«416188_j20263655702631_2_alg».proof.Proof.Gen.KernelIdeal.Skeleton
import proofs.«416188_j20263655702631_2_alg».proof.Proof.FusedLayer

noncomputable section

namespace Cert.KernelIdeal.Pool6

open Idealize.ShloMosaic Idealize.ShloMosaic.ValueIdx
open Cert.KernelIdeal Cert.KernelIdeal.Gen Cert.KernelIdeal.FusedLayer
open scoped BigOperators

theorem test_word (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · have e : IntOp.cmpi .eq a b = 1#1 := by simp [IntOp.cmpi, h]
    rw [if_pos h, e]
    have e1 : ((1#1 : BitVec 1).setWidth 32).toInt = 1 := by decide
    rw [e1]; norm_num
  · have hb : (a == b) = false := beq_eq_false_iff_ne.mpr h
    have e : IntOp.cmpi .eq a b = 0#1 := by simp [IntOp.cmpi, hb]
    rw [if_neg h, e]
    have e0 : ((0#1 : BitVec 1).setWidth 32).toInt = 0 := by decide
    rw [e0]; norm_num

theorem member_apply (b : Vec Ideal S2000x1 .i32) (r : Fin 2000) (g : Fin 64) :
    k6_pay3 (F := Ideal) b (ix2 r g) = if b (ix2 r (0 : Fin 1)) = BitVec.ofNat 32 g.val then (1 : EReal) else 0 := by
  unfold k6_pay3
  show FloatOps.sitofp (F := Ideal) .f32 ((IntOp.cmpi .eq
      (broadcastTo S2000x64 (shapeCast S2000x1 b shapeCasts_S2000x1_S2000x1) broadcasts_S2000x1_S2000x64 (ix2 r g))
      (iota .tc S2000x64 32 [1] iota_S2000x64_d1_w32 (ix2 r g))).setWidth 32) = _
  rw [broadcastTo_a1_ab_apply, shapeCast_self, iota_single_apply]
  exact test_word _ _

-- The contraction runs over the rows of both operands, so the sum re-indexes by the row.
theorem rows_product_apply {φ₁ φ₂ : FTy} (A : FVec Ideal S2000x64 φ₁) (B : FVec Ideal S2000x128 φ₂) (g : Fin 64) (d : Fin 128) :
    matmul dot_S2000x64_S2000x128_S64x128_0_0_1_1_n_n none A B (constant (F := Ideal) S64x128 .f32 0x00000000#32) (ix2 g d)
      = ∑ r : Fin 2000, A (ix2 r g) * B (ix2 r d) := by
  show FloatOps.matmul _ none A B _ (ix2 g d) = _
  rw [Ideal.matmul_constant_zero_apply, ← Equiv.sum_comp (contrEquiv1 dot_S2000x64_S2000x128_S64x128_0_0_1_1_n_n 2000 rfl rfl).symm]
  refine Finset.sum_congr rfl fun r _ => ?_
  have cr := contrEquiv1_symm_val dot_S2000x64_S2000x128_S64x128_0_0_1_1_n_n 2000 rfl rfl r
  rw [show dot_S2000x64_S2000x128_S64x128_0_0_1_1_n_n.lhsIdx (ix2 g d) ((contrEquiv1 _ 2000 rfl rfl).symm r) = ix2 r g from Shape.idx_ext₂ cr rfl,
    show dot_S2000x64_S2000x128_S64x128_0_0_1_1_n_n.rhsIdx (ix2 g d) ((contrEquiv1 _ 2000 rfl rfl).symm r) = ix2 r d from Shape.idx_ext₂ cr rfl]

theorem sums_step_apply (b : Vec Ideal S2000x1 .i32) (h : Vec Ideal S2000x128 .bf16) (acc : Vec Ideal S64x128 .f32)
    (g : Fin 64) (d : Fin 128) :
    k6_pay4 (F := Ideal) b h acc (ix2 g d)
      = acc (ix2 g d) + ∑ r : Fin 2000, if b (ix2 r (0 : Fin 1)) = BitVec.ofNat 32 g.val then h (ix2 r d) else 0 := by
  simp only [k6_pay4, addf_apply, shapeCast_self, rows_product_apply, truncf_apply, member_apply, ite_mul, one_mul, zero_mul]

theorem counts_step_apply (b : Vec Ideal S2000x1 .i32) (acc : Vec Ideal S1x64 .f32) (u : Fin 1) (g : Fin 64) :
    k6_pay5 (F := Ideal) b acc (ix2 u g)
      = acc (ix2 u g) + ∑ r : Fin 2000, if b (ix2 r (0 : Fin 1)) = BitVec.ofNat 32 g.val then (1 : EReal) else 0 := by
  unfold k6_pay5
  show shapeCast S1x64 acc shapeCasts_S1x64_S1x64 (ix2 u g)
      + shapeCast S1x64 (multiReduction .add [0] S64 (k6_pay3 (F := Ideal) b) 0x00000000#32 reduces_S2000x64_S64 (.inl rfl) rfl) shapeCasts_S64_S1x64 (ix2 u g) = _
  rw [shapeCast_self, shapeCast_a_1a_apply _ shapeCasts_S64_S1x64 u g,
    Ideal.multiReduction_add_single _ 0x00000000#32 reduces_S2000x64_S64 (.inl rfl) rfl (ix1 g)]
  exact congrArg (acc (ix2 u g) + ·) (Finset.sum_congr rfl fun r _ => (congrArg _ (Shape.idx_ext₂ rfl rfl)).trans (member_apply b r g))

theorem sums_zero_apply (i : S64x128.Idx) : k6_pay1 (F := Ideal) i = 0 := Ideal.ofBits_zero_f32

theorem counts_zero_apply (i : S1x64.Idx) : k6_pay2 (F := Ideal) i = 0 := Ideal.ofBits_zero_f32

end Cert.KernelIdeal.Pool6

end
-- ==== Proof.Pool6.lean ====
import proofs.«416188_j20263655702631_2_alg».proof.Proof.Gen.KernelIdeal.Frame
import proofs.«416188_j20263655702631_2_alg».proof.Proof.Spec
import proofs.«416188_j20263655702631_2_alg».proof.Proof.Pool6Pay
import Idealize.ShloMosaic.Lib.Tactic

noncomputable section

namespace Cert.KernelIdeal.Pool6

open Idealize.ShloMosaic Idealize.ShloMosaic.TcCoe Idealize.ShloMosaic.ValueIdx Idealize.ShloMosaic.Tactic Idealize.SL.Sem
open Cert.KernelIdeal Cert.KernelIdeal.Gen Cert.KernelIdeal.FusedLayer
open scoped BigOperators

variable (V : (c : Dev nD) → (b : Ref sig .tc) → Buf (Elt Ideal) ((c : Thread nD τ).loc b))

section Body
variable (c : Dev nD) (i : grid6.Coords) (a1 : Memref sig .tc .vmem S2000x128 .bf16) (h1 : a1.IsWhole)
  (a2 : Memref sig .tc .vmem S2000x1 .i32) (h2 : a2.IsWhole) (a3 : Memref sig .tc .vmem S64x128 .f32) (h3 : a3.IsWhole)
  (a4 : Memref sig .tc .vmem S1x64 .f32) (h4 : a4.IsWhole) (x0 : Vec Ideal S2000x128 .bf16) (x1 : Vec Ideal S2000x1 .i32)

-- At a first point both accumulators start from the zero block.
theorem body_first (hc : cond6_0 i) :
    out6_A_2 c i a1 h1 a2 h2 a3 h3 a4 h4 hc x0 x1 = k6_pay4 x1 x0 (k6_pay1 (F := Ideal))
    ∧ out6_A_3 c i a1 h1 a2 h2 a3 h3 a4 h4 hc x0 x1 = k6_pay5 x1 (k6_pay2 (F := Ideal)) := by
  unfold out6_A_2 out6_A_3
  rw [View.read_writes_eq_canon _ _ _ (cover6_A_2 c i a1 h1 a2 h2 a3 h3 a4 h4 hc x0 x1),
    View.read_writes_eq_canon _ _ _ (cover6_A_3 c i a1 h1 a2 h2 a3 h3 a4 h4 hc x0 x1)]
  unfold kernelRun6_A
  dsimp only
  sl_unfold_words
  rw [View.canon_cons_unit_zero (S := S64x128) zz, View.readCov_unit_zero (S := S64x128) _ zz,
    View.canon_cons_unit_zero (S := S1x64) zz, View.readCov_unit_zero (S := S1x64) _ zz]
  simp only [View.readAt_eq_ld, h1.read_unread, h2.read_unread, View.ld_unit_zero (S := S2000x128) zz,
    View.ld_unit_zero (S := S2000x1) zz, and_self]

-- At a later point they go on from what the point before left.
theorem body_next (hc : ¬cond6_0 i) (s : Vec Ideal S64x128 .f32) (n : Vec Ideal S1x64 .f32) :
    out6_B_2 c i a1 h1 a2 h2 a3 h3 a4 h4 hc x0 x1 s n = k6_pay4 x1 x0 s
    ∧ out6_B_3 c i a1 h1 a2 h2 a3 h3 a4 h4 hc x0 x1 s n = k6_pay5 x1 n := by
  unfold out6_B_2 out6_B_3
  rw [View.read_writes_eq_canon _ _ _ (cover6_B_2 c i a1 h1 a2 h2 a3 h3 a4 h4 hc x0 x1 s n),
    View.read_writes_eq_canon _ _ _ (cover6_B_3 c i a1 h1 a2 h2 a3 h3 a4 h4 hc x0 x1 s n)]
  unfold kernelRun6_B
  dsimp only
  sl_unfold_words
  rw [View.canon_unit_zero zz, View.canon_unit_zero zz]
  simp only [View.readAt_eq_ld, h1.read_unread, h2.read_unread, h3.read_unread, h4.read_unread,
    View.ld_unit_zero (S := S2000x128) zz, View.ld_unit_zero (S := S2000x1) zz,
    View.ld_unit_zero (S := S64x128) zz, View.ld_unit_zero (S := S1x64) zz, and_self]

end Body

abbrev feats (c : Dev nD) : S100000x128.Idx → EReal := V c main_v146

abbrev ids (c : Dev nD) : S100000x1.Idx → BitVec 32 := V c main_v147

abbrev member (c : Dev nD) : Fin 100000 → Fin 64 → Prop := fun n g => ids V c (ix2 n (0 : Fin 1)) = BitVec.ofNat 32 g.val

def nodeAt (t : ℕ) (ht : t < 50) (r : Fin 2000) : Fin 100000 := ⟨t * 2000 + r.val, by have := r.isLt; omega⟩

theorem index_facts : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (∀ a, win6_2.index t a = 0) ∧ ∀ a, win6_3.index t a = 0 :=
  (by decide +kernel : ∀ t : Fin grid6.N, _)

def sumShare (c : Dev nD) (t : ℕ) (ht : t < 50) (g : Fin 64) (d : Fin 128) : EReal :=
  ∑ r : Fin 2000, if member V c (nodeAt t ht r) g then feats V c (ix2 (nodeAt t ht r) d) else 0

def countShare (c : Dev nD) (t : ℕ) (ht : t < 50) (g : Fin 64) : EReal :=
  ∑ r : Fin 2000, if member V c (nodeAt t ht r) g then (1 : EReal) else 0

-- Row r of a block at point t is row 2000 t + r of its array.
theorem updates (c : Dev nD) (t : Fin cfg6.N) (ht : t.val < 50) (s : Vec Ideal S64x128 .f32) (n : Vec Ideal S1x64 .f32) (g : Fin 64) :
    (∀ d, k6_pay4 (F := Ideal) (iblk6 V c 1 t) (iblk6 V c 0 t) s (ix2 g d) = s (ix2 g d) + sumShare V c t.val ht g d)
    ∧ ∀ u, k6_pay5 (F := Ideal) (iblk6 V c 1 t) n (ix2 u g) = n (ix2 u g) + countShare V c t.val ht g := by
  obtain ⟨⟨e0, e1⟩, ⟨f0, f1⟩, -⟩ := index_facts t
  have hi (r : Fin 2000) : (iblk6 V c 1 t : Vec Ideal S2000x1 .i32) (ix2 r (0 : Fin 1)) = ids V c (ix2 (nodeAt t.val ht r) (0 : Fin 1)) :=
    congrArg (V c main_v147) (emb_rows _ _ f0 f1 r 0 rfl)
  have hf (r : Fin 2000) (d : Fin 128) : (iblk6 V c 0 t : Vec Ideal S2000x128 .bf16) (ix2 r d) = feats V c (ix2 (nodeAt t.val ht r) d) :=
    congrArg (V c main_v146) (emb_rows _ _ e0 e1 r d rfl)
  refine ⟨fun d => (sums_step_apply _ _ s g d).trans ?_, fun u => (counts_step_apply _ n u g).trans ?_⟩
  · exact congrArg (s (ix2 g d) + ·) (Finset.sum_congr rfl fun r _ => by rw [hi r, hf r d])
  · exact congrArg (n (ix2 u g) + ·) (Finset.sum_congr rfl fun r _ => by rw [hi r])

theorem totals (c : Dev nD) : ∀ (n : ℕ) (hn : n < cfg6.N) (h50 : n + 1 ≤ 50),
    (∀ (g : Fin 64) (d : Fin 128), (outsAt6 V c n hn).1 (ix2 g d)
        = ∑ s : Fin (n + 1), sumShare V c s.val (Nat.lt_of_lt_of_le s.isLt h50) g d)
    ∧ (∀ (u : Fin 1) (g : Fin 64), (outsAt6 V c n hn).2 (ix2 u g)
        = ∑ s : Fin (n + 1), countShare V c s.val (Nat.lt_of_lt_of_le s.isLt h50) g)
  | 0, hn, h50 => by
    rw [outsAt6_A V c ⟨0, hn⟩ rfl]
    dsimp only
    rw [(body_first _ _ _ _ _ _ _ _ _ _ _ _ _).1, (body_first _ _ _ _ _ _ _ _ _ _ _ _ _).2]
    refine ⟨fun g d => ((updates V c ⟨0, hn⟩ h50 _ (k6_pay2 (F := Ideal)) g).1 d).trans ?_,
      fun u g => ((updates V c ⟨0, hn⟩ h50 (k6_pay1 (F := Ideal)) _ g).2 u).trans ?_⟩
    · rw [sums_zero_apply, zero_add, Fin.sum_univ_one]; rfl
    · rw [counts_zero_apply, zero_add, Fin.sum_univ_one]; rfl
  | n + 1, hn, h50 => by
    have ih := totals c n (Nat.lt_of_succ_lt hn) (Nat.le_of_succ_le h50)
    have hB : ¬(⟨n + 1, hn⟩ : Fin cfg6.N).val % 50 = 0 := by dsimp only; omega
    rw [outsAt6_B V c ⟨n + 1, hn⟩ hB]
    dsimp only
    rw [(body_next _ _ _ _ _ _ _ _ _ _ _ _ _ _ _).1, (body_next _ _ _ _ _ _ _ _ _ _ _ _ _ _ _).2]
    refine ⟨fun g d => ((updates V c ⟨n + 1, hn⟩ h50 (outsAt6 V c n (Nat.lt_of_succ_lt hn)).1 (k6_pay2 (F := Ideal)) g).1 d).trans ?_,
      fun u g => ((updates V c ⟨n + 1, hn⟩ h50 (k6_pay1 (F := Ideal)) (outsAt6 V c n (Nat.lt_of_succ_lt hn)).2 g).2 u).trans ?_⟩
    · rw [Fin.sum_univ_castSucc, ih.1 g d]; rfl
    · rw [Fin.sum_univ_castSucc, ih.2 u g]; rfl

def lastPoint : Fin cfg6.N := ⟨49, by show 49 < grid6.N; rw [N_6]; decide⟩

theorem eq_last_of_flush (t : Fin cfg6.N) (h : t.val % 50 = 49) : t = lastPoint := by
  apply Fin.ext
  have h50 : t.val < 50 := lt_of_lt_of_eq t.isLt N_6
  show t.val = 49
  omega

-- All offsets are zero and the extents are the array's.
theorem mem_whole {s : Shape} (ι : Fin s.rank → ℕ) (inb : ∀ a, ι a * s.size a + s.size a ≤ s.size a) (h : ∀ a, ι a = 0) (i : s.Idx) :
    i ∈ (Rect.unit (fun a => ι a * s.size a) s.size inb).set := by
  rw [Rect.mem_set_unit]
  intro a
  rw [h a]
  have := (i a).isLt
  omega

-- Only the last point's block counts, and it is the whole array.
theorem sums_array_eq (c : Dev nD) : (dat6 V c).arrAt 2 cfg6.N = (outsAt6 V c lastPoint.val lastPoint.isLt).1 :=
  (dat6 V c).arrAt_eq_of_cover 2 _ (fun t hf => by
      obtain rfl := eq_last_of_flush t ((flush6_2 t).mp hf)
      show (cfg6.win 2).cut (grid6.coords lastPoint) ((dat6 V c).after 2 lastPoint) = _
      rw [after6_2]
      exact (funext fun y => congrArg (outsAt6 V c lastPoint.val lastPoint.isLt).1 (emb_whole _ _ (index_facts lastPoint).2.2.1 y)).symm)
    fun i => ⟨lastPoint, (flush6_2 lastPoint).mpr rfl, by
      show i ∈ ((View.whole main_v148_0).slice (win6_2.rect lastPoint)).set
      rw [View.set_slice_whole]
      exact mem_whole _ _ (index_facts lastPoint).2.2.1 i⟩

theorem counts_array_eq (c : Dev nD) : (dat6 V c).arrAt 3 cfg6.N = (outsAt6 V c lastPoint.val lastPoint.isLt).2 :=
  (dat6 V c).arrAt_eq_of_cover 3 _ (fun t hf => by
      obtain rfl := eq_last_of_flush t ((flush6_3 t).mp hf)
      show (cfg6.win 3).cut (grid6.coords lastPoint) ((dat6 V c).after 3 lastPoint) = _
      rw [after6_3]
      exact (funext fun y => congrArg (outsAt6 V c lastPoint.val lastPoint.isLt).2 (emb_whole _ _ (index_facts lastPoint).2.2.2 y)).symm)
    fun i => ⟨lastPoint, (flush6_3 lastPoint).mpr rfl, by
      show i ∈ ((View.whole main_v148_1).slice (win6_3.rect lastPoint)).set
      rw [View.set_slice_whole]
      exact mem_whole _ _ (index_facts lastPoint).2.2.2 i⟩

def nodeEquiv : Fin 50 × Fin 2000 ≃ Fin 100000 where
  toFun p := nodeAt p.1.val p.1.isLt p.2
  invFun n := (⟨n.val / 2000, by have := n.isLt; omega⟩, ⟨n.val % 2000, Nat.mod_lt _ (by decide)⟩)
  left_inv p := by
    obtain ⟨⟨a, ha⟩, ⟨b, hb⟩⟩ := p
    refine Prod.ext (Fin.ext ?_) (Fin.ext ?_)
    · show (a * 2000 + b) / 2000 = a
      omega
    · show (a * 2000 + b) % 2000 = b
      omega
  right_inv n := by
    apply Fin.ext
    show n.val / 2000 * 2000 + n.val % 2000 = n.val
    omega

theorem sum_points_rows (f : Fin 100000 → EReal) :
    ∑ s : Fin 50, ∑ r : Fin 2000, f (nodeAt s.val s.isLt r) = ∑ n : Fin 100000, f n :=
  (Fintype.sum_prod_type' fun (s : Fin 50) (r : Fin 2000) => f (nodeAt s.val s.isLt r)).symm.trans
    (Fintype.sum_equiv nodeEquiv _ _ fun _ => rfl)

theorem pool6 (c : Dev nD) :
    Cert.Spec.c2 ((dat6 V c).arrAt 2 cfg6.N) = Cert.Spec.poolSum (member V c) (Cert.Spec.c2 (V c main_v146))
    ∧ Cert.Spec.c2 ((dat6 V c).arrAt 3 cfg6.N) = (fun _ g => Cert.Spec.poolCnt (member V c) g) := by
  have hT := totals V c 49 lastPoint.isLt (by decide)
  constructor
  · rw [sums_array_eq]
    funext g d
    exact (hT.1 g d).trans (sum_points_rows fun n => if member V c n g then feats V c (ix2 n d) else 0)
  · rw [counts_array_eq]
    funext u g
    exact (hT.2 u g).trans (sum_points_rows fun n => if member V c n g then (1 : EReal) else 0)

end Cert.KernelIdeal.Pool6

end
-- ==== Proof.Head7Pay.lean ====
import proofs.«416188_j20263655702631_2_alg».proof.Proof.Gen.KernelIdeal.Skeleton
import proofs.«416188_j20263655702631_2_alg».proof.Proof.HostAlgLib
import Idealize.ShloMosaic.Lib.Pipeline.Value

noncomputable section

namespace Cert.KernelIdeal.Head7

open Idealize.ShloMosaic Idealize.ShloMosaic.ValueIdx
open Cert.KernelIdeal Cert.KernelIdeal.Gen Cert.HostAlg
open scoped BigOperators

/-- A product accumulated onto zero is the plain product: entry (i, j) is row i of the left factor against column j of the right. -/
theorem prod_apply {φ₁ φ₂ : FTy} {m k n : ℕ} (A : FVec Ideal (Mat m k) φ₁) (B : FVec Ideal (Mat k n) φ₂) (i : Fin m) (j : Fin n) :
    matmul (DotDims.plain m k n) none A B (constant (F := Ideal) (Mat m n) .f32 0x00000000#32) (ix2 i j)
      = ∑ q : Fin k, A (ix2 i q) * B (ix2 q j) :=
  ((Ideal.matmul_constant_zero_apply _ none A B _).trans (Ideal.dotGeneral_apply _ none .single A B _).symm).trans
    (dot_plain_apply none A B i j)

theorem stored_apply (p : Vec Ideal S64x128 .f32) (W1 : Vec Ideal S128x64 .f32) (b1 : Vec Ideal S1x64 .f32)
    (W2 : Vec Ideal S64x1 .f32) (b2 : Vec Ideal S1x1 .f32) (g : Fin 64) (o : Fin 1) :
    k7_pay1 (F := Ideal) p W1 b1 W2 b2 (ix2 g o)
      = (∑ k : Fin 64, max ((∑ j : Fin 128, p (ix2 g j) * W1 (ix2 j k)) + b1 (ix2 (0 : Fin 1) k)) (Ideal.ofBits .f32 0x00000000#32)
            * W2 (ix2 k o)) + b2 (ix2 (0 : Fin 1) o) := by
  have e1 : dot_S64x128_S128x64_S64x64_1_0_0_1_n_n = DotDims.plain 64 128 64 := rfl
  have e2 : dot_S64x64_S64x1_S64x1_1_0_0_1_n_n = DotDims.plain 64 64 1 := rfl
  simp only [k7_pay1, e1, e2, addf_apply, prod_apply, truncf_apply, maximumf_apply, shapeCast_self, broadcastTo_1b_ab_apply,
    broadcast_apply]
  rfl

end Cert.KernelIdeal.Head7

end
-- ==== Proof.Head7.lean ====
import proofs.«416188_j20263655702631_2_alg».proof.Proof.Gen.KernelIdeal.Frame
import proofs.«416188_j20263655702631_2_alg».proof.Proof.Spec
import proofs.«416188_j20263655702631_2_alg».proof.Proof.Head7Pay
import Idealize.ShloMosaic.Lib.Pipeline.Value

noncomputable section

namespace Cert.KernelIdeal.Head7

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

theorem index_zero : ∀ (t : Fin cfg7.N) (a : Fin 2), win7_0.index t a = 0 ∧ win7_1.index t a = 0 ∧ win7_2.index t a = 0
    ∧ win7_3.index t a = 0 ∧ win7_4.index t a = 0 ∧ win7_5.index t a = 0 :=
  (by decide +kernel : ∀ (t : Fin grid7.N) (a : Fin 2), _)

/-- Offsets that are multiples of a zero index are zero. -/
theorem off_zero {idx sz : Fin 2 → ℕ} (h : ∀ a, idx a = 0) : (fun a => idx a * sz a) = fun _ => 0 :=
  funext fun a => by rw [h a, Nat.zero_mul]

theorem block_p (c : Dev nD) (t : Fin cfg7.N) : (iblk7 V c 0 t : Vec Ideal S64x128 .f32) = V c main_v154 :=
  Memref.read_access_unit_zero _ main_v154 (off_zero fun a => (index_zero t a).1) _ _

theorem block_W1 (c : Dev nD) (t : Fin cfg7.N) : (iblk7 V c 1 t : Vec Ideal S128x64 .f32) = V c main_arg18 :=
  Memref.read_access_unit_zero _ main_arg18 (off_zero fun a => (index_zero t a).2.1) _ _

theorem block_b1 (c : Dev nD) (t : Fin cfg7.N) : (iblk7 V c 2 t : Vec Ideal S1x64 .f32) = V c main_v155 :=
  Memref.read_access_unit_zero _ main_v155 (off_zero fun a => (index_zero t a).2.2.1) _ _

theorem block_W2 (c : Dev nD) (t : Fin cfg7.N) : (iblk7 V c 3 t : Vec Ideal S64x1 .f32) = V c main_arg20 :=
  Memref.read_access_unit_zero _ main_arg20 (off_zero fun a => (index_zero t a).2.2.2.1) _ _

theorem block_b2 (c : Dev nD) (t : Fin cfg7.N) : (iblk7 V c 4 t : Vec Ideal S1x1 .f32) = V c main_v156 :=
  Memref.read_access_unit_zero _ main_v156 (off_zero fun a => (index_zero t a).2.2.2.2.1) _ _

theorem left_eq (x0 : Vec Ideal S64x128 .f32) (x1 : Vec Ideal S128x64 .f32) (x2 : Vec Ideal S1x64 .f32)
    (x3 : Vec Ideal S64x1 .f32) (x4 : Vec Ideal S1x1 .f32) : out7_5 x0 x1 x2 x3 x4 = k7_pay1 x0 x1 x2 x3 x4 := by
  unfold out7_5
  rw [View.canon_unit_zero zero_off]
  simp only [View.ld_unit_zero (S := S64x128) zero_off, View.ld_unit_zero (S := S128x64) zero_off,
    View.ld_unit_zero (S := S1x64) zero_off, View.ld_unit_zero (S := S64x1) zero_off, View.ld_unit_zero (S := S1x1) zero_off]

abbrev result (c : Dev nD) : Vec Ideal S64x1 .f32 :=
  k7_pay1 (F := Ideal) (V c main_v154) (V c main_arg18) (V c main_v155) (V c main_arg20) (V c main_v156)

theorem after_eq (c : Dev nD) (t : Fin cfg7.N) : (dat7 V c).after 5 t = result V c := by
  rw [after7_5, block_p V c t, block_W1 V c t, block_b1 V c t, block_W2 V c t, block_b2 V c t]
  exact left_eq _ _ _ _ _

theorem flushed_eq (c : Dev nD) (t : Fin cfg7.N) (hf : (cfg7.win 5).flush t = true) :
    (dat7 V c).flushed 5 t = ((cfg7.win 5).blk t).view.read (Elt Ideal) (result V c) := by
  show (cfg7.win 5).cut (grid7.coords t) ((dat7 V c).after 5 t) = _
  rw [after_eq]
  exact (Memref.read_access_unit_zero _ main_v157 (off_zero fun a => (index_zero t a).2.2.2.2.2) _ (result V c)).symm

theorem array_eq (c : Dev nD) : (dat7 V c).arrAt 5 cfg7.N = result V c :=
  (dat7 V c).arrAt_eq_of_cover 5 (result V c) (fun t hf => flushed_eq V c t hf) fun i => ⟨t7_0, flush7_5 t7_0, by
    show i ∈ ((View.whole main_v157).slice (win7_5.rect t7_0)).set
    rw [View.set_slice_whole]
    exact View.mem_set_unit_zero (off_zero fun a => (index_zero t7_0 a).2.2.2.2.2) _ i⟩

theorem head7 (c : Dev nD) :
    Cert.Spec.c2 ((dat7 V c).arrAt 5 cfg7.N)
      = Cert.Spec.head (Ideal.ofBits .f32 0x00000000#32) (Cert.Spec.c2 (V c main_v154)) (Cert.Spec.c2 (V c main_arg18))
          (fun k => Cert.Spec.c2 (V c main_v155) 0 k) (Cert.Spec.c2 (V c main_arg20)) (fun o => Cert.Spec.c2 (V c main_v156) 0 o) := by
  rw [array_eq]
  funext g o
  exact stored_apply (V c main_v154) (V c main_arg18) (V c main_v155) (V c main_arg20) (V c main_v156) g o

end Cert.KernelIdeal.Head7

end
-- ==== Proof.AsmKTail.lean ====
import proofs.«416188_j20263655702631_2_alg».proof.Proof.Gen.KernelIdeal.Frame
import proofs.«416188_j20263655702631_2_alg».proof.Proof.Spec
import proofs.«416188_j20263655702631_2_alg».proof.Proof.AsmKLib
import proofs.«416188_j20263655702631_2_alg».proof.Proof.Carry
import proofs.«416188_j20263655702631_2_alg».proof.Proof.HostTail
import proofs.«416188_j20263655702631_2_alg».proof.Proof.Pool6
import proofs.«416188_j20263655702631_2_alg».proof.Proof.Head7

set_option maxRecDepth 16384

noncomputable section

namespace Cert.KernelIdeal.Asm

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Spec

variable (m : (ℓ : Loc nD τ sig) → Buf (Elt Ideal) ℓ) (ρ : Dev nD → PrngReg)

theorem tail (c : Dev nD) :
    c2 (W16 m ρ c (Proc.devRef .tc main_v157))
      = head (Ideal.ofBits .f32 0x00000000#32)
          (poolMean (Ideal.ofBits .f32 0x3F800000#32)
            (poolSum (fun (n : Fin 100000) (g : Fin 64) => ((m ((c : Thread nD τ).loc main_arg2)) : IVec S100000 32) (ix1 n) = BitVec.ofNat 32 g.val)
              (c2 (W12 m ρ c (Proc.devRef .tc main_v146))))
            (poolCnt (fun (n : Fin 100000) (g : Fin 64) => ((m ((c : Thread nD τ).loc main_arg2)) : IVec S100000 32) (ix1 n) = BitVec.ofNat 32 g.val)))
          (c2 (m ((c : Thread nD τ).loc main_arg18))) (c1 (m ((c : Thread nD τ).loc main_arg19))) (c2 (m ((c : Thread nD τ).loc main_arg20))) (c1 (m ((c : Thread nD τ).loc main_arg21))) := by

  have hout : W16 m ρ c (Proc.devRef .tc main_v157) = (dat7 (V15 m ρ) c).arrAt 5 cfg7.N := W16_arr m ρ c 5
  have h2 : W14 m ρ c (Proc.devRef .tc main_v148_0) = (dat6 (V13 m ρ) c).arrAt 2 cfg6.N := W14_arr m ρ c 2
  have h3 : W14 m ρ c (Proc.devRef .tc main_v148_1) = (dat6 (V13 m ρ) c).arrAt 3 cfg6.N := W14_arr m ρ c 3

  have hval : ∀ n : Fin 100000, (V13 m ρ c main_v147 : IVec S100000x1 32) (ix2 n (0 : Fin 1))
      = ((m ((c : Thread nD τ).loc main_arg2)) : IVec S100000 32) (ix1 n) := fun n =>
    (Cert.HostTail.batch_col (W12 m ρ c) n).trans
      (congrArg (fun v : IVec S100000 32 => v (ix1 n)) (Carry.W12_main_arg2_from0 m ρ c))
  refine head_of_pieces
    (sel₁ := Pool6.member (V13 m ρ) c) (x₁ := c2 (V13 m ρ c main_v146))
    (hout := (congrArg (fun v => c2 v) hout).trans (Head7.head7 (V15 m ρ) c))
    (hp := Cert.HostTail.pool_eq (W14 m ρ c))
    (hs := ?hs) (hcnt := ?hcnt) (hsel := ?hsel) (hx := ?hx) (hW1 := ?hW1) (hb1 := ?hb1) (hW2 := ?hW2) (hb2 := ?hb2)
  case hs => exact (congrArg (fun v => c2 v) h2).trans (Pool6.pool6 (V13 m ρ) c).1
  case hcnt =>
    exact funext fun g => (congrArg (fun v => c2 v 0 g) h3).trans (congrFun (congrFun (Pool6.pool6 (V13 m ρ) c).2 0) g)
  case hsel => exact fun n g => Eq.congr_left (hval n)
  case hx => exact congrArg (fun v : FVec Ideal S100000x128 .bf16 => c2 v) (Carry.W13_main_v146_from12 m ρ c)
  case hW1 => exact congrArg (fun v => c2 v) (Carry.W15_main_arg18_from0 m ρ c)
  case hb1 =>
    exact funext fun k => (Cert.HostTail.bias1_row (W14 m ρ c) k).trans
      (congrArg (fun v => c1 v k) (Carry.W14_main_arg19_from0 m ρ c))
  case hW2 => exact congrArg (fun v => c2 v) (Carry.W15_main_arg20_from0 m ρ c)
  case hb2 =>
    exact funext fun o => (Cert.HostTail.bias2_row (W14 m ρ c) o).trans
      (congrArg (fun v => c1 v o) (Carry.W14_main_arg21_from0 m ρ c))

end Cert.KernelIdeal.Asm

end
-- ==== Proof.AggR.lean ====
import proofs.«416188_j20263655702631_2_alg».proof.Proof.RefOps0
import proofs.«416188_j20263655702631_2_alg».proof.Proof.RefOps1
import proofs.«416188_j20263655702631_2_alg».proof.Proof.RefOps3
import proofs.«416188_j20263655702631_2_alg».proof.Proof.RefOps5
import proofs.«416188_j20263655702631_2_alg».proof.Proof.AggDefs
import Idealize.ShloMosaic.Lib.StableHlo.Run

noncomputable section

namespace Cert.ReferenceIdeal.AggR

open Idealize.ShloMosaic Idealize.ShloMosaic.StableHlo
open Cert.ReferenceIdeal Cert.ReferenceIdeal.Gen Cert.ReferenceIdeal.RefRun

variable {F : FTy → Type} [FloatOps F]

theorem ops0_v1 (W : Valuation τ sig (Elt F)) :
    (StableHlo.after ops0 W (Proc.devRef .tc main_v1) : IVec S1600000 32) = Agg.src (W (Proc.devRef .tc main_arg1)) := by
  after_results_simp
  rfl

theorem ops0_v3 (W : Valuation τ sig (Elt F)) :
    (StableHlo.after ops0 W (Proc.devRef .tc main_v3) : IVec S1600000 32) = Agg.dst (W (Proc.devRef .tc main_arg1)) := by
  after_results_simp
  rfl

theorem ops1_v7 (W : Valuation τ sig (Elt F)) (e : IVec S2x1600000 32)
    (h3 : (W (Proc.devRef .tc main_v3) : IVec S1600000 32) = Agg.dst e) :
    (StableHlo.after ops1 W (Proc.devRef .tc main_v7) : FVec F S100000 .f32) = Agg.deg e := by
  after_results_simp
  rw [h3]; rfl

theorem ops1_v17 (W : Valuation τ sig (Elt F)) (e : IVec S2x1600000 32)
    (h1 : (W (Proc.devRef .tc main_v1) : IVec S1600000 32) = Agg.src e)
    (h3 : (W (Proc.devRef .tc main_v3) : IVec S1600000 32) = Agg.dst e) :
    (StableHlo.after ops1 W (Proc.devRef .tc main_v17) : FVec F S100000x2 .f32)
      = Agg.agg2 (W (Proc.devRef .tc main_arg0)) e := by
  after_results_simp
  rw [h1, h3]; rfl

theorem ops3_v52 (W : Valuation τ sig (Elt F)) (e : IVec S2x1600000 32)
    (h3 : (W (Proc.devRef .tc main_v3) : IVec S1600000 32) = Agg.dst e) :
    (StableHlo.after ops3 W (Proc.devRef .tc main_v52) : FVec F S100000 .f32) = Agg.deg e := by
  after_results_simp
  rw [h3]; rfl

theorem ops3_v62 (W : Valuation τ sig (Elt F)) (e : IVec S2x1600000 32)
    (h1 : (W (Proc.devRef .tc main_v1) : IVec S1600000 32) = Agg.src e)
    (h3 : (W (Proc.devRef .tc main_v3) : IVec S1600000 32) = Agg.dst e) :
    (StableHlo.after ops3 W (Proc.devRef .tc main_v62) : FVec F S100000x32 .f32)
      = Agg.agg32 (W (Proc.devRef .tc main_v48)) e := by
  after_results_simp
  rw [h1, h3]; rfl

theorem ops5_v97 (W : Valuation τ sig (Elt F)) (e : IVec S2x1600000 32)
    (h3 : (W (Proc.devRef .tc main_v3) : IVec S1600000 32) = Agg.dst e) :
    (StableHlo.after ops5 W (Proc.devRef .tc main_v97) : FVec F S100000 .f32) = Agg.deg e := by
  after_results_simp
  rw [h3]; rfl

theorem ops5_v107 (W : Valuation τ sig (Elt F)) (e : IVec S2x1600000 32)
    (h1 : (W (Proc.devRef .tc main_v1) : IVec S1600000 32) = Agg.src e)
    (h3 : (W (Proc.devRef .tc main_v3) : IVec S1600000 32) = Agg.dst e) :
    (StableHlo.after ops5 W (Proc.devRef .tc main_v107) : FVec F S100000x64 .f32)
      = Agg.agg64 (W (Proc.devRef .tc main_v93)) e := by
  after_results_simp
  rw [h1, h3]; rfl

end Cert.ReferenceIdeal.AggR

end
-- ==== Proof.AsmRLib.lean ====
import proofs.«416188_j20263655702631_2_alg».proof.Proof.RefRun
import proofs.«416188_j20263655702631_2_alg».proof.Proof.AggR

noncomputable section

namespace Cert.ReferenceIdeal.AsmR

open Cert.ReferenceIdeal Cert.ReferenceIdeal.Gen Cert.ReferenceIdeal.RefRun Idealize.ShloMosaic Idealize.ShloMosaic.TcCoe Idealize.ShloMosaic.StableHlo

variable {F : FTy → Type} [FloatOps F]

def St1 (V : Valuation τ sig (Elt F)) : Valuation τ sig (Elt F) := after ops0 V
def St2 (V : Valuation τ sig (Elt F)) : Valuation τ sig (Elt F) := after ops1 (St1 V)
def St3 (V : Valuation τ sig (Elt F)) : Valuation τ sig (Elt F) := after ops2 (St2 V)
def St4 (V : Valuation τ sig (Elt F)) : Valuation τ sig (Elt F) := after ops3 (St3 V)
def St5 (V : Valuation τ sig (Elt F)) : Valuation τ sig (Elt F) := after ops4 (St4 V)
def St6 (V : Valuation τ sig (Elt F)) : Valuation τ sig (Elt F) := after ops5 (St5 V)
def St7 (V : Valuation τ sig (Elt F)) : Valuation τ sig (Elt F) := after ops6 (St6 V)
def St8 (V : Valuation τ sig (Elt F)) : Valuation τ sig (Elt F) := after ops7 (St7 V)

theorem after_ops_eq (V : Valuation τ sig (Elt F)) : after ops V = St8 V := after_ops V

theorem St1_keep (V : Valuation τ sig (Elt F)) {r : Ref sig .tc} (hr : r ∉ writes0) :
    St1 V (no_index (Proc.devRef .tc r)) = V (Proc.devRef .tc r) := ops0_keep V hr
theorem St2_keep (V : Valuation τ sig (Elt F)) {r : Ref sig .tc} (hr : r ∉ writes1) :
    St2 V (no_index (Proc.devRef .tc r)) = St1 V (Proc.devRef .tc r) := ops1_keep (St1 V) hr
theorem St3_keep (V : Valuation τ sig (Elt F)) {r : Ref sig .tc} (hr : r ∉ writes2) :
    St3 V (no_index (Proc.devRef .tc r)) = St2 V (Proc.devRef .tc r) := ops2_keep (St2 V) hr
theorem St4_keep (V : Valuation τ sig (Elt F)) {r : Ref sig .tc} (hr : r ∉ writes3) :
    St4 V (no_index (Proc.devRef .tc r)) = St3 V (Proc.devRef .tc r) := ops3_keep (St3 V) hr
theorem St5_keep (V : Valuation τ sig (Elt F)) {r : Ref sig .tc} (hr : r ∉ writes4) :
    St5 V (no_index (Proc.devRef .tc r)) = St4 V (Proc.devRef .tc r) := ops4_keep (St4 V) hr
theorem St6_keep (V : Valuation τ sig (Elt F)) {r : Ref sig .tc} (hr : r ∉ writes5) :
    St6 V (no_index (Proc.devRef .tc r)) = St5 V (Proc.devRef .tc r) := ops5_keep (St5 V) hr
theorem St7_keep (V : Valuation τ sig (Elt F)) {r : Ref sig .tc} (hr : r ∉ writes6) :
    St7 V (no_index (Proc.devRef .tc r)) = St6 V (Proc.devRef .tc r) := ops6_keep (St6 V) hr
theorem St8_keep (V : Valuation τ sig (Elt F)) {r : Ref sig .tc} (hr : r ∉ writes7) :
    St8 V (no_index (Proc.devRef .tc r)) = St7 V (Proc.devRef .tc r) := ops7_keep (St7 V) hr

macro "stage_keep" : tactic =>
  `(tactic| simp (disch := decide) only [St8_keep, St7_keep, St6_keep, St5_keep, St4_keep, St3_keep, St2_keep, St1_keep])

theorem R_v48 (V : Valuation τ sig (Elt F)) : after ops V (Proc.devRef .tc main_v48) = St3 V (Proc.devRef .tc main_v48) := by
  rw [after_ops_eq]; stage_keep

theorem R_v93 (V : Valuation τ sig (Elt F)) : after ops V (Proc.devRef .tc main_v93) = St5 V (Proc.devRef .tc main_v93) := by
  rw [after_ops_eq]; stage_keep

theorem R_v138 (V : Valuation τ sig (Elt F)) : after ops V (Proc.devRef .tc main_v138) = St7 V (Proc.devRef .tc main_v138) := by
  rw [after_ops_eq]; stage_keep

theorem R_v159 (V : Valuation τ sig (Elt F)) : after ops V (Proc.devRef .tc main_v159) = St8 V (Proc.devRef .tc main_v159) := by
  rw [after_ops_eq]

theorem St3_v1 (V : Valuation τ sig (Elt F)) : St3 V (Proc.devRef .tc main_v1) = St1 V (Proc.devRef .tc main_v1) := by stage_keep
theorem St3_v3 (V : Valuation τ sig (Elt F)) : St3 V (Proc.devRef .tc main_v3) = St1 V (Proc.devRef .tc main_v3) := by stage_keep
theorem St5_v1 (V : Valuation τ sig (Elt F)) : St5 V (Proc.devRef .tc main_v1) = St1 V (Proc.devRef .tc main_v1) := by stage_keep
theorem St5_v3 (V : Valuation τ sig (Elt F)) : St5 V (Proc.devRef .tc main_v3) = St1 V (Proc.devRef .tc main_v3) := by stage_keep

theorem St1_v1 (V : Valuation τ sig (Elt F)) :
    (St1 V (Proc.devRef .tc main_v1) : IVec S1600000 32) = Agg.src (V (Proc.devRef .tc main_arg1)) := AggR.ops0_v1 V
theorem St1_v3 (V : Valuation τ sig (Elt F)) :
    (St1 V (Proc.devRef .tc main_v3) : IVec S1600000 32) = Agg.dst (V (Proc.devRef .tc main_arg1)) := AggR.ops0_v3 V

theorem St2_v7 (V : Valuation τ sig (Elt F)) :
    (after ops1 (St1 V) (Proc.devRef .tc main_v7) : FVec F S100000 .f32) = Agg.deg (V (Proc.devRef .tc main_arg1)) :=
  AggR.ops1_v7 (St1 V) _ (St1_v3 V)

theorem St2_v17 (V : Valuation τ sig (Elt F)) :
    (after ops1 (St1 V) (Proc.devRef .tc main_v17) : FVec F S100000x2 .f32)
      = Agg.agg2 (V (Proc.devRef .tc main_arg0)) (V (Proc.devRef .tc main_arg1)) := by
  rw [AggR.ops1_v17 (St1 V) _ (St1_v1 V) (St1_v3 V)]; stage_keep

theorem St4_v52 (V : Valuation τ sig (Elt F)) :
    (after ops3 (St3 V) (Proc.devRef .tc main_v52) : FVec F S100000 .f32) = Agg.deg (V (Proc.devRef .tc main_arg1)) :=
  AggR.ops3_v52 (St3 V) _ ((St3_v3 V).trans (St1_v3 V))

theorem St4_v62 (V : Valuation τ sig (Elt F)) :
    (after ops3 (St3 V) (Proc.devRef .tc main_v62) : FVec F S100000x32 .f32)
      = Agg.agg32 (St3 V (Proc.devRef .tc main_v48)) (V (Proc.devRef .tc main_arg1)) :=
  AggR.ops3_v62 (St3 V) _ ((St3_v1 V).trans (St1_v1 V)) ((St3_v3 V).trans (St1_v3 V))

theorem St6_v97 (V : Valuation τ sig (Elt F)) :
    (after ops5 (St5 V) (Proc.devRef .tc main_v97) : FVec F S100000 .f32) = Agg.deg (V (Proc.devRef .tc main_arg1)) :=
  AggR.ops5_v97 (St5 V) _ ((St5_v3 V).trans (St1_v3 V))

theorem St6_v107 (V : Valuation τ sig (Elt F)) :
    (after ops5 (St5 V) (Proc.devRef .tc main_v107) : FVec F S100000x64 .f32)
      = Agg.agg64 (St5 V (Proc.devRef .tc main_v93)) (V (Proc.devRef .tc main_arg1)) :=
  AggR.ops5_v107 (St5 V) _ ((St5_v1 V).trans (St1_v1 V)) ((St5_v3 V).trans (St1_v3 V))

end Cert.ReferenceIdeal.AsmR

end
-- ==== Proof.RefLayerLib.lean ====
import Idealize.ShloMosaic.Lib.IdealHost
import Idealize.ShloMosaic.Lib.KernelVsHost
import Idealize.ShloMosaic.Lib.StackMember
import proofs.«416188_j20263655702631_2_alg».proof.Proof.Spec

noncomputable section

namespace Cert.ReferenceIdeal.LayerLib

open Idealize.ShloMosaic Idealize.ShloMosaic.ValueIdx Idealize.ShloMosaic.StackMember Cert.Spec

abbrev S0 : Shape := ⟨0, ![]⟩
abbrev V (n : ℕ) : Shape := ⟨1, ![n]⟩
abbrev M (m n : ℕ) : Shape := ⟨2, ![m, n]⟩
abbrev cN := Ideal.ofBits .f32 0x47C35000#32

-- The shape facts one layer's operations cite, for N nodes, input width a and output width b.
structure Shapes (N a b : ℕ) : Prop where
  sN : S0.BroadcastsInDim (V N) ![]
  col : (V N).BroadcastsInDim (M N 1) ![0]
  cols : (M N 1).BroadcastsInDim (M N a) ![0, 1]
  row : (V b).BroadcastsInDim (M 1 b) ![1]
  rows : (M 1 b).BroadcastsInDim (M N b) ![0, 1]
  red : (M N b).ReducesTo [0] (V b)
  pos : 0 < S0.numel
  sB : S0.BroadcastsInDim (V b) ![]
  s1B : S0.BroadcastsInDim (M 1 b) ![]
  sNB : S0.BroadcastsInDim (M N b) ![]

variable {N a b : ℕ} (f : Shapes N a b)

section Terms
variable {F : FTy → Type} [FloatOps F] (agg : FVec F (M N a) .f32) (deg : FVec F (V N) .f32) (x : FVec F (M N a) .f32)
  (Wl : FVec F (M a b) .f32) (bl : FVec F (V b) .f32) (Wr : FVec F (M a b) .f32) (y : FVec F (M N b) .f32)
  (g be : FVec F (V b) .f32)

def spread : FVec F (M N b) .f32 :=
  broadcastInDim (M N b) ![0, 1] f.rows (broadcastInDim (M 1 b) ![1] f.row g)

def aggMean : FVec F (M N a) .f32 :=
  Host.divf agg (broadcastInDim (M N a) ![0, 1] f.cols (broadcastInDim (M N 1) ![0] f.col
    (maximumf deg (broadcastInDim (V N) ![] f.sN (constant S0 .f32 0x3F800000#32)))))

def lin : FVec F (M N b) .f32 :=
  addf (addf (Host.dotGeneral (DotDims.plain N a b) none (aggMean f agg deg) Wl) (spread f bl))
    (Host.dotGeneral (DotDims.plain N a b) none x Wr)

def colsum : FVec F (V b) .f32 :=
  Host.reduceAdd y (constant S0 .f32 0x00000000#32) f.red f.pos

def mean : FVec F (V b) .f32 :=
  Host.divf (colsum f y) (broadcastInDim (V b) ![] f.sB (constant S0 .f32 0x47C35000#32))

def divisor : FVec F S0 .f32 :=
  subf (constant S0 .f32 0x47C35000#32) (sitofp .f32 (constantI S0 32 0#32))

def centred : FVec F (M N b) .f32 :=
  subf y (broadcastInDim (M N b) ![0, 1] f.rows
    (Host.divf (broadcastInDim (M 1 b) ![1] f.row (colsum f y))
      (broadcastInDim (M 1 b) ![] f.s1B (constant S0 .f32 0x47C35000#32))))

def var : FVec F (V b) .f32 :=
  select (broadcastInDim (V b) ![] f.sB (cmpf .ogt (divisor (F := F)) (constant S0 .f32 0x00000000#32)))
    (Host.divf (colsum f (mulf (centred f y) (centred f y))) (broadcastInDim (V b) ![] f.sB (divisor (F := F))))
    (broadcastInDim (V b) ![] f.sB (id (constant S0 .f32 0x7FC00000#32)))

def bn : FVec F (M N b) .f32 :=
  maximumf
    (addf
      (mulf
        (mulf (subf y (spread f (mean f y)))
          (spread f (Host.rsqrt (addf (var f y) (broadcastInDim (V b) ![] f.sB (constant S0 .f32 0x3727C5AC#32))))))
        (spread f g))
      (spread f be))
    (broadcastInDim (M N b) ![] f.sNB (constant S0 .f32 0x00000000#32))

end Terms

section Layout
variable {α : Type} {m n : ℕ} (r : Fin m) (t : Fin n)

theorem fin_val_ite : t.val = if n = 1 then 0 else t.val := by
  have := t.isLt; split <;> omega

theorem vecRow_apply (h : (V n).BroadcastsInDim (M 1 n) ![1]) (v : (V n).Idx → α) (q : Fin 1) :
    broadcastInDim (M 1 n) ![1] h v (ix2 q t) = v (ix1 t) :=
  broadcastInDim_apply _ h v (ix2 q t) (ix1 t) fun | ⟨0, _⟩ => fin_val_ite t

theorem vecCol_apply (h : (V m).BroadcastsInDim (M m 1) ![0]) (v : (V m).Idx → α) (q : Fin 1) :
    broadcastInDim (M m 1) ![0] h v (ix2 r q) = v (ix1 r) :=
  broadcastInDim_apply _ h v (ix2 r q) (ix1 r) fun | ⟨0, _⟩ => fin_val_ite r

theorem colCols_apply (h : (M m 1).BroadcastsInDim (M m n) ![0, 1]) (y : (M m 1).Idx → α) :
    broadcastInDim (M m n) ![0, 1] h y (ix2 r t) = y (ix2 r (0 : Fin 1)) :=
  broadcastInDim_apply _ h y (ix2 r t) (ix2 r (0 : Fin 1)) fun
    | ⟨0, _⟩ => fin_val_ite r
    | ⟨1, _⟩ => rfl

end Layout

theorem hostRsqrt_apply {s : Shape} (x : FVec Ideal s .f32) (i : s.Idx) : Host.rsqrt x i = Ideal.rsqrt (x i) := rfl

theorem cN_pos : (0 : EReal) < cN := by
  rw [show cN = (((100000 : ℕ) : ℝ) : EReal) by unfold cN; simp [Ideal.ofBits, Ideal.ieee, -EReal.coe_mul]; norm_num]
  exact EReal.coe_pos.mpr (by norm_num)

section AtIdeal
variable (agg : FVec Ideal (M N a) .f32) (deg : FVec Ideal (V N) .f32) (x : FVec Ideal (M N a) .f32)
  (Wl : FVec Ideal (M a b) .f32) (bl : FVec Ideal (V b) .f32) (Wr : FVec Ideal (M a b) .f32) (y : FVec Ideal (M N b) .f32)
  (g be : FVec Ideal (V b) .f32) (n : Fin N) (j : Fin b)

theorem spread_apply : spread f g (ix2 n j) = g (ix1 j) := by
  rw [spread, broadcastInDim_oneRow_apply, vecRow_apply]

-- The sum over the node axis starts from the zero pattern, which is 0.
theorem colsum_apply : colsum f y (ix1 j) = ∑ n : Fin N, y (ix2 n j) := by
  rw [colsum, hostReduceAdd_apply, Ideal.hostReduceAdd_single f.red ⟨f.red.1, Nat.one_pos, f.red.2⟩, constant_apply,
    Ideal.ofBits_zero_f32, zero_add]
  exact Finset.sum_congr rfl fun k _ =>
    congrArg y (funext fun c => Fin.ext (by match c with | ⟨0, _⟩ => rfl | ⟨1, _⟩ => rfl))

theorem aggMean_apply (k : Fin a) :
    aggMean f agg deg (ix2 n k) = rAgg (Ideal.ofBits .f32 0x3F800000#32) (c2 agg) (c1 deg) n k := by
  rw [aggMean, hostDivf_apply, colCols_apply, vecCol_apply, maximumf_apply, broadcastInDim_scalar_apply, constant_apply]
  rfl

theorem c2_lin : c2 (lin f agg deg x Wl bl Wr)
    = rY (rAgg (Ideal.ofBits .f32 0x3F800000#32) (c2 agg) (c1 deg)) (c2 x) (c2 Wl) (c2 Wr) (c1 bl) := by
  funext n j
  show lin f agg deg x Wl bl Wr (ix2 n j) = _
  rw [lin, addf_apply, addf_apply, dotGeneral_plain_apply, dotGeneral_plain_apply, spread_apply]
  simp only [aggMean_apply]
  rfl

theorem mean_apply : mean f y (ix1 j) = rMean cN (c2 y) j := by
  rw [mean, hostDivf_apply, colsum_apply, broadcastInDim_scalar_apply, constant_apply]
  rfl

-- The variance's divisor 100000 - float(0) is 100000: the integer 0 converts to the real 0.
theorem divisor_apply : (divisor (F := Ideal)) ix0 = cN := by
  rw [divisor, subf_apply, constant_apply, sitofp_apply]
  show cN - ((((0#32 : BitVec 32).toInt : ℝ)) : EReal) = _
  simp

-- 100000 - 0 is positive, so the comparison's bit is set.
theorem var_cond : cmpf .ogt (divisor (F := Ideal)) (constant (F := Ideal) S0 .f32 0x00000000#32) ix0 = 1#1 := by
  rw [cmpf_apply, Ideal.cmpf_def, divisor_apply, constant_apply, Ideal.ofBits_zero_f32]
  simp [Ideal.cmp, cN_pos]

theorem centred_apply : centred f y (ix2 n j) = c2 y n j - rMean cN (c2 y) j := by
  rw [centred, subf_apply, broadcastInDim_oneRow_apply, hostDivf_apply, vecRow_apply, colsum_apply,
    broadcastInDim_scalar_apply, constant_apply]
  rfl

theorem var_apply : var f y (ix1 j) = rVar cN (c2 y) j := by
  rw [var, select_apply, broadcastInDim_scalar_apply, var_cond, select_one, hostDivf_apply, colsum_apply,
    broadcastInDim_scalar_apply, divisor_apply]
  simp only [mulf_apply, centred_apply]
  rfl

theorem c2_bn : c2 (bn f y g be)
    = bnRelu (Ideal.ofBits .f32 0x00000000#32) (c2 y) (rMean cN (c2 y))
        (invStd (Ideal.ofBits .f32 0x3727C5AC#32) (rVar cN (c2 y))) (c1 g) (c1 be) := by
  funext n j
  show bn f y g be (ix2 n j) = _
  rw [bn, maximumf_apply, addf_apply, mulf_apply, mulf_apply, subf_apply, spread_apply, spread_apply, spread_apply,
    spread_apply, hostRsqrt_apply, addf_apply, broadcastInDim_scalar_apply, constant_apply, broadcastInDim_scalar_apply,
    constant_apply, mean_apply, var_apply]
  rfl

-- The printed composition of one layer, read at literal coordinates, is the specification's layer.
theorem c2_term : c2 (bn f (lin f agg deg x Wl bl Wr) g be)
    = rLayer cN (Ideal.ofBits .f32 0x3727C5AC#32) (Ideal.ofBits .f32 0x3F800000#32) (Ideal.ofBits .f32 0x00000000#32)
        (c2 agg) (c1 deg) (c2 x) (c2 Wl) (c2 Wr) (c1 bl) (c1 g) (c1 be) := by
  rw [c2_bn, c2_lin]
  rfl

end AtIdeal

end Cert.ReferenceIdeal.LayerLib

end
-- ==== Proof.RefLayer1.lean ====
import proofs.«416188_j20263655702631_2_alg».proof.ReferenceIdeal
import proofs.«416188_j20263655702631_2_alg».proof.Proof.RefLayerLib

noncomputable section

namespace Cert.ReferenceIdeal.Layer1

open Idealize.ShloMosaic Cert.ReferenceIdeal Facts₀ Facts

section Terms
variable {F : FTy → Type} [FloatOps F] [Facts]

theorem shapes : LayerLib.Shapes 100000 2 32 :=
  ⟨bcast_S_S100000, bcast_S100000_S100000x1_0, bcast_S100000x1_S100000x2_0_1, bcast_S32_S1x32_1, bcast_S1x32_S100000x32_0_1,
    reducesTo_S100000x32_S32_d0, h_S_, bcast_S_S32, bcast_S_S1x32, bcast_S_S100000x32⟩

def lin (agg : FVec F S100000x2 .f32) (deg : FVec F S100000 .f32) (x : FVec F S100000x2 .f32)
    (Wl : FVec F S2x32 .f32) (bl : FVec F S32 .f32) (Wr : FVec F S2x32 .f32) : FVec F S100000x32 .f32 :=
  LayerLib.lin shapes agg deg x Wl bl Wr

def bn (y : FVec F S100000x32 .f32) (g be : FVec F S32 .f32) : FVec F S100000x32 .f32 :=
  LayerLib.bn shapes y g be

def term (agg : FVec F S100000x2 .f32) (deg : FVec F S100000 .f32) (x : FVec F S100000x2 .f32)
    (Wl : FVec F S2x32 .f32) (bl : FVec F S32 .f32) (Wr : FVec F S2x32 .f32) (g be : FVec F S32 .f32) :
    FVec F S100000x32 .f32 :=
  bn (lin agg deg x Wl bl Wr) g be

end Terms

variable [Facts]

open Cert.Spec in
theorem c2_term (agg : FVec Ideal S100000x2 .f32) (deg : FVec Ideal S100000 .f32) (x : FVec Ideal S100000x2 .f32)
    (Wl : FVec Ideal S2x32 .f32) (bl : FVec Ideal S32 .f32) (Wr : FVec Ideal S2x32 .f32) (g be : FVec Ideal S32 .f32) :
    c2 (term agg deg x Wl bl Wr g be)
      = rLayer (Ideal.ofBits .f32 0x47C35000#32) (Ideal.ofBits .f32 0x3727C5AC#32) (Ideal.ofBits .f32 0x3F800000#32)
          (Ideal.ofBits .f32 0x00000000#32) (c2 agg) (c1 deg) (c2 x) (c2 Wl) (c2 Wr) (c1 bl) (c1 g) (c1 be) :=
  LayerLib.c2_term shapes agg deg x Wl bl Wr g be

end Cert.ReferenceIdeal.Layer1

end
-- ==== Proof.RefLayer1Run.lean ====
import proofs.«416188_j20263655702631_2_alg».proof.Proof.RefLayer1
import proofs.«416188_j20263655702631_2_alg».proof.Proof.RefOps1
import proofs.«416188_j20263655702631_2_alg».proof.Proof.RefOps2

noncomputable section

namespace Cert.ReferenceIdeal.Layer1

open Cert.ReferenceIdeal Cert.ReferenceIdeal.Gen Cert.ReferenceIdeal.RefRun Idealize.ShloMosaic Idealize.ShloMosaic.StableHlo

variable {F : FTy → Type} [FloatOps F]

theorem after_ops1_v28 (W : Valuation τ sig (Elt F)) :
    (after ops1 W (Proc.devRef .tc main_v28) : FVec F S100000x32 .f32)
      = lin (after ops1 W (Proc.devRef .tc main_v17)) (after ops1 W (Proc.devRef .tc main_v7))
          (W (Proc.devRef .tc main_arg0)) (W (Proc.devRef .tc main_arg3)) (W (Proc.devRef .tc main_arg4))
          (W (Proc.devRef .tc main_arg5)) := by
  after_results_simp
  rfl

theorem after_ops2_v48 (W : Valuation τ sig (Elt F)) :
    (after ops2 W (Proc.devRef .tc main_v48) : FVec F S100000x32 .f32)
      = bn (W (Proc.devRef .tc main_v28)) (W (Proc.devRef .tc main_arg6)) (W (Proc.devRef .tc main_arg7)) := by
  after_results_simp
  rfl

end Cert.ReferenceIdeal.Layer1

end
-- ==== Proof.AsmR1.lean ====
import proofs.«416188_j20263655702631_2_alg».proof.Proof.AsmRLib
import proofs.«416188_j20263655702631_2_alg».proof.Proof.RefLayer1
import proofs.«416188_j20263655702631_2_alg».proof.Proof.RefLayer1Run

noncomputable section

namespace Cert.ReferenceIdeal.AsmR

open Cert.ReferenceIdeal Cert.ReferenceIdeal.Gen Cert.ReferenceIdeal.RefRun Cert.Spec Idealize.ShloMosaic Idealize.ShloMosaic.TcCoe Idealize.ShloMosaic.StableHlo

theorem asmR1 (V : Valuation τ sig (Elt Ideal)) :
    c2 (after ops V (Proc.devRef .tc main_v48) : FVec Ideal S100000x32 .f32)
      = rLayer (Ideal.ofBits .f32 0x47C35000#32) (Ideal.ofBits .f32 0x3727C5AC#32) (Ideal.ofBits .f32 0x3F800000#32) (Ideal.ofBits .f32 0x00000000#32)
          (c2 (Agg.agg2 (V (Proc.devRef .tc main_arg0)) (V (Proc.devRef .tc main_arg1)) : FVec Ideal S100000x2 .f32))
          (c1 (Agg.deg (V (Proc.devRef .tc main_arg1)) : FVec Ideal S100000 .f32))
          (c2 (V (Proc.devRef .tc main_arg0) : FVec Ideal S100000x2 .f32))
          (c2 (V (Proc.devRef .tc main_arg3) : FVec Ideal S2x32 .f32)) (c2 (V (Proc.devRef .tc main_arg5) : FVec Ideal S2x32 .f32))
          (c1 (V (Proc.devRef .tc main_arg4) : FVec Ideal S32 .f32)) (c1 (V (Proc.devRef .tc main_arg6) : FVec Ideal S32 .f32))
          (c1 (V (Proc.devRef .tc main_arg7) : FVec Ideal S32 .f32)) := by
  rw [R_v48, St3, Layer1.after_ops2_v48]
  stage_keep
  rw [St2, Layer1.after_ops1_v28, St2_v17, St2_v7]
  stage_keep
  exact Layer1.c2_term _ _ _ _ _ _ _ _

end Cert.ReferenceIdeal.AsmR

end
-- ==== Proof.RefLayer2.lean ====
import proofs.«416188_j20263655702631_2_alg».proof.ReferenceIdeal
import proofs.«416188_j20263655702631_2_alg».proof.Proof.RefLayerLib

noncomputable section

namespace Cert.ReferenceIdeal.Layer2

open Idealize.ShloMosaic Cert.ReferenceIdeal Facts₀ Facts

section Terms
variable {F : FTy → Type} [FloatOps F] [Facts]

theorem shapes : LayerLib.Shapes 100000 32 64 :=
  ⟨bcast_S_S100000, bcast_S100000_S100000x1_0, bcast_S100000x1_S100000x32_0_1, bcast_S64_S1x64_1, bcast_S1x64_S100000x64_0_1,
    reducesTo_S100000x64_S64_d0, h_S_, bcast_S_S64, bcast_S_S1x64, bcast_S_S100000x64⟩

def lin (agg : FVec F S100000x32 .f32) (deg : FVec F S100000 .f32) (x : FVec F S100000x32 .f32)
    (Wl : FVec F S32x64 .f32) (bl : FVec F S64 .f32) (Wr : FVec F S32x64 .f32) : FVec F S100000x64 .f32 :=
  LayerLib.lin shapes agg deg x Wl bl Wr

def bn (y : FVec F S100000x64 .f32) (g be : FVec F S64 .f32) : FVec F S100000x64 .f32 :=
  LayerLib.bn shapes y g be

def term (agg : FVec F S100000x32 .f32) (deg : FVec F S100000 .f32) (x : FVec F S100000x32 .f32)
    (Wl : FVec F S32x64 .f32) (bl : FVec F S64 .f32) (Wr : FVec F S32x64 .f32) (g be : FVec F S64 .f32) :
    FVec F S100000x64 .f32 :=
  bn (lin agg deg x Wl bl Wr) g be

end Terms

variable [Facts]

open Cert.Spec in
theorem c2_term (agg : FVec Ideal S100000x32 .f32) (deg : FVec Ideal S100000 .f32) (x : FVec Ideal S100000x32 .f32)
    (Wl : FVec Ideal S32x64 .f32) (bl : FVec Ideal S64 .f32) (Wr : FVec Ideal S32x64 .f32) (g be : FVec Ideal S64 .f32) :
    c2 (term agg deg x Wl bl Wr g be)
      = rLayer (Ideal.ofBits .f32 0x47C35000#32) (Ideal.ofBits .f32 0x3727C5AC#32) (Ideal.ofBits .f32 0x3F800000#32)
          (Ideal.ofBits .f32 0x00000000#32) (c2 agg) (c1 deg) (c2 x) (c2 Wl) (c2 Wr) (c1 bl) (c1 g) (c1 be) :=
  LayerLib.c2_term shapes agg deg x Wl bl Wr g be

end Cert.ReferenceIdeal.Layer2

end
-- ==== Proof.RefLayer2Run.lean ====
import proofs.«416188_j20263655702631_2_alg».proof.Proof.RefLayer2
import proofs.«416188_j20263655702631_2_alg».proof.Proof.RefOps3
import proofs.«416188_j20263655702631_2_alg».proof.Proof.RefOps4

noncomputable section

namespace Cert.ReferenceIdeal.Layer2

open Cert.ReferenceIdeal Cert.ReferenceIdeal.Gen Cert.ReferenceIdeal.RefRun Idealize.ShloMosaic Idealize.ShloMosaic.StableHlo

variable {F : FTy → Type} [FloatOps F]

theorem after_ops3_v73 (W : Valuation τ sig (Elt F)) :
    (after ops3 W (Proc.devRef .tc main_v73) : FVec F S100000x64 .f32)
      = lin (after ops3 W (Proc.devRef .tc main_v62)) (after ops3 W (Proc.devRef .tc main_v52))
          (W (Proc.devRef .tc main_v48)) (W (Proc.devRef .tc main_arg8)) (W (Proc.devRef .tc main_arg9))
          (W (Proc.devRef .tc main_arg10)) := by
  after_results_simp
  rfl

theorem after_ops4_v93 (W : Valuation τ sig (Elt F)) :
    (after ops4 W (Proc.devRef .tc main_v93) : FVec F S100000x64 .f32)
      = bn (W (Proc.devRef .tc main_v73)) (W (Proc.devRef .tc main_arg11)) (W (Proc.devRef .tc main_arg12)) := by
  after_results_simp
  rfl

end Cert.ReferenceIdeal.Layer2

end
-- ==== Proof.AsmR2.lean ====
import proofs.«416188_j20263655702631_2_alg».proof.Proof.AsmRLib
import proofs.«416188_j20263655702631_2_alg».proof.Proof.RefLayer2
import proofs.«416188_j20263655702631_2_alg».proof.Proof.RefLayer2Run

noncomputable section

namespace Cert.ReferenceIdeal.AsmR

open Cert.ReferenceIdeal Cert.ReferenceIdeal.Gen Cert.ReferenceIdeal.RefRun Cert.Spec Idealize.ShloMosaic Idealize.ShloMosaic.TcCoe Idealize.ShloMosaic.StableHlo

theorem asmR2 (V : Valuation τ sig (Elt Ideal)) :
    c2 (after ops V (Proc.devRef .tc main_v93) : FVec Ideal S100000x64 .f32)
      = rLayer (Ideal.ofBits .f32 0x47C35000#32) (Ideal.ofBits .f32 0x3727C5AC#32) (Ideal.ofBits .f32 0x3F800000#32) (Ideal.ofBits .f32 0x00000000#32)
          (c2 (Agg.agg32 (after ops V (Proc.devRef .tc main_v48)) (V (Proc.devRef .tc main_arg1)) : FVec Ideal S100000x32 .f32))
          (c1 (Agg.deg (V (Proc.devRef .tc main_arg1)) : FVec Ideal S100000 .f32))
          (c2 (after ops V (Proc.devRef .tc main_v48) : FVec Ideal S100000x32 .f32))
          (c2 (V (Proc.devRef .tc main_arg8) : FVec Ideal S32x64 .f32)) (c2 (V (Proc.devRef .tc main_arg10) : FVec Ideal S32x64 .f32))
          (c1 (V (Proc.devRef .tc main_arg9) : FVec Ideal S64 .f32)) (c1 (V (Proc.devRef .tc main_arg11) : FVec Ideal S64 .f32))
          (c1 (V (Proc.devRef .tc main_arg12) : FVec Ideal S64 .f32)) := by
  rw [R_v93, R_v48, St5, Layer2.after_ops4_v93]
  stage_keep
  rw [St4, Layer2.after_ops3_v73, St4_v62, St4_v52]
  stage_keep
  exact Layer2.c2_term _ _ _ _ _ _ _ _

end Cert.ReferenceIdeal.AsmR

end
-- ==== Proof.RefLayer3.lean ====
import proofs.«416188_j20263655702631_2_alg».proof.ReferenceIdeal
import proofs.«416188_j20263655702631_2_alg».proof.Proof.RefLayerLib

noncomputable section

namespace Cert.ReferenceIdeal.Layer3

open Idealize.ShloMosaic Cert.ReferenceIdeal Facts₀ Facts

section Terms
variable {F : FTy → Type} [FloatOps F] [Facts]

theorem shapes : LayerLib.Shapes 100000 64 128 :=
  ⟨bcast_S_S100000, bcast_S100000_S100000x1_0, bcast_S100000x1_S100000x64_0_1, bcast_S128_S1x128_1, bcast_S1x128_S100000x128_0_1,
    reducesTo_S100000x128_S128_d0, h_S_, bcast_S_S128, bcast_S_S1x128, bcast_S_S100000x128⟩

def lin (agg : FVec F S100000x64 .f32) (deg : FVec F S100000 .f32) (x : FVec F S100000x64 .f32)
    (Wl : FVec F S64x128 .f32) (bl : FVec F S128 .f32) (Wr : FVec F S64x128 .f32) : FVec F S100000x128 .f32 :=
  LayerLib.lin shapes agg deg x Wl bl Wr

def bn (y : FVec F S100000x128 .f32) (g be : FVec F S128 .f32) : FVec F S100000x128 .f32 :=
  LayerLib.bn shapes y g be

def term (agg : FVec F S100000x64 .f32) (deg : FVec F S100000 .f32) (x : FVec F S100000x64 .f32)
    (Wl : FVec F S64x128 .f32) (bl : FVec F S128 .f32) (Wr : FVec F S64x128 .f32) (g be : FVec F S128 .f32) :
    FVec F S100000x128 .f32 :=
  bn (lin agg deg x Wl bl Wr) g be

end Terms

variable [Facts]

open Cert.Spec in
theorem c2_term (agg : FVec Ideal S100000x64 .f32) (deg : FVec Ideal S100000 .f32) (x : FVec Ideal S100000x64 .f32)
    (Wl : FVec Ideal S64x128 .f32) (bl : FVec Ideal S128 .f32) (Wr : FVec Ideal S64x128 .f32) (g be : FVec Ideal S128 .f32) :
    c2 (term agg deg x Wl bl Wr g be)
      = rLayer (Ideal.ofBits .f32 0x47C35000#32) (Ideal.ofBits .f32 0x3727C5AC#32) (Ideal.ofBits .f32 0x3F800000#32)
          (Ideal.ofBits .f32 0x00000000#32) (c2 agg) (c1 deg) (c2 x) (c2 Wl) (c2 Wr) (c1 bl) (c1 g) (c1 be) :=
  LayerLib.c2_term shapes agg deg x Wl bl Wr g be

end Cert.ReferenceIdeal.Layer3

end
-- ==== Proof.RefLayer3Run.lean ====
import proofs.«416188_j20263655702631_2_alg».proof.Proof.RefLayer3
import proofs.«416188_j20263655702631_2_alg».proof.Proof.RefOps5
import proofs.«416188_j20263655702631_2_alg».proof.Proof.RefOps6

noncomputable section

namespace Cert.ReferenceIdeal.Layer3

open Cert.ReferenceIdeal Cert.ReferenceIdeal.Gen Cert.ReferenceIdeal.RefRun Idealize.ShloMosaic Idealize.ShloMosaic.StableHlo

variable {F : FTy → Type} [FloatOps F]

theorem after_ops5_v118 (W : Valuation τ sig (Elt F)) :
    (after ops5 W (Proc.devRef .tc main_v118) : FVec F S100000x128 .f32)
      = lin (after ops5 W (Proc.devRef .tc main_v107)) (after ops5 W (Proc.devRef .tc main_v97))
          (W (Proc.devRef .tc main_v93)) (W (Proc.devRef .tc main_arg13)) (W (Proc.devRef .tc main_arg14))
          (W (Proc.devRef .tc main_arg15)) := by
  after_results_simp
  rfl

theorem after_ops6_v138 (W : Valuation τ sig (Elt F)) :
    (after ops6 W (Proc.devRef .tc main_v138) : FVec F S100000x128 .f32)
      = bn (W (Proc.devRef .tc main_v118)) (W (Proc.devRef .tc main_arg16)) (W (Proc.devRef .tc main_arg17)) := by
  after_results_simp
  rfl

end Cert.ReferenceIdeal.Layer3

end
-- ==== Proof.AsmR3.lean ====
import proofs.«416188_j20263655702631_2_alg».proof.Proof.AsmRLib
import proofs.«416188_j20263655702631_2_alg».proof.Proof.RefLayer3
import proofs.«416188_j20263655702631_2_alg».proof.Proof.RefLayer3Run

noncomputable section

namespace Cert.ReferenceIdeal.AsmR

open Cert.ReferenceIdeal Cert.ReferenceIdeal.Gen Cert.ReferenceIdeal.RefRun Cert.Spec Idealize.ShloMosaic Idealize.ShloMosaic.TcCoe Idealize.ShloMosaic.StableHlo

theorem asmR3 (V : Valuation τ sig (Elt Ideal)) :
    c2 (after ops V (Proc.devRef .tc main_v138) : FVec Ideal S100000x128 .f32)
      = rLayer (Ideal.ofBits .f32 0x47C35000#32) (Ideal.ofBits .f32 0x3727C5AC#32) (Ideal.ofBits .f32 0x3F800000#32) (Ideal.ofBits .f32 0x00000000#32)
          (c2 (Agg.agg64 (after ops V (Proc.devRef .tc main_v93)) (V (Proc.devRef .tc main_arg1)) : FVec Ideal S100000x64 .f32))
          (c1 (Agg.deg (V (Proc.devRef .tc main_arg1)) : FVec Ideal S100000 .f32))
          (c2 (after ops V (Proc.devRef .tc main_v93) : FVec Ideal S100000x64 .f32))
          (c2 (V (Proc.devRef .tc main_arg13) : FVec Ideal S64x128 .f32)) (c2 (V (Proc.devRef .tc main_arg15) : FVec Ideal S64x128 .f32))
          (c1 (V (Proc.devRef .tc main_arg14) : FVec Ideal S128 .f32)) (c1 (V (Proc.devRef .tc main_arg16) : FVec Ideal S128 .f32))
          (c1 (V (Proc.devRef .tc main_arg17) : FVec Ideal S128 .f32)) := by
  rw [R_v138, R_v93, St7, Layer3.after_ops6_v138]
  stage_keep
  rw [St6, Layer3.after_ops5_v118, St6_v107, St6_v97]
  stage_keep
  exact Layer3.c2_term _ _ _ _ _ _ _ _

end Cert.ReferenceIdeal.AsmR

end
-- ==== Proof.RefTailScatter.lean ====
import Idealize.ShloMosaic.PureOps.Ideal
import Idealize.ShloMosaic.Lib.ValueIdxRank1

noncomputable section

open scoped BigOperators

namespace Cert.ReferenceIdeal.Tail

open Idealize.ShloMosaic Idealize.ShloMosaic.ValueIdx

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

-- An update lands at an operand index exactly when, on every axis, start plus window coordinate is that index's coordinate.
theorem resultIdx?_eq_some_iff {s si u : Shape} (d : ScatterDims s si u) {w : ℕ} (j : u.Idx) (idx : IVec si w) (i : s.Idx) :
    d.resultIdx? j idx = some i ↔ ∀ a, d.start j idx a + d.window j a = ((i a).val : ℤ) := by
  unfold ScatterDims.resultIdx?
  split
  · rename_i h
    rw [Option.some.injEq, funext_iff]
    refine forall_congr' fun a => ?_
    rw [Fin.ext_iff]
    have := (h a).1
    show (d.start j idx a + d.window j a).toNat = (i a).val ↔ _
    omega
  · rename_i h
    refine iff_of_false (by simp) fun e => h fun a => ?_
    have := (i a).isLt
    rw [e a]
    omega

section Rank1
variable {G N w : ℕ} (wf : ScatterDims.WF ⟨1, ![G]⟩ ⟨2, ![N, 1]⟩ ⟨1, ![N]⟩ [] [0] [0] 1)

abbrev segDims1 : ScatterDims ⟨1, ![G]⟩ ⟨2, ![N, 1]⟩ ⟨1, ![N]⟩ := ⟨[], [0], [0], 1, wf⟩

theorem segDims1_siIdx (n : Fin N) (c : Fin (segDims1 wf).scatterDimsToOperandDims.length) :
    (segDims1 wf).siIdx (ix1 n) c = ix2 n 0 := by
  funext b; refine Fin.ext ?_
  match b with
  | ⟨0, _⟩ => rfl
  | ⟨1, _⟩ =>
    have hc : c.val < 1 := c.isLt
    show c.val = 0
    omega

theorem segDims1_coord (n : Fin N) (idx : IVec ⟨2, ![N, 1]⟩ w) :
    (segDims1 wf).start (ix1 n) idx 0 + (((segDims1 wf).window (ix1 n) 0 : ℕ) : ℤ) = (idx (ix2 n 0)).toInt := by
  unfold ScatterDims.start ScatterDims.window
  rw [dif_pos (show (0 : Fin 1) ∈ (segDims1 wf).scatterDimsToOperandDims from List.mem_singleton.mpr rfl), segDims1_siIdx,
    dif_neg (show ¬ (0 : Fin 1) ∈ (segDims1 wf).sKept from List.not_mem_nil)]
  exact add_zero _

theorem segDims1_resultIdx (n : Fin N) (idx : IVec ⟨2, ![N, 1]⟩ w) (g : Fin G) :
    (segDims1 wf).resultIdx? (ix1 n) idx = some (ix1 g) ↔ (idx (ix2 n 0)).toInt = (g.val : ℤ) := by
  rw [resultIdx?_eq_some_iff, Fin.forall_fin_one]
  exact (segDims1_coord wf n idx).symm ▸ Iff.rfl

theorem segDims1_scatterAdd (x : (⟨1, ![G]⟩ : Shape).Idx → EReal) (idx : IVec ⟨2, ![N, 1]⟩ w)
    (upd : (⟨1, ![N]⟩ : Shape).Idx → EReal) (g : Fin G) :
    Ideal.hostScatterAdd (segDims1 wf) x idx upd (ix1 g)
      = x (ix1 g) + ∑ n : Fin N, if (idx (ix2 n 0)).toInt = (g.val : ℤ) then upd (ix1 n) else 0 := by
  unfold Ideal.hostScatterAdd
  rw [Finset.sum_filter, sum_idx1]
  refine congrArg (x (ix1 g) + ·) (Finset.sum_congr rfl fun n _ => ?_)
  exact if_congr (segDims1_resultIdx wf n idx g) rfl rfl

end Rank1

section Rank2
variable {G N D w : ℕ} (wf : ScatterDims.WF ⟨2, ![G, D]⟩ ⟨2, ![N, 1]⟩ ⟨2, ![N, D]⟩ [1] [0] [0] 1)

abbrev segDims2 : ScatterDims ⟨2, ![G, D]⟩ ⟨2, ![N, 1]⟩ ⟨2, ![N, D]⟩ := ⟨[1], [0], [0], 1, wf⟩

theorem segDims2_siIdx (n : Fin N) (k : Fin D) (c : Fin (segDims2 wf).scatterDimsToOperandDims.length) :
    (segDims2 wf).siIdx (ix2 n k) c = ix2 n 0 := by
  funext b; refine Fin.ext ?_
  match b with
  | ⟨0, _⟩ => rfl
  | ⟨1, _⟩ =>
    have hc : c.val < 1 := c.isLt
    show c.val = 0
    omega

theorem segDims2_coord_0 (n : Fin N) (k : Fin D) (idx : IVec ⟨2, ![N, 1]⟩ w) :
    (segDims2 wf).start (ix2 n k) idx 0 + (((segDims2 wf).window (ix2 n k) 0 : ℕ) : ℤ) = (idx (ix2 n 0)).toInt := by
  unfold ScatterDims.start ScatterDims.window
  rw [dif_pos (show (0 : Fin 2) ∈ (segDims2 wf).scatterDimsToOperandDims from List.mem_singleton.mpr rfl), segDims2_siIdx,
    dif_neg (show ¬ (0 : Fin 2) ∈ (segDims2 wf).sKept from
      fun h => absurd (congrArg Fin.val (List.mem_singleton.mp h)) Nat.zero_ne_one)]
  exact add_zero _

theorem segDims2_coord_1 (n : Fin N) (k : Fin D) (idx : IVec ⟨2, ![N, 1]⟩ w) :
    (segDims2 wf).start (ix2 n k) idx 1 + (((segDims2 wf).window (ix2 n k) 1 : ℕ) : ℤ) = (k.val : ℤ) := by
  unfold ScatterDims.start ScatterDims.window
  rw [dif_neg (show ¬ (1 : Fin 2) ∈ (segDims2 wf).scatterDimsToOperandDims from
      fun h => absurd (congrArg Fin.val (List.mem_singleton.mp h)) Nat.one_ne_zero),
    dif_pos (show (1 : Fin 2) ∈ (segDims2 wf).sKept from List.mem_singleton.mpr rfl)]
  exact zero_add _

theorem segDims2_resultIdx (n : Fin N) (k : Fin D) (idx : IVec ⟨2, ![N, 1]⟩ w) (g : Fin G) (l : Fin D) :
    (segDims2 wf).resultIdx? (ix2 n k) idx = some (ix2 g l) ↔ ((idx (ix2 n 0)).toInt = (g.val : ℤ) ∧ k = l) := by
  rw [resultIdx?_eq_some_iff, Fin.forall_fin_two]
  show (segDims2 wf).start (ix2 n k) idx 0 + (((segDims2 wf).window (ix2 n k) 0 : ℕ) : ℤ) = (g.val : ℤ)
    ∧ (segDims2 wf).start (ix2 n k) idx 1 + (((segDims2 wf).window (ix2 n k) 1 : ℕ) : ℤ) = (l.val : ℤ) ↔ _
  rw [segDims2_coord_0, segDims2_coord_1, Fin.ext_iff]
  omega

theorem segDims2_scatterAdd (x : (⟨2, ![G, D]⟩ : Shape).Idx → EReal) (idx : IVec ⟨2, ![N, 1]⟩ w)
    (upd : (⟨2, ![N, D]⟩ : Shape).Idx → EReal) (g : Fin G) (l : Fin D) :
    Ideal.hostScatterAdd (segDims2 wf) x idx upd (ix2 g l)
      = x (ix2 g l) + ∑ n : Fin N, if (idx (ix2 n 0)).toInt = (g.val : ℤ) then upd (ix2 n l) else 0 := by
  unfold Ideal.hostScatterAdd
  rw [Finset.sum_filter, sum_idx2]
  refine congrArg (x (ix2 g l) + ·) (Finset.sum_congr rfl fun n _ => ?_)
  rw [Finset.sum_congr rfl fun k _ => if_congr (segDims2_resultIdx wf n k idx g l) rfl rfl]
  by_cases h : (idx (ix2 n 0)).toInt = (g.val : ℤ)
  · simp only [h, true_and, if_true]
    rw [Finset.sum_ite_eq' Finset.univ l fun k => upd (ix2 n k)]
    simp
  · simp only [h, false_and, if_false, Finset.sum_const_zero]

end Rank2

theorem toInt_eq_iff_eq_ofNat (v : BitVec 32) (g : ℕ) (hg : g < 2 ^ 31) :
    v.toInt = (g : ℤ) ↔ v = BitVec.ofNat 32 g := by
  rw [← BitVec.toNat_inj, BitVec.toNat_ofNat, BitVec.toInt_eq_toNat_cond]
  have := v.isLt
  split <;> omega

end Cert.ReferenceIdeal.Tail

end
-- ==== Proof.RefTail.lean ====
import proofs.«416188_j20263655702631_2_alg».proof.ReferenceIdeal
import proofs.«416188_j20263655702631_2_alg».proof.Proof.RefLayerLib
import proofs.«416188_j20263655702631_2_alg».proof.Proof.RefTailScatter

noncomputable section

namespace Cert.ReferenceIdeal.Tail

open Cert.ReferenceIdeal Idealize.ShloMosaic Idealize.ShloMosaic.ValueIdx Idealize.ShloMosaic.StackMember Cert.Spec

section Term
variable {F : FTy → Type} [FloatOps F] [Facts₀]
open Facts₀

def cntArr (batch : IVec S100000 32) : FVec F S64 .f32 :=
  Host.scatterAdd scatter_S64_S100000x1_S100000_n_0_0_1
    (broadcastInDim S64 ![] bcast_S_S64 (constant S_ .f32 0x00000000#32))
    (broadcastInDim S100000x1 ![0] bcast_S100000_S100000x1_0 batch)
    (broadcastInDim S100000 ![] bcast_S_S100000 (constant S_ .f32 0x3F800000#32))

def sumArr (h3 : FVec F S100000x128 .f32) (batch : IVec S100000 32) : FVec F S64x128 .f32 :=
  Host.scatterAdd scatter_S64x128_S100000x1_S100000x128_1_0_0_1
    (broadcastInDim S64x128 ![] bcast_S_S64x128 (constant S_ .f32 0x00000000#32))
    (broadcastInDim S100000x1 ![0] bcast_S100000_S100000x1_0 batch)
    h3

def pooled (h3 : FVec F S100000x128 .f32) (batch : IVec S100000 32) : FVec F S64x128 .f32 :=
  Host.divf (sumArr h3 batch)
    (broadcastInDim S64x128 ![0, 1] bcast_S64x1_S64x128_0_1
      (broadcastInDim S64x1 ![0] bcast_S64_S64x1_0
        (maximumf (cntArr batch) (broadcastInDim S64 ![] bcast_S_S64 (constant S_ .f32 0x3F800000#32)))))

def hidden (h3 : FVec F S100000x128 .f32) (batch : IVec S100000 32) (Wf1 : FVec F S128x64 .f32) (bf1 : FVec F S64 .f32) :
    FVec F S64x64 .f32 :=
  maximumf
    (addf (Host.dotGeneral (DotDims.plain 64 128 64) none (pooled h3 batch) Wf1)
      (broadcastInDim S64x64 ![0, 1] bcast_S1x64_S64x64_0_1 (broadcastInDim S1x64 ![1] bcast_S64_S1x64_1 bf1)))
    (broadcastInDim S64x64 ![] bcast_S_S64x64 (constant S_ .f32 0x00000000#32))

def term (h3 : FVec F S100000x128 .f32) (batch : IVec S100000 32) (Wf1 : FVec F S128x64 .f32) (bf1 : FVec F S64 .f32)
    (Wf2 : FVec F S64x1 .f32) (bf2 : FVec F S1 .f32) : FVec F S64x1 .f32 :=
  addf (Host.dotGeneral (DotDims.plain 64 64 1) none (hidden h3 batch Wf1 bf1) Wf2)
    (broadcastInDim S64x1 ![0, 1] bcast_S1x1_S64x1_0_1 (broadcastInDim S1x1 ![1] bcast_S1_S1x1_1 bf2))

end Term

section Read
variable [Facts₀] (h3 : FVec Ideal S100000x128 .f32) (batch : IVec S100000 32) (g : Fin 64)
open Facts₀

abbrev sel : Fin 100000 → Fin 64 → Prop :=
  fun n g => batch (ix1 n) = BitVec.ofNat 32 g.val

theorem reads_iff_sel (n : Fin 100000) :
    (broadcastInDim S100000x1 ![0] bcast_S100000_S100000x1_0 batch (ix2 n 0)).toInt = (g.val : ℤ) ↔ sel batch n g := by
  rw [LayerLib.vecCol_apply]
  exact toInt_eq_iff_eq_ofNat _ _ (by have := g.isLt; omega)

theorem cntArr_apply : cntArr (F := Ideal) batch (ix1 g) = poolCnt (sel batch) g := by
  unfold cntArr poolCnt
  show Ideal.hostScatterAdd (segDims1 _) _ _ _ (ix1 g) = _
  rw [segDims1_scatterAdd]
  show Ideal.ofBits .f32 0x00000000#32 + _ = _
  rw [Ideal.ofBits_zero_f32, zero_add]
  refine Finset.sum_congr rfl fun n _ => ?_
  rw [if_congr (reads_iff_sel batch g n) rfl rfl]
  show (if sel batch n g then Ideal.ofBits .f32 0x3F800000#32 else 0) = _
  rw [Ideal.ofBits_one_f32]

theorem sumArr_apply (j : Fin 128) : sumArr (F := Ideal) h3 batch (ix2 g j) = poolSum (sel batch) (c2 h3) g j := by
  unfold sumArr poolSum
  show Ideal.hostScatterAdd (segDims2 _) _ _ _ (ix2 g j) = _
  rw [segDims2_scatterAdd]
  show Ideal.ofBits .f32 0x00000000#32 + _ = _
  rw [Ideal.ofBits_zero_f32, zero_add]
  refine Finset.sum_congr rfl fun n _ => ?_
  rw [if_congr (reads_iff_sel batch g n) rfl rfl]
  rfl

theorem pooled_apply (j : Fin 128) :
    pooled (F := Ideal) h3 batch (ix2 g j)
      = poolMean (Ideal.ofBits .f32 0x3F800000#32) (poolSum (sel batch) (c2 h3)) (poolCnt (sel batch)) g j := by
  unfold pooled poolMean
  rw [hostDivf_apply, sumArr_apply, LayerLib.colCols_apply, LayerLib.vecCol_apply, maximumf_apply, cntArr_apply]
  rfl

theorem hidden_apply (Wf1 : FVec Ideal S128x64 .f32) (bf1 : FVec Ideal S64 .f32) (k : Fin 64) :
    hidden (F := Ideal) h3 batch Wf1 bf1 (ix2 g k)
      = max ((∑ j, poolMean (Ideal.ofBits .f32 0x3F800000#32) (poolSum (sel batch) (c2 h3)) (poolCnt (sel batch)) g j
          * c2 Wf1 j k) + c1 bf1 k) (Ideal.ofBits .f32 0x00000000#32) := by
  unfold hidden
  rw [maximumf_apply, addf_apply, dotGeneral_plain_apply, broadcastInDim_oneRow_apply, LayerLib.vecRow_apply]
  simp only [pooled_apply]
  rfl

theorem term_eq (h3 : FVec Ideal S100000x128 .f32) (batch : IVec S100000 32) (Wf1 : FVec Ideal S128x64 .f32)
    (bf1 : FVec Ideal S64 .f32) (Wf2 : FVec Ideal S64x1 .f32) (bf2 : FVec Ideal S1 .f32) :
    c2 (term (F := Ideal) h3 batch Wf1 bf1 Wf2 bf2)
      = head (Ideal.ofBits .f32 0x00000000#32)
          (poolMean (Ideal.ofBits .f32 0x3F800000#32)
            (poolSum (fun n g => batch (ix1 n) = BitVec.ofNat 32 g.val) (c2 h3))
            (poolCnt (fun n g => batch (ix1 n) = BitVec.ofNat 32 g.val)))
          (c2 Wf1) (c1 bf1) (c2 Wf2) (c1 bf2) := by
  funext g o
  show term (F := Ideal) h3 batch Wf1 bf1 Wf2 bf2 (ix2 g o) = _
  unfold term
  rw [addf_apply, dotGeneral_plain_apply, broadcastInDim_oneRow_apply, LayerLib.vecRow_apply]
  simp only [hidden_apply]
  rfl

end Read

end Cert.ReferenceIdeal.Tail

end
-- ==== Proof.RefTailRun.lean ====
import proofs.«416188_j20263655702631_2_alg».proof.Proof.RefOps7
import proofs.«416188_j20263655702631_2_alg».proof.Proof.RefTail

noncomputable section

namespace Cert.ReferenceIdeal.Tail

open Cert.ReferenceIdeal Cert.ReferenceIdeal.Gen Cert.ReferenceIdeal.RefRun Idealize.ShloMosaic Idealize.ShloMosaic.TcCoe Idealize.SL.Sem
  Idealize.ShloMosaic.StableHlo

variable {F : FTy → Type} [FloatOps F]

set_option maxRecDepth 8192 in
set_option maxHeartbeats 4000000 in
theorem after_ops7_out (W : Valuation τ sig (Elt F)) :
    (StableHlo.after ops7 W (Proc.devRef .tc main_v159) : FVec F S64x1 .f32)
      = term (W (Proc.devRef .tc main_v138)) (W (Proc.devRef .tc main_arg2)) (W (Proc.devRef .tc main_arg18))
          (W (Proc.devRef .tc main_arg19)) (W (Proc.devRef .tc main_arg20)) (W (Proc.devRef .tc main_arg21)) := by
  after_results
  rfl

end Cert.ReferenceIdeal.Tail

end
-- ==== Proof.AsmRTail.lean ====
import proofs.«416188_j20263655702631_2_alg».proof.Proof.AsmRLib
import proofs.«416188_j20263655702631_2_alg».proof.Proof.RefTail
import proofs.«416188_j20263655702631_2_alg».proof.Proof.RefTailRun

noncomputable section

namespace Cert.ReferenceIdeal.AsmR

open Cert.ReferenceIdeal Cert.ReferenceIdeal.Gen Cert.ReferenceIdeal.RefRun Cert.Spec Idealize.ShloMosaic Idealize.ShloMosaic.TcCoe Idealize.ShloMosaic.StableHlo

theorem asmRTail (V : Valuation τ sig (Elt Ideal)) :
    c2 (after ops V (Proc.devRef .tc main_v159) : FVec Ideal S64x1 .f32)
      = head (Ideal.ofBits .f32 0x00000000#32)
          (poolMean (Ideal.ofBits .f32 0x3F800000#32)
            (poolSum (fun (n : Fin 100000) (g : Fin 64) => (V (Proc.devRef .tc main_arg2) : IVec S100000 32) (ValueIdx.ix1 n) = BitVec.ofNat 32 g.val)
              (c2 (after ops V (Proc.devRef .tc main_v138) : FVec Ideal S100000x128 .f32)))
            (poolCnt (fun (n : Fin 100000) (g : Fin 64) => (V (Proc.devRef .tc main_arg2) : IVec S100000 32) (ValueIdx.ix1 n) = BitVec.ofNat 32 g.val)))
          (c2 (V (Proc.devRef .tc main_arg18) : FVec Ideal S128x64 .f32)) (c1 (V (Proc.devRef .tc main_arg19) : FVec Ideal S64 .f32))
          (c2 (V (Proc.devRef .tc main_arg20) : FVec Ideal S64x1 .f32)) (c1 (V (Proc.devRef .tc main_arg21) : FVec Ideal S1 .f32)) := by
  rw [R_v159, R_v138, St8, Tail.after_ops7_out]
  stage_keep
  exact Tail.term_eq _ _ _ _ _ _

end Cert.ReferenceIdeal.AsmR

end
-- ==== Proof.Final.lean ====
import proofs.«416188_j20263655702631_2_alg».proof.Defs
import proofs.«416188_j20263655702631_2_alg».proof.Proof.Spec
import proofs.«416188_j20263655702631_2_alg».proof.Proof.Reals
import proofs.«416188_j20263655702631_2_alg».proof.Proof.PreReal
import proofs.«416188_j20263655702631_2_alg».proof.Proof.LayerAlgebra
import proofs.«416188_j20263655702631_2_alg».proof.Proof.AggEq
import proofs.«416188_j20263655702631_2_alg».proof.Proof.KRun
import proofs.«416188_j20263655702631_2_alg».proof.Proof.AsmK1
import proofs.«416188_j20263655702631_2_alg».proof.Proof.AsmK2
import proofs.«416188_j20263655702631_2_alg».proof.Proof.AsmK3
import proofs.«416188_j20263655702631_2_alg».proof.Proof.AsmKTail
import proofs.«416188_j20263655702631_2_alg».proof.Proof.AsmR1
import proofs.«416188_j20263655702631_2_alg».proof.Proof.AsmR2
import proofs.«416188_j20263655702631_2_alg».proof.Proof.AsmR3
import proofs.«416188_j20263655702631_2_alg».proof.Proof.AsmRTail
import proofs.«416188_j20263655702631_2_alg».proof.Proof.RefRun
import proofs.«416188_j20263655702631_2_alg».proof.Proof.Gen.ReferenceIdeal
import proofs.«416188_j20263655702631_2_alg».proof.Proof.Gen.Pre_finite_inputs

noncomputable section

namespace Cert.Final

open Idealize.ShloMosaic Idealize.ShloMosaic.TcCoe Idealize.SL.Sem Idealize.ShloMosaic.StableHlo Cert.Spec

theorem eq_of_c2 {a b : ℕ} {α : Type} {u v : (⟨2, ![a, b]⟩ : Shape).Idx → α} (h : c2 u = c2 v) : u = v := by
  funext i
  rw [ValueIdx.eq_ix2 i]
  exact congrFun (congrFun h (i 0)) (i 1)

-- Layer by layer the two programs hold the same array: each layer is one function of the layer before and of its parameters, and the arguments agree.
theorem algebraic : Cert.algebraic_KernelIdeal_ReferenceIdeal := by
  intro m ρ m' ρ' hpre hagree
  refine ⟨fun c => Cert.KernelIdeal.Gen.W16 m ρ c (Proc.devRef .tc Cert.KernelIdeal.main_v157), Cert.KernelIdeal.GenP.run_result (F := Ideal) m ρ, ?_⟩
  refine (θ_run (Cert.ReferenceIdeal.defs (F := Ideal)) _ _).mono (fun r h c => ⟨(h c).1.trans ?_, (h c).2⟩) (Cert.ReferenceIdeal.RefRun.run_result (F := Ideal) m' ρ')
  obtain ⟨h0, h1, h2, h3, h4, h5, h6, h7, h8, h9, h10, h11, h12, h13, h14, h15, h16, h17, h18, h19, h20, h21⟩ := hagree c
  have v0 : launchContents m' c (Proc.devRef .tc Cert.ReferenceIdeal.main_arg0) = _ := h0
  have v1 : launchContents m' c (Proc.devRef .tc Cert.ReferenceIdeal.main_arg1) = _ := h1
  have v2 : launchContents m' c (Proc.devRef .tc Cert.ReferenceIdeal.main_arg2) = _ := h2
  have v3 : launchContents m' c (Proc.devRef .tc Cert.ReferenceIdeal.main_arg3) = _ := h3
  have v4 : launchContents m' c (Proc.devRef .tc Cert.ReferenceIdeal.main_arg4) = _ := h4
  have v5 : launchContents m' c (Proc.devRef .tc Cert.ReferenceIdeal.main_arg5) = _ := h5
  have v6 : launchContents m' c (Proc.devRef .tc Cert.ReferenceIdeal.main_arg6) = _ := h6
  have v7 : launchContents m' c (Proc.devRef .tc Cert.ReferenceIdeal.main_arg7) = _ := h7
  have v8 : launchContents m' c (Proc.devRef .tc Cert.ReferenceIdeal.main_arg8) = _ := h8
  have v9 : launchContents m' c (Proc.devRef .tc Cert.ReferenceIdeal.main_arg9) = _ := h9
  have v10 : launchContents m' c (Proc.devRef .tc Cert.ReferenceIdeal.main_arg10) = _ := h10
  have v11 : launchContents m' c (Proc.devRef .tc Cert.ReferenceIdeal.main_arg11) = _ := h11
  have v12 : launchContents m' c (Proc.devRef .tc Cert.ReferenceIdeal.main_arg12) = _ := h12
  have v13 : launchContents m' c (Proc.devRef .tc Cert.ReferenceIdeal.main_arg13) = _ := h13
  have v14 : launchContents m' c (Proc.devRef .tc Cert.ReferenceIdeal.main_arg14) = _ := h14
  have v15 : launchContents m' c (Proc.devRef .tc Cert.ReferenceIdeal.main_arg15) = _ := h15
  have v16 : launchContents m' c (Proc.devRef .tc Cert.ReferenceIdeal.main_arg16) = _ := h16
  have v17 : launchContents m' c (Proc.devRef .tc Cert.ReferenceIdeal.main_arg17) = _ := h17
  have v18 : launchContents m' c (Proc.devRef .tc Cert.ReferenceIdeal.main_arg18) = _ := h18
  have v19 : launchContents m' c (Proc.devRef .tc Cert.ReferenceIdeal.main_arg19) = _ := h19
  have v20 : launchContents m' c (Proc.devRef .tc Cert.ReferenceIdeal.main_arg20) = _ := h20
  have v21 : launchContents m' c (Proc.devRef .tc Cert.ReferenceIdeal.main_arg21) = _ := h21
  obtain ⟨rx, rWl1, rbl1, rWr1, rg1, rbe1, rWl2, rbl2, rWr2, rg2, rbe2, rWl3, rbl3, rWr3, rg3, rbe3, rWf1, rbf1, rWf2, rbf2⟩ :=
    real_of_pre _ _ _ _ _ _ _ _ _ _ _ _ _ _ _ _ _ _ _ _ _ _ (hpre c)
  have hN : 0 < 100000 := by norm_num

  have e1 : c2 (Cert.KernelIdeal.Gen.W4 m ρ c (Proc.devRef .tc Cert.KernelIdeal.main_v56))
      = c2 (after (Cert.ReferenceIdeal.RefRun.ops (F := Ideal)) (launchContents m' c) (Proc.devRef .tc Cert.ReferenceIdeal.main_v48) : FVec Ideal Cert.ReferenceIdeal.S100000x32 .f32) := by
    rw [Cert.KernelIdeal.Asm.layer1 m ρ c, Cert.ReferenceIdeal.AsmR.asmR1 (launchContents m' c)]
    simp only [v0, v1, v3, v4, v5, v6, v7]
    rw [Cert.AggEq.agg2_eq, Cert.AggEq.deg_eq]
    exact kLayer_eq_rLayer _ _ _ _ hN ofBits_N ofBits_one ofBits_zero ofBits_eps _ _ _ _ _ _ _ _
      (Cert.AggEq.agg2_isReal_R _ _ rx) (Cert.AggEq.deg_isReal_R _) rx rWl1 rWr1 rbl1
  have r1 : IsReal2 (c2 (after (Cert.ReferenceIdeal.RefRun.ops (F := Ideal)) (launchContents m' c) (Proc.devRef .tc Cert.ReferenceIdeal.main_v48) : FVec Ideal Cert.ReferenceIdeal.S100000x32 .f32)) := by
    rw [Cert.ReferenceIdeal.AsmR.asmR1 (launchContents m' c)]
    simp only [v0, v1, v3, v4, v5, v6, v7]
    exact rLayer_isReal _ _ _ _ hN ofBits_N ofBits_one ofBits_zero ofBits_eps _ _ _ _ _ _ _ _
      (Cert.AggEq.agg2_isReal_R _ _ rx) (Cert.AggEq.deg_isReal_R _) rx rWl1 rWr1 rbl1 rg1 rbe1
  have E1 := eq_of_c2 e1

  have e2 : c2 (Cert.KernelIdeal.Gen.W8 m ρ c (Proc.devRef .tc Cert.KernelIdeal.main_v101))
      = c2 (after (Cert.ReferenceIdeal.RefRun.ops (F := Ideal)) (launchContents m' c) (Proc.devRef .tc Cert.ReferenceIdeal.main_v93) : FVec Ideal Cert.ReferenceIdeal.S100000x64 .f32) := by
    rw [Cert.KernelIdeal.Asm.layer2 m ρ c, Cert.ReferenceIdeal.AsmR.asmR2 (launchContents m' c)]
    simp only [v1, v8, v9, v10, v11, v12]
    rw [Cert.AggEq.agg32_eq, Cert.AggEq.deg_eq, E1]
    exact kLayer_eq_rLayer _ _ _ _ hN ofBits_N ofBits_one ofBits_zero ofBits_eps _ _ _ _ _ _ _ _
      (Cert.AggEq.agg32_isReal_R _ _ r1) (Cert.AggEq.deg_isReal_R _) r1 rWl2 rWr2 rbl2
  have r2 : IsReal2 (c2 (after (Cert.ReferenceIdeal.RefRun.ops (F := Ideal)) (launchContents m' c) (Proc.devRef .tc Cert.ReferenceIdeal.main_v93) : FVec Ideal Cert.ReferenceIdeal.S100000x64 .f32)) := by
    rw [Cert.ReferenceIdeal.AsmR.asmR2 (launchContents m' c)]
    simp only [v1, v8, v9, v10, v11, v12]
    exact rLayer_isReal _ _ _ _ hN ofBits_N ofBits_one ofBits_zero ofBits_eps _ _ _ _ _ _ _ _
      (Cert.AggEq.agg32_isReal_R _ _ r1) (Cert.AggEq.deg_isReal_R _) r1 rWl2 rWr2 rbl2 rg2 rbe2
  have E2 := eq_of_c2 e2

  have e3 : c2 (Cert.KernelIdeal.Gen.W12 m ρ c (Proc.devRef .tc Cert.KernelIdeal.main_v146))
      = c2 (after (Cert.ReferenceIdeal.RefRun.ops (F := Ideal)) (launchContents m' c) (Proc.devRef .tc Cert.ReferenceIdeal.main_v138) : FVec Ideal Cert.ReferenceIdeal.S100000x128 .f32) := by
    rw [Cert.KernelIdeal.Asm.layer3 m ρ c, Cert.ReferenceIdeal.AsmR.asmR3 (launchContents m' c)]
    simp only [v1, v13, v14, v15, v16, v17]
    rw [Cert.AggEq.agg64_eq, Cert.AggEq.deg_eq, E2]
    exact kLayer_eq_rLayer _ _ _ _ hN ofBits_N ofBits_one ofBits_zero ofBits_eps _ _ _ _ _ _ _ _
      (Cert.AggEq.agg64_isReal_R _ _ r2) (Cert.AggEq.deg_isReal_R _) r2 rWl3 rWr3 rbl3
  have E3 := eq_of_c2 e3

  have e4 : c2 (Cert.KernelIdeal.Gen.W16 m ρ c (Proc.devRef .tc Cert.KernelIdeal.main_v157))
      = c2 (after (Cert.ReferenceIdeal.RefRun.ops (F := Ideal)) (launchContents m' c) (Proc.devRef .tc Cert.ReferenceIdeal.main_v159) : FVec Ideal Cert.ReferenceIdeal.S64x1 .f32) := by
    rw [Cert.KernelIdeal.Asm.tail m ρ c, Cert.ReferenceIdeal.AsmR.asmRTail (launchContents m' c)]
    rw [v2]
    simp only [v18, v19, v20, v21]
    rw [E3]
  exact (eq_of_c2 e4).symm

end Cert.Final

end
-- ==== Proof.lean ====
import proofs.«416188_j20263655702631_2_alg».proof.Defs
import proofs.«416188_j20263655702631_2_alg».proof.Proof.Gen.Kernel
import proofs.«416188_j20263655702631_2_alg».proof.Proof.Gen.Kernel.Skeleton
import proofs.«416188_j20263655702631_2_alg».proof.Proof.Gen.Kernel.Launch
import proofs.«416188_j20263655702631_2_alg».proof.Proof.Gen.Kernel.Points
import proofs.«416188_j20263655702631_2_alg».proof.Proof.Gen.Kernel.Frame
import proofs.«416188_j20263655702631_2_alg».proof.Proof.Gen.KernelIdeal
import proofs.«416188_j20263655702631_2_alg».proof.Proof.Gen.KernelIdeal.Skeleton
import proofs.«416188_j20263655702631_2_alg».proof.Proof.Gen.KernelIdeal.Launch
import proofs.«416188_j20263655702631_2_alg».proof.Proof.Gen.KernelIdeal.Points
import proofs.«416188_j20263655702631_2_alg».proof.Proof.Gen.KernelIdeal.Frame
import proofs.«416188_j20263655702631_2_alg».proof.Proof.Gen.ReferenceIdeal
import proofs.«416188_j20263655702631_2_alg».proof.Proof.Gen.Pre_finite_inputs
import proofs.«416188_j20263655702631_2_alg».proof.Proof.RefFrame
import proofs.«416188_j20263655702631_2_alg».proof.Proof.Final
import Idealize.ShloMosaic.Adequacy
import Idealize.ShloMosaic.Init

noncomputable section

namespace Cert.Proof

open Idealize.ShloMosaic Idealize.SL.Sem Cert.Kernel

theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.ReferenceIdeal.RefRun.frame_ref,
  preserves,
  Cert.Final.algebraic⟩

end Cert.Proof

end
